-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S1 : Shape := ⟨1, ![1]⟩
abbrev S3x128x60 : Shape := ⟨3, ![3, 128, 60]⟩
abbrev S60 : Shape := ⟨1, ![60]⟩
abbrev S3x60x30 : Shape := ⟨3, ![3, 60, 30]⟩
abbrev S30 : Shape := ⟨1, ![30]⟩
abbrev S3x30x1 : Shape := ⟨3, ![3, 30, 1]⟩
abbrev S10000x10003 : Shape := ⟨2, ![10000, 10003]⟩
abbrev S10000 : Shape := ⟨1, ![10000]⟩
abbrev S1x10003 : Shape := ⟨2, ![1, 10003]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S1 : S_.BroadcastsInDim S1 (![] : Fin 0 → Fin S1.rank)
  reducesTo_S1_S_d0 : S1.ReducesTo [0] S_
  bcast_S_S3x128x60 : S_.BroadcastsInDim S3x128x60 (![] : Fin 0 → Fin S3x128x60.rank)
  reducesTo_S3x128x60_S_d0_1_2 : S3x128x60.ReducesTo [0, 1, 2] S_
  bcast_S_S60 : S_.BroadcastsInDim S60 (![] : Fin 0 → Fin S60.rank)
  reducesTo_S60_S_d0 : S60.ReducesTo [0] S_
  bcast_S_S3x60x30 : S_.BroadcastsInDim S3x60x30 (![] : Fin 0 → Fin S3x60x30.rank)
  reducesTo_S3x60x30_S_d0_1_2 : S3x60x30.ReducesTo [0, 1, 2] S_
  bcast_S_S30 : S_.BroadcastsInDim S30 (![] : Fin 0 → Fin S30.rank)
  reducesTo_S30_S_d0 : S30.ReducesTo [0] S_
  bcast_S_S3x30x1 : S_.BroadcastsInDim S3x30x1 (![] : Fin 0 → Fin S3x30x1.rank)
  reducesTo_S3x30x1_S_d0_1_2 : S3x30x1.ReducesTo [0, 1, 2] S_
  bcast_S_S10000x10003 : S_.BroadcastsInDim S10000x10003 (![] : Fin 0 → Fin S10000x10003.rank)
  reducesTo_S10000x10003_S_d0_1 : S10000x10003.ReducesTo [0, 1] S_
  bcast_S_S10000 : S_.BroadcastsInDim S10000 (![] : Fin 0 → Fin S10000.rank)
  reducesTo_S10000_S_d0 : S10000.ReducesTo [0] S_
  bcast_S_S1x10003 : S_.BroadcastsInDim S1x10003 (![] : Fin 0 → Fin S1x10003.rank)
  reducesTo_S1x10003_S_d0_1 : S1x10003.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_arg1 : IVec S2x640000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x640000 32 := broadcastInDim S2x640000 ![] bcast_S_S2x640000 main_c_26
  let main_v70 : IVec S2x640000 1 := cmpi .sge main_arg1 main_v69
  let main_c_27 : IVec S_ 32 := constantI S_ 32 10000#32
  let main_v71 : IVec S2x640000 32 := broadcastInDim S2x640000 ![] bcast_S_S2x640000 main_c_27
  let main_v72 : IVec S2x640000 1 := cmpi .slt main_arg1 main_v71
  let main_v73 : IVec S2x640000 1 := andi main_v70 main_v72
  let main_c_28 : IVec S_ 1 := constantI S_ 1 1#1
  let main_v74 : IVec S_ 1 := (fun x v => Host.reduce IntOp.andi x v reducesTo_S2x640000_S_d0_1 h_S_) main_v73 main_c_28
  let main_v75 : IVec S_ 1 := andi main_v68 main_v74
  main_v75

def fn_part3 {F : FTy → Type} [FloatOps F] (main_arg1 : IVec S2x640000 32) (main_arg12 : FVec F S10000 .f32) (main_arg13 : FVec F S1x10003 .f32) (main_arg14 : FVec F S1 .f32) (main_v48 : IVec S_ 1) (main_v49 : FVec F S10000x10003 .f32) (main_v50 : FVec F S10000x10003 .f32) : IVec S_ 1 :=
  let main_v51 : IVec S10000x10003 1 := cmpf .olt main_v49 main_v50
  let main_c_19 : IVec S_ 1 := constantI S_ 1 1#1
  let main_v52 : IVec S_ 1 := (fun x v => Host.reduce IntOp.andi x v reducesTo_S10000x10003_S_d0_1 h_S_) main_v51 main_c_19
  let main_v53 : IVec S_ 1 := andi main_v48 main_v52
  let main_v54 : FVec F S10000 .f32 := Host.absf main_arg12
  let main_cst_20 : FVec F S_ .f32 := constant S_ .f32 0x7F800000#32
  let main_v55 : FVec F S10000 .f32 := broadcastInDim S10000 ![] bcast_S_S10000 main_cst_20
  let main_v56 : IVec S10000 1 := cmpf .olt main_v54 main_v55
  let main_c_21 : IVec S_ 1 := constantI S_ 1 1#1
  let main_v57 : IVec S_ 1 := (fun x v => Host.reduce IntOp.andi x v reducesTo_S10000_S_d0 h_S_) main_v56 main_c_21
  let main_v58 : IVec S_ 1 := andi main_v53 main_v57
  let main_v59 : FVec F S1x10003 .f32 := Host.absf main_arg13
  let main_cst_22 : FVec F S_ .f32 := constant S_ .f32 0x7F800000#32
  let main_v60 : FVec F S1x10003 .f32 := broadcastInDim S1x10003 ![] bcast_S_S1x10003 main_cst_22
  let main_v61 : IVec S1x10003 1 := cmpf .olt main_v59 main_v60
  let main_c_23 : IVec S_ 1 := constantI S_ 1 1#1
  let main_v62 : IVec S_ 1 := (fun x v => Host.reduce IntOp.andi x v reducesTo_S1x10003_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg1 main_v63 main_v67

def fn_part2 {F : FTy → Type} [FloatOps F] (main_arg1 : IVec S2x640000 32) (main_arg8 : FVec F S30 .f32) (main_arg9 : FVec F S3x30x1 .f32) (main_arg10 : FVec F S1 .f32) (main_arg11 : FVec F S10000x10003 .f32) (main_arg12 : FVec F S10000 .f32) (main_arg13 : FVec F S1x10003 .f32) (main_arg14 : FVec F S1 .f32) (main_v33 : IVec S_ 1) : IVec S_ 1 :=
  let main_v34 : FVec F S30 .f32 := Host.absf main_arg8
  let main_cst_12 : FVec F S_ .f32 := constant S_ .f32 0x7F800000#32
  let main_v35 : FVec F S30 .f32 := broadcastInDim S30 ![] bcast_S_S30 main_cst_12
  let main_v36 : IVec S30 1 := cmpf .olt main_v34 main_v35
  let main_c_13 : IVec S_ 1 := constantI S_ 1 1#1
  let main_v37 : IVec S_ 1 := (fun x v => Host.reduce IntOp.andi x v reducesTo_S30_S_d0 h_S_) main_v36 main_c_13
  let main_v38 : IVec S_ 1 := andi main_v33 main_v37
  let main_v39 : FVec F S3x30x1 .f32 := Host.absf main_arg9
  let main_cst_14 : FVec F S_ .f32 := constant S_ .f32 0x7F800000#32
  let main_v40 : FVec F S3x30x1 .f32 := broadcastInDim S3x30x1 ![] bcast_S_S3x30x1 main_cst_14
  let main_v41 : IVec S3x30x1 1 := cmpf .olt main_v39 main_v40
  let main_c_15 : IVec S_ 1 := constantI S_ 1 1#1
  let main_v42 : IVec S_ 1 := (fun x v => Host.reduce IntOp.andi x v reducesTo_S3x30x1_S_d0_1_2 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S10000x10003 .f32 := Host.absf main_arg11
  let main_cst_18 : FVec F S_ .f32 := constant S_ .f32 0x7F800000#32
  let main_v50 : FVec F S10000x10003 .f32 := broadcastInDim S10000x10003 ![] bcast_S_S10000x10003 main_cst_18
  fn_part3 (F := F) main_arg1 main_arg12 main_arg13 main_arg14 main_v48 main_v49 main_v50

def fn_part1 {F : FTy → Type} [FloatOps F] (main_arg1 : IVec S2x640000 32) (main_arg5 : FVec F S3x128x60 .f32) (main_arg6 : FVec F S60 .f32) (main_arg7 : FVec F S3x60x30 .f32) (main_arg8 : FVec F S30 .f32) (main_arg9 : FVec F S3x30x1 .f32) (main_arg10 : FVec F S1 .f32) (main_arg11 : FVec F S10000x10003 .f32) (main_arg12 : FVec F S10000 .f32) (main_arg13 : FVec F S1x10003 .f32) (main_arg14 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S3x128x60 .f32 := Host.absf main_arg5
  let main_cst_6 : FVec F S_ .f32 := constant S_ .f32 0x7F800000#32
  let main_v20 : FVec F S3x128x60 .f32 := broadcastInDim S3x128x60 ![] bcast_S_S3x128x60 main_cst_6
  let main_v21 : IVec S3x128x60 1 := cmpf .olt main_v19 main_v20
  let main_c_7 : IVec S_ 1 := constantI S_ 1 1#1
  let main_v22 : IVec S_ 1 := (fun x v => Host.reduce IntOp.andi x v reducesTo_S3x128x60_S_d0_1_2 h_S_) main_v21 main_c_7
  let main_v23 : IVec S_ 1 := andi main_v18 main_v22
  let main_v24 : FVec F S60 .f32 := Host.absf main_arg6
  let main_cst_8 : FVec F S_ .f32 := constant S_ .f32 0x7F800000#32
  let main_v25 : FVec F S60 .f32 := broadcastInDim S60 ![] bcast_S_S60 main_cst_8
  let main_v26 : IVec S60 1 := cmpf .olt main_v24 main_v25
  let main_c_9 : IVec S_ 1 := constantI S_ 1 1#1
  let main_v27 : IVec S_ 1 := (fun x v => Host.reduce IntOp.andi x v reducesTo_S60_S_d0 h_S_) main_v26 main_c_9
  let main_v28 : IVec S_ 1 := andi main_v23 main_v27
  let main_v29 : FVec F S3x60x30 .f32 := Host.absf main_arg7
  let main_cst_10 : FVec F S_ .f32 := constant S_ .f32 0x7F800000#32
  let main_v30 : FVec F S3x60x30 .f32 := broadcastInDim S3x60x30 ![] bcast_S_S3x60x30 main_cst_10
  let main_v31 : IVec S3x60x30 1 := cmpf .olt main_v29 main_v30
  let main_c_11 : IVec S_ 1 := constantI S_ 1 1#1
  let main_v32 : IVec S_ 1 := (fun x v => Host.reduce IntOp.andi x v reducesTo_S3x60x30_S_d0_1_2 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S10000x128 .f32) (main_arg1 : IVec S2x640000 32) (main_arg2 : FVec F S1 .f32) (main_arg3 : FVec F S1 .f32) (main_arg4 : FVec F S1 .f32) (main_arg5 : FVec F S3x128x60 .f32) (main_arg6 : FVec F S60 .f32) (main_arg7 : FVec F S3x60x30 .f32) (main_arg8 : FVec F S30 .f32) (main_arg9 : FVec F S3x30x1 .f32) (main_arg10 : FVec F S1 .f32) (main_arg11 : FVec F S10000x10003 .f32) (main_arg12 : FVec F S10000 .f32) (main_arg13 : FVec F S1x10003 .f32) (main_arg14 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S10000x128 : Shape := ⟨2, ![10000, 128]⟩
abbrev S2x640000 : Shape := ⟨2, ![2, 640000]⟩
abbrev S1 : Shape := ⟨1, ![1]⟩
abbrev S3x128x60 : Shape := ⟨3, ![3, 128, 60]⟩
abbrev S60 : Shape := ⟨1, ![60]⟩
abbrev S3x60x30 : Shape := ⟨3, ![3, 60, 30]⟩
abbrev S30 : Shape := ⟨1, ![30]⟩
abbrev S3x30x1 : Shape := ⟨3, ![3, 30, 1]⟩
abbrev S10000x10003 : Shape := ⟨2, ![10000, 10003]⟩
abbrev S10000 : Shape := ⟨1, ![10000]⟩
abbrev S1x10003 : Shape := ⟨2, ![1, 10003]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S10000x10000 : Shape := ⟨2, ![10000, 10000]⟩
abbrev S640000x2 : Shape := ⟨2, ![640000, 2]⟩
abbrev S400x10000 : Shape := ⟨2, ![400, 10000]⟩
abbrev S400x128 : Shape := ⟨2, ![400, 128]⟩
abbrev S1x60 : Shape := ⟨2, ![1, 60]⟩
abbrev S1x128x60 : Shape := ⟨3, ![1, 128, 60]⟩
abbrev S128x60 : Shape := ⟨2, ![128, 60]⟩
abbrev S10000x60 : Shape := ⟨2, ![10000, 60]⟩
abbrev S400x60 : Shape := ⟨2, ![400, 60]⟩
abbrev S1x30 : Shape := ⟨2, ![1, 30]⟩
abbrev S1x60x30 : Shape := ⟨3, ![1, 60, 30]⟩
abbrev S60x30 : Shape := ⟨2, ![60, 30]⟩
abbrev S10000x30 : Shape := ⟨2, ![10000, 30]⟩
abbrev S400x30 : Shape := ⟨2, ![400, 30]⟩
abbrev S1x1 : Shape := ⟨2, ![1, 1]⟩
abbrev S1x30x1 : Shape := ⟨3, ![1, 30, 1]⟩
abbrev S30x1 : Shape := ⟨2, ![30, 1]⟩
abbrev S10000x1 : Shape := ⟨2, ![10000, 1]⟩
abbrev S400x1 : Shape := ⟨2, ![400, 1]⟩
abbrev S10003x1 : Shape := ⟨2, ![10003, 1]⟩
abbrev S400x10003 : Shape := ⟨2, ![400, 10003]⟩
abbrev S1x10000 : Shape := ⟨2, ![1, 10000]⟩

abbrev nBuf : Space → Nat
  | .hbm => 113
  | .vmem => 55
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S3x128x60, .f32⟩
  | .hbm, ⟨6, _⟩ => ⟨S60, .f32⟩
  | .hbm, ⟨7, _⟩ => ⟨S3x60x30, .f32⟩
  | .hbm, ⟨8, _⟩ => ⟨S30, .f32⟩
  | .hbm, ⟨9, _⟩ => ⟨S3x30x1, .f32⟩
  | .hbm, ⟨10, _⟩ => ⟨S1, .f32⟩
  | .hbm, ⟨11, _⟩ => ⟨S10000x10003, .f32⟩
  | .hbm, ⟨12, _⟩ => ⟨S10000, .f32⟩
  | .hbm, ⟨13, _⟩ => ⟨S1x10003, .f32⟩
  | .hbm, ⟨14, _⟩ => ⟨S1, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .f32⟩
  | .hbm, ⟨20, _⟩ => ⟨S640000, .f32⟩
  | .hbm, ⟨21, _⟩ => ⟨S_, .f32⟩
  | .hbm, ⟨22, _⟩ => ⟨S10000, .f32⟩
  | .hbm, ⟨23, _⟩ => ⟨S640000x1, .i32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .i1⟩
  | .hbm, ⟨28, _⟩ => ⟨S10000, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S_, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000, .f32⟩
  | .hbm, ⟨45, _⟩ => ⟨S640000, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000, .f32⟩
  | .hbm, ⟨55, _⟩ => ⟨S640000, .f32⟩
  | .hbm, ⟨56, _⟩ => ⟨S_, .f32⟩
  | .hbm, ⟨57, _⟩ => ⟨S10000x10000, .f32⟩
  | .hbm, ⟨58, _⟩ => ⟨S_, .i32⟩
  | .hbm, ⟨59, _⟩ => ⟨S640000, .i32⟩
  | .hbm, ⟨60, _⟩ => ⟨S640000, .i1⟩
  | .hbm, ⟨61, _⟩ => ⟨S_, .i32⟩
  | .hbm, ⟨62, _⟩ => ⟨S640000, .i32⟩
  | .hbm, ⟨63, _⟩ => ⟨S640000, .i32⟩
  | .hbm, ⟨64, _⟩ => ⟨S640000, .i32⟩
  | .hbm, ⟨65, _⟩ => ⟨S_, .i32⟩
  | .hbm, ⟨66, _⟩ => ⟨S640000, .i32⟩
  | .hbm, ⟨67, _⟩ => ⟨S640000, .i1⟩
  | .hbm, ⟨68, _⟩ => ⟨S_, .i32⟩
  | .hbm, ⟨69, _⟩ => ⟨S640000, .i32⟩
  | .hbm, ⟨70, _⟩ => ⟨S640000, .i32⟩
  | .hbm, ⟨71, _⟩ => ⟨S640000, .i32⟩
  | .hbm, ⟨72, _⟩ => ⟨S640000x1, .i32⟩
  | .hbm, ⟨73, _⟩ => ⟨S640000x1, .i32⟩
  | .hbm, ⟨74, _⟩ => ⟨S640000x2, .i32⟩
  | .hbm, ⟨75, _⟩ => ⟨S10000x10000, .f32⟩
  | .hbm, ⟨76, _⟩ => ⟨S10000x128, .f32⟩
  | .hbm, ⟨77, _⟩ => ⟨S1x60, .f32⟩
  | .hbm, ⟨78, _⟩ => ⟨S1x128x60, .f32⟩
  | .hbm, ⟨79, _⟩ => ⟨S128x60, .f32⟩
  | .hbm, ⟨80, _⟩ => ⟨S1x128x60, .f32⟩
  | .hbm, ⟨81, _⟩ => ⟨S128x60, .f32⟩
  | .hbm, ⟨82, _⟩ => ⟨S1x128x60, .f32⟩
  | .hbm, ⟨83, _⟩ => ⟨S128x60, .f32⟩
  | .hbm, ⟨84, _⟩ => ⟨S10000x60, .f32⟩
  | .hbm, ⟨85, _⟩ => ⟨S10000x60, .f32⟩
  | .hbm, ⟨86, _⟩ => ⟨S1x30, .f32⟩
  | .hbm, ⟨87, _⟩ => ⟨S1x60x30, .f32⟩
  | .hbm, ⟨88, _⟩ => ⟨S60x30, .f32⟩
  | .hbm, ⟨89, _⟩ => ⟨S1x60x30, .f32⟩
  | .hbm, ⟨90, _⟩ => ⟨S60x30, .f32⟩
  | .hbm, ⟨91, _⟩ => ⟨S1x60x30, .f32⟩
  | .hbm, ⟨92, _⟩ => ⟨S60x30, .f32⟩
  | .hbm, ⟨93, _⟩ => ⟨S10000x30, .f32⟩
  | .hbm, ⟨94, _⟩ => ⟨S10000x30, .f32⟩
  | .hbm, ⟨95, _⟩ => ⟨S1x1, .f32⟩
  | .hbm, ⟨96, _⟩ => ⟨S1x30x1, .f32⟩
  | .hbm, ⟨97, _⟩ => ⟨S30x1, .f32⟩
  | .hbm, ⟨98, _⟩ => ⟨S1x30x1, .f32⟩
  | .hbm, ⟨99, _⟩ => ⟨S30x1, .f32⟩
  | .hbm, ⟨100, _⟩ => ⟨S1x30x1, .f32⟩
  | .hbm, ⟨101, _⟩ => ⟨S30x1, .f32⟩
  | .hbm, ⟨102, _⟩ => ⟨S10000x1, .f32⟩
  | .hbm, ⟨103, _⟩ => ⟨S1x1, .f32⟩
  | .hbm, ⟨104, _⟩ => ⟨S1x1, .f32⟩
  | .hbm, ⟨105, _⟩ => ⟨S1x1, .f32⟩
  | .hbm, ⟨106, _⟩ => ⟨S10003x1, .f32⟩
  | .hbm, ⟨107, _⟩ => ⟨S10000x1, .f32⟩
  | .hbm, ⟨108, _⟩ => ⟨S10000x1, .f32⟩
  | .hbm, ⟨109, _⟩ => ⟨S1x10000, .f32⟩
  | .hbm, ⟨110, _⟩ => ⟨S1x1, .f32⟩
  | .hbm, ⟨111, _⟩ => ⟨S1x1, .f32⟩
  | .hbm, ⟨112, _⟩ => ⟨S1x1, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S400x10000, .f32⟩
  | .local _ .vmem, ⟨6, _⟩ => ⟨S400x10000, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | .local _ .vmem, ⟨10, _⟩ => ⟨S128x60, .f32⟩
  | .local _ .vmem, ⟨11, _⟩ => ⟨S128x60, .f32⟩
  | .local _ .vmem, ⟨12, _⟩ => ⟨S128x60, .f32⟩
  | .local _ .vmem, ⟨13, _⟩ => ⟨S1x60, .f32⟩
  | .local _ .vmem, ⟨14, _⟩ => ⟨S400x60, .f32⟩
  | .local _ .vmem, ⟨15, _⟩ => ⟨S400x60, .f32⟩
  | .local _ .vmem, ⟨16, _⟩ => ⟨S400x10000, .f32⟩
  | .local _ .vmem, ⟨17, _⟩ => ⟨S400x10000, .f32⟩
  | .local _ .vmem, ⟨18, _⟩ => ⟨S10000x60, .f32⟩
  | .local _ .vmem, ⟨19, _⟩ => ⟨S400x60, .f32⟩
  | .local _ .vmem, ⟨20, _⟩ => ⟨S400x60, .f32⟩
  | .local _ .vmem, ⟨21, _⟩ => ⟨S400x10000, .f32⟩
  | .local _ .vmem, ⟨22, _⟩ => ⟨S400x10000, .f32⟩
  | .local _ .vmem, ⟨23, _⟩ => ⟨S400x60, .f32⟩
  | .local _ .vmem, ⟨24, _⟩ => ⟨S400x60, .f32⟩
  | .local _ .vmem, ⟨25, _⟩ => ⟨S10000x60, .f32⟩
  | .local _ .vmem, ⟨26, _⟩ => ⟨S60x30, .f32⟩
  | .local _ .vmem, ⟨27, _⟩ => ⟨S60x30, .f32⟩
  | .local _ .vmem, ⟨28, _⟩ => ⟨S60x30, .f32⟩
  | .local _ .vmem, ⟨29, _⟩ => ⟨S1x30, .f32⟩
  | .local _ .vmem, ⟨30, _⟩ => ⟨S400x30, .f32⟩
  | .local _ .vmem, ⟨31, _⟩ => ⟨S400x30, .f32⟩
  | .local _ .vmem, ⟨32, _⟩ => ⟨S400x10000, .f32⟩
  | .local _ .vmem, ⟨33, _⟩ => ⟨S400x10000, .f32⟩
  | .local _ .vmem, ⟨34, _⟩ => ⟨S10000x30, .f32⟩
  | .local _ .vmem, ⟨35, _⟩ => ⟨S400x30, .f32⟩
  | .local _ .vmem, ⟨36, _⟩ => ⟨S400x30, .f32⟩
  | .local _ .vmem, ⟨37, _⟩ => ⟨S400x10000, .f32⟩
  | .local _ .vmem, ⟨38, _⟩ => ⟨S400x10000, .f32⟩
  | .local _ .vmem, ⟨39, _⟩ => ⟨S400x30, .f32⟩
  | .local _ .vmem, ⟨40, _⟩ => ⟨S400x30, .f32⟩
  | .local _ .vmem, ⟨41, _⟩ => ⟨S10000x30, .f32⟩
  | .local _ .vmem, ⟨42, _⟩ => ⟨S30x1, .f32⟩
  | .local _ .vmem, ⟨43, _⟩ => ⟨S30x1, .f32⟩
  | .local _ .vmem, ⟨44, _⟩ => ⟨S30x1, .f32⟩
  | .local _ .vmem, ⟨45, _⟩ => ⟨S1x1, .f32⟩
  | .local _ .vmem, ⟨46, _⟩ => ⟨S400x1, .f32⟩
  | .local _ .vmem, ⟨47, _⟩ => ⟨S400x1, .f32⟩
  | .local _ .vmem, ⟨48, _⟩ => ⟨S400x10003, .f32⟩
  | .local _ .vmem, ⟨49, _⟩ => ⟨S400x10003, .f32⟩
  | .local _ .vmem, ⟨50, _⟩ => ⟨S10003x1, .f32⟩
  | .local _ .vmem, ⟨51, _⟩ => ⟨S400x1, .f32⟩
  | .local _ .vmem, ⟨52, _⟩ => ⟨S400x1, .f32⟩
  | .local _ .vmem, ⟨53, _⟩ => ⟨S400x1, .f32⟩
  | .local _ .vmem, ⟨54, _⟩ => ⟨S400x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_c_8 : Ref sig .tc := ⟨.hbm, 58, rfl⟩
abbrev main_v31 : Ref sig .tc := ⟨.hbm, 59, rfl⟩
abbrev main_v32 : Ref sig .tc := ⟨.hbm, 60, rfl⟩
abbrev main_c_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_10 : Ref sig .tc := ⟨.hbm, 65, rfl⟩
abbrev main_v36 : Ref sig .tc := ⟨.hbm, 66, rfl⟩
abbrev main_v37 : Ref sig .tc := ⟨.hbm, 67, rfl⟩
abbrev main_c_11 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg7_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg6_0 : Ref sig .tc := ⟨.vmem, 45, rfl⟩
abbrev cc5_stg7_0 : Ref sig .tc := ⟨.vmem, 46, rfl⟩
abbrev cc5_stg7_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg3_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem7_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem6_0 : DmaSem sig := 45
abbrev cc5_sem7_0 : DmaSem sig := 46
abbrev cc5_sem7_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem3_1 : DmaSem sig := 54

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def k1_mult1 (i : grid1.Coords) : BitVec 32 :=
  let arg0 : BitVec 32 := BitVec.ofNat 32 (i 0).val
  let c400_i32 : BitVec 32 := 400#32
  let v0 : BitVec 32 := Scalar.muli arg0 c400_i32
  v0
def k1_off1 (i : grid1.Coords) : Fin 2 → Nat :=
  let arg0 : BitVec 32 := BitVec.ofNat 32 (i 0).val
  let c400_i32 : BitVec 32 := 400#32
  let v0 : BitVec 32 := Scalar.muli arg0 c400_i32
  let v1 : BitVec 32 := v0
  let v2 : Index := Scalar.indexCast v1
  let c0 : Index := 0#32
  ![v2.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x60 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x60 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x60 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x60 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x60 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x60 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x60 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def k3_mult1 (i : grid3.Coords) : BitVec 32 :=
  let arg0 : BitVec 32 := BitVec.ofNat 32 (i 0).val
  let c400_i32 : BitVec 32 := 400#32
  let v0 : BitVec 32 := Scalar.muli arg0 c400_i32
  v0
def k3_off1 (i : grid3.Coords) : Fin 2 → Nat :=
  let arg0 : BitVec 32 := BitVec.ofNat 32 (i 0).val
  let c400_i32 : BitVec 32 := 400#32
  let v0 : BitVec 32 := Scalar.muli arg0 c400_i32
  let v1 : BitVec 32 := v0
  let v2 : Index := Scalar.indexCast v1
  let c0 : Index := 0#32
  ![v2.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x60 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10000x60 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S60x30 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S60x30 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S60x30 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x30 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S400x30 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x30 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x30 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def k5_mult1 (i : grid5.Coords) : BitVec 32 :=
  let arg0 : BitVec 32 := BitVec.ofNat 32 (i 0).val
  let c400_i32 : BitVec 32 := 400#32
  let v0 : BitVec 32 := Scalar.muli arg0 c400_i32
  v0
def k5_off1 (i : grid5.Coords) : Fin 2 → Nat :=
  let arg0 : BitVec 32 := BitVec.ofNat 32 (i 0).val
  let c400_i32 : BitVec 32 := 400#32
  let v0 : BitVec 32 := Scalar.muli arg0 c400_i32
  let v1 : BitVec 32 := v0
  let v2 : Index := Scalar.indexCast v1
  let c0 : Index := 0#32
  ![v2.toNat, 0]
def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S400x30 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S10000x30 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S30x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S30x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S30x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S400x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10003 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10003x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S400x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S400x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S_S10000x10000 : S_.BroadcastsInDim S10000x10000 (![] : Fin 0 → Fin S10000x10000.rank)
  concatenates_S640000x1_S640000x1_S640000x2_d1 : Shape.Concatenates [S640000x1, S640000x1] S640000x2 1
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x128_S10000x128_0_0 : ∀ a, (![0, 0] : Fin 2 → Nat) a + S10000x128.size a ≤ S10000x128.size a
  h_S10000x128 : 0 < S10000x128.numel
  inb_S400x128_S400x128_0_0 : ∀ a, (![0, 0] : Fin 2 → Nat) a + S400x128.size a ≤ S400x128.size a
  h_S400x128 : 0 < S400x128.numel
  shapeCasts_S60_S1x60 : S60.ShapeCasts S1x60
  slices_S3x128x60_S1x128x60_0_0_0 : S3x128x60.Slices ![0, 0, 0] S1x128x60
  shapeCasts_S1x128x60_S128x60 : S1x128x60.ShapeCasts S128x60
  slices_S3x128x60_S1x128x60_1_0_0 : S3x128x60.Slices ![1, 0, 0] S1x128x60
  slices_S3x128x60_S1x128x60_2_0_0 : S3x128x60.Slices ![2, 0, 0] S1x128x60
  shapeCasts_S400x128_S400x128 : S400x128.ShapeCasts S400x128
  shapeCasts_S10000x128_S10000x128 : S10000x128.ShapeCasts S10000x128
  inb_S128x60_S128x60_0_0 : ∀ a, (![0, 0] : Fin 2 → Nat) a + S128x60.size a ≤ S128x60.size a
  h_S128x60 : 0 < S128x60.numel
  shapeCasts_S128x60_S128x60 : S128x60.ShapeCasts S128x60
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S400x60 : S1x60.Broadcasts S400x60
  inb_S400x60_S400x60_0_0 : ∀ a, (![0, 0] : Fin 2 → Nat) a + S400x60.size a ≤ S400x60.size a
  h_S400x60 : 0 < S400x60.numel
  inb_S10000x60_S10000x60_0_0 : ∀ a, (![0, 0] : Fin 2 → Nat) a + S10000x60.size a ≤ S10000x60.size a
  h_S10000x60 : 0 < S10000x60.numel
  shapeCasts_S10000x60_S10000x60 : S10000x60.ShapeCasts S10000x60
  shapeCasts_S30_S1x30 : S30.ShapeCasts S1x30
  slices_S3x60x30_S1x60x30_0_0_0 : S3x60x30.Slices ![0, 0, 0] S1x60x30
  shapeCasts_S1x60x30_S60x30 : S1x60x30.ShapeCasts S60x30
  slices_S3x60x30_S1x60x30_1_0_0 : S3x60x30.Slices ![1, 0, 0] S1x60x30
  slices_S3x60x30_S1x60x30_2_0_0 : S3x60x30.Slices ![2, 0, 0] S1x60x30
  shapeCasts_S400x60_S400x60 : S400x60.ShapeCasts S400x60
  inb_S60x30_S60x30_0_0 : ∀ a, (![0, 0] : Fin 2 → Nat) a + S60x30.size a ≤ S60x30.size a
  h_S60x30 : 0 < S60x30.numel
  shapeCasts_S60x30_S60x30 : S60x30.ShapeCasts S60x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S400x30 : S1x30.Broadcasts S400x30
  inb_S400x30_S400x30_0_0 : ∀ a, (![0, 0] : Fin 2 → Nat) a + S400x30.size a ≤ S400x30.size a
  h_S400x30 : 0 < S400x30.numel
  inb_S10000x30_S10000x30_0_0 : ∀ a, (![0, 0] : Fin 2 → Nat) a + S10000x30.size a ≤ S10000x30.size a
  h_S10000x30 : 0 < S10000x30.numel
  shapeCasts_S10000x30_S10000x30 : S10000x30.ShapeCasts S10000x30
  shapeCasts_S1_S1x1 : S1.ShapeCasts S1x1
  slices_S3x30x1_S1x30x1_0_0_0 : S3x30x1.Slices ![0, 0, 0] S1x30x1
  shapeCasts_S1x30x1_S30x1 : S1x30x1.ShapeCasts S30x1
  slices_S3x30x1_S1x30x1_1_0_0 : S3x30x1.Slices ![1, 0, 0] S1x30x1
  slices_S3x30x1_S1x30x1_2_0_0 : S3x30x1.Slices ![2, 0, 0] S1x30x1
  shapeCasts_S400x30_S400x30 : S400x30.ShapeCasts S400x30
  inb_S30x1_S30x1_0_0 : ∀ a, (![0, 0] : Fin 2 → Nat) a + S30x1.size a ≤ S30x1.size a
  h_S30x1 : 0 < S30x1.numel
  shapeCasts_S30x1_S30x1 : S30x1.ShapeCasts S30x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  concatenates_S10000x1_S1x1_S1x1_S1x1_S10003x1_d0 : Shape.Concatenates [S10000x1, S1x1, S1x1, S1x1] S10003x1 0
  shapeCasts_S10000_S10000x1 : S10000.ShapeCasts S10000x1
  inb_S400x10003_S400x10003_0_0 : ∀ a, (![0, 0] : Fin 2 → Nat) a + S400x10003.size a ≤ S400x10003.size a
  h_S400x10003 : 0 < S400x10003.numel
  inb_S10003x1_S10003x1_0_0 : ∀ a, (![0, 0] : Fin 2 → Nat) a + S10003x1.size a ≤ S10003x1.size a
  h_S10003x1 : 0 < S10003x1.numel
  shapeCasts_S10003x1_S10003x1 : S10003x1.ShapeCasts S10003x1
  shapeCasts_S400x1_S400x1 : S400x1.ShapeCasts S400x1
  shapeCasts_S10000x1_S1x10000 : S10000x1.ShapeCasts S1x10000
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  scatter_S10000x10000_S640000x2_S640000_n_01_01_1_wf : ScatterDims.WF S10000x10000 S640000x2 S640000 [] [0, 1] [0, 1] 1
  dot_S400x10000_S10000x128_S400x128_1_0_0_1_n_n_wf : DotDims.WF S400x10000 S10000x128 S400x128 [1] [0] [0] [1] [] []
  dot_S400x128_S128x60_S400x60_1_0_0_1_n_n_wf : DotDims.WF S400x128 S128x60 S400x60 [1] [0] [0] [1] [] []
  dot_S400x10000_S10000x60_S400x60_1_0_0_1_n_n_wf : DotDims.WF S400x10000 S10000x60 S400x60 [1] [0] [0] [1] [] []
  dot_S400x60_S60x30_S400x30_1_0_0_1_n_n_wf : DotDims.WF S400x60 S60x30 S400x30 [1] [0] [0] [1] [] []
  dot_S400x10000_S10000x30_S400x30_1_0_0_1_n_n_wf : DotDims.WF S400x10000 S10000x30 S400x30 [1] [0] [0] [1] [] []
  dot_S400x30_S30x1_S400x1_1_0_0_1_n_n_wf : DotDims.WF S400x30 S30x1 S400x1 [1] [0] [0] [1] [] []
  dot_S400x10003_S10003x1_S400x1_1_0_0_1_n_n_wf : DotDims.WF S400x10003 S10003x1 S400x1 [1] [0] [0] [1] [] []
  dot_S1x10003_S10003x1_S1x1_1_0_0_1_n_n_wf : DotDims.WF S1x10003 S10003x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hrank1 : 0 < grid1.rank
  k1_mult1_dvd : ∀ i : grid1.Coords, 400 ∣ (k1_mult1 i).toNat
  k1_off1_inb : ∀ i : grid1.Coords, ∀ a, (k1_off1 i) a + S400x128.size a ≤ S10000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x128.size a ≤ S10000x128.size a
  hwx1_1 : ∀ i : grid1.Coords, EltTy.bits .f32 = 32 ∨ (Rect.block (s := S10000x128) S400x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .f32 = 32 ∨ (Rect.block (s := S10000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x60.size a ≤ S128x60.size a
  hwx1_3 : ∀ i : grid1.Coords, EltTy.bits .f32 = 32 ∨ (Rect.block (s := S128x60) S128x60.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x60.size a ≤ S128x60.size a
  hwx1_4 : ∀ i : grid1.Coords, EltTy.bits .f32 = 32 ∨ (Rect.block (s := S128x60) S128x60.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x60.size a ≤ S128x60.size a
  hwx1_5 : ∀ i : grid1.Coords, EltTy.bits .f32 = 32 ∨ (Rect.block (s := S128x60) S128x60.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x60.size a ≤ S1x60.size a
  hwx1_6 : ∀ i : grid1.Coords, EltTy.bits .f32 = 32 ∨ (Rect.block (s := S1x60) S1x60.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x60.size a ≤ S10000x60.size a
  hwx1_7 : ∀ i : grid1.Coords, EltTy.bits .f32 = 32 ∨ (Rect.block (s := S10000x60) S400x60.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x60.size a ≤ S10000x60.size a
  hwx2_1 : ∀ i : grid2.Coords, EltTy.bits .f32 = 32 ∨ (Rect.block (s := S10000x60) S10000x60.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x60.size a ≤ S10000x60.size a
  hwx2_2 : ∀ i : grid2.Coords, EltTy.bits .f32 = 32 ∨ (Rect.block (s := S10000x60) S400x60.size (cc2_transform_2 i) (hinb2_2 i)).WholeWords (EltTy.packing .f32)
  hrank3 : 0 < grid3.rank
  k3_mult1_dvd : ∀ i : grid3.Coords, 400 ∣ (k3_mult1 i).toNat
  k3_off1_inb : ∀ i : grid3.Coords, ∀ a, (k3_off1 i) a + S400x60.size a ≤ S10000x60.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x60.size a ≤ S10000x60.size a
  hwx3_1 : ∀ i : grid3.Coords, EltTy.bits .f32 = 32 ∨ (Rect.block (s := S10000x60) S400x60.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10000x60.size a ≤ S10000x60.size a
  hwx3_2 : ∀ i : grid3.Coords, EltTy.bits .f32 = 32 ∨ (Rect.block (s := S10000x60) S10000x60.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S60x30.size a ≤ S60x30.size a
  hwx3_3 : ∀ i : grid3.Coords, EltTy.bits .f32 = 32 ∨ (Rect.block (s := S60x30) S60x30.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S60x30.size a ≤ S60x30.size a
  hwx3_4 : ∀ i : grid3.Coords, EltTy.bits .f32 = 32 ∨ (Rect.block (s := S60x30) S60x30.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S60x30.size a ≤ S60x30.size a
  hwx3_5 : ∀ i : grid3.Coords, EltTy.bits .f32 = 32 ∨ (Rect.block (s := S60x30) S60x30.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x30.size a ≤ S1x30.size a
  hwx3_6 : ∀ i : grid3.Coords, EltTy.bits .f32 = 32 ∨ (Rect.block (s := S1x30) S1x30.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S400x30.size a ≤ S10000x30.size a
  hwx3_7 : ∀ i : grid3.Coords, EltTy.bits .f32 = 32 ∨ (Rect.block (s := S10000x30) S400x30.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .f32 = 32 ∨ (Rect.block (s := S10000x10000) S400x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x30.size a ≤ S10000x30.size a
  hwx4_1 : ∀ i : grid4.Coords, EltTy.bits .f32 = 32 ∨ (Rect.block (s := S10000x30) S10000x30.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x30.size a ≤ S10000x30.size a
  hwx4_2 : ∀ i : grid4.Coords, EltTy.bits .f32 = 32 ∨ (Rect.block (s := S10000x30) S400x30.size (cc4_transform_2 i) (hinb4_2 i)).WholeWords (EltTy.packing .f32)
  hrank5 : 0 < grid5.rank
  k5_mult1_dvd : ∀ i : grid5.Coords, 400 ∣ (k5_mult1 i).toNat
  k5_off1_inb : ∀ i : grid5.Coords, ∀ a, (k5_off1 i) a + S400x30.size a ≤ S10000x30.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .f32 = 32 ∨ (Rect.block (s := S10000x10000) S400x10000.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S400x30.size a ≤ S10000x30.size a
  hwx5_1 : ∀ i : grid5.Coords, EltTy.bits .f32 = 32 ∨ (Rect.block (s := S10000x30) S400x30.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S10000x30.size a ≤ S10000x30.size a
  hwx5_2 : ∀ i : grid5.Coords, EltTy.bits .f32 = 32 ∨ (Rect.block (s := S10000x30) S10000x30.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S30x1.size a ≤ S30x1.size a
  hwx5_3 : ∀ i : grid5.Coords, EltTy.bits .f32 = 32 ∨ (Rect.block (s := S30x1) S30x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S30x1.size a ≤ S30x1.size a
  hwx5_4 : ∀ i : grid5.Coords, EltTy.bits .f32 = 32 ∨ (Rect.block (s := S30x1) S30x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S30x1.size a ≤ S30x1.size a
  hwx5_5 : ∀ i : grid5.Coords, EltTy.bits .f32 = 32 ∨ (Rect.block (s := S30x1) S30x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S400x1.size a ≤ S10000x1.size a
  hwx5_7 : ∀ i : grid5.Coords, EltTy.bits .f32 = 32 ∨ (Rect.block (s := S10000x1) S400x1.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10003.size a ≤ S10000x10003.size a
  hwx6_0 : ∀ i : grid6.Coords, EltTy.bits .f32 = 32 ∨ (Rect.block (s := S10000x10003) S400x10003.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10003x1.size a ≤ S10003x1.size a
  hwx6_1 : ∀ i : grid6.Coords, EltTy.bits .f32 = 32 ∨ (Rect.block (s := S10003x1) S10003x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S400x1.size a ≤ S10000x1.size a
  hwx6_2 : ∀ i : grid6.Coords, EltTy.bits .f32 = 32 ∨ (Rect.block (s := S10000x1) S400x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S400x1.size a ≤ S10000x1.size a
  hwx6_3 : ∀ i : grid6.Coords, EltTy.bits .f32 = 32 ∨ (Rect.block (s := S10000x1) S400x1.size (cc6_transform_3 i) (hinb6_3 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10000x10000_S640000x2_S640000_n_01_01_1 : ScatterDims S10000x10000 S640000x2 S640000 where
  updateWindowDims := []
  insertedWindowDims := [0, 1]
  scatterDimsToOperandDims := [0, 1]
  indexVectorDim := 1
  wf := scatter_S10000x10000_S640000x2_S640000_n_01_01_1_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x60_S400x60_1_0_0_1_n_n : DotDims S400x128 S128x60 S400x60 where
  lhsContracting := [1]
  rhsContracting := [0]
  lhsNonContracting := [0]
  rhsNonContracting := [1]
  lhsBatch := []
  rhsBatch := []
  wf := dot_S400x128_S128x60_S400x60_1_0_0_1_n_n_wf
def dot_S400x10000_S10000x60_S400x60_1_0_0_1_n_n : DotDims S400x10000 S10000x60 S400x60 where
  lhsContracting := [1]
  rhsContracting := [0]
  lhsNonContracting := [0]
  rhsNonContracting := [1]
  lhsBatch := []
  rhsBatch := []
  wf := dot_S400x10000_S10000x60_S400x60_1_0_0_1_n_n_wf
def dot_S400x60_S60x30_S400x30_1_0_0_1_n_n : DotDims S400x60 S60x30 S400x30 where
  lhsContracting := [1]
  rhsContracting := [0]
  lhsNonContracting := [0]
  rhsNonContracting := [1]
  lhsBatch := []
  rhsBatch := []
  wf := dot_S400x60_S60x30_S400x30_1_0_0_1_n_n_wf
def dot_S400x10000_S10000x30_S400x30_1_0_0_1_n_n : DotDims S400x10000 S10000x30 S400x30 where
  lhsContracting := [1]
  rhsContracting := [0]
  lhsNonContracting := [0]
  rhsNonContracting := [1]
  lhsBatch := []
  rhsBatch := []
  wf := dot_S400x10000_S10000x30_S400x30_1_0_0_1_n_n_wf
def dot_S400x30_S30x1_S400x1_1_0_0_1_n_n : DotDims S400x30 S30x1 S400x1 where
  lhsContracting := [1]
  rhsContracting := [0]
  lhsNonContracting := [0]
  rhsNonContracting := [1]
  lhsBatch := []
  rhsBatch := []
  wf := dot_S400x30_S30x1_S400x1_1_0_0_1_n_n_wf
def dot_S400x10003_S10003x1_S400x1_1_0_0_1_n_n : DotDims S400x10003 S10003x1 S400x1 where
  lhsContracting := [1]
  rhsContracting := [0]
  lhsNonContracting := [0]
  rhsNonContracting := [1]
  lhsBatch := []
  rhsBatch := []
  wf := dot_S400x10003_S10003x1_S400x1_1_0_0_1_n_n_wf
def dot_S1x10003_S10003x1_S1x1_1_0_0_1_n_n : DotDims S1x10003 S10003x1 S1x1 where
  lhsContracting := [1]
  rhsContracting := [0]
  lhsNonContracting := [0]
  rhsNonContracting := [1]
  lhsBatch := []
  rhsBatch := []
  wf := dot_S1x10003_S10003x1_S1x1_1_0_0_1_n_n_wf

abbrev win0_0 : Pipeline.Window sig grid0 :=
  Pipeline.Window.ofSpec (Memref.whole main_v44) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128x60.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x60.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S128x60.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x60.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S400x60.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v44) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S10000x60.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S400x60.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S400x60.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S10000x60.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S60x30.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S60x30.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S60x30.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S1x30.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v62) S400x30.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v44) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S10000x30.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S400x30.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v44) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S400x30.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v63) S10000x30.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v66) S30x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v68) S30x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S30x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v64) S1x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v71) S400x1.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_arg11) S400x10003.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S10003x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S400x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v77) S400x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S1 : Shape := ⟨1, ![1]⟩
abbrev S3x128x60 : Shape := ⟨3, ![3, 128, 60]⟩
abbrev S60 : Shape := ⟨1, ![60]⟩
abbrev S3x60x30 : Shape := ⟨3, ![3, 60, 30]⟩
abbrev S30 : Shape := ⟨1, ![30]⟩
abbrev S3x30x1 : Shape := ⟨3, ![3, 30, 1]⟩
abbrev S10000x10003 : Shape := ⟨2, ![10000, 10003]⟩
abbrev S10000 : Shape := ⟨1, ![10000]⟩
abbrev S1x10003 : Shape := ⟨2, ![1, 10003]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128x60 : Shape := ⟨3, ![1, 128, 60]⟩
abbrev S128x60 : Shape := ⟨2, ![128, 60]⟩
abbrev S10000x60 : Shape := ⟨2, ![10000, 60]⟩
abbrev S640000x128 : Shape := ⟨2, ![640000, 128]⟩
abbrev S1x60 : Shape := ⟨2, ![1, 60]⟩
abbrev S1x60x30 : Shape := ⟨3, ![1, 60, 30]⟩
abbrev S60x30 : Shape := ⟨2, ![60, 30]⟩
abbrev S10000x30 : Shape := ⟨2, ![10000, 30]⟩
abbrev S640000x60 : Shape := ⟨2, ![640000, 60]⟩
abbrev S1x30 : Shape := ⟨2, ![1, 30]⟩
abbrev S1x30x1 : Shape := ⟨3, ![1, 30, 1]⟩
abbrev S30x1 : Shape := ⟨2, ![30, 1]⟩
abbrev S10000x1 : Shape := ⟨2, ![10000, 1]⟩
abbrev S640000x30 : Shape := ⟨2, ![640000, 30]⟩
abbrev S1x1 : Shape := ⟨2, ![1, 1]⟩
abbrev S1x10000 : Shape := ⟨2, ![1, 10000]⟩
abbrev S10003x10000 : Shape := ⟨2, ![10003, 10000]⟩
abbrev S10003x1 : Shape := ⟨2, ![10003, 1]⟩

abbrev nBuf : Space → Nat
  | .hbm => 222
  | .vmem => 0
  | .smem => 0
  | _ => 0

abbrev hbmTy0_0 (i : Nat) : BufTy := match i % 128 with
  | 0 => ⟨S10000x128, .f32⟩
  | 1 => ⟨S2x640000, .i32⟩
  | 2 => ⟨S1, .f32⟩
  | 3 => ⟨S1, .f32⟩
  | 4 => ⟨S1, .f32⟩
  | 5 => ⟨S3x128x60, .f32⟩
  | 6 => ⟨S60, .f32⟩
  | 7 => ⟨S3x60x30, .f32⟩
  | 8 => ⟨S30, .f32⟩
  | 9 => ⟨S3x30x1, .f32⟩
  | 10 => ⟨S1, .f32⟩
  | 11 => ⟨S10000x10003, .f32⟩
  | 12 => ⟨S10000, .f32⟩
  | 13 => ⟨S1x10003, .f32⟩
  | 14 => ⟨S1, .f32⟩
  | 15 => ⟨S1x640000, .i32⟩
  | 16 => ⟨S640000, .i32⟩
  | 17 => ⟨S1x640000, .i32⟩
  | 18 => ⟨S640000, .i32⟩
  | 19 => ⟨S_, .f32⟩
  | 20 => ⟨S640000, .f32⟩
  | 21 => ⟨S_, .f32⟩
  | 22 => ⟨S10000, .f32⟩
  | 23 => ⟨S640000x1, .i32⟩
  | 24 => ⟨S10000, .f32⟩
  | 25 => ⟨S_, .f32⟩
  | 26 => ⟨S10000, .f32⟩
  | 27 => ⟨S10000, .i1⟩
  | 28 => ⟨S10000, .f32⟩
  | 29 => ⟨S_, .f32⟩
  | 30 => ⟨S10000, .f32⟩
  | 31 => ⟨S10000, .f32⟩
  | 32 => ⟨S_, .f32⟩
  | 33 => ⟨S_, .f32⟩
  | 34 => ⟨S10000, .f32⟩
  | 35 => ⟨S10000, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000, .f32⟩
  | 45 => ⟨S640000, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000, .f32⟩
  | 55 => ⟨S640000, .f32⟩
  | 56 => ⟨S1x128x60, .f32⟩
  | 57 => ⟨S128x60, .f32⟩
  | 58 => ⟨S10000x60, .f32⟩
  | 59 => ⟨S640000x1, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x128, .f32⟩
  | 69 => ⟨S640000x128, .f32⟩
  | 70 => ⟨S640000x128, .f32⟩
  | 71 => ⟨S_, .f32⟩
  | 72 => ⟨S10000x128, .f32⟩
  | 73 => ⟨S640000x1, .i32⟩
  | 74 => ⟨S10000x128, .f32⟩
  | 75 => ⟨S1x128x60, .f32⟩
  | 76 => ⟨S128x60, .f32⟩
  | 77 => ⟨S10000x60, .f32⟩
  | 78 => ⟨S10000x60, .f32⟩
  | 79 => ⟨S640000x1, .f32⟩
  | 80 => ⟨S_, .i32⟩
  | 81 => ⟨S640000, .i32⟩
  | 82 => ⟨S640000, .i1⟩
  | 83 => ⟨S_, .i32⟩
  | 84 => ⟨S640000, .i32⟩
  | 85 => ⟨S640000, .i32⟩
  | 86 => ⟨S640000, .i32⟩
  | 87 => ⟨S640000x1, .i32⟩
  | 88 => ⟨S640000x128, .f32⟩
  | 89 => ⟨S640000x128, .f32⟩
  | 90 => ⟨S640000x128, .f32⟩
  | 91 => ⟨S_, .f32⟩
  | 92 => ⟨S10000x128, .f32⟩
  | 93 => ⟨S640000x1, .i32⟩
  | 94 => ⟨S10000x128, .f32⟩
  | 95 => ⟨S_, .f32⟩
  | 96 => ⟨S10000x128, .f32⟩
  | 97 => ⟨S10000x128, .f32⟩
  | 98 => ⟨S10000x128, .f32⟩
  | 99 => ⟨S1x128x60, .f32⟩
  | 100 => ⟨S128x60, .f32⟩
  | 101 => ⟨S10000x60, .f32⟩
  | 102 => ⟨S10000x60, .f32⟩
  | 103 => ⟨S1x60, .f32⟩
  | 104 => ⟨S10000x60, .f32⟩
  | 105 => ⟨S10000x60, .f32⟩
  | 106 => ⟨S10000x60, .f32⟩
  | 107 => ⟨S1x60x30, .f32⟩
  | 108 => ⟨S60x30, .f32⟩
  | 109 => ⟨S10000x30, .f32⟩
  | 110 => ⟨S640000x1, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000x60, .f32⟩
  | 120 => ⟨S640000x60, .f32⟩
  | 121 => ⟨S640000x60, .f32⟩
  | 122 => ⟨S_, .f32⟩
  | 123 => ⟨S10000x60, .f32⟩
  | 124 => ⟨S640000x1, .i32⟩
  | 125 => ⟨S10000x60, .f32⟩
  | 126 => ⟨S1x60x30, .f32⟩
  | 127 => ⟨S60x30, .f32⟩
  | _ => ⟨S10000x128, .f32⟩

abbrev hbmTy0_1 (i : Nat) : BufTy := match i % 128 with
  | 0 => ⟨S10000x30, .f32⟩
  | 1 => ⟨S10000x30, .f32⟩
  | 2 => ⟨S640000x1, .f32⟩
  | 3 => ⟨S_, .i32⟩
  | 4 => ⟨S640000, .i32⟩
  | 5 => ⟨S640000, .i1⟩
  | 6 => ⟨S_, .i32⟩
  | 7 => ⟨S640000, .i32⟩
  | 8 => ⟨S640000, .i32⟩
  | 9 => ⟨S640000, .i32⟩
  | 10 => ⟨S640000x1, .i32⟩
  | 11 => ⟨S640000x60, .f32⟩
  | 12 => ⟨S640000x60, .f32⟩
  | 13 => ⟨S640000x60, .f32⟩
  | 14 => ⟨S_, .f32⟩
  | 15 => ⟨S10000x60, .f32⟩
  | 16 => ⟨S640000x1, .i32⟩
  | 17 => ⟨S10000x60, .f32⟩
  | 18 => ⟨S_, .f32⟩
  | 19 => ⟨S10000x60, .f32⟩
  | 20 => ⟨S10000x60, .f32⟩
  | 21 => ⟨S10000x60, .f32⟩
  | 22 => ⟨S1x60x30, .f32⟩
  | 23 => ⟨S60x30, .f32⟩
  | 24 => ⟨S10000x30, .f32⟩
  | 25 => ⟨S10000x30, .f32⟩
  | 26 => ⟨S1x30, .f32⟩
  | 27 => ⟨S10000x30, .f32⟩
  | 28 => ⟨S10000x30, .f32⟩
  | 29 => ⟨S10000x30, .f32⟩
  | 30 => ⟨S1x30x1, .f32⟩
  | 31 => ⟨S30x1, .f32⟩
  | 32 => ⟨S10000x1, .f32⟩
  | 33 => ⟨S640000x1, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000x30, .f32⟩
  | 43 => ⟨S640000x30, .f32⟩
  | 44 => ⟨S640000x30, .f32⟩
  | 45 => ⟨S_, .f32⟩
  | 46 => ⟨S10000x30, .f32⟩
  | 47 => ⟨S640000x1, .i32⟩
  | 48 => ⟨S10000x30, .f32⟩
  | 49 => ⟨S1x30x1, .f32⟩
  | 50 => ⟨S30x1, .f32⟩
  | 51 => ⟨S10000x1, .f32⟩
  | 52 => ⟨S10000x1, .f32⟩
  | 53 => ⟨S640000x1, .f32⟩
  | 54 => ⟨S_, .i32⟩
  | 55 => ⟨S640000, .i32⟩
  | 56 => ⟨S640000, .i1⟩
  | 57 => ⟨S_, .i32⟩
  | 58 => ⟨S640000, .i32⟩
  | 59 => ⟨S640000, .i32⟩
  | 60 => ⟨S640000, .i32⟩
  | 61 => ⟨S640000x1, .i32⟩
  | 62 => ⟨S640000x30, .f32⟩
  | 63 => ⟨S640000x30, .f32⟩
  | 64 => ⟨S640000x30, .f32⟩
  | 65 => ⟨S_, .f32⟩
  | 66 => ⟨S10000x30, .f32⟩
  | 67 => ⟨S640000x1, .i32⟩
  | 68 => ⟨S10000x30, .f32⟩
  | 69 => ⟨S_, .f32⟩
  | 70 => ⟨S10000x30, .f32⟩
  | 71 => ⟨S10000x30, .f32⟩
  | 72 => ⟨S10000x30, .f32⟩
  | 73 => ⟨S1x30x1, .f32⟩
  | 74 => ⟨S30x1, .f32⟩
  | 75 => ⟨S10000x1, .f32⟩
  | 76 => ⟨S10000x1, .f32⟩
  | 77 => ⟨S1x1, .f32⟩
  | 78 => ⟨S10000x1, .f32⟩
  | 79 => ⟨S10000x1, .f32⟩
  | 80 => ⟨S10000x1, .f32⟩
  | 81 => ⟨S1x10000, .f32⟩
  | 82 => ⟨S1x1, .f32⟩
  | 83 => ⟨S1x1, .f32⟩
  | 84 => ⟨S1x1, .f32⟩
  | 85 => ⟨S1x10003, .f32⟩
  | 86 => ⟨S10003x10000, .f32⟩
  | 87 => ⟨S1x10000, .f32⟩
  | 88 => ⟨S1x10000, .f32⟩
  | 89 => ⟨S1x10000, .f32⟩
  | 90 => ⟨S10003x1, .f32⟩
  | 91 => ⟨S1x1, .f32⟩
  | 92 => ⟨S1x1, .f32⟩
  | 93 => ⟨S1x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_14 : Ref sig .tc := ⟨.hbm, 111, rfl⟩
abbrev main_v78 : Ref sig .tc := ⟨.hbm, 112, rfl⟩
abbrev main_v79 : Ref sig .tc := ⟨.hbm, 113, rfl⟩
abbrev main_c_15 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_16 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_19 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_20 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_c_21 : Ref sig .tc := ⟨.hbm, 162, rfl⟩
abbrev main_v122 : Ref sig .tc := ⟨.hbm, 163, rfl⟩
abbrev main_v123 : Ref sig .tc := ⟨.hbm, 164, rfl⟩
abbrev main_c_22 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_23 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_c_24 : Ref sig .tc := ⟨.hbm, 182, rfl⟩
abbrev main_v139 : Ref sig .tc := ⟨.hbm, 183, rfl⟩
abbrev main_v140 : Ref sig .tc := ⟨.hbm, 184, rfl⟩
abbrev main_c_25 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_26 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_27 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  slices_S3x128x60_S1x128x60_0_0_0 : S3x128x60.Slices ![0, 0, 0] S1x128x60
  shapeCasts_S1x128x60_S128x60 : S1x128x60.ShapeCasts S128x60
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  slices_S3x128x60_S1x128x60_1_0_0 : S3x128x60.Slices ![1, 0, 0] S1x128x60
  slices_S3x128x60_S1x128x60_2_0_0 : S3x128x60.Slices ![2, 0, 0] S1x128x60
  bcast_S60_S1x60_1 : S60.BroadcastsInDim S1x60 (![1] : Fin 1 → Fin S1x60.rank)
  bcast_S1x60_S10000x60_0_1 : S1x60.BroadcastsInDim S10000x60 (![0, 1] : Fin 2 → Fin S10000x60.rank)
  slices_S3x60x30_S1x60x30_0_0_0 : S3x60x30.Slices ![0, 0, 0] S1x60x30
  shapeCasts_S1x60x30_S60x30 : S1x60x30.ShapeCasts S60x30
  bcast_S640000x1_S640000x60_0_1 : S640000x1.BroadcastsInDim S640000x60 (![0, 1] : Fin 2 → Fin S640000x60.rank)
  bcast_S_S10000x60 : S_.BroadcastsInDim S10000x60 (![] : Fin 0 → Fin S10000x60.rank)
  slices_S3x60x30_S1x60x30_1_0_0 : S3x60x30.Slices ![1, 0, 0] S1x60x30
  slices_S3x60x30_S1x60x30_2_0_0 : S3x60x30.Slices ![2, 0, 0] S1x60x30
  bcast_S30_S1x30_1 : S30.BroadcastsInDim S1x30 (![1] : Fin 1 → Fin S1x30.rank)
  bcast_S1x30_S10000x30_0_1 : S1x30.BroadcastsInDim S10000x30 (![0, 1] : Fin 2 → Fin S10000x30.rank)
  slices_S3x30x1_S1x30x1_0_0_0 : S3x30x1.Slices ![0, 0, 0] S1x30x1
  shapeCasts_S1x30x1_S30x1 : S1x30x1.ShapeCasts S30x1
  bcast_S640000x1_S640000x30_0_1 : S640000x1.BroadcastsInDim S640000x30 (![0, 1] : Fin 2 → Fin S640000x30.rank)
  bcast_S_S10000x30 : S_.BroadcastsInDim S10000x30 (![] : Fin 0 → Fin S10000x30.rank)
  slices_S3x30x1_S1x30x1_1_0_0 : S3x30x1.Slices ![1, 0, 0] S1x30x1
  slices_S3x30x1_S1x30x1_2_0_0 : S3x30x1.Slices ![2, 0, 0] S1x30x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S1x10000 : S10000x1.ShapeCasts S1x10000
  concatenates_S1x10000_S1x1_S1x1_S1x1_S1x10003_d1 : Shape.Concatenates [S1x10000, S1x1, S1x1, S1x1] S1x10003 1
  transposes_S10000x10003_S10003x10000_1_0 : S10000x10003.Transposes [1, 0] S10003x10000
  bcast_S10000_S1x10000_1 : S10000.BroadcastsInDim S1x10000 (![1] : Fin 1 → Fin S1x10000.rank)
  transposes_S1x10003_S10003x1_1_0 : S1x10003.Transposes [1, 0] S10003x1
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  dot_S10000x128_S128x60_S10000x60_1_0_0_1_n_n_wf : DotDims.WF S10000x128 S128x60 S10000x60 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x60_S60x30_S10000x30_1_0_0_1_n_n_wf : DotDims.WF S10000x60 S60x30 S10000x30 [1] [0] [0] [1] [] []
  gather_S10000x60_S640000x1_S640000x60_1_0_n_n_0_1_160_wf : GatherDims.WF S10000x60 S640000x1 S640000x60 [1] [0] [] [0] [] 1 ![1, 60]
  scatter_S10000x60_S640000x1_S640000x60_1_0_0_1_wf : ScatterDims.WF S10000x60 S640000x1 S640000x60 [1] [0] [0] 1
  dot_S10000x30_S30x1_S10000x1_1_0_0_1_n_n_wf : DotDims.WF S10000x30 S30x1 S10000x1 [1] [0] [0] [1] [] []
  gather_S10000x30_S640000x1_S640000x30_1_0_n_n_0_1_130_wf : GatherDims.WF S10000x30 S640000x1 S640000x30 [1] [0] [] [0] [] 1 ![1, 30]
  scatter_S10000x30_S640000x1_S640000x30_1_0_0_1_wf : ScatterDims.WF S10000x30 S640000x1 S640000x30 [1] [0] [0] 1
  dot_S1x10003_S10003x10000_S1x10000_1_0_0_1_n_n_wf : DotDims.WF S1x10003 S10003x10000 S1x10000 [1] [0] [0] [1] [] []
  dot_S1x10003_S10003x1_S1x1_1_0_0_1_n_n_wf : DotDims.WF S1x10003 S10003x1 S1x1 [1] [0] [0] [1] [] []

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def dot_S10000x128_S128x60_S10000x60_1_0_0_1_n_n : DotDims S10000x128 S128x60 S10000x60 where
  lhsContracting := [1]
  rhsContracting := [0]
  lhsNonContracting := [0]
  rhsNonContracting := [1]
  lhsBatch := []
  rhsBatch := []
  wf := dot_S10000x128_S128x60_S10000x60_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x60_S60x30_S10000x30_1_0_0_1_n_n : DotDims S10000x60 S60x30 S10000x30 where
  lhsContracting := [1]
  rhsContracting := [0]
  lhsNonContracting := [0]
  rhsNonContracting := [1]
  lhsBatch := []
  rhsBatch := []
  wf := dot_S10000x60_S60x30_S10000x30_1_0_0_1_n_n_wf
def gather_S10000x60_S640000x1_S640000x60_1_0_n_n_0_1_160 : GatherDims S10000x60 S640000x1 S640000x60 where
  offsetDims := [1]
  collapsedSliceDims := [0]
  operandBatchingDims := []
  startIndicesBatchingDims := []
  startIndexMap := [0]
  indexVectorDim := 1
  sliceSizes := ![1, 60]
  wf := gather_S10000x60_S640000x1_S640000x60_1_0_n_n_0_1_160_wf
def scatter_S10000x60_S640000x1_S640000x60_1_0_0_1 : ScatterDims S10000x60 S640000x1 S640000x60 where
  updateWindowDims := [1]
  insertedWindowDims := [0]
  scatterDimsToOperandDims := [0]
  indexVectorDim := 1
  wf := scatter_S10000x60_S640000x1_S640000x60_1_0_0_1_wf
def dot_S10000x30_S30x1_S10000x1_1_0_0_1_n_n : DotDims S10000x30 S30x1 S10000x1 where
  lhsContracting := [1]
  rhsContracting := [0]
  lhsNonContracting := [0]
  rhsNonContracting := [1]
  lhsBatch := []
  rhsBatch := []
  wf := dot_S10000x30_S30x1_S10000x1_1_0_0_1_n_n_wf
def gather_S10000x30_S640000x1_S640000x30_1_0_n_n_0_1_130 : GatherDims S10000x30 S640000x1 S640000x30 where
  offsetDims := [1]
  collapsedSliceDims := [0]
  operandBatchingDims := []
  startIndicesBatchingDims := []
  startIndexMap := [0]
  indexVectorDim := 1
  sliceSizes := ![1, 30]
  wf := gather_S10000x30_S640000x1_S640000x30_1_0_n_n_0_1_130_wf
def scatter_S10000x30_S640000x1_S640000x30_1_0_0_1 : ScatterDims S10000x30 S640000x1 S640000x30 where
  updateWindowDims := [1]
  insertedWindowDims := [0]
  scatterDimsToOperandDims := [0]
  indexVectorDim := 1
  wf := scatter_S10000x30_S640000x1_S640000x30_1_0_0_1_wf
def dot_S1x10003_S10003x10000_S1x10000_1_0_0_1_n_n : DotDims S1x10003 S10003x10000 S1x10000 where
  lhsContracting := [1]
  rhsContracting := [0]
  lhsNonContracting := [0]
  rhsNonContracting := [1]
  lhsBatch := []
  rhsBatch := []
  wf := dot_S1x10003_S10003x10000_S1x10000_1_0_0_1_n_n_wf
def dot_S1x10003_S10003x1_S1x1_1_0_0_1_n_n : DotDims S1x10003 S10003x1 S1x1 where
  lhsContracting := [1]
  rhsContracting := [0]
  lhsNonContracting := [0]
  rhsNonContracting := [1]
  lhsBatch := []
  rhsBatch := []
  wf := dot_S1x10003_S10003x1_S1x1_1_0_0_1_n_n_wf

class Facts : Prop extends Facts₀ where

variable [Facts]
-- ==== Proof.RefRead.lean ====
import proofs.«430353_j22832046146023_3_alg».proof.Proof.Gen.ReferenceIdeal
import Idealize.ShloMosaic.Lib.Pipeline.Value
import Idealize.ShloMosaic.Lib.ValueIdx
import Idealize.ShloMosaic.Lib.StackMember
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

open Idealize.ShloMosaic.ValueIdx

variable {F : FTy → Type} [FloatOps F]
variable (x0 : (⟨S10000x128, .f32⟩ : BufTy).Contents (Elt F)) (x1 : (⟨S2x640000, .i32⟩ : BufTy).Contents (Elt F))
  (x2 x3 x4 : (⟨S1, .f32⟩ : BufTy).Contents (Elt F)) (x5 : (⟨S3x128x60, .f32⟩ : BufTy).Contents (Elt F))
  (x6 : (⟨S60, .f32⟩ : BufTy).Contents (Elt F)) (x7 : (⟨S3x60x30, .f32⟩ : BufTy).Contents (Elt F))
  (x8 : (⟨S30, .f32⟩ : BufTy).Contents (Elt F)) (x9 : (⟨S3x30x1, .f32⟩ : BufTy).Contents (Elt F))
  (x10 : (⟨S1, .f32⟩ : BufTy).Contents (Elt F)) (x11 : (⟨S10000x10003, .f32⟩ : BufTy).Contents (Elt F))
  (x12 : (⟨S10000, .f32⟩ : BufTy).Contents (Elt F)) (x13 : (⟨S1x10003, .f32⟩ : BufTy).Contents (Elt F))
  (x14 : (⟨S1, .f32⟩ : BufTy).Contents (Elt F))

def val_main_v0 : (⟨S1x640000, .i32⟩ : BufTy).Contents (Elt F) :=
  extractStridedSlice S1x640000 ![0, 0] (x1) slices_S2x640000_S1x640000_0_0

def val_main_v1 : (⟨S640000, .i32⟩ : BufTy).Contents (Elt F) :=
  shapeCast _ (val_main_v0 (F := F) x1) shapeCasts_S1x640000_S640000

def val_main_v2 : (⟨S1x640000, .i32⟩ : BufTy).Contents (Elt F) :=
  extractStridedSlice S1x640000 ![1, 0] (x1) slices_S2x640000_S1x640000_1_0

def val_main_v3 : (⟨S640000, .i32⟩ : BufTy).Contents (Elt F) :=
  shapeCast _ (val_main_v2 (F := F) x1) shapeCasts_S1x640000_S640000

def val_main_cst : (⟨S_, .f32⟩ : BufTy).Contents (Elt F) :=
  constant S_ .f32 0x3F800000#32

def val_main_v4 : (⟨S640000, .f32⟩ : BufTy).Contents (Elt F) :=
  broadcastInDim S640000 ![] bcast_S_S640000 (val_main_cst (F := F))

def val_main_cst_0 : (⟨S_, .f32⟩ : BufTy).Contents (Elt F) :=
  constant S_ .f32 0x00000000#32

def val_main_v5 : (⟨S10000, .f32⟩ : BufTy).Contents (Elt F) :=
  broadcastInDim S10000 ![] bcast_S_S10000 (val_main_cst_0 (F := F))

def val_main_v6 : (⟨S640000x1, .i32⟩ : BufTy).Contents (Elt F) :=
  broadcastInDim S640000x1 ![0] bcast_S640000_S640000x1_0 (val_main_v3 (F := F) x1)

def val_main_v7 : (⟨S10000, .f32⟩ : BufTy).Contents (Elt F) :=
  Host.scatterAdd scatter_S10000_S640000x1_S640000_n_0_0_1 (val_main_v5 (F := F)) (val_main_v6 (F := F) x1) (val_main_v4 (F := F))

def val_main_cst_1 : (⟨S_, .f32⟩ : BufTy).Contents (Elt F) :=
  constant S_ .f32 0x00000000#32

def val_main_v8 : (⟨S10000, .f32⟩ : BufTy).Contents (Elt F) :=
  broadcastInDim S10000 ![] bcast_S_S10000 (val_main_cst_1 (F := F))

def val_main_v9 : (⟨S10000, .i1⟩ : BufTy).Contents (Elt F) :=
  cmpf .ogt (val_main_v7 (F := F) x1) (val_main_v8 (F := F))

def val_main_v10 : (⟨S10000, .f32⟩ : BufTy).Contents (Elt F) :=
  Host.sqrt (val_main_v7 (F := F) x1)

def val_main_cst_2 : (⟨S_, .f32⟩ : BufTy).Contents (Elt F) :=
  constant S_ .f32 0x3F800000#32

def val_main_v11 : (⟨S10000, .f32⟩ : BufTy).Contents (Elt F) :=
  broadcastInDim S10000 ![] bcast_S_S10000 (val_main_cst_2 (F := F))

def val_main_v12 : (⟨S10000, .f32⟩ : BufTy).Contents (Elt F) :=
  Host.divf (val_main_v11 (F := F)) (val_main_v10 (F := F) x1)

def val_main_cst_3 : (⟨S_, .f32⟩ : BufTy).Contents (Elt F) :=
  constant S_ .f32 0x00000000#32

def val_main_call0_v0 : (⟨S_, .f32⟩ : BufTy).Contents (Elt F) :=
  id (val_main_cst_3 (F := F))

def val_main_call0_v1 : (⟨S10000, .f32⟩ : BufTy).Contents (Elt F) :=
  broadcastInDim S10000 ![] bcast_S_S10000 (val_main_call0_v0 (F := F))

def val_main_v13 : (⟨S10000, .f32⟩ : BufTy).Contents (Elt F) :=
  select (val_main_v9 (F := F) x1) (val_main_v12 (F := F) x1) (val_main_call0_v1 (F := F))

def val_main_c : (⟨S_, .i32⟩ : BufTy).Contents (Elt F) :=
  constantI S_ 32 0#32

def val_main_v14 : (⟨S640000, .i32⟩ : BufTy).Contents (Elt F) :=
  broadcastInDim S640000 ![] bcast_S_S640000 (val_main_c (F := F))

def val_main_v15 : (⟨S640000, .i1⟩ : BufTy).Contents (Elt F) :=
  cmpi .slt (val_main_v1 (F := F) x1) (val_main_v14 (F := F))

def val_main_c_4 : (⟨S_, .i32⟩ : BufTy).Contents (Elt F) :=
  constantI S_ 32 10000#32

def val_main_v16 : (⟨S640000, .i32⟩ : BufTy).Contents (Elt F) :=
  broadcastInDim S640000 ![] bcast_S_S640000 (val_main_c_4 (F := F))

def val_main_v17 : (⟨S640000, .i32⟩ : BufTy).Contents (Elt F) :=
  addi (val_main_v1 (F := F) x1) (val_main_v16 (F := F))

def val_main_v18 : (⟨S640000, .i32⟩ : BufTy).Contents (Elt F) :=
  select (val_main_v15 (F := F) x1) (val_main_v17 (F := F) x1) (val_main_v1 (F := F) x1)

def val_main_v19 : (⟨S640000x1, .i32⟩ : BufTy).Contents (Elt F) :=
  broadcastInDim S640000x1 ![0] bcast_S640000_S640000x1_0 (val_main_v18 (F := F) x1)

def val_main_v20 : (⟨S640000, .f32⟩ : BufTy).Contents (Elt F) :=
  Host.gather gather_S10000_S640000x1_S640000_n_0_n_n_0_1_1 (val_main_v13 (F := F) x1) (val_main_v19 (F := F) x1)

def val_main_v21 : (⟨S640000, .f32⟩ : BufTy).Contents (Elt F) :=
  Host.negf (val_main_v20 (F := F) x1)

def val_main_c_5 : (⟨S_, .i32⟩ : BufTy).Contents (Elt F) :=
  constantI S_ 32 0#32

def val_main_v22 : (⟨S640000, .i32⟩ : BufTy).Contents (Elt F) :=
  broadcastInDim S640000 ![] bcast_S_S640000 (val_main_c_5 (F := F))

def val_main_v23 : (⟨S640000, .i1⟩ : BufTy).Contents (Elt F) :=
  cmpi .slt (val_main_v3 (F := F) x1) (val_main_v22 (F := F))

def val_main_c_6 : (⟨S_, .i32⟩ : BufTy).Contents (Elt F) :=
  constantI S_ 32 10000#32

def val_main_v24 : (⟨S640000, .i32⟩ : BufTy).Contents (Elt F) :=
  broadcastInDim S640000 ![] bcast_S_S640000 (val_main_c_6 (F := F))

def val_main_v25 : (⟨S640000, .i32⟩ : BufTy).Contents (Elt F) :=
  addi (val_main_v3 (F := F) x1) (val_main_v24 (F := F))

def val_main_v26 : (⟨S640000, .i32⟩ : BufTy).Contents (Elt F) :=
  select (val_main_v23 (F := F) x1) (val_main_v25 (F := F) x1) (val_main_v3 (F := F) x1)

def val_main_v27 : (⟨S640000x1, .i32⟩ : BufTy).Contents (Elt F) :=
  broadcastInDim S640000x1 ![0] bcast_S640000_S640000x1_0 (val_main_v26 (F := F) x1)

def val_main_v28 : (⟨S640000, .f32⟩ : BufTy).Contents (Elt F) :=
  Host.gather gather_S10000_S640000x1_S640000_n_0_n_n_0_1_1 (val_main_v13 (F := F) x1) (val_main_v27 (F := F) x1)

def val_main_v29 : (⟨S640000, .f32⟩ : BufTy).Contents (Elt F) :=
  mulf (val_main_v21 (F := F) x1) (val_main_v28 (F := F) x1)

def val_main_v30 : (⟨S1x128x60, .f32⟩ : BufTy).Contents (Elt F) :=
  extractStridedSlice S1x128x60 ![0, 0, 0] (x5) slices_S3x128x60_S1x128x60_0_0_0

abbrev idx_main_v30 (i : S1x128x60.Idx) : S3x128x60.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩

theorem val_main_v30_apply (i : S1x128x60.Idx) :
    val_main_v30 (F := F) x5 i = x5 (idx_main_v30 i) := by
  unfold val_main_v30
  exact extractStridedSlice_apply ![0, 0, 0] x5 slices_S3x128x60_S1x128x60_0_0_0 i (idx_main_v30 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v31 : (⟨S128x60, .f32⟩ : BufTy).Contents (Elt F) :=
  shapeCast _ (val_main_v30 (F := F) x5) shapeCasts_S1x128x60_S128x60

abbrev idx_main_v31 (i : S128x60.Idx) : S1x128x60.Idx := fun a => match a with
  | ⟨0, _⟩ => ⟨0, Nat.one_pos⟩
  | ⟨1, _⟩ => ⟨((i 0).val * 60 + (i 1).val) / 60 % 128, by have h0 : (i 0).val < 128 := (i 0).isLt; have h1 : (i 1).val < 60 := (i 1).isLt; show ((i 0).val * 60 + (i 1).val) / 60 % 128 < 128; omega⟩
  | ⟨2, _⟩ => ⟨((i 0).val * 60 + (i 1).val) % 60, by have h0 : (i 0).val < 128 := (i 0).isLt; have h1 : (i 1).val < 60 := (i 1).isLt; show ((i 0).val * 60 + (i 1).val) % 60 < 60; omega⟩

theorem val_main_v31_apply (i : S128x60.Idx) :
    val_main_v31 (F := F) x5 i = val_main_v30 (F := F) x5 (idx_main_v31 i) := by
  unfold val_main_v31
  generalize val_main_v30 (F := F) x5 = y
  exact shapeCast_apply y shapeCasts_S1x128x60_S128x60 i (idx_main_v31 i)
    (by rewrite [Shape.rowMajor_val_three, Shape.rowMajor_val_two]; have h0 : (i 0).val < 128 := (i 0).isLt; have h1 : (i 1).val < 60 := (i 1).isLt; show (0 * 128 + ((i 0).val * 60 + (i 1).val) / 60 % 128) * 60 + ((i 0).val * 60 + (i 1).val) % 60 = (i 0).val * 60 + (i 1).val; omega)

def val_main_v32 : (⟨S10000x60, .f32⟩ : BufTy).Contents (Elt F) :=
  Host.dotGeneral dot_S10000x128_S128x60_S10000x60_1_0_0_1_n_n none (x0) (val_main_v31 (F := F) x5)

theorem val_main_v32_apply (x0 : (⟨S10000x128, .f32⟩ : BufTy).Contents (Elt Ideal)) (x5 : (⟨S3x128x60, .f32⟩ : BufTy).Contents (Elt Ideal)) (a : Fin 10000) (b : Fin 60) :
    val_main_v32 (F := Ideal) x0 x5 (ix2 a b) = ∑ k : Fin 128, x0 (ix2 a k) * (val_main_v31 (F := Ideal) x5) (ix2 k b) :=
  StackMember.dotGeneral_plain_apply (m := 10000) (k := 128) (n := 60) none _ _ a b

def val_main_v33 : (⟨S640000x1, .f32⟩ : BufTy).Contents (Elt F) :=
  broadcastInDim S640000x1 ![0] bcast_S640000_S640000x1_0 (val_main_v29 (F := F) x1)

def val_main_c_7 : (⟨S_, .i32⟩ : BufTy).Contents (Elt F) :=
  constantI S_ 32 0#32

def val_main_v34 : (⟨S640000, .i32⟩ : BufTy).Contents (Elt F) :=
  broadcastInDim S640000 ![] bcast_S_S640000 (val_main_c_7 (F := F))

def val_main_v35 : (⟨S640000, .i1⟩ : BufTy).Contents (Elt F) :=
  cmpi .slt (val_main_v1 (F := F) x1) (val_main_v34 (F := F))

def val_main_c_8 : (⟨S_, .i32⟩ : BufTy).Contents (Elt F) :=
  constantI S_ 32 10000#32

def val_main_v36 : (⟨S640000, .i32⟩ : BufTy).Contents (Elt F) :=
  broadcastInDim S640000 ![] bcast_S_S640000 (val_main_c_8 (F := F))

def val_main_v37 : (⟨S640000, .i32⟩ : BufTy).Contents (Elt F) :=
  addi (val_main_v1 (F := F) x1) (val_main_v36 (F := F))

def val_main_v38 : (⟨S640000, .i32⟩ : BufTy).Contents (Elt F) :=
  select (val_main_v35 (F := F) x1) (val_main_v37 (F := F) x1) (val_main_v1 (F := F) x1)

def val_main_v39 : (⟨S640000x1, .i32⟩ : BufTy).Contents (Elt F) :=
  broadcastInDim S640000x1 ![0] bcast_S640000_S640000x1_0 (val_main_v38 (F := F) x1)

def val_main_v40 : (⟨S640000x128, .f32⟩ : BufTy).Contents (Elt F) :=
  Host.gather gather_S10000x128_S640000x1_S640000x128_1_0_n_n_0_1_1128 (x0) (val_main_v39 (F := F) x1)

def val_main_v41 : (⟨S640000x128, .f32⟩ : BufTy).Contents (Elt F) :=
  broadcastInDim S640000x128 ![0, 1] bcast_S640000x1_S640000x128_0_1 (val_main_v33 (F := F) x1)

def val_main_v42 : (⟨S640000x128, .f32⟩ : BufTy).Contents (Elt F) :=
  mulf (val_main_v41 (F := F) x1) (val_main_v40 (F := F) x0 x1)

def val_main_cst_9 : (⟨S_, .f32⟩ : BufTy).Contents (Elt F) :=
  constant S_ .f32 0x00000000#32

def val_main_v43 : (⟨S10000x128, .f32⟩ : BufTy).Contents (Elt F) :=
  broadcastInDim S10000x128 ![] bcast_S_S10000x128 (val_main_cst_9 (F := F))

def val_main_v44 : (⟨S640000x1, .i32⟩ : BufTy).Contents (Elt F) :=
  broadcastInDim S640000x1 ![0] bcast_S640000_S640000x1_0 (val_main_v3 (F := F) x1)

def val_main_v45 : (⟨S10000x128, .f32⟩ : BufTy).Contents (Elt F) :=
  Host.scatterAdd scatter_S10000x128_S640000x1_S640000x128_1_0_0_1 (val_main_v43 (F := F)) (val_main_v44 (F := F) x1) (val_main_v42 (F := F) x0 x1)

def val_main_v46 : (⟨S1x128x60, .f32⟩ : BufTy).Contents (Elt F) :=
  extractStridedSlice S1x128x60 ![1, 0, 0] (x5) slices_S3x128x60_S1x128x60_1_0_0

abbrev idx_main_v46 (i : S1x128x60.Idx) : S3x128x60.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩

theorem val_main_v46_apply (i : S1x128x60.Idx) :
    val_main_v46 (F := F) x5 i = x5 (idx_main_v46 i) := by
  unfold val_main_v46
  exact extractStridedSlice_apply ![1, 0, 0] x5 slices_S3x128x60_S1x128x60_1_0_0 i (idx_main_v46 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v47 : (⟨S128x60, .f32⟩ : BufTy).Contents (Elt F) :=
  shapeCast _ (val_main_v46 (F := F) x5) shapeCasts_S1x128x60_S128x60

abbrev idx_main_v47 (i : S128x60.Idx) : S1x128x60.Idx := fun a => match a with
  | ⟨0, _⟩ => ⟨0, Nat.one_pos⟩
  | ⟨1, _⟩ => ⟨((i 0).val * 60 + (i 1).val) / 60 % 128, by have h0 : (i 0).val < 128 := (i 0).isLt; have h1 : (i 1).val < 60 := (i 1).isLt; show ((i 0).val * 60 + (i 1).val) / 60 % 128 < 128; omega⟩
  | ⟨2, _⟩ => ⟨((i 0).val * 60 + (i 1).val) % 60, by have h0 : (i 0).val < 128 := (i 0).isLt; have h1 : (i 1).val < 60 := (i 1).isLt; show ((i 0).val * 60 + (i 1).val) % 60 < 60; omega⟩

theorem val_main_v47_apply (i : S128x60.Idx) :
    val_main_v47 (F := F) x5 i = val_main_v46 (F := F) x5 (idx_main_v47 i) := by
  unfold val_main_v47
  generalize val_main_v46 (F := F) x5 = y
  exact shapeCast_apply y shapeCasts_S1x128x60_S128x60 i (idx_main_v47 i)
    (by rewrite [Shape.rowMajor_val_three, Shape.rowMajor_val_two]; have h0 : (i 0).val < 128 := (i 0).isLt; have h1 : (i 1).val < 60 := (i 1).isLt; show (0 * 128 + ((i 0).val * 60 + (i 1).val) / 60 % 128) * 60 + ((i 0).val * 60 + (i 1).val) % 60 = (i 0).val * 60 + (i 1).val; omega)

def val_main_v48 : (⟨S10000x60, .f32⟩ : BufTy).Contents (Elt F) :=
  Host.dotGeneral dot_S10000x128_S128x60_S10000x60_1_0_0_1_n_n none (val_main_v45 (F := F) x0 x1) (val_main_v47 (F := F) x5)

theorem val_main_v48_apply (x0 : (⟨S10000x128, .f32⟩ : BufTy).Contents (Elt Ideal)) (x1 : (⟨S2x640000, .i32⟩ : BufTy).Contents (Elt Ideal)) (x5 : (⟨S3x128x60, .f32⟩ : BufTy).Contents (Elt Ideal)) (a : Fin 10000) (b : Fin 60) :
    val_main_v48 (F := Ideal) x0 x1 x5 (ix2 a b) = ∑ k : Fin 128, (val_main_v45 (F := Ideal) x0 x1) (ix2 a k) * (val_main_v47 (F := Ideal) x5) (ix2 k b) :=
  StackMember.dotGeneral_plain_apply (m := 10000) (k := 128) (n := 60) none _ _ a b

def val_main_v49 : (⟨S10000x60, .f32⟩ : BufTy).Contents (Elt F) :=
  addf (val_main_v32 (F := F) x0 x5) (val_main_v48 (F := F) x0 x1 x5)

theorem val_main_v49_apply (i : S10000x60.Idx) :
    val_main_v49 (F := F) x0 x1 x5 i = FloatOps.addf (val_main_v32 (F := F) x0 x5 i) (val_main_v48 (F := F) x0 x1 x5 i) := rfl

def val_main_v50 : (⟨S640000x1, .f32⟩ : BufTy).Contents (Elt F) :=
  broadcastInDim S640000x1 ![0] bcast_S640000_S640000x1_0 (val_main_v29 (F := F) x1)

def val_main_c_10 : (⟨S_, .i32⟩ : BufTy).Contents (Elt F) :=
  constantI S_ 32 0#32

def val_main_v51 : (⟨S640000, .i32⟩ : BufTy).Contents (Elt F) :=
  broadcastInDim S640000 ![] bcast_S_S640000 (val_main_c_10 (F := F))

def val_main_v52 : (⟨S640000, .i1⟩ : BufTy).Contents (Elt F) :=
  cmpi .slt (val_main_v1 (F := F) x1) (val_main_v51 (F := F))

def val_main_c_11 : (⟨S_, .i32⟩ : BufTy).Contents (Elt F) :=
  constantI S_ 32 10000#32

def val_main_v53 : (⟨S640000, .i32⟩ : BufTy).Contents (Elt F) :=
  broadcastInDim S640000 ![] bcast_S_S640000 (val_main_c_11 (F := F))

def val_main_v54 : (⟨S640000, .i32⟩ : BufTy).Contents (Elt F) :=
  addi (val_main_v1 (F := F) x1) (val_main_v53 (F := F))

def val_main_v55 : (⟨S640000, .i32⟩ : BufTy).Contents (Elt F) :=
  select (val_main_v52 (F := F) x1) (val_main_v54 (F := F) x1) (val_main_v1 (F := F) x1)

def val_main_v56 : (⟨S640000x1, .i32⟩ : BufTy).Contents (Elt F) :=
  broadcastInDim S640000x1 ![0] bcast_S640000_S640000x1_0 (val_main_v55 (F := F) x1)

def val_main_v57 : (⟨S640000x128, .f32⟩ : BufTy).Contents (Elt F) :=
  Host.gather gather_S10000x128_S640000x1_S640000x128_1_0_n_n_0_1_1128 (val_main_v45 (F := F) x0 x1) (val_main_v56 (F := F) x1)

def val_main_v58 : (⟨S640000x128, .f32⟩ : BufTy).Contents (Elt F) :=
  broadcastInDim S640000x128 ![0, 1] bcast_S640000x1_S640000x128_0_1 (val_main_v50 (F := F) x1)

def val_main_v59 : (⟨S640000x128, .f32⟩ : BufTy).Contents (Elt F) :=
  mulf (val_main_v58 (F := F) x1) (val_main_v57 (F := F) x0 x1)

def val_main_cst_12 : (⟨S_, .f32⟩ : BufTy).Contents (Elt F) :=
  constant S_ .f32 0x00000000#32

def val_main_v60 : (⟨S10000x128, .f32⟩ : BufTy).Contents (Elt F) :=
  broadcastInDim S10000x128 ![] bcast_S_S10000x128 (val_main_cst_12 (F := F))

def val_main_v61 : (⟨S640000x1, .i32⟩ : BufTy).Contents (Elt F) :=
  broadcastInDim S640000x1 ![0] bcast_S640000_S640000x1_0 (val_main_v3 (F := F) x1)

def val_main_v62 : (⟨S10000x128, .f32⟩ : BufTy).Contents (Elt F) :=
  Host.scatterAdd scatter_S10000x128_S640000x1_S640000x128_1_0_0_1 (val_main_v60 (F := F)) (val_main_v61 (F := F) x1) (val_main_v59 (F := F) x0 x1)

def val_main_cst_13 : (⟨S_, .f32⟩ : BufTy).Contents (Elt F) :=
  constant S_ .f32 0x40000000#32

theorem val_main_cst_13_apply (i : S_.Idx) :
    val_main_cst_13 (F := F) i = FloatOps.ofBits .f32 0x40000000#32 := rfl

def val_main_v63 : (⟨S10000x128, .f32⟩ : BufTy).Contents (Elt F) :=
  broadcastInDim S10000x128 ![] bcast_S_S10000x128 (val_main_cst_13 (F := F))

abbrev idx_main_v63 (i : S10000x128.Idx) : S_.Idx := fun a => a.elim0

theorem val_main_v63_apply (i : S10000x128.Idx) :
    val_main_v63 (F := F) i = val_main_cst_13 (F := F) (idx_main_v63 i) := by
  unfold val_main_v63
  generalize val_main_cst_13 (F := F) = y
  exact broadcastInDim_apply _ bcast_S_S10000x128 y i (idx_main_v63 i) (fun a => a.elim0)

def val_main_v64 : (⟨S10000x128, .f32⟩ : BufTy).Contents (Elt F) :=
  mulf (val_main_v63 (F := F)) (val_main_v62 (F := F) x0 x1)

theorem val_main_v64_apply (i : S10000x128.Idx) :
    val_main_v64 (F := F) x0 x1 i = FloatOps.mulf (val_main_v63 (F := F) i) (val_main_v62 (F := F) x0 x1 i) := rfl

def val_main_v65 : (⟨S10000x128, .f32⟩ : BufTy).Contents (Elt F) :=
  subf (val_main_v64 (F := F) x0 x1) (x0)

theorem val_main_v65_apply (i : S10000x128.Idx) :
    val_main_v65 (F := F) x0 x1 i = FloatOps.subf (val_main_v64 (F := F) x0 x1 i) (x0 i) := rfl

def val_main_v66 : (⟨S1x128x60, .f32⟩ : BufTy).Contents (Elt F) :=
  extractStridedSlice S1x128x60 ![2, 0, 0] (x5) slices_S3x128x60_S1x128x60_2_0_0

abbrev idx_main_v66 (i : S1x128x60.Idx) : S3x128x60.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩

theorem val_main_v66_apply (i : S1x128x60.Idx) :
    val_main_v66 (F := F) x5 i = x5 (idx_main_v66 i) := by
  unfold val_main_v66
  exact extractStridedSlice_apply ![2, 0, 0] x5 slices_S3x128x60_S1x128x60_2_0_0 i (idx_main_v66 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v67 : (⟨S128x60, .f32⟩ : BufTy).Contents (Elt F) :=
  shapeCast _ (val_main_v66 (F := F) x5) shapeCasts_S1x128x60_S128x60

abbrev idx_main_v67 (i : S128x60.Idx) : S1x128x60.Idx := fun a => match a with
  | ⟨0, _⟩ => ⟨0, Nat.one_pos⟩
  | ⟨1, _⟩ => ⟨((i 0).val * 60 + (i 1).val) / 60 % 128, by have h0 : (i 0).val < 128 := (i 0).isLt; have h1 : (i 1).val < 60 := (i 1).isLt; show ((i 0).val * 60 + (i 1).val) / 60 % 128 < 128; omega⟩
  | ⟨2, _⟩ => ⟨((i 0).val * 60 + (i 1).val) % 60, by have h0 : (i 0).val < 128 := (i 0).isLt; have h1 : (i 1).val < 60 := (i 1).isLt; show ((i 0).val * 60 + (i 1).val) % 60 < 60; omega⟩

theorem val_main_v67_apply (i : S128x60.Idx) :
    val_main_v67 (F := F) x5 i = val_main_v66 (F := F) x5 (idx_main_v67 i) := by
  unfold val_main_v67
  generalize val_main_v66 (F := F) x5 = y
  exact shapeCast_apply y shapeCasts_S1x128x60_S128x60 i (idx_main_v67 i)
    (by rewrite [Shape.rowMajor_val_three, Shape.rowMajor_val_two]; have h0 : (i 0).val < 128 := (i 0).isLt; have h1 : (i 1).val < 60 := (i 1).isLt; show (0 * 128 + ((i 0).val * 60 + (i 1).val) / 60 % 128) * 60 + ((i 0).val * 60 + (i 1).val) % 60 = (i 0).val * 60 + (i 1).val; omega)

def val_main_v68 : (⟨S10000x60, .f32⟩ : BufTy).Contents (Elt F) :=
  Host.dotGeneral dot_S10000x128_S128x60_S10000x60_1_0_0_1_n_n none (val_main_v65 (F := F) x0 x1) (val_main_v67 (F := F) x5)

theorem val_main_v68_apply (x0 : (⟨S10000x128, .f32⟩ : BufTy).Contents (Elt Ideal)) (x1 : (⟨S2x640000, .i32⟩ : BufTy).Contents (Elt Ideal)) (x5 : (⟨S3x128x60, .f32⟩ : BufTy).Contents (Elt Ideal)) (a : Fin 10000) (b : Fin 60) :
    val_main_v68 (F := Ideal) x0 x1 x5 (ix2 a b) = ∑ k : Fin 128, (val_main_v65 (F := Ideal) x0 x1) (ix2 a k) * (val_main_v67 (F := Ideal) x5) (ix2 k b) :=
  StackMember.dotGeneral_plain_apply (m := 10000) (k := 128) (n := 60) none _ _ a b

def val_main_v69 : (⟨S10000x60, .f32⟩ : BufTy).Contents (Elt F) :=
  addf (val_main_v49 (F := F) x0 x1 x5) (val_main_v68 (F := F) x0 x1 x5)

theorem val_main_v69_apply (i : S10000x60.Idx) :
    val_main_v69 (F := F) x0 x1 x5 i = FloatOps.addf (val_main_v49 (F := F) x0 x1 x5 i) (val_main_v68 (F := F) x0 x1 x5 i) := rfl

def val_main_v70 : (⟨S1x60, .f32⟩ : BufTy).Contents (Elt F) :=
  broadcastInDim S1x60 ![1] bcast_S60_S1x60_1 (x6)

abbrev idx_main_v70 (i : S1x60.Idx) : S60.Idx := fun a => match a with
  | ⟨0, _⟩ => ⟨(i 1).val, (i 1).isLt⟩

theorem val_main_v70_apply (i : S1x60.Idx) :
    val_main_v70 (F := F) x6 i = x6 (idx_main_v70 i) := by
  unfold val_main_v70
  exact broadcastInDim_apply _ bcast_S60_S1x60_1 x6 i (idx_main_v70 i) (fun a => match a with
    | ⟨0, _⟩ => by show (i 1).val = if (60 : Nat) = 1 then 0 else (i 1).val; rw [if_neg (by decide)])

def val_main_v71 : (⟨S10000x60, .f32⟩ : BufTy).Contents (Elt F) :=
  broadcastInDim S10000x60 ![0, 1] bcast_S1x60_S10000x60_0_1 (val_main_v70 (F := F) x6)

abbrev idx_main_v71 (i : S10000x60.Idx) : S1x60.Idx := fun a => match a with
  | ⟨0, _⟩ => ⟨0, Nat.one_pos⟩
  | ⟨1, _⟩ => ⟨(i 1).val, (i 1).isLt⟩

theorem val_main_v71_apply (i : S10000x60.Idx) :
    val_main_v71 (F := F) x6 i = val_main_v70 (F := F) x6 (idx_main_v71 i) := by
  unfold val_main_v71
  generalize val_main_v70 (F := F) x6 = y
  exact broadcastInDim_apply _ bcast_S1x60_S10000x60_0_1 y i (idx_main_v71 i) (fun a => match a with
    | ⟨0, _⟩ => by show 0 = if (1 : Nat) = 1 then 0 else (i 0).val; rw [if_pos rfl]
    | ⟨1, _⟩ => by show (i 1).val = if (60 : Nat) = 1 then 0 else (i 1).val; rw [if_neg (by decide)])

def val_main_v72 : (⟨S10000x60, .f32⟩ : BufTy).Contents (Elt F) :=
  addf (val_main_v69 (F := F) x0 x1 x5) (val_main_v71 (F := F) x6)

theorem val_main_v72_apply (i : S10000x60.Idx) :
    val_main_v72 (F := F) x0 x1 x5 x6 i = FloatOps.addf (val_main_v69 (F := F) x0 x1 x5 i) (val_main_v71 (F := F) x6 i) := rfl

def val_main_v73 : (⟨S10000x60, .f32⟩ : BufTy).Contents (Elt F) :=
  Host.tanh (val_main_v72 (F := F) x0 x1 x5 x6)

theorem val_main_v73_apply (i : S10000x60.Idx) :
    val_main_v73 (F := F) x0 x1 x5 x6 i = FloatOps.hostUnary .tanh (val_main_v72 (F := F) x0 x1 x5 x6 i) := rfl

def val_main_v74 : (⟨S1x60x30, .f32⟩ : BufTy).Contents (Elt F) :=
  extractStridedSlice S1x60x30 ![0, 0, 0] (x7) slices_S3x60x30_S1x60x30_0_0_0

abbrev idx_main_v74 (i : S1x60x30.Idx) : S3x60x30.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩

theorem val_main_v74_apply (i : S1x60x30.Idx) :
    val_main_v74 (F := F) x7 i = x7 (idx_main_v74 i) := by
  unfold val_main_v74
  exact extractStridedSlice_apply ![0, 0, 0] x7 slices_S3x60x30_S1x60x30_0_0_0 i (idx_main_v74 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v75 : (⟨S60x30, .f32⟩ : BufTy).Contents (Elt F) :=
  shapeCast _ (val_main_v74 (F := F) x7) shapeCasts_S1x60x30_S60x30

abbrev idx_main_v75 (i : S60x30.Idx) : S1x60x30.Idx := fun a => match a with
  | ⟨0, _⟩ => ⟨0, Nat.one_pos⟩
  | ⟨1, _⟩ => ⟨((i 0).val * 30 + (i 1).val) / 30 % 60, by have h0 : (i 0).val < 60 := (i 0).isLt; have h1 : (i 1).val < 30 := (i 1).isLt; show ((i 0).val * 30 + (i 1).val) / 30 % 60 < 60; omega⟩
  | ⟨2, _⟩ => ⟨((i 0).val * 30 + (i 1).val) % 30, by have h0 : (i 0).val < 60 := (i 0).isLt; have h1 : (i 1).val < 30 := (i 1).isLt; show ((i 0).val * 30 + (i 1).val) % 30 < 30; omega⟩

theorem val_main_v75_apply (i : S60x30.Idx) :
    val_main_v75 (F := F) x7 i = val_main_v74 (F := F) x7 (idx_main_v75 i) := by
  unfold val_main_v75
  generalize val_main_v74 (F := F) x7 = y
  exact shapeCast_apply y shapeCasts_S1x60x30_S60x30 i (idx_main_v75 i)
    (by rewrite [Shape.rowMajor_val_three, Shape.rowMajor_val_two]; have h0 : (i 0).val < 60 := (i 0).isLt; have h1 : (i 1).val < 30 := (i 1).isLt; show (0 * 60 + ((i 0).val * 30 + (i 1).val) / 30 % 60) * 30 + ((i 0).val * 30 + (i 1).val) % 30 = (i 0).val * 30 + (i 1).val; omega)

def val_main_v76 : (⟨S10000x30, .f32⟩ : BufTy).Contents (Elt F) :=
  Host.dotGeneral dot_S10000x60_S60x30_S10000x30_1_0_0_1_n_n none (val_main_v73 (F := F) x0 x1 x5 x6) (val_main_v75 (F := F) x7)

theorem val_main_v76_apply (x0 : (⟨S10000x128, .f32⟩ : BufTy).Contents (Elt Ideal)) (x1 : (⟨S2x640000, .i32⟩ : BufTy).Contents (Elt Ideal)) (x5 : (⟨S3x128x60, .f32⟩ : BufTy).Contents (Elt Ideal)) (x6 : (⟨S60, .f32⟩ : BufTy).Contents (Elt Ideal)) (x7 : (⟨S3x60x30, .f32⟩ : BufTy).Contents (Elt Ideal)) (a : Fin 10000) (b : Fin 30) :
    val_main_v76 (F := Ideal) x0 x1 x5 x6 x7 (ix2 a b) = ∑ k : Fin 60, (val_main_v73 (F := Ideal) x0 x1 x5 x6) (ix2 a k) * (val_main_v75 (F := Ideal) x7) (ix2 k b) :=
  StackMember.dotGeneral_plain_apply (m := 10000) (k := 60) (n := 30) none _ _ a b

def val_main_v77 : (⟨S640000x1, .f32⟩ : BufTy).Contents (Elt F) :=
  broadcastInDim S640000x1 ![0] bcast_S640000_S640000x1_0 (val_main_v29 (F := F) x1)

def val_main_c_14 : (⟨S_, .i32⟩ : BufTy).Contents (Elt F) :=
  constantI S_ 32 0#32

def val_main_v78 : (⟨S640000, .i32⟩ : BufTy).Contents (Elt F) :=
  broadcastInDim S640000 ![] bcast_S_S640000 (val_main_c_14 (F := F))

def val_main_v79 : (⟨S640000, .i1⟩ : BufTy).Contents (Elt F) :=
  cmpi .slt (val_main_v1 (F := F) x1) (val_main_v78 (F := F))

def val_main_c_15 : (⟨S_, .i32⟩ : BufTy).Contents (Elt F) :=
  constantI S_ 32 10000#32

def val_main_v80 : (⟨S640000, .i32⟩ : BufTy).Contents (Elt F) :=
  broadcastInDim S640000 ![] bcast_S_S640000 (val_main_c_15 (F := F))

def val_main_v81 : (⟨S640000, .i32⟩ : BufTy).Contents (Elt F) :=
  addi (val_main_v1 (F := F) x1) (val_main_v80 (F := F))

def val_main_v82 : (⟨S640000, .i32⟩ : BufTy).Contents (Elt F) :=
  select (val_main_v79 (F := F) x1) (val_main_v81 (F := F) x1) (val_main_v1 (F := F) x1)

def val_main_v83 : (⟨S640000x1, .i32⟩ : BufTy).Contents (Elt F) :=
  broadcastInDim S640000x1 ![0] bcast_S640000_S640000x1_0 (val_main_v82 (F := F) x1)

def val_main_v84 : (⟨S640000x60, .f32⟩ : BufTy).Contents (Elt F) :=
  Host.gather gather_S10000x60_S640000x1_S640000x60_1_0_n_n_0_1_160 (val_main_v73 (F := F) x0 x1 x5 x6) (val_main_v83 (F := F) x1)

def val_main_v85 : (⟨S640000x60, .f32⟩ : BufTy).Contents (Elt F) :=
  broadcastInDim S640000x60 ![0, 1] bcast_S640000x1_S640000x60_0_1 (val_main_v77 (F := F) x1)

def val_main_v86 : (⟨S640000x60, .f32⟩ : BufTy).Contents (Elt F) :=
  mulf (val_main_v85 (F := F) x1) (val_main_v84 (F := F) x0 x1 x5 x6)

def val_main_cst_16 : (⟨S_, .f32⟩ : BufTy).Contents (Elt F) :=
  constant S_ .f32 0x00000000#32

def val_main_v87 : (⟨S10000x60, .f32⟩ : BufTy).Contents (Elt F) :=
  broadcastInDim S10000x60 ![] bcast_S_S10000x60 (val_main_cst_16 (F := F))

def val_main_v88 : (⟨S640000x1, .i32⟩ : BufTy).Contents (Elt F) :=
  broadcastInDim S640000x1 ![0] bcast_S640000_S640000x1_0 (val_main_v3 (F := F) x1)

def val_main_v89 : (⟨S10000x60, .f32⟩ : BufTy).Contents (Elt F) :=
  Host.scatterAdd scatter_S10000x60_S640000x1_S640000x60_1_0_0_1 (val_main_v87 (F := F)) (val_main_v88 (F := F) x1) (val_main_v86 (F := F) x0 x1 x5 x6)

def val_main_v90 : (⟨S1x60x30, .f32⟩ : BufTy).Contents (Elt F) :=
  extractStridedSlice S1x60x30 ![1, 0, 0] (x7) slices_S3x60x30_S1x60x30_1_0_0

abbrev idx_main_v90 (i : S1x60x30.Idx) : S3x60x30.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩

theorem val_main_v90_apply (i : S1x60x30.Idx) :
    val_main_v90 (F := F) x7 i = x7 (idx_main_v90 i) := by
  unfold val_main_v90
  exact extractStridedSlice_apply ![1, 0, 0] x7 slices_S3x60x30_S1x60x30_1_0_0 i (idx_main_v90 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v91 : (⟨S60x30, .f32⟩ : BufTy).Contents (Elt F) :=
  shapeCast _ (val_main_v90 (F := F) x7) shapeCasts_S1x60x30_S60x30

abbrev idx_main_v91 (i : S60x30.Idx) : S1x60x30.Idx := fun a => match a with
  | ⟨0, _⟩ => ⟨0, Nat.one_pos⟩
  | ⟨1, _⟩ => ⟨((i 0).val * 30 + (i 1).val) / 30 % 60, by have h0 : (i 0).val < 60 := (i 0).isLt; have h1 : (i 1).val < 30 := (i 1).isLt; show ((i 0).val * 30 + (i 1).val) / 30 % 60 < 60; omega⟩
  | ⟨2, _⟩ => ⟨((i 0).val * 30 + (i 1).val) % 30, by have h0 : (i 0).val < 60 := (i 0).isLt; have h1 : (i 1).val < 30 := (i 1).isLt; show ((i 0).val * 30 + (i 1).val) % 30 < 30; omega⟩

theorem val_main_v91_apply (i : S60x30.Idx) :
    val_main_v91 (F := F) x7 i = val_main_v90 (F := F) x7 (idx_main_v91 i) := by
  unfold val_main_v91
  generalize val_main_v90 (F := F) x7 = y
  exact shapeCast_apply y shapeCasts_S1x60x30_S60x30 i (idx_main_v91 i)
    (by rewrite [Shape.rowMajor_val_three, Shape.rowMajor_val_two]; have h0 : (i 0).val < 60 := (i 0).isLt; have h1 : (i 1).val < 30 := (i 1).isLt; show (0 * 60 + ((i 0).val * 30 + (i 1).val) / 30 % 60) * 30 + ((i 0).val * 30 + (i 1).val) % 30 = (i 0).val * 30 + (i 1).val; omega)

def val_main_v92 : (⟨S10000x30, .f32⟩ : BufTy).Contents (Elt F) :=
  Host.dotGeneral dot_S10000x60_S60x30_S10000x30_1_0_0_1_n_n none (val_main_v89 (F := F) x0 x1 x5 x6) (val_main_v91 (F := F) x7)

theorem val_main_v92_apply (x0 : (⟨S10000x128, .f32⟩ : BufTy).Contents (Elt Ideal)) (x1 : (⟨S2x640000, .i32⟩ : BufTy).Contents (Elt Ideal)) (x5 : (⟨S3x128x60, .f32⟩ : BufTy).Contents (Elt Ideal)) (x6 : (⟨S60, .f32⟩ : BufTy).Contents (Elt Ideal)) (x7 : (⟨S3x60x30, .f32⟩ : BufTy).Contents (Elt Ideal)) (a : Fin 10000) (b : Fin 30) :
    val_main_v92 (F := Ideal) x0 x1 x5 x6 x7 (ix2 a b) = ∑ k : Fin 60, (val_main_v89 (F := Ideal) x0 x1 x5 x6) (ix2 a k) * (val_main_v91 (F := Ideal) x7) (ix2 k b) :=
  StackMember.dotGeneral_plain_apply (m := 10000) (k := 60) (n := 30) none _ _ a b

def val_main_v93 : (⟨S10000x30, .f32⟩ : BufTy).Contents (Elt F) :=
  addf (val_main_v76 (F := F) x0 x1 x5 x6 x7) (val_main_v92 (F := F) x0 x1 x5 x6 x7)

theorem val_main_v93_apply (i : S10000x30.Idx) :
    val_main_v93 (F := F) x0 x1 x5 x6 x7 i = FloatOps.addf (val_main_v76 (F := F) x0 x1 x5 x6 x7 i) (val_main_v92 (F := F) x0 x1 x5 x6 x7 i) := rfl

def val_main_v94 : (⟨S640000x1, .f32⟩ : BufTy).Contents (Elt F) :=
  broadcastInDim S640000x1 ![0] bcast_S640000_S640000x1_0 (val_main_v29 (F := F) x1)

def val_main_c_17 : (⟨S_, .i32⟩ : BufTy).Contents (Elt F) :=
  constantI S_ 32 0#32

def val_main_v95 : (⟨S640000, .i32⟩ : BufTy).Contents (Elt F) :=
  broadcastInDim S640000 ![] bcast_S_S640000 (val_main_c_17 (F := F))

def val_main_v96 : (⟨S640000, .i1⟩ : BufTy).Contents (Elt F) :=
  cmpi .slt (val_main_v1 (F := F) x1) (val_main_v95 (F := F))

def val_main_c_18 : (⟨S_, .i32⟩ : BufTy).Contents (Elt F) :=
  constantI S_ 32 10000#32

def val_main_v97 : (⟨S640000, .i32⟩ : BufTy).Contents (Elt F) :=
  broadcastInDim S640000 ![] bcast_S_S640000 (val_main_c_18 (F := F))

def val_main_v98 : (⟨S640000, .i32⟩ : BufTy).Contents (Elt F) :=
  addi (val_main_v1 (F := F) x1) (val_main_v97 (F := F))

def val_main_v99 : (⟨S640000, .i32⟩ : BufTy).Contents (Elt F) :=
  select (val_main_v96 (F := F) x1) (val_main_v98 (F := F) x1) (val_main_v1 (F := F) x1)

def val_main_v100 : (⟨S640000x1, .i32⟩ : BufTy).Contents (Elt F) :=
  broadcastInDim S640000x1 ![0] bcast_S640000_S640000x1_0 (val_main_v99 (F := F) x1)

def val_main_v101 : (⟨S640000x60, .f32⟩ : BufTy).Contents (Elt F) :=
  Host.gather gather_S10000x60_S640000x1_S640000x60_1_0_n_n_0_1_160 (val_main_v89 (F := F) x0 x1 x5 x6) (val_main_v100 (F := F) x1)

def val_main_v102 : (⟨S640000x60, .f32⟩ : BufTy).Contents (Elt F) :=
  broadcastInDim S640000x60 ![0, 1] bcast_S640000x1_S640000x60_0_1 (val_main_v94 (F := F) x1)

def val_main_v103 : (⟨S640000x60, .f32⟩ : BufTy).Contents (Elt F) :=
  mulf (val_main_v102 (F := F) x1) (val_main_v101 (F := F) x0 x1 x5 x6)

def val_main_cst_19 : (⟨S_, .f32⟩ : BufTy).Contents (Elt F) :=
  constant S_ .f32 0x00000000#32

def val_main_v104 : (⟨S10000x60, .f32⟩ : BufTy).Contents (Elt F) :=
  broadcastInDim S10000x60 ![] bcast_S_S10000x60 (val_main_cst_19 (F := F))

def val_main_v105 : (⟨S640000x1, .i32⟩ : BufTy).Contents (Elt F) :=
  broadcastInDim S640000x1 ![0] bcast_S640000_S640000x1_0 (val_main_v3 (F := F) x1)

def val_main_v106 : (⟨S10000x60, .f32⟩ : BufTy).Contents (Elt F) :=
  Host.scatterAdd scatter_S10000x60_S640000x1_S640000x60_1_0_0_1 (val_main_v104 (F := F)) (val_main_v105 (F := F) x1) (val_main_v103 (F := F) x0 x1 x5 x6)

def val_main_cst_20 : (⟨S_, .f32⟩ : BufTy).Contents (Elt F) :=
  constant S_ .f32 0x40000000#32

theorem val_main_cst_20_apply (i : S_.Idx) :
    val_main_cst_20 (F := F) i = FloatOps.ofBits .f32 0x40000000#32 := rfl

def val_main_v107 : (⟨S10000x60, .f32⟩ : BufTy).Contents (Elt F) :=
  broadcastInDim S10000x60 ![] bcast_S_S10000x60 (val_main_cst_20 (F := F))

abbrev idx_main_v107 (i : S10000x60.Idx) : S_.Idx := fun a => a.elim0

theorem val_main_v107_apply (i : S10000x60.Idx) :
    val_main_v107 (F := F) i = val_main_cst_20 (F := F) (idx_main_v107 i) := by
  unfold val_main_v107
  generalize val_main_cst_20 (F := F) = y
  exact broadcastInDim_apply _ bcast_S_S10000x60 y i (idx_main_v107 i) (fun a => a.elim0)

def val_main_v108 : (⟨S10000x60, .f32⟩ : BufTy).Contents (Elt F) :=
  mulf (val_main_v107 (F := F)) (val_main_v106 (F := F) x0 x1 x5 x6)

theorem val_main_v108_apply (i : S10000x60.Idx) :
    val_main_v108 (F := F) x0 x1 x5 x6 i = FloatOps.mulf (val_main_v107 (F := F) i) (val_main_v106 (F := F) x0 x1 x5 x6 i) := rfl

def val_main_v109 : (⟨S10000x60, .f32⟩ : BufTy).Contents (Elt F) :=
  subf (val_main_v108 (F := F) x0 x1 x5 x6) (val_main_v73 (F := F) x0 x1 x5 x6)

theorem val_main_v109_apply (i : S10000x60.Idx) :
    val_main_v109 (F := F) x0 x1 x5 x6 i = FloatOps.subf (val_main_v108 (F := F) x0 x1 x5 x6 i) (val_main_v73 (F := F) x0 x1 x5 x6 i) := rfl

def val_main_v110 : (⟨S1x60x30, .f32⟩ : BufTy).Contents (Elt F) :=
  extractStridedSlice S1x60x30 ![2, 0, 0] (x7) slices_S3x60x30_S1x60x30_2_0_0

abbrev idx_main_v110 (i : S1x60x30.Idx) : S3x60x30.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩

theorem val_main_v110_apply (i : S1x60x30.Idx) :
    val_main_v110 (F := F) x7 i = x7 (idx_main_v110 i) := by
  unfold val_main_v110
  exact extractStridedSlice_apply ![2, 0, 0] x7 slices_S3x60x30_S1x60x30_2_0_0 i (idx_main_v110 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v111 : (⟨S60x30, .f32⟩ : BufTy).Contents (Elt F) :=
  shapeCast _ (val_main_v110 (F := F) x7) shapeCasts_S1x60x30_S60x30

abbrev idx_main_v111 (i : S60x30.Idx) : S1x60x30.Idx := fun a => match a with
  | ⟨0, _⟩ => ⟨0, Nat.one_pos⟩
  | ⟨1, _⟩ => ⟨((i 0).val * 30 + (i 1).val) / 30 % 60, by have h0 : (i 0).val < 60 := (i 0).isLt; have h1 : (i 1).val < 30 := (i 1).isLt; show ((i 0).val * 30 + (i 1).val) / 30 % 60 < 60; omega⟩
  | ⟨2, _⟩ => ⟨((i 0).val * 30 + (i 1).val) % 30, by have h0 : (i 0).val < 60 := (i 0).isLt; have h1 : (i 1).val < 30 := (i 1).isLt; show ((i 0).val * 30 + (i 1).val) % 30 < 30; omega⟩

theorem val_main_v111_apply (i : S60x30.Idx) :
    val_main_v111 (F := F) x7 i = val_main_v110 (F := F) x7 (idx_main_v111 i) := by
  unfold val_main_v111
  generalize val_main_v110 (F := F) x7 = y
  exact shapeCast_apply y shapeCasts_S1x60x30_S60x30 i (idx_main_v111 i)
    (by rewrite [Shape.rowMajor_val_three, Shape.rowMajor_val_two]; have h0 : (i 0).val < 60 := (i 0).isLt; have h1 : (i 1).val < 30 := (i 1).isLt; show (0 * 60 + ((i 0).val * 30 + (i 1).val) / 30 % 60) * 30 + ((i 0).val * 30 + (i 1).val) % 30 = (i 0).val * 30 + (i 1).val; omega)

def val_main_v112 : (⟨S10000x30, .f32⟩ : BufTy).Contents (Elt F) :=
  Host.dotGeneral dot_S10000x60_S60x30_S10000x30_1_0_0_1_n_n none (val_main_v109 (F := F) x0 x1 x5 x6) (val_main_v111 (F := F) x7)

theorem val_main_v112_apply (x0 : (⟨S10000x128, .f32⟩ : BufTy).Contents (Elt Ideal)) (x1 : (⟨S2x640000, .i32⟩ : BufTy).Contents (Elt Ideal)) (x5 : (⟨S3x128x60, .f32⟩ : BufTy).Contents (Elt Ideal)) (x6 : (⟨S60, .f32⟩ : BufTy).Contents (Elt Ideal)) (x7 : (⟨S3x60x30, .f32⟩ : BufTy).Contents (Elt Ideal)) (a : Fin 10000) (b : Fin 30) :
    val_main_v112 (F := Ideal) x0 x1 x5 x6 x7 (ix2 a b) = ∑ k : Fin 60, (val_main_v109 (F := Ideal) x0 x1 x5 x6) (ix2 a k) * (val_main_v111 (F := Ideal) x7) (ix2 k b) :=
  StackMember.dotGeneral_plain_apply (m := 10000) (k := 60) (n := 30) none _ _ a b

def val_main_v113 : (⟨S10000x30, .f32⟩ : BufTy).Contents (Elt F) :=
  addf (val_main_v93 (F := F) x0 x1 x5 x6 x7) (val_main_v112 (F := F) x0 x1 x5 x6 x7)

theorem val_main_v113_apply (i : S10000x30.Idx) :
    val_main_v113 (F := F) x0 x1 x5 x6 x7 i = FloatOps.addf (val_main_v93 (F := F) x0 x1 x5 x6 x7 i) (val_main_v112 (F := F) x0 x1 x5 x6 x7 i) := rfl

def val_main_v114 : (⟨S1x30, .f32⟩ : BufTy).Contents (Elt F) :=
  broadcastInDim S1x30 ![1] bcast_S30_S1x30_1 (x8)

abbrev idx_main_v114 (i : S1x30.Idx) : S30.Idx := fun a => match a with
  | ⟨0, _⟩ => ⟨(i 1).val, (i 1).isLt⟩

theorem val_main_v114_apply (i : S1x30.Idx) :
    val_main_v114 (F := F) x8 i = x8 (idx_main_v114 i) := by
  unfold val_main_v114
  exact broadcastInDim_apply _ bcast_S30_S1x30_1 x8 i (idx_main_v114 i) (fun a => match a with
    | ⟨0, _⟩ => by show (i 1).val = if (30 : Nat) = 1 then 0 else (i 1).val; rw [if_neg (by decide)])

def val_main_v115 : (⟨S10000x30, .f32⟩ : BufTy).Contents (Elt F) :=
  broadcastInDim S10000x30 ![0, 1] bcast_S1x30_S10000x30_0_1 (val_main_v114 (F := F) x8)

abbrev idx_main_v115 (i : S10000x30.Idx) : S1x30.Idx := fun a => match a with
  | ⟨0, _⟩ => ⟨0, Nat.one_pos⟩
  | ⟨1, _⟩ => ⟨(i 1).val, (i 1).isLt⟩

theorem val_main_v115_apply (i : S10000x30.Idx) :
    val_main_v115 (F := F) x8 i = val_main_v114 (F := F) x8 (idx_main_v115 i) := by
  unfold val_main_v115
  generalize val_main_v114 (F := F) x8 = y
  exact broadcastInDim_apply _ bcast_S1x30_S10000x30_0_1 y i (idx_main_v115 i) (fun a => match a with
    | ⟨0, _⟩ => by show 0 = if (1 : Nat) = 1 then 0 else (i 0).val; rw [if_pos rfl]
    | ⟨1, _⟩ => by show (i 1).val = if (30 : Nat) = 1 then 0 else (i 1).val; rw [if_neg (by decide)])

def val_main_v116 : (⟨S10000x30, .f32⟩ : BufTy).Contents (Elt F) :=
  addf (val_main_v113 (F := F) x0 x1 x5 x6 x7) (val_main_v115 (F := F) x8)

theorem val_main_v116_apply (i : S10000x30.Idx) :
    val_main_v116 (F := F) x0 x1 x5 x6 x7 x8 i = FloatOps.addf (val_main_v113 (F := F) x0 x1 x5 x6 x7 i) (val_main_v115 (F := F) x8 i) := rfl

def val_main_v117 : (⟨S10000x30, .f32⟩ : BufTy).Contents (Elt F) :=
  Host.tanh (val_main_v116 (F := F) x0 x1 x5 x6 x7 x8)

theorem val_main_v117_apply (i : S10000x30.Idx) :
    val_main_v117 (F := F) x0 x1 x5 x6 x7 x8 i = FloatOps.hostUnary .tanh (val_main_v116 (F := F) x0 x1 x5 x6 x7 x8 i) := rfl

def val_main_v118 : (⟨S1x30x1, .f32⟩ : BufTy).Contents (Elt F) :=
  extractStridedSlice S1x30x1 ![0, 0, 0] (x9) slices_S3x30x1_S1x30x1_0_0_0

abbrev idx_main_v118 (i : S1x30x1.Idx) : S3x30x1.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩

theorem val_main_v118_apply (i : S1x30x1.Idx) :
    val_main_v118 (F := F) x9 i = x9 (idx_main_v118 i) := by
  unfold val_main_v118
  exact extractStridedSlice_apply ![0, 0, 0] x9 slices_S3x30x1_S1x30x1_0_0_0 i (idx_main_v118 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v119 : (⟨S30x1, .f32⟩ : BufTy).Contents (Elt F) :=
  shapeCast _ (val_main_v118 (F := F) x9) shapeCasts_S1x30x1_S30x1

abbrev idx_main_v119 (i : S30x1.Idx) : S1x30x1.Idx := fun a => match a with
  | ⟨0, _⟩ => ⟨0, Nat.one_pos⟩
  | ⟨1, _⟩ => ⟨((i 0).val * 1 + (i 1).val) / 1 % 30, by have h0 : (i 0).val < 30 := (i 0).isLt; have h1 : (i 1).val < 1 := (i 1).isLt; show ((i 0).val * 1 + (i 1).val) / 1 % 30 < 30; omega⟩
  | ⟨2, _⟩ => ⟨0, Nat.one_pos⟩

theorem val_main_v119_apply (i : S30x1.Idx) :
    val_main_v119 (F := F) x9 i = val_main_v118 (F := F) x9 (idx_main_v119 i) := by
  unfold val_main_v119
  generalize val_main_v118 (F := F) x9 = y
  exact shapeCast_apply y shapeCasts_S1x30x1_S30x1 i (idx_main_v119 i)
    (by rewrite [Shape.rowMajor_val_three, Shape.rowMajor_val_two]; have h0 : (i 0).val < 30 := (i 0).isLt; have h1 : (i 1).val < 1 := (i 1).isLt; show (0 * 30 + ((i 0).val * 1 + (i 1).val) / 1 % 30) * 1 + 0 = (i 0).val * 1 + (i 1).val; omega)

def val_main_v120 : (⟨S10000x1, .f32⟩ : BufTy).Contents (Elt F) :=
  Host.dotGeneral dot_S10000x30_S30x1_S10000x1_1_0_0_1_n_n none (val_main_v117 (F := F) x0 x1 x5 x6 x7 x8) (val_main_v119 (F := F) x9)

theorem val_main_v120_apply (x0 : (⟨S10000x128, .f32⟩ : BufTy).Contents (Elt Ideal)) (x1 : (⟨S2x640000, .i32⟩ : BufTy).Contents (Elt Ideal)) (x5 : (⟨S3x128x60, .f32⟩ : BufTy).Contents (Elt Ideal)) (x6 : (⟨S60, .f32⟩ : BufTy).Contents (Elt Ideal)) (x7 : (⟨S3x60x30, .f32⟩ : BufTy).Contents (Elt Ideal)) (x8 : (⟨S30, .f32⟩ : BufTy).Contents (Elt Ideal)) (x9 : (⟨S3x30x1, .f32⟩ : BufTy).Contents (Elt Ideal)) (a : Fin 10000) (b : Fin 1) :
    val_main_v120 (F := Ideal) x0 x1 x5 x6 x7 x8 x9 (ix2 a b) = ∑ k : Fin 30, (val_main_v117 (F := Ideal) x0 x1 x5 x6 x7 x8) (ix2 a k) * (val_main_v119 (F := Ideal) x9) (ix2 k b) :=
  StackMember.dotGeneral_plain_apply (m := 10000) (k := 30) (n := 1) none _ _ a b

def val_main_v121 : (⟨S640000x1, .f32⟩ : BufTy).Contents (Elt F) :=
  broadcastInDim S640000x1 ![0] bcast_S640000_S640000x1_0 (val_main_v29 (F := F) x1)

def val_main_c_21 : (⟨S_, .i32⟩ : BufTy).Contents (Elt F) :=
  constantI S_ 32 0#32

def val_main_v122 : (⟨S640000, .i32⟩ : BufTy).Contents (Elt F) :=
  broadcastInDim S640000 ![] bcast_S_S640000 (val_main_c_21 (F := F))

def val_main_v123 : (⟨S640000, .i1⟩ : BufTy).Contents (Elt F) :=
  cmpi .slt (val_main_v1 (F := F) x1) (val_main_v122 (F := F))

def val_main_c_22 : (⟨S_, .i32⟩ : BufTy).Contents (Elt F) :=
  constantI S_ 32 10000#32

def val_main_v124 : (⟨S640000, .i32⟩ : BufTy).Contents (Elt F) :=
  broadcastInDim S640000 ![] bcast_S_S640000 (val_main_c_22 (F := F))

def val_main_v125 : (⟨S640000, .i32⟩ : BufTy).Contents (Elt F) :=
  addi (val_main_v1 (F := F) x1) (val_main_v124 (F := F))

def val_main_v126 : (⟨S640000, .i32⟩ : BufTy).Contents (Elt F) :=
  select (val_main_v123 (F := F) x1) (val_main_v125 (F := F) x1) (val_main_v1 (F := F) x1)

def val_main_v127 : (⟨S640000x1, .i32⟩ : BufTy).Contents (Elt F) :=
  broadcastInDim S640000x1 ![0] bcast_S640000_S640000x1_0 (val_main_v126 (F := F) x1)

def val_main_v128 : (⟨S640000x30, .f32⟩ : BufTy).Contents (Elt F) :=
  Host.gather gather_S10000x30_S640000x1_S640000x30_1_0_n_n_0_1_130 (val_main_v117 (F := F) x0 x1 x5 x6 x7 x8) (val_main_v127 (F := F) x1)

def val_main_v129 : (⟨S640000x30, .f32⟩ : BufTy).Contents (Elt F) :=
  broadcastInDim S640000x30 ![0, 1] bcast_S640000x1_S640000x30_0_1 (val_main_v121 (F := F) x1)

def val_main_v130 : (⟨S640000x30, .f32⟩ : BufTy).Contents (Elt F) :=
  mulf (val_main_v129 (F := F) x1) (val_main_v128 (F := F) x0 x1 x5 x6 x7 x8)

def val_main_cst_23 : (⟨S_, .f32⟩ : BufTy).Contents (Elt F) :=
  constant S_ .f32 0x00000000#32

def val_main_v131 : (⟨S10000x30, .f32⟩ : BufTy).Contents (Elt F) :=
  broadcastInDim S10000x30 ![] bcast_S_S10000x30 (val_main_cst_23 (F := F))

def val_main_v132 : (⟨S640000x1, .i32⟩ : BufTy).Contents (Elt F) :=
  broadcastInDim S640000x1 ![0] bcast_S640000_S640000x1_0 (val_main_v3 (F := F) x1)

def val_main_v133 : (⟨S10000x30, .f32⟩ : BufTy).Contents (Elt F) :=
  Host.scatterAdd scatter_S10000x30_S640000x1_S640000x30_1_0_0_1 (val_main_v131 (F := F)) (val_main_v132 (F := F) x1) (val_main_v130 (F := F) x0 x1 x5 x6 x7 x8)

def val_main_v134 : (⟨S1x30x1, .f32⟩ : BufTy).Contents (Elt F) :=
  extractStridedSlice S1x30x1 ![1, 0, 0] (x9) slices_S3x30x1_S1x30x1_1_0_0

abbrev idx_main_v134 (i : S1x30x1.Idx) : S3x30x1.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩

theorem val_main_v134_apply (i : S1x30x1.Idx) :
    val_main_v134 (F := F) x9 i = x9 (idx_main_v134 i) := by
  unfold val_main_v134
  exact extractStridedSlice_apply ![1, 0, 0] x9 slices_S3x30x1_S1x30x1_1_0_0 i (idx_main_v134 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v135 : (⟨S30x1, .f32⟩ : BufTy).Contents (Elt F) :=
  shapeCast _ (val_main_v134 (F := F) x9) shapeCasts_S1x30x1_S30x1

abbrev idx_main_v135 (i : S30x1.Idx) : S1x30x1.Idx := fun a => match a with
  | ⟨0, _⟩ => ⟨0, Nat.one_pos⟩
  | ⟨1, _⟩ => ⟨((i 0).val * 1 + (i 1).val) / 1 % 30, by have h0 : (i 0).val < 30 := (i 0).isLt; have h1 : (i 1).val < 1 := (i 1).isLt; show ((i 0).val * 1 + (i 1).val) / 1 % 30 < 30; omega⟩
  | ⟨2, _⟩ => ⟨0, Nat.one_pos⟩

theorem val_main_v135_apply (i : S30x1.Idx) :
    val_main_v135 (F := F) x9 i = val_main_v134 (F := F) x9 (idx_main_v135 i) := by
  unfold val_main_v135
  generalize val_main_v134 (F := F) x9 = y
  exact shapeCast_apply y shapeCasts_S1x30x1_S30x1 i (idx_main_v135 i)
    (by rewrite [Shape.rowMajor_val_three, Shape.rowMajor_val_two]; have h0 : (i 0).val < 30 := (i 0).isLt; have h1 : (i 1).val < 1 := (i 1).isLt; show (0 * 30 + ((i 0).val * 1 + (i 1).val) / 1 % 30) * 1 + 0 = (i 0).val * 1 + (i 1).val; omega)

def val_main_v136 : (⟨S10000x1, .f32⟩ : BufTy).Contents (Elt F) :=
  Host.dotGeneral dot_S10000x30_S30x1_S10000x1_1_0_0_1_n_n none (val_main_v133 (F := F) x0 x1 x5 x6 x7 x8) (val_main_v135 (F := F) x9)

theorem val_main_v136_apply (x0 : (⟨S10000x128, .f32⟩ : BufTy).Contents (Elt Ideal)) (x1 : (⟨S2x640000, .i32⟩ : BufTy).Contents (Elt Ideal)) (x5 : (⟨S3x128x60, .f32⟩ : BufTy).Contents (Elt Ideal)) (x6 : (⟨S60, .f32⟩ : BufTy).Contents (Elt Ideal)) (x7 : (⟨S3x60x30, .f32⟩ : BufTy).Contents (Elt Ideal)) (x8 : (⟨S30, .f32⟩ : BufTy).Contents (Elt Ideal)) (x9 : (⟨S3x30x1, .f32⟩ : BufTy).Contents (Elt Ideal)) (a : Fin 10000) (b : Fin 1) :
    val_main_v136 (F := Ideal) x0 x1 x5 x6 x7 x8 x9 (ix2 a b) = ∑ k : Fin 30, (val_main_v133 (F := Ideal) x0 x1 x5 x6 x7 x8) (ix2 a k) * (val_main_v135 (F := Ideal) x9) (ix2 k b) :=
  StackMember.dotGeneral_plain_apply (m := 10000) (k := 30) (n := 1) none _ _ a b

def val_main_v137 : (⟨S10000x1, .f32⟩ : BufTy).Contents (Elt F) :=
  addf (val_main_v120 (F := F) x0 x1 x5 x6 x7 x8 x9) (val_main_v136 (F := F) x0 x1 x5 x6 x7 x8 x9)

theorem val_main_v137_apply (i : S10000x1.Idx) :
    val_main_v137 (F := F) x0 x1 x5 x6 x7 x8 x9 i = FloatOps.addf (val_main_v120 (F := F) x0 x1 x5 x6 x7 x8 x9 i) (val_main_v136 (F := F) x0 x1 x5 x6 x7 x8 x9 i) := rfl

def val_main_v138 : (⟨S640000x1, .f32⟩ : BufTy).Contents (Elt F) :=
  broadcastInDim S640000x1 ![0] bcast_S640000_S640000x1_0 (val_main_v29 (F := F) x1)

def val_main_c_24 : (⟨S_, .i32⟩ : BufTy).Contents (Elt F) :=
  constantI S_ 32 0#32

def val_main_v139 : (⟨S640000, .i32⟩ : BufTy).Contents (Elt F) :=
  broadcastInDim S640000 ![] bcast_S_S640000 (val_main_c_24 (F := F))

def val_main_v140 : (⟨S640000, .i1⟩ : BufTy).Contents (Elt F) :=
  cmpi .slt (val_main_v1 (F := F) x1) (val_main_v139 (F := F))

def val_main_c_25 : (⟨S_, .i32⟩ : BufTy).Contents (Elt F) :=
  constantI S_ 32 10000#32

def val_main_v141 : (⟨S640000, .i32⟩ : BufTy).Contents (Elt F) :=
  broadcastInDim S640000 ![] bcast_S_S640000 (val_main_c_25 (F := F))

def val_main_v142 : (⟨S640000, .i32⟩ : BufTy).Contents (Elt F) :=
  addi (val_main_v1 (F := F) x1) (val_main_v141 (F := F))

def val_main_v143 : (⟨S640000, .i32⟩ : BufTy).Contents (Elt F) :=
  select (val_main_v140 (F := F) x1) (val_main_v142 (F := F) x1) (val_main_v1 (F := F) x1)

def val_main_v144 : (⟨S640000x1, .i32⟩ : BufTy).Contents (Elt F) :=
  broadcastInDim S640000x1 ![0] bcast_S640000_S640000x1_0 (val_main_v143 (F := F) x1)

def val_main_v145 : (⟨S640000x30, .f32⟩ : BufTy).Contents (Elt F) :=
  Host.gather gather_S10000x30_S640000x1_S640000x30_1_0_n_n_0_1_130 (val_main_v133 (F := F) x0 x1 x5 x6 x7 x8) (val_main_v144 (F := F) x1)

def val_main_v146 : (⟨S640000x30, .f32⟩ : BufTy).Contents (Elt F) :=
  broadcastInDim S640000x30 ![0, 1] bcast_S640000x1_S640000x30_0_1 (val_main_v138 (F := F) x1)

def val_main_v147 : (⟨S640000x30, .f32⟩ : BufTy).Contents (Elt F) :=
  mulf (val_main_v146 (F := F) x1) (val_main_v145 (F := F) x0 x1 x5 x6 x7 x8)

def val_main_cst_26 : (⟨S_, .f32⟩ : BufTy).Contents (Elt F) :=
  constant S_ .f32 0x00000000#32

def val_main_v148 : (⟨S10000x30, .f32⟩ : BufTy).Contents (Elt F) :=
  broadcastInDim S10000x30 ![] bcast_S_S10000x30 (val_main_cst_26 (F := F))

def val_main_v149 : (⟨S640000x1, .i32⟩ : BufTy).Contents (Elt F) :=
  broadcastInDim S640000x1 ![0] bcast_S640000_S640000x1_0 (val_main_v3 (F := F) x1)

def val_main_v150 : (⟨S10000x30, .f32⟩ : BufTy).Contents (Elt F) :=
  Host.scatterAdd scatter_S10000x30_S640000x1_S640000x30_1_0_0_1 (val_main_v148 (F := F)) (val_main_v149 (F := F) x1) (val_main_v147 (F := F) x0 x1 x5 x6 x7 x8)

def val_main_cst_27 : (⟨S_, .f32⟩ : BufTy).Contents (Elt F) :=
  constant S_ .f32 0x40000000#32

theorem val_main_cst_27_apply (i : S_.Idx) :
    val_main_cst_27 (F := F) i = FloatOps.ofBits .f32 0x40000000#32 := rfl

def val_main_v151 : (⟨S10000x30, .f32⟩ : BufTy).Contents (Elt F) :=
  broadcastInDim S10000x30 ![] bcast_S_S10000x30 (val_main_cst_27 (F := F))

abbrev idx_main_v151 (i : S10000x30.Idx) : S_.Idx := fun a => a.elim0

theorem val_main_v151_apply (i : S10000x30.Idx) :
    val_main_v151 (F := F) i = val_main_cst_27 (F := F) (idx_main_v151 i) := by
  unfold val_main_v151
  generalize val_main_cst_27 (F := F) = y
  exact broadcastInDim_apply _ bcast_S_S10000x30 y i (idx_main_v151 i) (fun a => a.elim0)

def val_main_v152 : (⟨S10000x30, .f32⟩ : BufTy).Contents (Elt F) :=
  mulf (val_main_v151 (F := F)) (val_main_v150 (F := F) x0 x1 x5 x6 x7 x8)

theorem val_main_v152_apply (i : S10000x30.Idx) :
    val_main_v152 (F := F) x0 x1 x5 x6 x7 x8 i = FloatOps.mulf (val_main_v151 (F := F) i) (val_main_v150 (F := F) x0 x1 x5 x6 x7 x8 i) := rfl

def val_main_v153 : (⟨S10000x30, .f32⟩ : BufTy).Contents (Elt F) :=
  subf (val_main_v152 (F := F) x0 x1 x5 x6 x7 x8) (val_main_v117 (F := F) x0 x1 x5 x6 x7 x8)

theorem val_main_v153_apply (i : S10000x30.Idx) :
    val_main_v153 (F := F) x0 x1 x5 x6 x7 x8 i = FloatOps.subf (val_main_v152 (F := F) x0 x1 x5 x6 x7 x8 i) (val_main_v117 (F := F) x0 x1 x5 x6 x7 x8 i) := rfl

def val_main_v154 : (⟨S1x30x1, .f32⟩ : BufTy).Contents (Elt F) :=
  extractStridedSlice S1x30x1 ![2, 0, 0] (x9) slices_S3x30x1_S1x30x1_2_0_0

abbrev idx_main_v154 (i : S1x30x1.Idx) : S3x30x1.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩

theorem val_main_v154_apply (i : S1x30x1.Idx) :
    val_main_v154 (F := F) x9 i = x9 (idx_main_v154 i) := by
  unfold val_main_v154
  exact extractStridedSlice_apply ![2, 0, 0] x9 slices_S3x30x1_S1x30x1_2_0_0 i (idx_main_v154 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v155 : (⟨S30x1, .f32⟩ : BufTy).Contents (Elt F) :=
  shapeCast _ (val_main_v154 (F := F) x9) shapeCasts_S1x30x1_S30x1

abbrev idx_main_v155 (i : S30x1.Idx) : S1x30x1.Idx := fun a => match a with
  | ⟨0, _⟩ => ⟨0, Nat.one_pos⟩
  | ⟨1, _⟩ => ⟨((i 0).val * 1 + (i 1).val) / 1 % 30, by have h0 : (i 0).val < 30 := (i 0).isLt; have h1 : (i 1).val < 1 := (i 1).isLt; show ((i 0).val * 1 + (i 1).val) / 1 % 30 < 30; omega⟩
  | ⟨2, _⟩ => ⟨0, Nat.one_pos⟩

theorem val_main_v155_apply (i : S30x1.Idx) :
    val_main_v155 (F := F) x9 i = val_main_v154 (F := F) x9 (idx_main_v155 i) := by
  unfold val_main_v155
  generalize val_main_v154 (F := F) x9 = y
  exact shapeCast_apply y shapeCasts_S1x30x1_S30x1 i (idx_main_v155 i)
    (by rewrite [Shape.rowMajor_val_three, Shape.rowMajor_val_two]; have h0 : (i 0).val < 30 := (i 0).isLt; have h1 : (i 1).val < 1 := (i 1).isLt; show (0 * 30 + ((i 0).val * 1 + (i 1).val) / 1 % 30) * 1 + 0 = (i 0).val * 1 + (i 1).val; omega)

def val_main_v156 : (⟨S10000x1, .f32⟩ : BufTy).Contents (Elt F) :=
  Host.dotGeneral dot_S10000x30_S30x1_S10000x1_1_0_0_1_n_n none (val_main_v153 (F := F) x0 x1 x5 x6 x7 x8) (val_main_v155 (F := F) x9)

theorem val_main_v156_apply (x0 : (⟨S10000x128, .f32⟩ : BufTy).Contents (Elt Ideal)) (x1 : (⟨S2x640000, .i32⟩ : BufTy).Contents (Elt Ideal)) (x5 : (⟨S3x128x60, .f32⟩ : BufTy).Contents (Elt Ideal)) (x6 : (⟨S60, .f32⟩ : BufTy).Contents (Elt Ideal)) (x7 : (⟨S3x60x30, .f32⟩ : BufTy).Contents (Elt Ideal)) (x8 : (⟨S30, .f32⟩ : BufTy).Contents (Elt Ideal)) (x9 : (⟨S3x30x1, .f32⟩ : BufTy).Contents (Elt Ideal)) (a : Fin 10000) (b : Fin 1) :
    val_main_v156 (F := Ideal) x0 x1 x5 x6 x7 x8 x9 (ix2 a b) = ∑ k : Fin 30, (val_main_v153 (F := Ideal) x0 x1 x5 x6 x7 x8) (ix2 a k) * (val_main_v155 (F := Ideal) x9) (ix2 k b) :=
  StackMember.dotGeneral_plain_apply (m := 10000) (k := 30) (n := 1) none _ _ a b

def val_main_v157 : (⟨S10000x1, .f32⟩ : BufTy).Contents (Elt F) :=
  addf (val_main_v137 (F := F) x0 x1 x5 x6 x7 x8 x9) (val_main_v156 (F := F) x0 x1 x5 x6 x7 x8 x9)

theorem val_main_v157_apply (i : S10000x1.Idx) :
    val_main_v157 (F := F) x0 x1 x5 x6 x7 x8 x9 i = FloatOps.addf (val_main_v137 (F := F) x0 x1 x5 x6 x7 x8 x9 i) (val_main_v156 (F := F) x0 x1 x5 x6 x7 x8 x9 i) := rfl

def val_main_v158 : (⟨S1x1, .f32⟩ : BufTy).Contents (Elt F) :=
  broadcastInDim S1x1 ![1] bcast_S1_S1x1_1 (x10)

abbrev idx_main_v158 (i : S1x1.Idx) : S1.Idx := fun a => match a with
  | ⟨0, _⟩ => ⟨0, Nat.one_pos⟩

theorem val_main_v158_apply (i : S1x1.Idx) :
    val_main_v158 (F := F) x10 i = x10 (idx_main_v158 i) := by
  unfold val_main_v158
  exact broadcastInDim_apply _ bcast_S1_S1x1_1 x10 i (idx_main_v158 i) (fun a => match a with
    | ⟨0, _⟩ => by show 0 = if (1 : Nat) = 1 then 0 else (i 1).val; rw [if_pos rfl])

def val_main_v159 : (⟨S10000x1, .f32⟩ : BufTy).Contents (Elt F) :=
  broadcastInDim S10000x1 ![0, 1] bcast_S1x1_S10000x1_0_1 (val_main_v158 (F := F) x10)

abbrev idx_main_v159 (i : S10000x1.Idx) : S1x1.Idx := fun a => match a with
  | ⟨0, _⟩ => ⟨0, Nat.one_pos⟩
  | ⟨1, _⟩ => ⟨0, Nat.one_pos⟩

theorem val_main_v159_apply (i : S10000x1.Idx) :
    val_main_v159 (F := F) x10 i = val_main_v158 (F := F) x10 (idx_main_v159 i) := by
  unfold val_main_v159
  generalize val_main_v158 (F := F) x10 = y
  exact broadcastInDim_apply _ bcast_S1x1_S10000x1_0_1 y i (idx_main_v159 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v160 : (⟨S10000x1, .f32⟩ : BufTy).Contents (Elt F) :=
  addf (val_main_v157 (F := F) x0 x1 x5 x6 x7 x8 x9) (val_main_v159 (F := F) x10)

theorem val_main_v160_apply (i : S10000x1.Idx) :
    val_main_v160 (F := F) x0 x1 x5 x6 x7 x8 x9 x10 i = FloatOps.addf (val_main_v157 (F := F) x0 x1 x5 x6 x7 x8 x9 i) (val_main_v159 (F := F) x10 i) := rfl

def val_main_v161 : (⟨S10000x1, .f32⟩ : BufTy).Contents (Elt F) :=
  Host.tanh (val_main_v160 (F := F) x0 x1 x5 x6 x7 x8 x9 x10)

theorem val_main_v161_apply (i : S10000x1.Idx) :
    val_main_v161 (F := F) x0 x1 x5 x6 x7 x8 x9 x10 i = FloatOps.hostUnary .tanh (val_main_v160 (F := F) x0 x1 x5 x6 x7 x8 x9 x10 i) := rfl

def val_main_v162 : (⟨S1x10000, .f32⟩ : BufTy).Contents (Elt F) :=
  shapeCast _ (val_main_v161 (F := F) x0 x1 x5 x6 x7 x8 x9 x10) shapeCasts_S10000x1_S1x10000

abbrev idx_main_v162 (i : S1x10000.Idx) : S10000x1.Idx := fun a => match a with
  | ⟨0, _⟩ => ⟨((i 0).val * 10000 + (i 1).val) / 1, by have h0 : (i 0).val < 1 := (i 0).isLt; have h1 : (i 1).val < 10000 := (i 1).isLt; show ((i 0).val * 10000 + (i 1).val) / 1 < 10000; omega⟩
  | ⟨1, _⟩ => ⟨0, Nat.one_pos⟩

theorem val_main_v162_apply (i : S1x10000.Idx) :
    val_main_v162 (F := F) x0 x1 x5 x6 x7 x8 x9 x10 i = val_main_v161 (F := F) x0 x1 x5 x6 x7 x8 x9 x10 (idx_main_v162 i) := by
  unfold val_main_v162
  generalize val_main_v161 (F := F) x0 x1 x5 x6 x7 x8 x9 x10 = y
  exact shapeCast_apply y shapeCasts_S10000x1_S1x10000 i (idx_main_v162 i)
    (by rewrite [Shape.rowMajor_val_two, Shape.rowMajor_val_two]; have h0 : (i 0).val < 1 := (i 0).isLt; have h1 : (i 1).val < 10000 := (i 1).isLt; show ((i 0).val * 10000 + (i 1).val) / 1 * 1 + 0 = (i 0).val * 10000 + (i 1).val; omega)

def val_main_v163 : (⟨S1x1, .f32⟩ : BufTy).Contents (Elt F) :=
  broadcastInDim S1x1 ![1] bcast_S1_S1x1_1 (x2)

abbrev idx_main_v163 (i : S1x1.Idx) : S1.Idx := fun a => match a with
  | ⟨0, _⟩ => ⟨0, Nat.one_pos⟩

theorem val_main_v163_apply (i : S1x1.Idx) :
    val_main_v163 (F := F) x2 i = x2 (idx_main_v163 i) := by
  unfold val_main_v163
  exact broadcastInDim_apply _ bcast_S1_S1x1_1 x2 i (idx_main_v163 i) (fun a => match a with
    | ⟨0, _⟩ => by show 0 = if (1 : Nat) = 1 then 0 else (i 1).val; rw [if_pos rfl])

def val_main_v164 : (⟨S1x1, .f32⟩ : BufTy).Contents (Elt F) :=
  broadcastInDim S1x1 ![1] bcast_S1_S1x1_1 (x3)

abbrev idx_main_v164 (i : S1x1.Idx) : S1.Idx := fun a => match a with
  | ⟨0, _⟩ => ⟨0, Nat.one_pos⟩

theorem val_main_v164_apply (i : S1x1.Idx) :
    val_main_v164 (F := F) x3 i = x3 (idx_main_v164 i) := by
  unfold val_main_v164
  exact broadcastInDim_apply _ bcast_S1_S1x1_1 x3 i (idx_main_v164 i) (fun a => match a with
    | ⟨0, _⟩ => by show 0 = if (1 : Nat) = 1 then 0 else (i 1).val; rw [if_pos rfl])

def val_main_v165 : (⟨S1x1, .f32⟩ : BufTy).Contents (Elt F) :=
  broadcastInDim S1x1 ![1] bcast_S1_S1x1_1 (x4)

abbrev idx_main_v165 (i : S1x1.Idx) : S1.Idx := fun a => match a with
  | ⟨0, _⟩ => ⟨0, Nat.one_pos⟩

theorem val_main_v165_apply (i : S1x1.Idx) :
    val_main_v165 (F := F) x4 i = x4 (idx_main_v165 i) := by
  unfold val_main_v165
  exact broadcastInDim_apply _ bcast_S1_S1x1_1 x4 i (idx_main_v165 i) (fun a => match a with
    | ⟨0, _⟩ => by show 0 = if (1 : Nat) = 1 then 0 else (i 1).val; rw [if_pos rfl])

def val_main_v166 : (⟨S1x10003, .f32⟩ : BufTy).Contents (Elt F) :=
  concatenate S1x10003 1 [⟨S1x10000, (val_main_v162 (F := F) x0 x1 x5 x6 x7 x8 x9 x10)⟩, ⟨S1x1, (val_main_v163 (F := F) x2)⟩, ⟨S1x1, (val_main_v164 (F := F) x3)⟩, ⟨S1x1, (val_main_v165 (F := F) x4)⟩] concatenates_S1x10000_S1x1_S1x1_S1x1_S1x10003_d1

def val_main_v167 : (⟨S10003x10000, .f32⟩ : BufTy).Contents (Elt F) :=
  transpose S10003x10000 [1, 0] (x11) transposes_S10000x10003_S10003x10000_1_0

abbrev idx_main_v167 (i : S10003x10000.Idx) : S10000x10003.Idx := fun a => match a with
  | ⟨0, _⟩ => ⟨(i 1).val, (i 1).isLt⟩
  | ⟨1, _⟩ => ⟨(i 0).val, (i 0).isLt⟩

theorem val_main_v167_apply (i : S10003x10000.Idx) :
    val_main_v167 (F := F) x11 i = x11 (idx_main_v167 i) := by
  unfold val_main_v167
  exact transpose_apply [1, 0] x11 transposes_S10000x10003_S10003x10000_1_0 i (idx_main_v167 i) (fun b => match b with
    | ⟨0, _⟩ => rfl
    | ⟨1, _⟩ => rfl)

def val_main_v168 : (⟨S1x10000, .f32⟩ : BufTy).Contents (Elt F) :=
  Host.dotGeneral dot_S1x10003_S10003x10000_S1x10000_1_0_0_1_n_n none (val_main_v166 (F := F) x0 x1 x2 x3 x4 x5 x6 x7 x8 x9 x10) (val_main_v167 (F := F) x11)

theorem val_main_v168_apply (x0 : (⟨S10000x128, .f32⟩ : BufTy).Contents (Elt Ideal)) (x1 : (⟨S2x640000, .i32⟩ : BufTy).Contents (Elt Ideal)) (x2 x3 x4 : (⟨S1, .f32⟩ : BufTy).Contents (Elt Ideal)) (x5 : (⟨S3x128x60, .f32⟩ : BufTy).Contents (Elt Ideal)) (x6 : (⟨S60, .f32⟩ : BufTy).Contents (Elt Ideal)) (x7 : (⟨S3x60x30, .f32⟩ : BufTy).Contents (Elt Ideal)) (x8 : (⟨S30, .f32⟩ : BufTy).Contents (Elt Ideal)) (x9 : (⟨S3x30x1, .f32⟩ : BufTy).Contents (Elt Ideal)) (x10 : (⟨S1, .f32⟩ : BufTy).Contents (Elt Ideal)) (x11 : (⟨S10000x10003, .f32⟩ : BufTy).Contents (Elt Ideal)) (a : Fin 1) (b : Fin 10000) :
    val_main_v168 (F := Ideal) x0 x1 x2 x3 x4 x5 x6 x7 x8 x9 x10 x11 (ix2 a b) = ∑ k : Fin 10003, (val_main_v166 (F := Ideal) x0 x1 x2 x3 x4 x5 x6 x7 x8 x9 x10) (ix2 a k) * (val_main_v167 (F := Ideal) x11) (ix2 k b) :=
  StackMember.dotGeneral_plain_apply (m := 1) (k := 10003) (n := 10000) none _ _ a b

def val_main_v169 : (⟨S1x10000, .f32⟩ : BufTy).Contents (Elt F) :=
  broadcastInDim S1x10000 ![1] bcast_S10000_S1x10000_1 (x12)

abbrev idx_main_v169 (i : S1x10000.Idx) : S10000.Idx := fun a => match a with
  | ⟨0, _⟩ => ⟨(i 1).val, (i 1).isLt⟩

theorem val_main_v169_apply (i : S1x10000.Idx) :
    val_main_v169 (F := F) x12 i = x12 (idx_main_v169 i) := by
  unfold val_main_v169
  exact broadcastInDim_apply _ bcast_S10000_S1x10000_1 x12 i (idx_main_v169 i) (fun a => match a with
    | ⟨0, _⟩ => by show (i 1).val = if (10000 : Nat) = 1 then 0 else (i 1).val; rw [if_neg (by decide)])

def val_main_v170 : (⟨S1x10000, .f32⟩ : BufTy).Contents (Elt F) :=
  addf (val_main_v168 (F := F) x0 x1 x2 x3 x4 x5 x6 x7 x8 x9 x10 x11) (val_main_v169 (F := F) x12)

theorem val_main_v170_apply (i : S1x10000.Idx) :
    val_main_v170 (F := F) x0 x1 x2 x3 x4 x5 x6 x7 x8 x9 x10 x11 x12 i = FloatOps.addf (val_main_v168 (F := F) x0 x1 x2 x3 x4 x5 x6 x7 x8 x9 x10 x11 i) (val_main_v169 (F := F) x12 i) := rfl

def val_main_v171 : (⟨S10003x1, .f32⟩ : BufTy).Contents (Elt F) :=
  transpose S10003x1 [1, 0] (x13) transposes_S1x10003_S10003x1_1_0

abbrev idx_main_v171 (i : S10003x1.Idx) : S1x10003.Idx := fun a => match a with
  | ⟨0, _⟩ => ⟨(i 1).val, (i 1).isLt⟩
  | ⟨1, _⟩ => ⟨(i 0).val, (i 0).isLt⟩

theorem val_main_v171_apply (i : S10003x1.Idx) :
    val_main_v171 (F := F) x13 i = x13 (idx_main_v171 i) := by
  unfold val_main_v171
  exact transpose_apply [1, 0] x13 transposes_S1x10003_S10003x1_1_0 i (idx_main_v171 i) (fun b => match b with
    | ⟨0, _⟩ => rfl
    | ⟨1, _⟩ => rfl)

def val_main_v172 : (⟨S1x1, .f32⟩ : BufTy).Contents (Elt F) :=
  Host.dotGeneral dot_S1x10003_S10003x1_S1x1_1_0_0_1_n_n none (val_main_v166 (F := F) x0 x1 x2 x3 x4 x5 x6 x7 x8 x9 x10) (val_main_v171 (F := F) x13)

theorem val_main_v172_apply (x0 : (⟨S10000x128, .f32⟩ : BufTy).Contents (Elt Ideal)) (x1 : (⟨S2x640000, .i32⟩ : BufTy).Contents (Elt Ideal)) (x2 x3 x4 : (⟨S1, .f32⟩ : BufTy).Contents (Elt Ideal)) (x5 : (⟨S3x128x60, .f32⟩ : BufTy).Contents (Elt Ideal)) (x6 : (⟨S60, .f32⟩ : BufTy).Contents (Elt Ideal)) (x7 : (⟨S3x60x30, .f32⟩ : BufTy).Contents (Elt Ideal)) (x8 : (⟨S30, .f32⟩ : BufTy).Contents (Elt Ideal)) (x9 : (⟨S3x30x1, .f32⟩ : BufTy).Contents (Elt Ideal)) (x10 : (⟨S1, .f32⟩ : BufTy).Contents (Elt Ideal)) (x13 : (⟨S1x10003, .f32⟩ : BufTy).Contents (Elt Ideal)) (a : Fin 1) (b : Fin 1) :
    val_main_v172 (F := Ideal) x0 x1 x2 x3 x4 x5 x6 x7 x8 x9 x10 x13 (ix2 a b) = ∑ k : Fin 10003, (val_main_v166 (F := Ideal) x0 x1 x2 x3 x4 x5 x6 x7 x8 x9 x10) (ix2 a k) * (val_main_v171 (F := Ideal) x13) (ix2 k b) :=
  StackMember.dotGeneral_plain_apply (m := 1) (k := 10003) (n := 1) none _ _ a b

def val_main_v173 : (⟨S1x1, .f32⟩ : BufTy).Contents (Elt F) :=
  broadcastInDim S1x1 ![1] bcast_S1_S1x1_1 (x14)

abbrev idx_main_v173 (i : S1x1.Idx) : S1.Idx := fun a => match a with
  | ⟨0, _⟩ => ⟨0, Nat.one_pos⟩

theorem val_main_v173_apply (i : S1x1.Idx) :
    val_main_v173 (F := F) x14 i = x14 (idx_main_v173 i) := by
  unfold val_main_v173
  exact broadcastInDim_apply _ bcast_S1_S1x1_1 x14 i (idx_main_v173 i) (fun a => match a with
    | ⟨0, _⟩ => by show 0 = if (1 : Nat) = 1 then 0 else (i 1).val; rw [if_pos rfl])

def val_main_v174 : (⟨S1x1, .f32⟩ : BufTy).Contents (Elt F) :=
  addf (val_main_v172 (F := F) x0 x1 x2 x3 x4 x5 x6 x7 x8 x9 x10 x13) (val_main_v173 (F := F) x14)

theorem val_main_v174_apply (i : S1x1.Idx) :
    val_main_v174 (F := F) x0 x1 x2 x3 x4 x5 x6 x7 x8 x9 x10 x13 x14 i = FloatOps.addf (val_main_v172 (F := F) x0 x1 x2 x3 x4 x5 x6 x7 x8 x9 x10 x13 i) (val_main_v173 (F := F) x14 i) := rfl

end Cert.ReferenceIdeal.Read

end
-- ==== Proof.RefOps.lean ====
import proofs.«430353_j22832046146023_3_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev c0 : List (HloOp τ sig (Elt F)) :=
  [ unary main_arg1 main_v0 ((extractStridedSlice S1x640000 ![0, 0] · slices_S2x640000_S1x640000_0_0)),
    reshape main_v0 main_v1 rfl shapeCasts_S1x640000_S640000,
    unary main_arg1 main_v2 ((extractStridedSlice S1x640000 ![1, 0] · slices_S2x640000_S1x640000_1_0)),
    reshape main_v2 main_v3 rfl shapeCasts_S1x640000_S640000,
    nullary main_cst (constant S_ .f32 0x3F800000#32),
    unary main_cst main_v4 (broadcastInDim S640000 ![] bcast_S_S640000),
    nullary main_cst_0 (constant S_ .f32 0x00000000#32),
    unary main_cst_0 main_v5 (broadcastInDim S10000 ![] bcast_S_S10000),
    unary main_v3 main_v6 (broadcastInDim S640000x1 ![0] bcast_S640000_S640000x1_0),
    ternary main_v5 main_v6 main_v4 main_v7 ((fun x i u => Host.scatterAdd scatter_S10000_S640000x1_S640000_n_0_0_1 x i u)),
    nullary main_cst_1 (constant S_ .f32 0x00000000#32),
    unary main_cst_1 main_v8 (broadcastInDim S10000 ![] bcast_S_S10000),
    binary main_v7 main_v8 main_v9 (cmpf (F := F) .ogt),
    unary main_v7 main_v10 (Host.sqrt),
    nullary main_cst_2 (constant S_ .f32 0x3F800000#32),
    unary main_cst_2 main_v11 (broadcastInDim S10000 ![] bcast_S_S10000),
    binary main_v11 main_v10 main_v12 (Host.divf),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v9) (TRef.of (T := ⟨S10000, .f32⟩) main_v12) (TRef.of (T := ⟨S10000, .f32⟩) main_call0_v1) (TRef.of (T := ⟨S10000, .f32⟩) main_v13) select,
    nullary main_c (constantI S_ 32 0#32),
    unary main_c main_v14 (broadcastInDim S640000 ![] bcast_S_S640000),
    binary main_v1 main_v14 main_v15 (cmpi .slt),
    nullary main_c_4 (constantI S_ 32 10000#32),
    unary main_c_4 main_v16 (broadcastInDim S640000 ![] bcast_S_S640000),
    binary main_v1 main_v16 main_v17 (addi),
    ternary main_v15 main_v17 main_v1 main_v18 (select),
    unary main_v18 main_v19 (broadcastInDim S640000x1 ![0] bcast_S640000_S640000x1_0),
    binary main_v13 main_v19 main_v20 ((fun x i => Host.gather gather_S10000_S640000x1_S640000_n_0_n_n_0_1_1 x i)),
    unary main_v20 main_v21 (Host.negf),
    nullary main_c_5 (constantI S_ 32 0#32),
    unary main_c_5 main_v22 (broadcastInDim S640000 ![] bcast_S_S640000),
    binary main_v3 main_v22 main_v23 (cmpi .slt),
    nullary main_c_6 (constantI S_ 32 10000#32),
    unary main_c_6 main_v24 (broadcastInDim S640000 ![] bcast_S_S640000),
    binary main_v3 main_v24 main_v25 (addi),
    ternary main_v23 main_v25 main_v3 main_v26 (select),
    unary main_v26 main_v27 (broadcastInDim S640000x1 ![0] bcast_S640000_S640000x1_0),
    binary main_v13 main_v27 main_v28 ((fun x i => Host.gather gather_S10000_S640000x1_S640000_n_0_n_n_0_1_1 x i)),
    binary main_v21 main_v28 main_v29 (mulf) ]

abbrev c1 : List (HloOp τ sig (Elt F)) :=
  [ unary main_arg5 main_v30 ((extractStridedSlice S1x128x60 ![0, 0, 0] · slices_S3x128x60_S1x128x60_0_0_0)),
    reshape main_v30 main_v31 rfl shapeCasts_S1x128x60_S128x60,
    binary main_arg0 main_v31 main_v32 ((fun l r => Host.dotGeneral dot_S10000x128_S128x60_S10000x60_1_0_0_1_n_n none l r)),
    unary main_v29 main_v33 (broadcastInDim S640000x1 ![0] bcast_S640000_S640000x1_0),
    nullary main_c_7 (constantI S_ 32 0#32),
    unary main_c_7 main_v34 (broadcastInDim S640000 ![] bcast_S_S640000),
    binary main_v1 main_v34 main_v35 (cmpi .slt),
    nullary main_c_8 (constantI S_ 32 10000#32),
    unary main_c_8 main_v36 (broadcastInDim S640000 ![] bcast_S_S640000),
    binary main_v1 main_v36 main_v37 (addi),
    ternary main_v35 main_v37 main_v1 main_v38 (select),
    unary main_v38 main_v39 (broadcastInDim S640000x1 ![0] bcast_S640000_S640000x1_0),
    binary main_arg0 main_v39 main_v40 ((fun x i => Host.gather gather_S10000x128_S640000x1_S640000x128_1_0_n_n_0_1_1128 x i)),
    unary main_v33 main_v41 (broadcastInDim S640000x128 ![0, 1] bcast_S640000x1_S640000x128_0_1),
    binary main_v41 main_v40 main_v42 (mulf),
    nullary main_cst_9 (constant S_ .f32 0x00000000#32),
    unary main_cst_9 main_v43 (broadcastInDim S10000x128 ![] bcast_S_S10000x128),
    unary main_v3 main_v44 (broadcastInDim S640000x1 ![0] bcast_S640000_S640000x1_0),
    ternary main_v43 main_v44 main_v42 main_v45 ((fun x i u => Host.scatterAdd scatter_S10000x128_S640000x1_S640000x128_1_0_0_1 x i u)),
    unary main_arg5 main_v46 ((extractStridedSlice S1x128x60 ![1, 0, 0] · slices_S3x128x60_S1x128x60_1_0_0)),
    reshape main_v46 main_v47 rfl shapeCasts_S1x128x60_S128x60,
    binary main_v45 main_v47 main_v48 ((fun l r => Host.dotGeneral dot_S10000x128_S128x60_S10000x60_1_0_0_1_n_n none l r)),
    binary main_v32 main_v48 main_v49 (addf),
    unary main_v29 main_v50 (broadcastInDim S640000x1 ![0] bcast_S640000_S640000x1_0),
    nullary main_c_10 (constantI S_ 32 0#32),
    unary main_c_10 main_v51 (broadcastInDim S640000 ![] bcast_S_S640000),
    binary main_v1 main_v51 main_v52 (cmpi .slt),
    nullary main_c_11 (constantI S_ 32 10000#32),
    unary main_c_11 main_v53 (broadcastInDim S640000 ![] bcast_S_S640000),
    binary main_v1 main_v53 main_v54 (addi),
    ternary main_v52 main_v54 main_v1 main_v55 (select),
    unary main_v55 main_v56 (broadcastInDim S640000x1 ![0] bcast_S640000_S640000x1_0),
    binary main_v45 main_v56 main_v57 ((fun x i => Host.gather gather_S10000x128_S640000x1_S640000x128_1_0_n_n_0_1_1128 x i)),
    unary main_v50 main_v58 (broadcastInDim S640000x128 ![0, 1] bcast_S640000x1_S640000x128_0_1),
    binary main_v58 main_v57 main_v59 (mulf),
    nullary main_cst_12 (constant S_ .f32 0x00000000#32),
    unary main_cst_12 main_v60 (broadcastInDim S10000x128 ![] bcast_S_S10000x128),
    unary main_v3 main_v61 (broadcastInDim S640000x1 ![0] bcast_S640000_S640000x1_0),
    ternary main_v60 main_v61 main_v59 main_v62 ((fun x i u => Host.scatterAdd scatter_S10000x128_S640000x1_S640000x128_1_0_0_1 x i u)),
    nullary main_cst_13 (constant S_ .f32 0x40000000#32),
    unary main_cst_13 main_v63 (broadcastInDim S10000x128 ![] bcast_S_S10000x128),
    binary main_v63 main_v62 main_v64 (mulf),
    binary main_v64 main_arg0 main_v65 (subf),
    unary main_arg5 main_v66 ((extractStridedSlice S1x128x60 ![2, 0, 0] · slices_S3x128x60_S1x128x60_2_0_0)),
    reshape main_v66 main_v67 rfl shapeCasts_S1x128x60_S128x60,
    binary main_v65 main_v67 main_v68 ((fun l r => Host.dotGeneral dot_S10000x128_S128x60_S10000x60_1_0_0_1_n_n none l r)),
    binary main_v49 main_v68 main_v69 (addf),
    unary main_arg6 main_v70 (broadcastInDim S1x60 ![1] bcast_S60_S1x60_1),
    unary main_v70 main_v71 (broadcastInDim S10000x60 ![0, 1] bcast_S1x60_S10000x60_0_1),
    binary main_v69 main_v71 main_v72 (addf),
    unary main_v72 main_v73 (Host.tanh) ]

abbrev c2 : List (HloOp τ sig (Elt F)) :=
  [ unary main_arg7 main_v74 ((extractStridedSlice S1x60x30 ![0, 0, 0] · slices_S3x60x30_S1x60x30_0_0_0)),
    reshape main_v74 main_v75 rfl shapeCasts_S1x60x30_S60x30,
    binary main_v73 main_v75 main_v76 ((fun l r => Host.dotGeneral dot_S10000x60_S60x30_S10000x30_1_0_0_1_n_n none l r)),
    unary main_v29 main_v77 (broadcastInDim S640000x1 ![0] bcast_S640000_S640000x1_0),
    nullary main_c_14 (constantI S_ 32 0#32),
    unary main_c_14 main_v78 (broadcastInDim S640000 ![] bcast_S_S640000),
    binary main_v1 main_v78 main_v79 (cmpi .slt),
    nullary main_c_15 (constantI S_ 32 10000#32),
    unary main_c_15 main_v80 (broadcastInDim S640000 ![] bcast_S_S640000),
    binary main_v1 main_v80 main_v81 (addi),
    ternary main_v79 main_v81 main_v1 main_v82 (select),
    unary main_v82 main_v83 (broadcastInDim S640000x1 ![0] bcast_S640000_S640000x1_0),
    binary main_v73 main_v83 main_v84 ((fun x i => Host.gather gather_S10000x60_S640000x1_S640000x60_1_0_n_n_0_1_160 x i)),
    unary main_v77 main_v85 (broadcastInDim S640000x60 ![0, 1] bcast_S640000x1_S640000x60_0_1),
    binary main_v85 main_v84 main_v86 (mulf),
    nullary main_cst_16 (constant S_ .f32 0x00000000#32),
    unary main_cst_16 main_v87 (broadcastInDim S10000x60 ![] bcast_S_S10000x60),
    unary main_v3 main_v88 (broadcastInDim S640000x1 ![0] bcast_S640000_S640000x1_0),
    ternary main_v87 main_v88 main_v86 main_v89 ((fun x i u => Host.scatterAdd scatter_S10000x60_S640000x1_S640000x60_1_0_0_1 x i u)),
    unary main_arg7 main_v90 ((extractStridedSlice S1x60x30 ![1, 0, 0] · slices_S3x60x30_S1x60x30_1_0_0)),
    reshape main_v90 main_v91 rfl shapeCasts_S1x60x30_S60x30,
    binary main_v89 main_v91 main_v92 ((fun l r => Host.dotGeneral dot_S10000x60_S60x30_S10000x30_1_0_0_1_n_n none l r)),
    binary main_v76 main_v92 main_v93 (addf),
    unary main_v29 main_v94 (broadcastInDim S640000x1 ![0] bcast_S640000_S640000x1_0),
    nullary main_c_17 (constantI S_ 32 0#32),
    unary main_c_17 main_v95 (broadcastInDim S640000 ![] bcast_S_S640000),
    binary main_v1 main_v95 main_v96 (cmpi .slt),
    nullary main_c_18 (constantI S_ 32 10000#32),
    unary main_c_18 main_v97 (broadcastInDim S640000 ![] bcast_S_S640000),
    binary main_v1 main_v97 main_v98 (addi),
    ternary main_v96 main_v98 main_v1 main_v99 (select),
    unary main_v99 main_v100 (broadcastInDim S640000x1 ![0] bcast_S640000_S640000x1_0),
    binary main_v89 main_v100 main_v101 ((fun x i => Host.gather gather_S10000x60_S640000x1_S640000x60_1_0_n_n_0_1_160 x i)),
    unary main_v94 main_v102 (broadcastInDim S640000x60 ![0, 1] bcast_S640000x1_S640000x60_0_1),
    binary main_v102 main_v101 main_v103 (mulf),
    nullary main_cst_19 (constant S_ .f32 0x00000000#32),
    unary main_cst_19 main_v104 (broadcastInDim S10000x60 ![] bcast_S_S10000x60),
    unary main_v3 main_v105 (broadcastInDim S640000x1 ![0] bcast_S640000_S640000x1_0),
    ternary main_v104 main_v105 main_v103 main_v106 ((fun x i u => Host.scatterAdd scatter_S10000x60_S640000x1_S640000x60_1_0_0_1 x i u)),
    nullary main_cst_20 (constant S_ .f32 0x40000000#32),
    unary main_cst_20 main_v107 (broadcastInDim S10000x60 ![] bcast_S_S10000x60),
    binary main_v107 main_v106 main_v108 (mulf),
    binary main_v108 main_v73 main_v109 (subf),
    unary main_arg7 main_v110 ((extractStridedSlice S1x60x30 ![2, 0, 0] · slices_S3x60x30_S1x60x30_2_0_0)),
    reshape main_v110 main_v111 rfl shapeCasts_S1x60x30_S60x30,
    binary main_v109 main_v111 main_v112 ((fun l r => Host.dotGeneral dot_S10000x60_S60x30_S10000x30_1_0_0_1_n_n none l r)),
    binary main_v93 main_v112 main_v113 (addf),
    unary main_arg8 main_v114 (broadcastInDim S1x30 ![1] bcast_S30_S1x30_1),
    unary main_v114 main_v115 (broadcastInDim S10000x30 ![0, 1] bcast_S1x30_S10000x30_0_1),
    binary main_v113 main_v115 main_v116 (addf),
    unary main_v116 main_v117 (Host.tanh) ]

abbrev c3 : List (HloOp τ sig (Elt F)) :=
  [ unary main_arg9 main_v118 ((extractStridedSlice S1x30x1 ![0, 0, 0] · slices_S3x30x1_S1x30x1_0_0_0)),
    reshape main_v118 main_v119 rfl shapeCasts_S1x30x1_S30x1,
    binary main_v117 main_v119 main_v120 ((fun l r => Host.dotGeneral dot_S10000x30_S30x1_S10000x1_1_0_0_1_n_n none l r)),
    unary main_v29 main_v121 (broadcastInDim S640000x1 ![0] bcast_S640000_S640000x1_0),
    nullary main_c_21 (constantI S_ 32 0#32),
    unary main_c_21 main_v122 (broadcastInDim S640000 ![] bcast_S_S640000),
    binary main_v1 main_v122 main_v123 (cmpi .slt),
    nullary main_c_22 (constantI S_ 32 10000#32),
    unary main_c_22 main_v124 (broadcastInDim S640000 ![] bcast_S_S640000),
    binary main_v1 main_v124 main_v125 (addi),
    ternary main_v123 main_v125 main_v1 main_v126 (select),
    unary main_v126 main_v127 (broadcastInDim S640000x1 ![0] bcast_S640000_S640000x1_0),
    binary main_v117 main_v127 main_v128 ((fun x i => Host.gather gather_S10000x30_S640000x1_S640000x30_1_0_n_n_0_1_130 x i)),
    unary main_v121 main_v129 (broadcastInDim S640000x30 ![0, 1] bcast_S640000x1_S640000x30_0_1),
    binary main_v129 main_v128 main_v130 (mulf),
    nullary main_cst_23 (constant S_ .f32 0x00000000#32),
    unary main_cst_23 main_v131 (broadcastInDim S10000x30 ![] bcast_S_S10000x30),
    unary main_v3 main_v132 (broadcastInDim S640000x1 ![0] bcast_S640000_S640000x1_0),
    ternary main_v131 main_v132 main_v130 main_v133 ((fun x i u => Host.scatterAdd scatter_S10000x30_S640000x1_S640000x30_1_0_0_1 x i u)),
    unary main_arg9 main_v134 ((extractStridedSlice S1x30x1 ![1, 0, 0] · slices_S3x30x1_S1x30x1_1_0_0)),
    reshape main_v134 main_v135 rfl shapeCasts_S1x30x1_S30x1,
    binary main_v133 main_v135 main_v136 ((fun l r => Host.dotGeneral dot_S10000x30_S30x1_S10000x1_1_0_0_1_n_n none l r)),
    binary main_v120 main_v136 main_v137 (addf),
    unary main_v29 main_v138 (broadcastInDim S640000x1 ![0] bcast_S640000_S640000x1_0),
    nullary main_c_24 (constantI S_ 32 0#32),
    unary main_c_24 main_v139 (broadcastInDim S640000 ![] bcast_S_S640000),
    binary main_v1 main_v139 main_v140 (cmpi .slt),
    nullary main_c_25 (constantI S_ 32 10000#32),
    unary main_c_25 main_v141 (broadcastInDim S640000 ![] bcast_S_S640000),
    binary main_v1 main_v141 main_v142 (addi),
    ternary main_v140 main_v142 main_v1 main_v143 (select),
    unary main_v143 main_v144 (broadcastInDim S640000x1 ![0] bcast_S640000_S640000x1_0),
    binary main_v133 main_v144 main_v145 ((fun x i => Host.gather gather_S10000x30_S640000x1_S640000x30_1_0_n_n_0_1_130 x i)),
    unary main_v138 main_v146 (broadcastInDim S640000x30 ![0, 1] bcast_S640000x1_S640000x30_0_1),
    binary main_v146 main_v145 main_v147 (mulf),
    nullary main_cst_26 (constant S_ .f32 0x00000000#32),
    unary main_cst_26 main_v148 (broadcastInDim S10000x30 ![] bcast_S_S10000x30),
    unary main_v3 main_v149 (broadcastInDim S640000x1 ![0] bcast_S640000_S640000x1_0),
    ternary main_v148 main_v149 main_v147 main_v150 ((fun x i u => Host.scatterAdd scatter_S10000x30_S640000x1_S640000x30_1_0_0_1 x i u)),
    nullary main_cst_27 (constant S_ .f32 0x40000000#32),
    unary main_cst_27 main_v151 (broadcastInDim S10000x30 ![] bcast_S_S10000x30),
    binary main_v151 main_v150 main_v152 (mulf),
    binary main_v152 main_v117 main_v153 (subf),
    unary main_arg9 main_v154 ((extractStridedSlice S1x30x1 ![2, 0, 0] · slices_S3x30x1_S1x30x1_2_0_0)),
    reshape main_v154 main_v155 rfl shapeCasts_S1x30x1_S30x1,
    binary main_v153 main_v155 main_v156 ((fun l r => Host.dotGeneral dot_S10000x30_S30x1_S10000x1_1_0_0_1_n_n none l r)),
    binary main_v137 main_v156 main_v157 (addf),
    unary main_arg10 main_v158 (broadcastInDim S1x1 ![1] bcast_S1_S1x1_1),
    unary main_v158 main_v159 (broadcastInDim S10000x1 ![0, 1] bcast_S1x1_S10000x1_0_1),
    binary main_v157 main_v159 main_v160 (addf),
    unary main_v160 main_v161 (Host.tanh) ]

abbrev c4 : List (HloOp τ sig (Elt F)) :=
  [ reshape main_v161 main_v162 rfl shapeCasts_S10000x1_S1x10000,
    unary main_arg2 main_v163 (broadcastInDim S1x1 ![1] bcast_S1_S1x1_1),
    unary main_arg3 main_v164 (broadcastInDim S1x1 ![1] bcast_S1_S1x1_1),
    unary main_arg4 main_v165 (broadcastInDim S1x1 ![1] bcast_S1_S1x1_1),
    nary ![main_v162, main_v163, main_v164, main_v165] main_v166 (fun u => concatenate S1x10003 1 [⟨S1x10000, u 0⟩, ⟨S1x1, u 1⟩, ⟨S1x1, u 2⟩, ⟨S1x1, u 3⟩] concatenates_S1x10000_S1x1_S1x1_S1x1_S1x10003_d1),
    unary main_arg11 main_v167 ((transpose S10003x10000 [1, 0] · transposes_S10000x10003_S10003x10000_1_0)),
    binary main_v166 main_v167 main_v168 ((fun l r => Host.dotGeneral dot_S1x10003_S10003x10000_S1x10000_1_0_0_1_n_n none l r)),
    unary main_arg12 main_v169 (broadcastInDim S1x10000 ![1] bcast_S10000_S1x10000_1),
    binary main_v168 main_v169 main_v170 (addf),
    unary main_arg13 main_v171 ((transpose S10003x1 [1, 0] · transposes_S1x10003_S10003x1_1_0)),
    binary main_v166 main_v171 main_v172 ((fun l r => Host.dotGeneral dot_S1x10003_S10003x1_S1x1_1_0_0_1_n_n none l r)),
    unary main_arg14 main_v173 (broadcastInDim S1x1 ![1] bcast_S1_S1x1_1),
    binary main_v172 main_v173 main_v174 (addf) ]

abbrev ops : List (HloOp τ sig (Elt F)) := c0 ++ c1 ++ c2 ++ c3 ++ c4

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., unary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., unary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., unary_bufs_sub .., reshape_bufs_sub .., unary_bufs_sub .., unary_bufs_sub .., unary_bufs_sub .., nary_bufs_sub .., unary_bufs_sub .., binary_bufs_sub .., unary_bufs_sub .., binary_bufs_sub .., unary_bufs_sub .., binary_bufs_sub .., unary_bufs_sub .., binary_bufs_sub ..⟩

theorem ops_split : (ops : List (HloOp τ sig (Elt F))) = c0 ++ c1 ++ c2 ++ c3 ++ c4 := rfl

end Cert.ReferenceIdeal.Value

end
-- ==== Proof.LibWrites.lean ====
import Idealize.ShloMosaic.Lib.StableHlo.Run

namespace Cert.Lib

open Idealize.ShloMosaic Idealize.ShloMosaic.StableHlo

variable {nD : Nat} {τ : Topo} {sig : RefSig} {Val : EltTy → Type}

/-- A reference that is none of the single references a line's operations write, one each, keeps its contents. -/
theorem after_of_writes_eq {L : List (Ref sig .tc)} {r : Ref sig .tc} (ops : List (HloOp τ sig Val)) (V : Valuation τ sig Val)
    (h : ops.map (·.writes) = L.map fun r => {Proc.devRef (τ := τ) .tc r}) (hr : r ∉ L) :
    after ops V (Proc.devRef .tc r) = V (Proc.devRef .tc r) :=
  after_of_writes_sub ops V (List.forall_iff_forall_mem.mpr fun op hop => by
    obtain ⟨y, hy, e⟩ := List.mem_map.mp (h ▸ List.mem_map_of_mem hop : op.writes ∈ L.map _)
    rw [← e, Finset.singleton_subset_iff, List.mem_toFinset]
    exact List.mem_map_of_mem hy) hr

end Cert.Lib
-- ==== Proof.RefC0.lean ====
import proofs.«430353_j22832046146023_3_alg».proof.Proof.RefRead
import proofs.«430353_j22832046146023_3_alg».proof.Proof.RefOps
import proofs.«430353_j22832046146023_3_alg».proof.Proof.LibWrites

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem c0_edge (W : Valuation τ sig (Elt F))
    (x1 : (⟨S2x640000, .i32⟩ : BufTy).Contents (Elt F))
    (ha1 : W (Proc.devRef .tc main_arg1) = x1) :
    after (c0 (F := F)) W (Proc.devRef .tc main_v1) = Read.val_main_v1 (F := F) x1
      ∧ after (c0 (F := F)) W (Proc.devRef .tc main_v3) = Read.val_main_v3 (F := F) x1
      ∧ after (c0 (F := F)) W (Proc.devRef .tc main_v29) = Read.val_main_v29 (F := F) x1 := by
  subst ha1
  refine ⟨?_, ?_, ?_⟩
  all_goals
    after_results_simp
    (try simp only [TRef.ofBuf, TRef.toBuf, cast_eq])
    rfl

abbrev c0_written : List (Ref sig .tc) :=
  [main_v0, main_v1, main_v2, main_v3, main_cst, main_v4, main_cst_0, main_v5, main_v6, main_v7, main_cst_1, main_v8, main_v9, main_v10, main_cst_2, main_v11, main_v12, main_cst_3, main_call0_v0, main_call0_v1, main_v13, main_c, main_v14, main_v15, main_c_4, main_v16, main_v17, main_v18, main_v19, main_v20, main_v21, main_c_5, main_v22, main_v23, main_c_6, main_v24, main_v25, main_v26, main_v27, main_v28, main_v29]

theorem c0_frame (W : Valuation τ sig (Elt F)) {r : Ref sig .tc} (hr : r ∉ c0_written) :
    after (c0 (F := F)) W (Proc.devRef .tc r) = W (Proc.devRef .tc r) :=
  Cert.Lib.after_of_writes_eq c0 W rfl hr

end Cert.ReferenceIdeal.Value

end
-- ==== Proof.RefC1.lean ====
import proofs.«430353_j22832046146023_3_alg».proof.Proof.RefRead
import proofs.«430353_j22832046146023_3_alg».proof.Proof.RefOps
import proofs.«430353_j22832046146023_3_alg».proof.Proof.LibWrites

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem c1_v73 (W : Valuation τ sig (Elt F))
    (x0 : (⟨S10000x128, .f32⟩ : BufTy).Contents (Elt F)) (x1 : (⟨S2x640000, .i32⟩ : BufTy).Contents (Elt F)) (x5 : (⟨S3x128x60, .f32⟩ : BufTy).Contents (Elt F)) (x6 : (⟨S60, .f32⟩ : BufTy).Contents (Elt F))
    (ha0 : W (Proc.devRef .tc main_arg0) = x0) (ha5 : W (Proc.devRef .tc main_arg5) = x5) (ha6 : W (Proc.devRef .tc main_arg6) = x6) (h1 : W (Proc.devRef .tc main_v1) = Read.val_main_v1 (F := F) x1) (h3 : W (Proc.devRef .tc main_v3) = Read.val_main_v3 (F := F) x1) (h29 : W (Proc.devRef .tc main_v29) = Read.val_main_v29 (F := F) x1) :
    after (c1 (F := F)) W (Proc.devRef .tc main_v73) = Read.val_main_v73 (F := F) x0 x1 x5 x6 := by
  after_results_simp
  rw [ha0, ha5, ha6, h1, h3, h29]
  rfl

abbrev c1_written : List (Ref sig .tc) :=
  [main_v30, main_v31, main_v32, main_v33, main_c_7, main_v34, main_v35, main_c_8, main_v36, main_v37, main_v38, main_v39, main_v40, main_v41, main_v42, main_cst_9, main_v43, main_v44, main_v45, main_v46, main_v47, main_v48, main_v49, main_v50, main_c_10, main_v51, main_v52, main_c_11, main_v53, main_v54, main_v55, main_v56, main_v57, main_v58, main_v59, main_cst_12, main_v60, main_v61, main_v62, main_cst_13, main_v63, main_v64, main_v65, main_v66, main_v67, main_v68, main_v69, main_v70, main_v71, main_v72, main_v73]

theorem c1_frame (W : Valuation τ sig (Elt F)) {r : Ref sig .tc} (hr : r ∉ c1_written) :
    after (c1 (F := F)) W (Proc.devRef .tc r) = W (Proc.devRef .tc r) :=
  Cert.Lib.after_of_writes_eq c1 W rfl hr

end Cert.ReferenceIdeal.Value

end
-- ==== Proof.RefC2.lean ====
import proofs.«430353_j22832046146023_3_alg».proof.Proof.RefRead
import proofs.«430353_j22832046146023_3_alg».proof.Proof.RefOps
import proofs.«430353_j22832046146023_3_alg».proof.Proof.LibWrites

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem c2_v117 (W : Valuation τ sig (Elt F))
    (x0 : (⟨S10000x128, .f32⟩ : BufTy).Contents (Elt F)) (x1 : (⟨S2x640000, .i32⟩ : BufTy).Contents (Elt F)) (x5 : (⟨S3x128x60, .f32⟩ : BufTy).Contents (Elt F)) (x6 : (⟨S60, .f32⟩ : BufTy).Contents (Elt F)) (x7 : (⟨S3x60x30, .f32⟩ : BufTy).Contents (Elt F)) (x8 : (⟨S30, .f32⟩ : BufTy).Contents (Elt F))
    (ha7 : W (Proc.devRef .tc main_arg7) = x7) (ha8 : W (Proc.devRef .tc main_arg8) = x8) (h1 : W (Proc.devRef .tc main_v1) = Read.val_main_v1 (F := F) x1) (h3 : W (Proc.devRef .tc main_v3) = Read.val_main_v3 (F := F) x1) (h29 : W (Proc.devRef .tc main_v29) = Read.val_main_v29 (F := F) x1) (h73 : W (Proc.devRef .tc main_v73) = Read.val_main_v73 (F := F) x0 x1 x5 x6) :
    after (c2 (F := F)) W (Proc.devRef .tc main_v117) = Read.val_main_v117 (F := F) x0 x1 x5 x6 x7 x8 := by
  after_results_simp
  rw [ha7, ha8, h1, h3, h29, h73]
  rfl

abbrev c2_written : List (Ref sig .tc) :=
  [main_v74, main_v75, main_v76, main_v77, main_c_14, main_v78, main_v79, main_c_15, main_v80, main_v81, main_v82, main_v83, main_v84, main_v85, main_v86, main_cst_16, main_v87, main_v88, main_v89, main_v90, main_v91, main_v92, main_v93, main_v94, main_c_17, main_v95, main_v96, main_c_18, main_v97, main_v98, main_v99, main_v100, main_v101, main_v102, main_v103, main_cst_19, main_v104, main_v105, main_v106, main_cst_20, main_v107, main_v108, main_v109, main_v110, main_v111, main_v112, main_v113, main_v114, main_v115, main_v116, main_v117]

theorem c2_frame (W : Valuation τ sig (Elt F)) {r : Ref sig .tc} (hr : r ∉ c2_written) :
    after (c2 (F := F)) W (Proc.devRef .tc r) = W (Proc.devRef .tc r) :=
  Cert.Lib.after_of_writes_eq c2 W rfl hr

end Cert.ReferenceIdeal.Value

end
-- ==== Proof.RefC3.lean ====
import proofs.«430353_j22832046146023_3_alg».proof.Proof.RefRead
import proofs.«430353_j22832046146023_3_alg».proof.Proof.RefOps
import proofs.«430353_j22832046146023_3_alg».proof.Proof.LibWrites

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem c3_v161 (W : Valuation τ sig (Elt F))
    (x0 : (⟨S10000x128, .f32⟩ : BufTy).Contents (Elt F)) (x1 : (⟨S2x640000, .i32⟩ : BufTy).Contents (Elt F)) (x5 : (⟨S3x128x60, .f32⟩ : BufTy).Contents (Elt F)) (x6 : (⟨S60, .f32⟩ : BufTy).Contents (Elt F)) (x7 : (⟨S3x60x30, .f32⟩ : BufTy).Contents (Elt F)) (x8 : (⟨S30, .f32⟩ : BufTy).Contents (Elt F)) (x9 : (⟨S3x30x1, .f32⟩ : BufTy).Contents (Elt F)) (x10 : (⟨S1, .f32⟩ : BufTy).Contents (Elt F))
    (ha9 : W (Proc.devRef .tc main_arg9) = x9) (ha10 : W (Proc.devRef .tc main_arg10) = x10) (h1 : W (Proc.devRef .tc main_v1) = Read.val_main_v1 (F := F) x1) (h3 : W (Proc.devRef .tc main_v3) = Read.val_main_v3 (F := F) x1) (h29 : W (Proc.devRef .tc main_v29) = Read.val_main_v29 (F := F) x1) (h117 : W (Proc.devRef .tc main_v117) = Read.val_main_v117 (F := F) x0 x1 x5 x6 x7 x8) :
    after (c3 (F := F)) W (Proc.devRef .tc main_v161) = Read.val_main_v161 (F := F) x0 x1 x5 x6 x7 x8 x9 x10 := by

  after_results_simp
  simp only [ha9, ha10, h1, h3, h29, h117]
  rfl

abbrev c3_written : List (Ref sig .tc) :=
  [main_v118, main_v119, main_v120, main_v121, main_c_21, main_v122, main_v123, main_c_22, main_v124, main_v125, main_v126, main_v127, main_v128, main_v129, main_v130, main_cst_23, main_v131, main_v132, main_v133, main_v134, main_v135, main_v136, main_v137, main_v138, main_c_24, main_v139, main_v140, main_c_25, main_v141, main_v142, main_v143, main_v144, main_v145, main_v146, main_v147, main_cst_26, main_v148, main_v149, main_v150, main_cst_27, main_v151, main_v152, main_v153, main_v154, main_v155, main_v156, main_v157, main_v158, main_v159, main_v160, main_v161]

theorem c3_frame (W : Valuation τ sig (Elt F)) {r : Ref sig .tc} (hr : r ∉ c3_written) :
    after (c3 (F := F)) W (Proc.devRef .tc r) = W (Proc.devRef .tc r) :=
  Cert.Lib.after_of_writes_eq c3 W rfl hr

end Cert.ReferenceIdeal.Value

end
-- ==== Proof.RefC4.lean ====
import proofs.«430353_j22832046146023_3_alg».proof.Proof.RefRead
import proofs.«430353_j22832046146023_3_alg».proof.Proof.RefOps
import proofs.«430353_j22832046146023_3_alg».proof.Proof.LibWrites

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

section

variable (W : Valuation τ sig (Elt F))
  (x0 : (⟨S10000x128, .f32⟩ : BufTy).Contents (Elt F))
  (x1 : (⟨S2x640000, .i32⟩ : BufTy).Contents (Elt F))
  (x2 : (⟨S1, .f32⟩ : BufTy).Contents (Elt F))
  (x3 : (⟨S1, .f32⟩ : BufTy).Contents (Elt F))
  (x4 : (⟨S1, .f32⟩ : BufTy).Contents (Elt F))
  (x5 : (⟨S3x128x60, .f32⟩ : BufTy).Contents (Elt F))
  (x6 : (⟨S60, .f32⟩ : BufTy).Contents (Elt F))
  (x7 : (⟨S3x60x30, .f32⟩ : BufTy).Contents (Elt F))
  (x8 : (⟨S30, .f32⟩ : BufTy).Contents (Elt F))
  (x9 : (⟨S3x30x1, .f32⟩ : BufTy).Contents (Elt F))
  (x10 : (⟨S1, .f32⟩ : BufTy).Contents (Elt F))
  (x11 : (⟨S10000x10003, .f32⟩ : BufTy).Contents (Elt F))
  (x12 : (⟨S10000, .f32⟩ : BufTy).Contents (Elt F))
  (x13 : (⟨S1x10003, .f32⟩ : BufTy).Contents (Elt F))
  (x14 : (⟨S1, .f32⟩ : BufTy).Contents (Elt F))

theorem c4_v170 (ha2 : W (Proc.devRef .tc main_arg2) = x2) (ha3 : W (Proc.devRef .tc main_arg3) = x3) (ha4 : W (Proc.devRef .tc main_arg4) = x4) (ha11 : W (Proc.devRef .tc main_arg11) = x11) (ha12 : W (Proc.devRef .tc main_arg12) = x12) (h161 : W (Proc.devRef .tc main_v161) = Read.val_main_v161 (F := F) x0 x1 x5 x6 x7 x8 x9 x10) :
    after (c4 (F := F)) W (Proc.devRef .tc main_v170) = Read.val_main_v170 (F := F) x0 x1 x2 x3 x4 x5 x6 x7 x8 x9 x10 x11 x12 := by
  simp only [after_cons, after_nil]
  repeat (first
    | rw [unary_result] | rw [binary_result] | rw [reshape_result] | rw [nary4_result]
    | (rw [unary_result_ne]; rotate_left; decide)
    | (rw [binary_result_ne]; rotate_left; decide)
    | (rw [reshape_result_ne]; rotate_left; decide)
    | (rw [nary_result_ne]; rotate_left; decide))
  rw [ha2, ha3, ha4, ha11, ha12, h161]
  rfl

theorem c4_v174 (ha2 : W (Proc.devRef .tc main_arg2) = x2) (ha3 : W (Proc.devRef .tc main_arg3) = x3) (ha4 : W (Proc.devRef .tc main_arg4) = x4) (ha13 : W (Proc.devRef .tc main_arg13) = x13) (ha14 : W (Proc.devRef .tc main_arg14) = x14) (h161 : W (Proc.devRef .tc main_v161) = Read.val_main_v161 (F := F) x0 x1 x5 x6 x7 x8 x9 x10) :
    after (c4 (F := F)) W (Proc.devRef .tc main_v174) = Read.val_main_v174 (F := F) x0 x1 x2 x3 x4 x5 x6 x7 x8 x9 x10 x13 x14 := by
  simp only [after_cons, after_nil]
  repeat (first
    | rw [unary_result] | rw [binary_result] | rw [reshape_result] | rw [nary4_result]
    | (rw [unary_result_ne]; rotate_left; decide)
    | (rw [binary_result_ne]; rotate_left; decide)
    | (rw [reshape_result_ne]; rotate_left; decide)
    | (rw [nary_result_ne]; rotate_left; decide))
  rw [ha2, ha3, ha4, ha13, ha14, h161]
  rfl

end

abbrev c4_written : List (Ref sig .tc) :=
  [main_v162, main_v163, main_v164, main_v165, main_v166, main_v167, main_v168, main_v169, main_v170, main_v171, main_v172, main_v173, main_v174]

theorem c4_frame (W : Valuation τ sig (Elt F)) {r : Ref sig .tc} (hr : r ∉ c4_written) :
    after (c4 (F := F)) W (Proc.devRef .tc r) = W (Proc.devRef .tc r) :=
  Cert.Lib.after_of_writes_eq c4 W rfl hr

end Cert.ReferenceIdeal.Value

end
-- ==== Proof.RefRunHand.lean ====
import proofs.«430353_j22832046146023_3_alg».proof.Proof.RefRead
import proofs.«430353_j22832046146023_3_alg».proof.Proof.RefOps
import proofs.«430353_j22832046146023_3_alg».proof.Proof.RefC0
import proofs.«430353_j22832046146023_3_alg».proof.Proof.RefC1
import proofs.«430353_j22832046146023_3_alg».proof.Proof.RefC2
import proofs.«430353_j22832046146023_3_alg».proof.Proof.RefC3
import proofs.«430353_j22832046146023_3_alg».proof.Proof.RefC4
import Idealize.ShloMosaic.Lib.StableHlo.Run
import Idealize.ShloMosaic.Lib.Pipeline.Frame

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

def res_main_v170 (m : (ℓ : Loc nD τ sig) → Buf (Elt F) ℓ) (c : Dev nD) : Buf (Elt F) ((c.tc : Thread nD τ).loc main_v170) :=
  Read.val_main_v170 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

def res_main_v174 (m : (ℓ : Loc nD τ sig) → Buf (Elt F) ℓ) (c : Dev nD) : Buf (Elt F) ((c.tc : Thread nD τ).loc main_v174) :=
  Read.val_main_v174 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14))

section
variable (V : Valuation τ sig (Elt F))

abbrev a1 : Valuation τ sig (Elt F) := after (c0 (F := F)) V
abbrev a2 : Valuation τ sig (Elt F) := after (c1 (F := F)) (a1 V)
abbrev a3 : Valuation τ sig (Elt F) := after (c2 (F := F)) (a2 V)
abbrev a4 : Valuation τ sig (Elt F) := after (c3 (F := F)) (a3 V)
abbrev a5 : Valuation τ sig (Elt F) := after (c4 (F := F)) (a4 V)

/-- A reference no chunk so far writes keeps its launch contents. -/
private theorem pass1 {r : Ref sig .tc} (h : r ∉ c0_written) : a1 V (Proc.devRef .tc r) = V (Proc.devRef .tc r) :=
  c0_frame V h
private theorem pass2 {r : Ref sig .tc} (h : r ∉ c0_written ++ c1_written) : a2 V (Proc.devRef .tc r) = V (Proc.devRef .tc r) :=
  (c1_frame _ fun m => h (List.mem_append_right _ m)).trans (pass1 V fun m => h (List.mem_append_left _ m))
private theorem pass3 {r : Ref sig .tc} (h : r ∉ c0_written ++ c1_written ++ c2_written) : a3 V (Proc.devRef .tc r) = V (Proc.devRef .tc r) :=
  (c2_frame _ fun m => h (List.mem_append_right _ m)).trans (pass2 V fun m => h (List.mem_append_left _ m))
private theorem pass4 {r : Ref sig .tc} (h : r ∉ c0_written ++ c1_written ++ c2_written ++ c3_written) :
    a4 V (Proc.devRef .tc r) = V (Proc.devRef .tc r) :=
  (c3_frame _ fun m => h (List.mem_append_right _ m)).trans (pass3 V fun m => h (List.mem_append_left _ m))

private abbrev edgeRefs : List (Ref sig .tc) := [main_v1, main_v3, main_v29]

/-- W holds the three arrays chunk 0 reads off the edge list. -/
private abbrev EdgeAt (W : Valuation τ sig (Elt F)) : Prop :=
  W (Proc.devRef .tc main_v1) = Read.val_main_v1 (F := F) (V (Proc.devRef .tc main_arg1))
    ∧ W (Proc.devRef .tc main_v3) = Read.val_main_v3 (F := F) (V (Proc.devRef .tc main_arg1))
    ∧ W (Proc.devRef .tc main_v29) = Read.val_main_v29 (F := F) (V (Proc.devRef .tc main_arg1))

private theorem edge_keep {W W' : Valuation τ sig (Elt F)} (e : EdgeAt V W)
    (h : ∀ r ∈ edgeRefs, W' (Proc.devRef .tc r) = W (Proc.devRef .tc r)) : EdgeAt V W' :=
  ⟨(h _ (by decide)).trans e.1, (h _ (by decide)).trans e.2.1, (h _ (by decide)).trans e.2.2⟩

private theorem e1 : EdgeAt V (a1 V) := c0_edge V _ rfl
private theorem e2 : EdgeAt V (a2 V) :=
  edge_keep V (e1 V) fun r hr => c1_frame _ ((by decide : ∀ r ∈ edgeRefs, r ∉ c1_written) r hr)
private theorem e3 : EdgeAt V (a3 V) :=
  edge_keep V (e2 V) fun r hr => c2_frame _ ((by decide : ∀ r ∈ edgeRefs, r ∉ c2_written) r hr)
private theorem e4 : EdgeAt V (a4 V) :=
  edge_keep V (e3 V) fun r hr => c3_frame _ ((by decide : ∀ r ∈ edgeRefs, r ∉ c3_written) r hr)

private theorem s2 :
    a2 V (Proc.devRef .tc main_v73) = Read.val_main_v73 (F := F) (V (Proc.devRef .tc main_arg0)) (V (Proc.devRef .tc main_arg1)) (V (Proc.devRef .tc main_arg5)) (V (Proc.devRef .tc main_arg6)) :=
  c1_v73 (a1 V) _ _ _ _ (pass1 V (by decide)) (pass1 V (by decide)) (pass1 V (by decide)) (e1 V).1 (e1 V).2.1 (e1 V).2.2

private theorem s3 :
    a3 V (Proc.devRef .tc main_v117) = Read.val_main_v117 (F := F) (V (Proc.devRef .tc main_arg0)) (V (Proc.devRef .tc main_arg1)) (V (Proc.devRef .tc main_arg5)) (V (Proc.devRef .tc main_arg6)) (V (Proc.devRef .tc main_arg7)) (V (Proc.devRef .tc main_arg8)) :=
  c2_v117 (a2 V) _ _ _ _ _ _ (pass2 V (by decide)) (pass2 V (by decide)) (e2 V).1 (e2 V).2.1 (e2 V).2.2 (s2 V)

private theorem s4 :
    a4 V (Proc.devRef .tc main_v161) = Read.val_main_v161 (F := F) (V (Proc.devRef .tc main_arg0)) (V (Proc.devRef .tc main_arg1)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  c3_v161 (a3 V) _ _ _ _ _ _ _ _ (pass3 V (by decide)) (pass3 V (by decide)) (e3 V).1 (e3 V).2.1 (e3 V).2.2 (s3 V)

private theorem after_ops_eq : after (ops (F := F)) V = a5 V := by
  rw [ops_split, StableHlo.after_append, StableHlo.after_append, StableHlo.after_append, StableHlo.after_append]

theorem after_ops_v170 (m : (ℓ : Loc nD τ sig) → Buf (Elt F) ℓ) (c : Dev nD) :
    after (ops (F := F)) (launchContents m c) (Proc.devRef .tc main_v170) = res_main_v170 m c := by
  rw [after_ops_eq]
  exact c4_v170 (a4 (launchContents m c)) _ _ _ _ _ _ _ _ _ _ _ _ _ (pass4 _ (by decide)) (pass4 _ (by decide)) (pass4 _ (by decide)) (pass4 _ (by decide)) (pass4 _ (by decide)) (s4 _)

theorem after_ops_v174 (m : (ℓ : Loc nD τ sig) → Buf (Elt F) ℓ) (c : Dev nD) :
    after (ops (F := F)) (launchContents m c) (Proc.devRef .tc main_v174) = res_main_v174 m c := by
  rw [after_ops_eq]
  exact c4_v174 (a4 (launchContents m c)) _ _ _ _ _ _ _ _ _ _ _ _ _ (pass4 _ (by decide)) (pass4 _ (by decide)) (pass4 _ (by decide)) (pass4 _ (by decide)) (pass4 _ (by decide)) (s4 _)

theorem after_ops_pass {r : Ref sig .tc} (h : r ∉ c0_written ++ c1_written ++ c2_written ++ c3_written ++ c4_written) :
    after (ops (F := F)) V (Proc.devRef .tc r) = V (Proc.devRef .tc r) := by
  rw [after_ops_eq]
  exact (c4_frame _ fun m => h (List.mem_append_right _ m)).trans (pass4 V fun m => h (List.mem_append_left _ m))

end

theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v170) = res_main_v170 m c
      ∧ r.2.mem ((c.tc : Thread nD τ).loc main_v174) = res_main_v174 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v170).trans (after_ops_v170 m c),
      (h c main_v174).trans (after_ops_v174 m c),
      (h c main_arg0).trans (after_ops_pass _ (by decide)),
      (h c main_arg1).trans (after_ops_pass _ (by decide)),
      (h c main_arg2).trans (after_ops_pass _ (by decide)),
      (h c main_arg3).trans (after_ops_pass _ (by decide)),
      (h c main_arg4).trans (after_ops_pass _ (by decide)),
      (h c main_arg5).trans (after_ops_pass _ (by decide)),
      (h c main_arg6).trans (after_ops_pass _ (by decide)),
      (h c main_arg7).trans (after_ops_pass _ (by decide)),
      (h c main_arg8).trans (after_ops_pass _ (by decide)),
      (h c main_arg9).trans (after_ops_pass _ (by decide)),
      (h c main_arg10).trans (after_ops_pass _ (by decide)),
      (h c main_arg11).trans (after_ops_pass _ (by decide)),
      (h c main_arg12).trans (after_ops_pass _ (by decide)),
      (h c main_arg13).trans (after_ops_pass _ (by decide)),
      (h c main_arg14).trans (after_ops_pass _ (by decide))⟩)
    (run_seq scopedRefs_eq scopedSems_eq defs main (fun _ => ops) main_eq (fun _ => ops_sub) m ρ
      (fun _ op hop => (List.forall_iff_forall_mem.mp ops_fresh) op hop))

end Cert.ReferenceIdeal.Value

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

theorem val_main_v170_eq (m : (ℓ : Loc nD τ sig) → Buf (Elt F) ℓ) (c : Dev nD) :
    Cert.ReferenceIdeal.Value.res_main_v170 m c = val_main_v170 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := rfl

theorem val_main_v174_eq (m : (ℓ : Loc nD τ sig) → Buf (Elt F) ℓ) (c : Dev nD) :
    Cert.ReferenceIdeal.Value.res_main_v174 m c = val_main_v174 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) := rfl

end Cert.ReferenceIdeal.Read

end
-- ==== Proof.KbR0.lean ====
import proofs.«430353_j22832046146023_3_alg».proof.Proof.Gen.Kernel.Launch
import proofs.«430353_j22832046146023_3_alg».proof.Proof.Gen.Kernel.Skeleton
import proofs.«430353_j22832046146023_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S400x10000 := Rect.unit (s := S400x10000) ![0, 0] S400x10000.size inb_S400x10000_S400x10000_0_0
abbrev r0_1 : Rect S10000x128 := Rect.unit (s := S10000x128) ![0, 0] S10000x128.size inb_S10000x128_S10000x128_0_0
abbrev r0_2 : Rect S400x128 := Rect.unit (s := S400x128) ![0, 0] S400x128.size inb_S400x128_S400x128_0_0

def out0_2 (x0 : Vec F S400x10000 .f32) (x1 : Vec F S10000x128 .f32) : Vec F S400x128 .f32 :=
  View.canon [⟨r0_2, k0_pay1 (View.ld x0 r0_0) (View.ld x1 r0_1)⟩]

-- The single written rectangle covers the whole shape, so what is read back is `View.canon` of that one piece.
set_option maxHeartbeats 1000000 in
theorem sound_kernel0 (c : Dev nD) (E : Set ℕ) (i : grid0.Coords)
    (arg0 : Memref sig .tc .vmem S400x10000 .f32) (harg0 : arg0.IsWhole) (arg1 : Memref sig .tc .vmem S10000x128 .f32) (harg1 : arg1.IsWhole)
    (arg2 : Memref sig .tc .vmem S400x128 .f32) (harg2 : arg2.IsWhole)
    (x0 : Vec F S400x10000 .f32) (x1 : Vec F S10000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__lap_matvec_kernel i arg0 harg0 arg1 harg1 arg2 harg2) K := by
  simp only [cc0__lap_matvec_kernel_eq_skeleton]; unfold cc0__lap_matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S400x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

theorem after0_in (c : Dev nD) (t : Fin cfg0.N) :
    (dat0 V c).after 0 t = iblk0 V c 0 t ∧ (dat0 V c).after 1 t = iblk0 V c 1 t := by
  refine ⟨?_, ?_⟩ <;> dsimp only [dat0]

theorem before0_in (c : Dev nD) (t : Fin cfg0.N) :
    (∀ d, (dat0 V c).before 0 t d = iblk0 V c 0 t) ∧ (∀ d, (dat0 V c).before 1 t d = iblk0 V c 1 t) := by
  refine ⟨?_, ?_⟩ <;> exact fun d => ((dat0 V c).before_in_eq_fetched _ rfl (fun _ => rfl) (fun _ _ _ => rfl)
    (fun t => by dsimp only [dat0]; rfl) t d).trans (by dsimp only [dat0]; rfl)

theorem sound_body0 (c : Dev nD) (t : Fin cfg0.N) :
    iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
    ⊢ wp frame (wpE (defs₀ (F := F)) Variants.none c none) Set.univ (bodyAt0 t) (fun _ =>
    iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))) := by
  unfold bodyAt0
  simp only [before0_in V c t, after0_in V c t, after0_2,
    show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbR1.lean ====
import proofs.«430353_j22832046146023_3_alg».proof.Proof.Gen.Kernel.Launch
import proofs.«430353_j22832046146023_3_alg».proof.Proof.Gen.Kernel.Skeleton
import proofs.«430353_j22832046146023_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S400x10000 := Rect.unit (s := S400x10000) ![0, 0] S400x10000.size inb_S400x10000_S400x10000_0_0
abbrev r1_1 : Rect S400x128 := Rect.unit (s := S400x128) ![0, 0] S400x128.size inb_S400x128_S400x128_0_0
abbrev r1_2 : Rect S10000x128 := Rect.unit (s := S10000x128) ![0, 0] S10000x128.size inb_S10000x128_S10000x128_0_0
abbrev r1_3 : Rect S128x60 := Rect.unit (s := S128x60) ![0, 0] S128x60.size inb_S128x60_S128x60_0_0
abbrev r1_4 : Rect S128x60 := Rect.unit (s := S128x60) ![0, 0] S128x60.size inb_S128x60_S128x60_0_0
abbrev r1_5 : Rect S128x60 := Rect.unit (s := S128x60) ![0, 0] S128x60.size inb_S128x60_S128x60_0_0
abbrev r1_6 : Rect S1x60 := Rect.unit (s := S1x60) ![0, 0] S1x60.size inb_S1x60_S1x60_0_0
abbrev r1_7 : Rect S400x60 := Rect.unit (s := S400x60) ![0, 0] S400x60.size inb_S400x60_S400x60_0_0

def out1_7 (i : grid1.Coords) (x0 : Vec F S400x10000 .f32) (x1 : Vec F S400x128 .f32) (x2 : Vec F S10000x128 .f32) (x3 x4 x5 : Vec F S128x60 .f32) (x6 : Vec F S1x60 .f32) : Vec F S400x60 .f32 :=
  View.canon [⟨r1_7, k1_pay1 (View.ld x2 (Rect.unit (s := S10000x128) (k1_off1 i) S400x128.size (k1_off1_inb i))) (View.ld x0 r1_0) (View.ld x2 r1_2) (View.ld x1 r1_1) (View.ld x3 r1_3) (View.ld x4 r1_4) (View.ld x5 r1_5) (View.ld x6 r1_6)⟩]

-- The single written rectangle covers the whole shape, so what is read back is `View.canon` of that one piece.
set_option maxHeartbeats 1000000 in
theorem sound_kernel1 (c : Dev nD) (E : Set ℕ) (i : grid1.Coords)
    (arg0 : Memref sig .tc .vmem S400x10000 .f32) (harg0 : arg0.IsWhole) (arg1 : Memref sig .tc .vmem S400x128 .f32) (harg1 : arg1.IsWhole)
    (arg2 : Memref sig .tc .vmem S10000x128 .f32) (harg2 : arg2.IsWhole) (arg3 : Memref sig .tc .vmem S128x60 .f32) (harg3 : arg3.IsWhole)
    (arg4 : Memref sig .tc .vmem S128x60 .f32) (harg4 : arg4.IsWhole) (arg5 : Memref sig .tc .vmem S128x60 .f32) (harg5 : arg5.IsWhole)
    (arg6 : Memref sig .tc .vmem S1x60 .f32) (harg6 : arg6.IsWhole) (arg7 : Memref sig .tc .vmem S400x60 .f32) (harg7 : arg7.IsWhole)
    (x0 : Vec F S400x10000 .f32) (x1 : Vec F S400x128 .f32) (x2 : Vec F S10000x128 .f32) (x3 x4 x5 : Vec F S128x60 .f32) (x6 : Vec F S1x60 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out1_7 i x0 x1 x2 x3 x4 x5 x6)) -∗ K ⟨⟩))
      ⊢ wp frame (wpE (defs₀ (F := F)) Variants.none c none) E (cc1__matvec_epilogue_kernel i arg0 harg0 arg1 harg1 arg2 harg2 arg3 harg3 arg4 harg4 arg5 harg5 arg6 harg6 arg7 harg7) K := by
  simp only [cc1__matvec_epilogue_kernel_eq_skeleton]; unfold cc1__matvec_epilogue_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S400x60.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (cfg1.grid.coords t) (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem after1_7 (c : Dev nD) (t : Fin cfg1.N) : (dat1 V c).after 7 t = out1_7 (cfg1.grid.coords t) (iblk1 V c 0 t) (iblk1 V c 1 t) (iblk1 V c 2 t) (iblk1 V c 3 t) (iblk1 V c 4 t) (iblk1 V c 5 t) (iblk1 V c 6 t) := by dsimp only [dat1]

theorem after1_in (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t ∧ (dat1 V c).after 5 t = iblk1 V c 5 t ∧ (dat1 V c).after 6 t = iblk1 V c 6 t := by
  refine ⟨?_, ?_, ?_, ?_, ?_, ?_, ?_⟩ <;> dsimp only [dat1]

theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) := by
  refine ⟨?_, ?_, ?_, ?_, ?_, ?_, ?_⟩ <;> exact fun d => ((dat1 V c).before_in_eq_fetched _ rfl (fun _ => rfl) (fun _ _ _ => rfl)
    (fun t => by dsimp only [dat1]; rfl) t d).trans (by dsimp only [dat1]; rfl)

set_option maxHeartbeats 1000000 in
theorem sound_body1 (c : Dev nD) (t : Fin cfg1.N) :
    iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))
    ⊢ wp frame (wpE (defs₀ (F := F)) Variants.none c none) Set.univ (bodyAt1 t) (fun _ =>
    iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))) := by
  unfold bodyAt1
  simp only [before1_in V c t, after1_in V c t, after1_7,
    show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  iframe H0 H1 H2 H3 H4 H5 H6
  isplitl [H7]; · iexists _; iexact H7
  iintro ⟨H0, H1, H2, H3, H4, H5, H6, H7⟩
  iframe HΦ Ho H0 H1 H2 H3 H4 H5 H6
  iexact H7

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbR2.lean ====
import proofs.«430353_j22832046146023_3_alg».proof.Proof.Gen.Kernel.Launch
import proofs.«430353_j22832046146023_3_alg».proof.Proof.Gen.Kernel.Skeleton
import proofs.«430353_j22832046146023_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S400x10000 := Rect.unit (s := S400x10000) ![0, 0] S400x10000.size inb_S400x10000_S400x10000_0_0
abbrev r2_1 : Rect S10000x60 := Rect.unit (s := S10000x60) ![0, 0] S10000x60.size inb_S10000x60_S10000x60_0_0
abbrev r2_2 : Rect S400x60 := Rect.unit (s := S400x60) ![0, 0] S400x60.size inb_S400x60_S400x60_0_0

def out2_2 (x0 : Vec F S400x10000 .f32) (x1 : Vec F S10000x60 .f32) : Vec F S400x60 .f32 :=
  View.canon [⟨r2_2, k2_pay1 (View.ld x0 r2_0) (View.ld x1 r2_1)⟩]

-- The single written rectangle covers the whole shape, so what is read back is `View.canon` of that one piece.
set_option maxHeartbeats 1000000 in
theorem sound_kernel2 (c : Dev nD) (E : Set ℕ) (i : grid2.Coords)
    (arg0 : Memref sig .tc .vmem S400x10000 .f32) (harg0 : arg0.IsWhole) (arg1 : Memref sig .tc .vmem S10000x60 .f32) (harg1 : arg1.IsWhole)
    (arg2 : Memref sig .tc .vmem S400x60 .f32) (harg2 : arg2.IsWhole)
    (x0 : Vec F S400x10000 .f32) (x1 : Vec F S10000x60 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__lap_matvec_kernel i arg0 harg0 arg1 harg1 arg2 harg2) K := by
  simp only [cc2__lap_matvec_kernel_eq_skeleton]; unfold cc2__lap_matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S400x60.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_2 (c : Dev nD) (t : Fin cfg2.N) : (dat2 V c).after 2 t = out2_2 (iblk2 V c 0 t) (iblk2 V c 1 t) := by dsimp only [dat2]

theorem after2_in (c : Dev nD) (t : Fin cfg2.N) :
    (dat2 V c).after 0 t = iblk2 V c 0 t ∧ (dat2 V c).after 1 t = iblk2 V c 1 t := by
  refine ⟨?_, ?_⟩ <;> dsimp only [dat2]

theorem before2_in (c : Dev nD) (t : Fin cfg2.N) :
    (∀ d, (dat2 V c).before 0 t d = iblk2 V c 0 t) ∧ (∀ d, (dat2 V c).before 1 t d = iblk2 V c 1 t) := by
  refine ⟨?_, ?_⟩ <;> exact fun d => ((dat2 V c).before_in_eq_fetched _ rfl (fun _ => rfl) (fun _ _ _ => rfl)
    (fun t => by dsimp only [dat2]; rfl) t d).trans (by dsimp only [dat2]; rfl)

theorem sound_body2 (c : Dev nD) (t : Fin cfg2.N) :
    iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))
    ⊢ wp frame (wpE (defs₀ (F := F)) Variants.none c none) Set.univ (bodyAt2 t) (fun _ =>
    iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))) := by
  unfold bodyAt2
  simp only [before2_in V c t, after2_in V c t, after2_2,
    show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe HΦ Ho H0 H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KbR3.lean ====
import proofs.«430353_j22832046146023_3_alg».proof.Proof.Gen.Kernel.Launch
import proofs.«430353_j22832046146023_3_alg».proof.Proof.Gen.Kernel.Skeleton
import proofs.«430353_j22832046146023_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S400x10000 := Rect.unit (s := S400x10000) ![0, 0] S400x10000.size inb_S400x10000_S400x10000_0_0
abbrev r3_1 : Rect S400x60 := Rect.unit (s := S400x60) ![0, 0] S400x60.size inb_S400x60_S400x60_0_0
abbrev r3_2 : Rect S10000x60 := Rect.unit (s := S10000x60) ![0, 0] S10000x60.size inb_S10000x60_S10000x60_0_0
abbrev r3_3 : Rect S60x30 := Rect.unit (s := S60x30) ![0, 0] S60x30.size inb_S60x30_S60x30_0_0
abbrev r3_4 : Rect S60x30 := Rect.unit (s := S60x30) ![0, 0] S60x30.size inb_S60x30_S60x30_0_0
abbrev r3_5 : Rect S60x30 := Rect.unit (s := S60x30) ![0, 0] S60x30.size inb_S60x30_S60x30_0_0
abbrev r3_6 : Rect S1x30 := Rect.unit (s := S1x30) ![0, 0] S1x30.size inb_S1x30_S1x30_0_0
abbrev r3_7 : Rect S400x30 := Rect.unit (s := S400x30) ![0, 0] S400x30.size inb_S400x30_S400x30_0_0

def out3_7 (i : grid3.Coords) (x0 : Vec F S400x10000 .f32) (x1 : Vec F S400x60 .f32) (x2 : Vec F S10000x60 .f32) (x3 x4 x5 : Vec F S60x30 .f32) (x6 : Vec F S1x30 .f32) : Vec F S400x30 .f32 :=
  View.canon [⟨r3_7, k3_pay1 (View.ld x2 (Rect.unit (s := S10000x60) (k3_off1 i) S400x60.size (k3_off1_inb i))) (View.ld x0 r3_0) (View.ld x2 r3_2) (View.ld x1 r3_1) (View.ld x3 r3_3) (View.ld x4 r3_4) (View.ld x5 r3_5) (View.ld x6 r3_6)⟩]

-- The single written rectangle covers the whole shape, so what is read back is `View.canon` of that one piece.
set_option maxHeartbeats 1000000 in
theorem sound_kernel3 (c : Dev nD) (E : Set ℕ) (i : grid3.Coords)
    (arg0 : Memref sig .tc .vmem S400x10000 .f32) (harg0 : arg0.IsWhole) (arg1 : Memref sig .tc .vmem S400x60 .f32) (harg1 : arg1.IsWhole)
    (arg2 : Memref sig .tc .vmem S10000x60 .f32) (harg2 : arg2.IsWhole) (arg3 : Memref sig .tc .vmem S60x30 .f32) (harg3 : arg3.IsWhole)
    (arg4 : Memref sig .tc .vmem S60x30 .f32) (harg4 : arg4.IsWhole) (arg5 : Memref sig .tc .vmem S60x30 .f32) (harg5 : arg5.IsWhole)
    (arg6 : Memref sig .tc .vmem S1x30 .f32) (harg6 : arg6.IsWhole) (arg7 : Memref sig .tc .vmem S400x30 .f32) (harg7 : arg7.IsWhole)
    (x0 : Vec F S400x10000 .f32) (x1 : Vec F S400x60 .f32) (x2 : Vec F S10000x60 .f32) (x3 x4 x5 : Vec F S60x30 .f32) (x6 : Vec F S1x30 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out3_7 i x0 x1 x2 x3 x4 x5 x6)) -∗ K ⟨⟩))
      ⊢ wp frame (wpE (defs₀ (F := F)) Variants.none c none) E (cc3__matvec_epilogue_kernel i arg0 harg0 arg1 harg1 arg2 harg2 arg3 harg3 arg4 harg4 arg5 harg5 arg6 harg6 arg7 harg7) K := by
  simp only [cc3__matvec_epilogue_kernel_eq_skeleton]; unfold cc3__matvec_epilogue_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S400x30.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (cfg3.grid.coords t) (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem after3_7 (c : Dev nD) (t : Fin cfg3.N) : (dat3 V c).after 7 t = out3_7 (cfg3.grid.coords t) (iblk3 V c 0 t) (iblk3 V c 1 t) (iblk3 V c 2 t) (iblk3 V c 3 t) (iblk3 V c 4 t) (iblk3 V c 5 t) (iblk3 V c 6 t) := by dsimp only [dat3]

theorem after3_in (c : Dev nD) (t : Fin cfg3.N) :
    (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t ∧ (dat3 V c).after 5 t = iblk3 V c 5 t ∧ (dat3 V c).after 6 t = iblk3 V c 6 t := by
  refine ⟨?_, ?_, ?_, ?_, ?_, ?_, ?_⟩ <;> dsimp only [dat3]

theorem before3_in (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) ∧ (∀ d, (dat3 V c).before 6 t d = iblk3 V c 6 t) := by
  refine ⟨?_, ?_, ?_, ?_, ?_, ?_, ?_⟩ <;> exact fun d => ((dat3 V c).before_in_eq_fetched _ rfl (fun _ => rfl) (fun _ _ _ => rfl)
    (fun t => by dsimp only [dat3]; rfl) t d).trans (by dsimp only [dat3]; rfl)

set_option maxHeartbeats 1000000 in
theorem sound_body3 (c : Dev nD) (t : Fin cfg3.N) :
    iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))
    ⊢ wp frame (wpE (defs₀ (F := F)) Variants.none c none) Set.univ (bodyAt3 t) (fun _ =>
    iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))) := by
  unfold bodyAt3
  simp only [before3_in V c t, after3_in V c t, after3_7,
    show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  iframe H0 H1 H2 H3 H4 H5 H6
  isplitl [H7]; · iexists _; iexact H7
  iintro ⟨H0, H1, H2, H3, H4, H5, H6, H7⟩
  iframe HΦ Ho H0 H1 H2 H3 H4 H5 H6
  iexact H7

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KbR4.lean ====
import proofs.«430353_j22832046146023_3_alg».proof.Proof.Gen.Kernel.Launch
import proofs.«430353_j22832046146023_3_alg».proof.Proof.Gen.Kernel.Skeleton
import proofs.«430353_j22832046146023_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S400x10000 := Rect.unit (s := S400x10000) ![0, 0] S400x10000.size inb_S400x10000_S400x10000_0_0
abbrev r4_1 : Rect S10000x30 := Rect.unit (s := S10000x30) ![0, 0] S10000x30.size inb_S10000x30_S10000x30_0_0
abbrev r4_2 : Rect S400x30 := Rect.unit (s := S400x30) ![0, 0] S400x30.size inb_S400x30_S400x30_0_0

def out4_2 (x0 : Vec F S400x10000 .f32) (x1 : Vec F S10000x30 .f32) : Vec F S400x30 .f32 :=
  View.canon [⟨r4_2, k4_pay1 (View.ld x0 r4_0) (View.ld x1 r4_1)⟩]

-- The single written rectangle covers the whole shape, so what is read back is `View.canon` of that one piece.
set_option maxHeartbeats 1000000 in
theorem sound_kernel4 (c : Dev nD) (E : Set ℕ) (i : grid4.Coords)
    (arg0 : Memref sig .tc .vmem S400x10000 .f32) (harg0 : arg0.IsWhole) (arg1 : Memref sig .tc .vmem S10000x30 .f32) (harg1 : arg1.IsWhole)
    (arg2 : Memref sig .tc .vmem S400x30 .f32) (harg2 : arg2.IsWhole)
    (x0 : Vec F S400x10000 .f32) (x1 : Vec F S10000x30 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out4_2 x0 x1)) -∗ K ⟨⟩))
      ⊢ wp frame (wpE (defs₀ (F := F)) Variants.none c none) E (cc4__lap_matvec_kernel i arg0 harg0 arg1 harg1 arg2 harg2) K := by
  simp only [cc4__lap_matvec_kernel_eq_skeleton]; unfold cc4__lap_matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S400x30.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem after4_2 (c : Dev nD) (t : Fin cfg4.N) : (dat4 V c).after 2 t = out4_2 (iblk4 V c 0 t) (iblk4 V c 1 t) := by dsimp only [dat4]

theorem after4_in (c : Dev nD) (t : Fin cfg4.N) :
    (dat4 V c).after 0 t = iblk4 V c 0 t ∧ (dat4 V c).after 1 t = iblk4 V c 1 t := by
  refine ⟨?_, ?_⟩ <;> dsimp only [dat4]

theorem before4_in (c : Dev nD) (t : Fin cfg4.N) :
    (∀ d, (dat4 V c).before 0 t d = iblk4 V c 0 t) ∧ (∀ d, (dat4 V c).before 1 t d = iblk4 V c 1 t) := by
  refine ⟨?_, ?_⟩ <;> exact fun d => ((dat4 V c).before_in_eq_fetched _ rfl (fun _ => rfl) (fun _ _ _ => rfl)
    (fun t => by dsimp only [dat4]; rfl) t d).trans (by dsimp only [dat4]; rfl)

theorem sound_body4 (c : Dev nD) (t : Fin cfg4.N) :
    iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))
    ⊢ wp frame (wpE (defs₀ (F := F)) Variants.none c none) Set.univ (bodyAt4 t) (fun _ =>
    iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))) := by
  unfold bodyAt4
  simp only [before4_in V c t, after4_in V c t, after4_2,
    show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe HΦ Ho H0 H1
  iexact H2

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KbR5.lean ====
import proofs.«430353_j22832046146023_3_alg».proof.Proof.Gen.Kernel.Launch
import proofs.«430353_j22832046146023_3_alg».proof.Proof.Gen.Kernel.Skeleton
import proofs.«430353_j22832046146023_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S400x10000 := Rect.unit (s := S400x10000) ![0, 0] S400x10000.size inb_S400x10000_S400x10000_0_0
abbrev r5_1 : Rect S400x30 := Rect.unit (s := S400x30) ![0, 0] S400x30.size inb_S400x30_S400x30_0_0
abbrev r5_2 : Rect S10000x30 := Rect.unit (s := S10000x30) ![0, 0] S10000x30.size inb_S10000x30_S10000x30_0_0
abbrev r5_3 : Rect S30x1 := Rect.unit (s := S30x1) ![0, 0] S30x1.size inb_S30x1_S30x1_0_0
abbrev r5_4 : Rect S30x1 := Rect.unit (s := S30x1) ![0, 0] S30x1.size inb_S30x1_S30x1_0_0
abbrev r5_5 : Rect S30x1 := Rect.unit (s := S30x1) ![0, 0] S30x1.size inb_S30x1_S30x1_0_0
abbrev r5_6 : Rect S1x1 := Rect.unit (s := S1x1) ![0, 0] S1x1.size inb_S1x1_S1x1_0_0
abbrev r5_7 : Rect S400x1 := Rect.unit (s := S400x1) ![0, 0] S400x1.size inb_S400x1_S400x1_0_0

def out5_7 (i : grid5.Coords) (x0 : Vec F S400x10000 .f32) (x1 : Vec F S400x30 .f32) (x2 : Vec F S10000x30 .f32) (x3 x4 x5 : Vec F S30x1 .f32) (x6 : Vec F S1x1 .f32) : Vec F S400x1 .f32 :=
  View.canon [⟨r5_7, k5_pay1 (View.ld x2 (Rect.unit (s := S10000x30) (k5_off1 i) S400x30.size (k5_off1_inb i))) (View.ld x0 r5_0) (View.ld x2 r5_2) (View.ld x1 r5_1) (View.ld x3 r5_3) (View.ld x4 r5_4) (View.ld x5 r5_5) (View.ld x6 r5_6)⟩]

-- The single written rectangle covers the whole shape, so what is read back is `View.canon` of that one piece.
set_option maxHeartbeats 1000000 in
theorem sound_kernel5 (c : Dev nD) (E : Set ℕ) (i : grid5.Coords)
    (arg0 : Memref sig .tc .vmem S400x10000 .f32) (harg0 : arg0.IsWhole) (arg1 : Memref sig .tc .vmem S400x30 .f32) (harg1 : arg1.IsWhole)
    (arg2 : Memref sig .tc .vmem S10000x30 .f32) (harg2 : arg2.IsWhole) (arg3 : Memref sig .tc .vmem S30x1 .f32) (harg3 : arg3.IsWhole)
    (arg4 : Memref sig .tc .vmem S30x1 .f32) (harg4 : arg4.IsWhole) (arg5 : Memref sig .tc .vmem S30x1 .f32) (harg5 : arg5.IsWhole)
    (arg6 : Memref sig .tc .vmem S1x1 .f32) (harg6 : arg6.IsWhole) (arg7 : Memref sig .tc .vmem S400x1 .f32) (harg7 : arg7.IsWhole)
    (x0 : Vec F S400x10000 .f32) (x1 : Vec F S400x30 .f32) (x2 : Vec F S10000x30 .f32) (x3 x4 x5 : Vec F S30x1 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out5_7 i x0 x1 x2 x3 x4 x5 x6)) -∗ K ⟨⟩))
      ⊢ wp frame (wpE (defs₀ (F := F)) Variants.none c none) E (cc5__matvec_epilogue_kernel i arg0 harg0 arg1 harg1 arg2 harg2 arg3 harg3 arg4 harg4 arg5 harg5 arg6 harg6 arg7 harg7) K := by
  simp only [cc5__matvec_epilogue_kernel_eq_skeleton]; unfold cc5__matvec_epilogue_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S400x1.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (cfg5.grid.coords t) (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem after5_7 (c : Dev nD) (t : Fin cfg5.N) : (dat5 V c).after 7 t = out5_7 (cfg5.grid.coords t) (iblk5 V c 0 t) (iblk5 V c 1 t) (iblk5 V c 2 t) (iblk5 V c 3 t) (iblk5 V c 4 t) (iblk5 V c 5 t) (iblk5 V c 6 t) := by dsimp only [dat5]

theorem after5_in (c : Dev nD) (t : Fin cfg5.N) :
    (dat5 V c).after 0 t = iblk5 V c 0 t ∧ (dat5 V c).after 1 t = iblk5 V c 1 t ∧ (dat5 V c).after 2 t = iblk5 V c 2 t ∧ (dat5 V c).after 3 t = iblk5 V c 3 t ∧ (dat5 V c).after 4 t = iblk5 V c 4 t ∧ (dat5 V c).after 5 t = iblk5 V c 5 t ∧ (dat5 V c).after 6 t = iblk5 V c 6 t := by
  refine ⟨?_, ?_, ?_, ?_, ?_, ?_, ?_⟩ <;> dsimp only [dat5]

theorem before5_in (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t) ∧ (∀ d, (dat5 V c).before 3 t d = iblk5 V c 3 t) ∧ (∀ d, (dat5 V c).before 4 t d = iblk5 V c 4 t) ∧ (∀ d, (dat5 V c).before 5 t d = iblk5 V c 5 t) ∧ (∀ d, (dat5 V c).before 6 t d = iblk5 V c 6 t) := by
  refine ⟨?_, ?_, ?_, ?_, ?_, ?_, ?_⟩ <;> exact fun d => ((dat5 V c).before_in_eq_fetched _ rfl (fun _ => rfl) (fun _ _ _ => rfl)
    (fun t => by dsimp only [dat5]; rfl) t d).trans (by dsimp only [dat5]; rfl)

set_option maxHeartbeats 1000000 in
theorem sound_body5 (c : Dev nD) (t : Fin cfg5.N) :
    iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))
    ⊢ wp frame (wpE (defs₀ (F := F)) Variants.none c none) Set.univ (bodyAt5 t) (fun _ =>
    iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))) := by
  unfold bodyAt5
  simp only [before5_in V c t, after5_in V c t, after5_7,
    show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  iframe H0 H1 H2 H3 H4 H5 H6
  isplitl [H7]; · iexists _; iexact H7
  iintro ⟨H0, H1, H2, H3, H4, H5, H6, H7⟩
  iframe HΦ Ho H0 H1 H2 H3 H4 H5 H6
  iexact H7

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KbR6.lean ====
import proofs.«430353_j22832046146023_3_alg».proof.Proof.Gen.Kernel.Launch
import proofs.«430353_j22832046146023_3_alg».proof.Proof.Gen.Kernel.Skeleton
import proofs.«430353_j22832046146023_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S400x10003 := Rect.unit (s := S400x10003) ![0, 0] S400x10003.size inb_S400x10003_S400x10003_0_0
abbrev r6_1 : Rect S10003x1 := Rect.unit (s := S10003x1) ![0, 0] S10003x1.size inb_S10003x1_S10003x1_0_0
abbrev r6_2 : Rect S400x1 := Rect.unit (s := S400x1) ![0, 0] S400x1.size inb_S400x1_S400x1_0_0
abbrev r6_3 : Rect S400x1 := Rect.unit (s := S400x1) ![0, 0] S400x1.size inb_S400x1_S400x1_0_0

def out6_3 (x0 : Vec F S400x10003 .f32) (x1 : Vec F S10003x1 .f32) (x2 : Vec F S400x1 .f32) : Vec F S400x1 .f32 :=
  View.canon [⟨r6_3, k6_pay1 (View.ld x0 r6_0) (View.ld x1 r6_1) (View.ld x2 r6_2)⟩]

-- The single written rectangle covers the whole shape, so what is read back is `View.canon` of that one piece.
set_option maxHeartbeats 1000000 in
theorem sound_kernel6 (c : Dev nD) (E : Set ℕ) (i : grid6.Coords)
    (arg0 : Memref sig .tc .vmem S400x10003 .f32) (harg0 : arg0.IsWhole) (arg1 : Memref sig .tc .vmem S10003x1 .f32) (harg1 : arg1.IsWhole)
    (arg2 : Memref sig .tc .vmem S400x1 .f32) (harg2 : arg2.IsWhole) (arg3 : Memref sig .tc .vmem S400x1 .f32) (harg3 : arg3.IsWhole)
    (x0 : Vec F S400x10003 .f32) (x1 : Vec F S10003x1 .f32) (x2 : Vec F S400x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1
            ∗ owns (c : Thread nD τ) arg2 fullShare x2
            ∗ owns (c : Thread nD τ) arg3 fullShare (out6_3 x0 x1 x2)) -∗ K ⟨⟩))
      ⊢ wp frame (wpE (defs₀ (F := F)) Variants.none c none) E (cc6__head_kernel i arg0 harg0 arg1 harg1 arg2 harg2 arg3 harg3) K := by
  simp only [cc6__head_kernel_eq_skeleton]; unfold cc6__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S400x1.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem after6_3 (c : Dev nD) (t : Fin cfg6.N) : (dat6 V c).after 3 t = out6_3 (iblk6 V c 0 t) (iblk6 V c 1 t) (iblk6 V c 2 t) := by dsimp only [dat6]

theorem after6_in (c : Dev nD) (t : Fin cfg6.N) :
    (dat6 V c).after 0 t = iblk6 V c 0 t ∧ (dat6 V c).after 1 t = iblk6 V c 1 t ∧ (dat6 V c).after 2 t = iblk6 V c 2 t := by
  refine ⟨?_, ?_, ?_⟩ <;> dsimp only [dat6]

theorem before6_in (c : Dev nD) (t : Fin cfg6.N) :
    (∀ d, (dat6 V c).before 0 t d = iblk6 V c 0 t) ∧ (∀ d, (dat6 V c).before 1 t d = iblk6 V c 1 t) ∧ (∀ d, (dat6 V c).before 2 t d = iblk6 V c 2 t) := by
  refine ⟨?_, ?_, ?_⟩ <;> exact fun d => ((dat6 V c).before_in_eq_fetched _ rfl (fun _ => rfl) (fun _ _ _ => rfl)
    (fun t => by dsimp only [dat6]; rfl) t d).trans (by dsimp only [dat6]; rfl)

theorem sound_body6 (c : Dev nD) (t : Fin cfg6.N) :
    iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))
    ⊢ wp frame (wpE (defs₀ (F := F)) Variants.none c none) Set.univ (bodyAt6 t) (fun _ =>
    iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))) := by
  unfold bodyAt6
  simp only [before6_in V c t, after6_in V c t, after6_3,
    show (dat6 V c).Φ t.succ = (dat6 V c).Φ t.castSucc from rfl,
    show (dat6 V c).owesAt () t.succ = (dat6 V c).owesAt () t.castSucc from rfl]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  iframe H0 H1 H2
  isplitl [H3]; · iexists _; iexact H3
  iintro ⟨H0, H1, H2, H3⟩
  iframe HΦ Ho H0 H1 H2
  iexact H3

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KbChain.lean ====
import proofs.«430353_j22832046146023_3_alg».proof.Proof.Gen.Kernel.Regions
import proofs.«430353_j22832046146023_3_alg».proof.Proof.KbR0
import proofs.«430353_j22832046146023_3_alg».proof.Proof.KbR1
import proofs.«430353_j22832046146023_3_alg».proof.Proof.KbR2
import proofs.«430353_j22832046146023_3_alg».proof.Proof.KbR3
import proofs.«430353_j22832046146023_3_alg».proof.Proof.KbR4
import proofs.«430353_j22832046146023_3_alg».proof.Proof.KbR5
import proofs.«430353_j22832046146023_3_alg».proof.Proof.KbR6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rv (W : Dev nD → Valuation τ sig (Elt F)) : (c : Dev nD) → (b : Ref sig .tc) → Buf (Elt F) ((c : Thread nD τ).loc b) :=
  fun c b => W c b

abbrev U3 : Dev nD → Valuation τ sig (Elt F) := fun c => Gen.V3 m c

def U4 : Dev nD → Valuation τ sig (Elt F) := fun c => Function.update (U3 m c) main_v45 ((dat0 (rv (U3 m)) c).arrAt 2 cfg0.N)
abbrev U5 : Dev nD → Valuation τ sig (Elt F) := fun c => StableHlo.after hostOps1 (U4 m c)

def U6 : Dev nD → Valuation τ sig (Elt F) := fun c => Function.update (U5 m c) main_v53 ((dat1 (rv (U5 m)) c).arrAt 7 cfg1.N)

def U7 : Dev nD → Valuation τ sig (Elt F) := fun c => Function.update (U6 m c) main_v54 ((dat2 (rv (U6 m)) c).arrAt 2 cfg2.N)
abbrev U8 : Dev nD → Valuation τ sig (Elt F) := fun c => StableHlo.after hostOps3 (U7 m c)

def U9 : Dev nD → Valuation τ sig (Elt F) := fun c => Function.update (U8 m c) main_v62 ((dat3 (rv (U8 m)) c).arrAt 7 cfg3.N)

def U10 : Dev nD → Valuation τ sig (Elt F) := fun c => Function.update (U9 m c) main_v63 ((dat4 (rv (U9 m)) c).arrAt 2 cfg4.N)
abbrev U11 : Dev nD → Valuation τ sig (Elt F) := fun c => StableHlo.after hostOps5 (U10 m c)

def U12 : Dev nD → Valuation τ sig (Elt F) := fun c => Function.update (U11 m c) main_v71 ((dat5 (rv (U11 m)) c).arrAt 7 cfg5.N)
abbrev U13 : Dev nD → Valuation τ sig (Elt F) := fun c => StableHlo.after hostOps6 (U12 m c)

def U14 : Dev nD → Valuation τ sig (Elt F) := fun c => Function.update (U13 m c) main_v77 ((dat6 (rv (U13 m)) c).arrAt 3 cfg6.N)

abbrev U15 : Dev nD → Valuation τ sig (Elt F) := fun c => StableHlo.after hostOps7 (U14 m c)

abbrev Uin0 : Dev nD → Valuation τ sig (Elt F) := U3 m
abbrev Uout0 : Dev nD → Valuation τ sig (Elt F) := U4 m
abbrev oref0 : Ref sig .tc := main_v45

abbrev Uin1 : Dev nD → Valuation τ sig (Elt F) := U5 m
abbrev Uout1 : Dev nD → Valuation τ sig (Elt F) := U6 m
abbrev oref1 : Ref sig .tc := main_v53

abbrev Uin2 : Dev nD → Valuation τ sig (Elt F) := U6 m
abbrev Uout2 : Dev nD → Valuation τ sig (Elt F) := U7 m
abbrev oref2 : Ref sig .tc := main_v54

abbrev Uin3 : Dev nD → Valuation τ sig (Elt F) := U8 m
abbrev Uout3 : Dev nD → Valuation τ sig (Elt F) := U9 m
abbrev oref3 : Ref sig .tc := main_v62

abbrev Uin4 : Dev nD → Valuation τ sig (Elt F) := U9 m
abbrev Uout4 : Dev nD → Valuation τ sig (Elt F) := U10 m
abbrev oref4 : Ref sig .tc := main_v63

abbrev Uin5 : Dev nD → Valuation τ sig (Elt F) := U11 m
abbrev Uout5 : Dev nD → Valuation τ sig (Elt F) := U12 m
abbrev oref5 : Ref sig .tc := main_v71

abbrev Uin6 : Dev nD → Valuation τ sig (Elt F) := U13 m
abbrev Uout6 : Dev nD → Valuation τ sig (Elt F) := U14 m
abbrev oref6 : Ref sig .tc := main_v77

def outs : Outs (F := F) := fun n r c => match n with
  | 4 => U4 m c r
  | 6 => U6 m c r
  | 7 => U7 m c r
  | 9 => U9 m c r
  | 10 => U10 m c r
  | 12 => U12 m c r
  | 14 => U14 m c r
  | _ => U3 m c r

theorem V4_eq (c : Dev nD) : Gen.V4 m (outs m) c = U4 m c := by
  show Function.update (Gen.V3 m c) main_v45 (U4 m c main_v45) = U4 m c
  unfold U4; simp only [Function.update_self]
theorem V5_eq (c : Dev nD) : Gen.V5 m (outs m) c = U5 m c := by
  show StableHlo.after hostOps1 (Gen.V4 m (outs m) c) = _; rw [V4_eq]
theorem V6_eq (c : Dev nD) : Gen.V6 m (outs m) c = U6 m c := by
  show Function.update (Gen.V5 m (outs m) c) main_v53 (U6 m c main_v53) = U6 m c
  rw [V5_eq]; unfold U6; simp only [Function.update_self]
theorem V7_eq (c : Dev nD) : Gen.V7 m (outs m) c = U7 m c := by
  show Function.update (Gen.V6 m (outs m) c) main_v54 (U7 m c main_v54) = U7 m c
  rw [V6_eq]; unfold U7; simp only [Function.update_self]
theorem V8_eq (c : Dev nD) : Gen.V8 m (outs m) c = U8 m c := by
  show StableHlo.after hostOps3 (Gen.V7 m (outs m) c) = _; rw [V7_eq]
theorem V9_eq (c : Dev nD) : Gen.V9 m (outs m) c = U9 m c := by
  show Function.update (Gen.V8 m (outs m) c) main_v62 (U9 m c main_v62) = U9 m c
  rw [V8_eq]; unfold U9; simp only [Function.update_self]
theorem V10_eq (c : Dev nD) : Gen.V10 m (outs m) c = U10 m c := by
  show Function.update (Gen.V9 m (outs m) c) main_v63 (U10 m c main_v63) = U10 m c
  rw [V9_eq]; unfold U10; simp only [Function.update_self]
theorem V11_eq (c : Dev nD) : Gen.V11 m (outs m) c = U11 m c := by
  show StableHlo.after hostOps5 (Gen.V10 m (outs m) c) = _; rw [V10_eq]
theorem V12_eq (c : Dev nD) : Gen.V12 m (outs m) c = U12 m c := by
  show Function.update (Gen.V11 m (outs m) c) main_v71 (U12 m c main_v71) = U12 m c
  rw [V11_eq]; unfold U12; simp only [Function.update_self]
theorem V13_eq (c : Dev nD) : Gen.V13 m (outs m) c = U13 m c := by
  show StableHlo.after hostOps6 (Gen.V12 m (outs m) c) = _; rw [V12_eq]
theorem V14_eq (c : Dev nD) : Gen.V14 m (outs m) c = U14 m c := by
  show Function.update (Gen.V13 m (outs m) c) main_v77 (U14 m c main_v77) = U14 m c
  rw [V13_eq]; unfold U14; simp only [Function.update_self]
theorem V15_eq (c : Dev nD) : Gen.V15 m (outs m) c = U15 m c := by
  show StableHlo.after hostOps7 (Gen.V14 m (outs m) c) = _; rw [V14_eq]

def pdats : (p : Fin 7) → (c : Dev nD) → Dat τ (Elt F) Unit ℕ (UR sig nD τ) ℕ (cfgs p) c
  | ⟨0, _⟩ => fun c => dat0 (rv (Uin0 m)) c
  | ⟨1, _⟩ => fun c => dat1 (rv (Uin1 m)) c
  | ⟨2, _⟩ => fun c => dat2 (rv (Uin2 m)) c
  | ⟨3, _⟩ => fun c => dat3 (rv (Uin3 m)) c
  | ⟨4, _⟩ => fun c => dat4 (rv (Uin4 m)) c
  | ⟨5, _⟩ => fun c => dat5 (rv (Uin5 m)) c
  | ⟨6, _⟩ => fun c => dat6 (rv (Uin6 m)) c

abbrev 𝒱₀ : Variants := Variants.none

abbrev Lnone : GSem nD τ sig → Finset Unit := fun _ => ∅
abbrev lvz : GSem nD τ sig → Unit → ℕ := fun _ _ => 0

abbrev R (c : Dev nD) : sProp 𝕄 := iprop((∃ r, prngReg c r) ∗ ∃ W, owes (c : Thread nD τ) (0 : CellTallies nD τ sig Unit) W)

abbrev Efam : Fin 8 → Dev nD → sProp 𝕄 := fun _ c => R c

end Cert.Kernel.Hand

end
-- ==== Proof.LibRegion.lean ====
import Idealize.ShloMosaic.Lib.Pipeline.Frame
import Idealize.ShloMosaic.Lib.Pipeline.Kit
import Idealize.ShloMosaic.Lib.Pipeline.Regions
import Idealize.ShloMosaic.Lib.Pipeline.RegionsLoop

noncomputable section

namespace Cert.Lib

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

/-- Every window but o is an input, so the arrays' final contents are the entry valuation updated at o's array. -/
theorem arrAt_update {cfg : Cfg sig Λ₀} {c : Dev nD} (dat : Dat τ Val Unit ℕ U ℕ cfg c) (V : Valuation τ sig Val)
    (hA : ∀ w, dat.A w = V (Proc.devRef .tc (arrRef cfg.spec w))) (hinj : Function.Injective (arrRef cfg.spec))
    (o : Fin cfg.W) (hin : ∀ w, w ≠ o → (cfg.win w).isOut = false) (t : ℕ) (w : Fin cfg.W) :
    dat.arrAt w t = Function.update V (Proc.devRef .tc (arrRef cfg.spec o)) (dat.arrAt o t) (Proc.devRef .tc (arrRef cfg.spec w)) := by
  by_cases h : w = o
  · subst h; rw [Function.update_self]
  · rw [Function.update_of_ne (StableHlo.devRef_ne_of_ne (hinj.ne h)), dat.arrAt_in w (hin w h), hA]

variable (cfgs : P → Cfg sig Λ₀) (pdats : (p : P) → (c : Dev nD) → Dat τ Val Unit ℕ U ℕ (cfgs p) c)
  (defs₀ : Defs nD τ sig Val Λ₀) (𝒱₀ : Variants)
  (L : GSem nD τ sig → Finset Unit) (lv : GSem nD τ sig → Unit → ℕ) (p : P)

def regionOfHeld (kit : LaunchFacts (nD := nD) (τ := τ) cfgs p)
    (hbody : ∀ c, BodyObligationLoose (pdats p c) defs₀ 𝒱₀ () Set.univ)
    (Vin Vout : Dev nD → Valuation τ sig Val)
    (hΦ : ∀ c t, (pdats p c).Φ t = ΦA (cfgs p).spec c)
    (hq : ∀ c w, (pdats p c).q w = fullShare)
    (howed : ∀ c t, (pdats p c).owed t = 0)
    (hrec : ∀ c, (pdats p c).recorded 0 = Set.univ)
    (hA : ∀ c w, (pdats p c).A w = Vin c (Proc.devRef .tc (arrRef (cfgs p).spec w)))
    (o : Fin (cfgs p).W) (hin : ∀ w, w ≠ o → ((cfgs p).win w).isOut = false)
    (hout : ∀ c, Vout c = Function.update (Vin c) (Proc.devRef .tc (arrRef (cfgs p).spec o)) ((pdats p c).arrAt o (cfgs p).N)) :
    RegionSeg (fun q => (cfgs q).toPCfg) (fun q => (cfgs q).toPCfg_adm) pdats () defs₀ 𝒱₀ L lv p where
  win := kit.win.to₀
  block_pos := kit.block_pos
  stage_whole := kit.stage_whole
  K := PEmpty
  osem k := k.elim
  ho := OwnSemFacts.none _
  hbody := hbody
  hwaits := hwaits_of_owed_zero (fun q => (cfgs q).toPCfg) (fun q => (cfgs q).toPCfg_adm) pdats () L lv p howed
  pre c := iprop(StableHlo.held (c.tc : Thread nD τ) (ucRefs τ sig) (Vin c) ∗ (∃ r, prngReg c r) ∗ ∃ W, owes (c.tc : Thread nD τ) (0 : CellTallies nD τ sig Unit) W)
  post c := iprop(StableHlo.held (c.tc : Thread nD τ) (ucRefs τ sig) (Vout c) ∗ (∃ r, prngReg c r) ∗ ∃ W, owes (c.tc : Thread nD τ) (0 : CellTallies nD τ sig Unit) W)
  X c := iprop(∃ r, prngReg c r)
  Y c := iprop(∃ r, prngReg c r)
  Z c := unscopedRest (Ix := Unit) (Name := ℕ) (U := U) (Lvl := ℕ) (cfgs p).spec c (fun b => Vin c b)
  hentry c := by
    rw [ownSems0_none]
    have hsplit := arrays_of_unscopedBufs (fun q => (cfgs q).toPCfg) (fun q => (cfgs q).toPCfg_adm) pdats kit.win kit.arr_whole c
      ((pdats p c).share_full (hq c)) (fun b => Vin c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin
      icases HO with ⟨%W, HO⟩; iexists W; isplitr; · ipureintro; exact fun _ _ => Or.inl (hrec c ▸ trivial)
      rw [howed]; iexact HO
    isplitl [Hp]; · iexact Hp
    iexact Hrest
  hin c := by
    rw [hΦ]; unfold ΦA
    iintro ⟨Hp, -, Hr⟩
    isplitl [Hr]; · iexact Hr
    iexact Hp
  hout c := by
    rw [ownSems0_none, hΦ]; unfold ΦA
    iintro ⟨Hr, Hp⟩
    isplitl [Hp]; · iexact Hp
    isplitr; · iempintro
    iexact Hr
  hexit c := by
    have hjoin := unscopedBufs_of_arrays (fun q => (cfgs q).toPCfg) (fun q => (cfgs q).toPCfg_adm) (Ix := Unit) (Name := ℕ) (U := U) (Lvl := ℕ)
      kit.win kit.arr_whole c pdats ((pdats p c).share_full (hq c))
      (fun b => Vin c b) (fun b => Vout c b) ((pdats p c).arrAt · (cfgs p).N)
      (fun w => by rw [hout]; exact arrAt_update _ _ (hA c) kit.win.arr_inj o hin _ w)
      (fun b hb => by
        rw [hout]
        exact Function.update_of_ne (StableHlo.devRef_ne_of_ne fun e => hb (Finset.mem_image.mpr ⟨o, Finset.mem_univ _, e.symm⟩)) _ _)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    icases HO with ⟨%W, -, HO⟩; iexists W; rw [howed]; iexact HO

end Cert.Lib

end
-- ==== Proof.KbReg0.lean ====
import proofs.«430353_j22832046146023_3_alg».proof.Proof.KbChain
import proofs.«430353_j22832046146023_3_alg».proof.Proof.LibRegion

set_option maxRecDepth 16384
set_option maxHeartbeats 1000000

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

set_option backward.isDefEq.respectTransparency.types false in
/-- Region 0: window 2 is its one output. -/
def reg0 : Pipeline.RegionSeg (pcfgs (F := F)) adm (pdats m) () defs₀ 𝒱₀ Lnone lvz 0 :=
  Cert.Lib.regionOfHeld cfgs (pdats m) defs₀ 𝒱₀ Lnone lvz 0 launch0 (fun c => (body_obligation0 (rv (Uin0 m)) c).loose) (Uin0 m) (Uout0 m)
    (fun _ _ => rfl) (fun _ _ => rfl) (fun _ _ => rfl) (fun _ => rfl) (fun _ _ => rfl) 2 (by decide) (fun _ => rfl)

end Cert.Kernel.Hand

end
-- ==== Proof.KbReg1.lean ====
import proofs.«430353_j22832046146023_3_alg».proof.Proof.KbChain
import proofs.«430353_j22832046146023_3_alg».proof.Proof.LibRegion

set_option maxRecDepth 16384
set_option maxHeartbeats 1000000

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

set_option backward.isDefEq.respectTransparency.types false in
/-- Region 1: window 7 is its one output. -/
def reg1 : Pipeline.RegionSeg (pcfgs (F := F)) adm (pdats m) () defs₀ 𝒱₀ Lnone lvz 1 :=
  Cert.Lib.regionOfHeld cfgs (pdats m) defs₀ 𝒱₀ Lnone lvz 1 launch1 (fun c => (body_obligation1 (rv (Uin1 m)) c).loose) (Uin1 m) (Uout1 m)
    (fun _ _ => rfl) (fun _ _ => rfl) (fun _ _ => rfl) (fun _ => rfl) (fun _ _ => rfl) 7 (by decide) (fun _ => rfl)

end Cert.Kernel.Hand

end
-- ==== Proof.KbReg2.lean ====
import proofs.«430353_j22832046146023_3_alg».proof.Proof.KbChain
import proofs.«430353_j22832046146023_3_alg».proof.Proof.LibRegion

set_option maxRecDepth 16384
set_option maxHeartbeats 1000000

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

set_option backward.isDefEq.respectTransparency.types false in
/-- Region 2: window 2 is its one output. -/
def reg2 : Pipeline.RegionSeg (pcfgs (F := F)) adm (pdats m) () defs₀ 𝒱₀ Lnone lvz 2 :=
  Cert.Lib.regionOfHeld cfgs (pdats m) defs₀ 𝒱₀ Lnone lvz 2 launch2 (fun c => (body_obligation2 (rv (Uin2 m)) c).loose) (Uin2 m) (Uout2 m)
    (fun _ _ => rfl) (fun _ _ => rfl) (fun _ _ => rfl) (fun _ => rfl) (fun _ _ => rfl) 2 (by decide) (fun _ => rfl)

end Cert.Kernel.Hand

end
-- ==== Proof.KbReg3.lean ====
import proofs.«430353_j22832046146023_3_alg».proof.Proof.KbChain
import proofs.«430353_j22832046146023_3_alg».proof.Proof.LibRegion

set_option maxRecDepth 16384
set_option maxHeartbeats 1000000

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

set_option backward.isDefEq.respectTransparency.types false in
/-- Region 3: window 7 is its one output. -/
def reg3 : Pipeline.RegionSeg (pcfgs (F := F)) adm (pdats m) () defs₀ 𝒱₀ Lnone lvz 3 :=
  Cert.Lib.regionOfHeld cfgs (pdats m) defs₀ 𝒱₀ Lnone lvz 3 launch3 (fun c => (body_obligation3 (rv (Uin3 m)) c).loose) (Uin3 m) (Uout3 m)
    (fun _ _ => rfl) (fun _ _ => rfl) (fun _ _ => rfl) (fun _ => rfl) (fun _ _ => rfl) 7 (by decide) (fun _ => rfl)

end Cert.Kernel.Hand

end
-- ==== Proof.KbReg4.lean ====
import proofs.«430353_j22832046146023_3_alg».proof.Proof.KbChain
import proofs.«430353_j22832046146023_3_alg».proof.Proof.LibRegion

set_option maxRecDepth 16384
set_option maxHeartbeats 1000000

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

set_option backward.isDefEq.respectTransparency.types false in
/-- Region 4: window 2 is its one output. -/
def reg4 : Pipeline.RegionSeg (pcfgs (F := F)) adm (pdats m) () defs₀ 𝒱₀ Lnone lvz 4 :=
  Cert.Lib.regionOfHeld cfgs (pdats m) defs₀ 𝒱₀ Lnone lvz 4 launch4 (fun c => (body_obligation4 (rv (Uin4 m)) c).loose) (Uin4 m) (Uout4 m)
    (fun _ _ => rfl) (fun _ _ => rfl) (fun _ _ => rfl) (fun _ => rfl) (fun _ _ => rfl) 2 (by decide) (fun _ => rfl)

end Cert.Kernel.Hand

end
-- ==== Proof.KbReg5.lean ====
import proofs.«430353_j22832046146023_3_alg».proof.Proof.KbChain
import proofs.«430353_j22832046146023_3_alg».proof.Proof.LibRegion

set_option maxRecDepth 16384
set_option maxHeartbeats 1000000

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

set_option backward.isDefEq.respectTransparency.types false in
/-- Region 5: window 7 is its one output. -/
def reg5 : Pipeline.RegionSeg (pcfgs (F := F)) adm (pdats m) () defs₀ 𝒱₀ Lnone lvz 5 :=
  Cert.Lib.regionOfHeld cfgs (pdats m) defs₀ 𝒱₀ Lnone lvz 5 launch5 (fun c => (body_obligation5 (rv (Uin5 m)) c).loose) (Uin5 m) (Uout5 m)
    (fun _ _ => rfl) (fun _ _ => rfl) (fun _ _ => rfl) (fun _ => rfl) (fun _ _ => rfl) 7 (by decide) (fun _ => rfl)

end Cert.Kernel.Hand

end
-- ==== Proof.KbReg6.lean ====
import proofs.«430353_j22832046146023_3_alg».proof.Proof.KbChain
import proofs.«430353_j22832046146023_3_alg».proof.Proof.LibRegion

set_option maxRecDepth 16384
set_option maxHeartbeats 1000000

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

set_option backward.isDefEq.respectTransparency.types false in
/-- Region 6: window 3 is its one output. -/
def reg6 : Pipeline.RegionSeg (pcfgs (F := F)) adm (pdats m) () defs₀ 𝒱₀ Lnone lvz 6 :=
  Cert.Lib.regionOfHeld cfgs (pdats m) defs₀ 𝒱₀ Lnone lvz 6 launch6 (fun c => (body_obligation6 (rv (Uin6 m)) c).loose) (Uin6 m) (Uout6 m)
    (fun _ _ => rfl) (fun _ _ => rfl) (fun _ _ => rfl) (fun _ => rfl) (fun _ _ => rfl) 3 (by decide) (fun _ => rfl)

end Cert.Kernel.Hand

end
-- ==== Proof.KbRun.lean ====
import proofs.«430353_j22832046146023_3_alg».proof.Defs
import proofs.«430353_j22832046146023_3_alg».proof.Proof.Gen.Kernel
import proofs.«430353_j22832046146023_3_alg».proof.Proof.Gen.Pre_finite_inputs
import proofs.«430353_j22832046146023_3_alg».proof.Proof.KbReg0
import proofs.«430353_j22832046146023_3_alg».proof.Proof.KbReg1
import proofs.«430353_j22832046146023_3_alg».proof.Proof.KbReg2
import proofs.«430353_j22832046146023_3_alg».proof.Proof.KbReg3
import proofs.«430353_j22832046146023_3_alg».proof.Proof.KbReg4
import proofs.«430353_j22832046146023_3_alg».proof.Proof.KbReg5
import proofs.«430353_j22832046146023_3_alg».proof.Proof.KbReg6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

set_option backward.isDefEq.respectTransparency.types false in
/-- By the launch theorem for a program of seven regions, given each region's record. -/
theorem frame_k : Cert.frame_Kernel (hKernel := Cert.Kernel.Gen.facts) (hPre_finite_inputs := Cert.Pre_finite_inputs.Gen.facts) :=
  fun m ρ _ => frame_cond (F := Bits) m (outs m) (EP := emb₁) (ι := ()) (𝒱₀ := 𝒱₀) (L := Lnone) (lv := lvz) (hL := fun _ _ => rfl) (ρ := ρ)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := Efam)
    (hE0 := by
      refine Pipeline.initEach Lnone lvz fun c => ?_
      iintro ⟨⟨-, HO, -, Hp, -⟩, -⟩
      imodintro
      isplitl [Hp]; · iexists _; iexact Hp
      iexists ∅; iexact HO)
    (hE7 := fun c => by
      iintro ⟨-, HO⟩
      iexact HO)
    (R0 := reg0 m) (hpre0 := fun c => by exact .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V6_eq]; exact .rfl) (hpost2 := fun c => by rw [V7_eq]; exact .rfl)
    (R3 := reg3 m) (hpre3 := fun c => by rw [V8_eq]; exact .rfl) (hpost3 := fun c => by rw [V9_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V13_eq]; exact .rfl) (hpost6 := fun c => by rw [V14_eq]; exact .rfl)

end Cert.Kernel.Hand

end
-- ==== Proof.KiR0.lean ====
import proofs.«430353_j22832046146023_3_alg».proof.Proof.Gen.KernelIdeal.Launch
import proofs.«430353_j22832046146023_3_alg».proof.Proof.Gen.KernelIdeal.Skeleton
import proofs.«430353_j22832046146023_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S400x10000 := Rect.unit (s := S400x10000) ![0, 0] S400x10000.size inb_S400x10000_S400x10000_0_0
abbrev r0_1 : Rect S10000x128 := Rect.unit (s := S10000x128) ![0, 0] S10000x128.size inb_S10000x128_S10000x128_0_0
abbrev r0_2 : Rect S400x128 := Rect.unit (s := S400x128) ![0, 0] S400x128.size inb_S400x128_S400x128_0_0

def out0_2 (x0 : Vec F S400x10000 .f32) (x1 : Vec F S10000x128 .f32) : Vec F S400x128 .f32 :=
  View.canon [⟨r0_2, k0_pay1 (View.ld x0 r0_0) (View.ld x1 r0_1)⟩]

-- The single written rectangle covers the whole shape, so what is read back is `View.canon` of that one piece.
set_option maxHeartbeats 1000000 in
theorem sound_kernel0 (c : Dev nD) (E : Set ℕ) (i : grid0.Coords)
    (arg0 : Memref sig .tc .vmem S400x10000 .f32) (harg0 : arg0.IsWhole) (arg1 : Memref sig .tc .vmem S10000x128 .f32) (harg1 : arg1.IsWhole)
    (arg2 : Memref sig .tc .vmem S400x128 .f32) (harg2 : arg2.IsWhole)
    (x0 : Vec F S400x10000 .f32) (x1 : Vec F S10000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__lap_matvec_kernel i arg0 harg0 arg1 harg1 arg2 harg2) K := by
  simp only [cc0__lap_matvec_kernel_eq_skeleton]; unfold cc0__lap_matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S400x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

theorem after0_in (c : Dev nD) (t : Fin cfg0.N) :
    (dat0 V c).after 0 t = iblk0 V c 0 t ∧ (dat0 V c).after 1 t = iblk0 V c 1 t := by
  refine ⟨?_, ?_⟩ <;> dsimp only [dat0]

theorem before0_in (c : Dev nD) (t : Fin cfg0.N) :
    (∀ d, (dat0 V c).before 0 t d = iblk0 V c 0 t) ∧ (∀ d, (dat0 V c).before 1 t d = iblk0 V c 1 t) := by
  refine ⟨?_, ?_⟩ <;> exact fun d => ((dat0 V c).before_in_eq_fetched _ rfl (fun _ => rfl) (fun _ _ _ => rfl)
    (fun t => by dsimp only [dat0]; rfl) t d).trans (by dsimp only [dat0]; rfl)

theorem sound_body0 (c : Dev nD) (t : Fin cfg0.N) :
    iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
    ⊢ wp frame (wpE (defs₀ (F := F)) Variants.none c none) Set.univ (bodyAt0 t) (fun _ =>
    iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))) := by
  unfold bodyAt0
  simp only [before0_in V c t, after0_in V c t, after0_2,
    show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiR1.lean ====
import proofs.«430353_j22832046146023_3_alg».proof.Proof.Gen.KernelIdeal.Launch
import proofs.«430353_j22832046146023_3_alg».proof.Proof.Gen.KernelIdeal.Skeleton
import proofs.«430353_j22832046146023_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S400x10000 := Rect.unit (s := S400x10000) ![0, 0] S400x10000.size inb_S400x10000_S400x10000_0_0
abbrev r1_1 : Rect S400x128 := Rect.unit (s := S400x128) ![0, 0] S400x128.size inb_S400x128_S400x128_0_0
abbrev r1_2 : Rect S10000x128 := Rect.unit (s := S10000x128) ![0, 0] S10000x128.size inb_S10000x128_S10000x128_0_0
abbrev r1_3 : Rect S128x60 := Rect.unit (s := S128x60) ![0, 0] S128x60.size inb_S128x60_S128x60_0_0
abbrev r1_4 : Rect S128x60 := Rect.unit (s := S128x60) ![0, 0] S128x60.size inb_S128x60_S128x60_0_0
abbrev r1_5 : Rect S128x60 := Rect.unit (s := S128x60) ![0, 0] S128x60.size inb_S128x60_S128x60_0_0
abbrev r1_6 : Rect S1x60 := Rect.unit (s := S1x60) ![0, 0] S1x60.size inb_S1x60_S1x60_0_0
abbrev r1_7 : Rect S400x60 := Rect.unit (s := S400x60) ![0, 0] S400x60.size inb_S400x60_S400x60_0_0

def out1_7 (i : grid1.Coords) (x0 : Vec F S400x10000 .f32) (x1 : Vec F S400x128 .f32) (x2 : Vec F S10000x128 .f32) (x3 x4 x5 : Vec F S128x60 .f32) (x6 : Vec F S1x60 .f32) : Vec F S400x60 .f32 :=
  View.canon [⟨r1_7, k1_pay1 (View.ld x2 (Rect.unit (s := S10000x128) (k1_off1 i) S400x128.size (k1_off1_inb i))) (View.ld x0 r1_0) (View.ld x2 r1_2) (View.ld x1 r1_1) (View.ld x3 r1_3) (View.ld x4 r1_4) (View.ld x5 r1_5) (View.ld x6 r1_6)⟩]

-- The single written rectangle covers the whole shape, so what is read back is `View.canon` of that one piece.
set_option maxHeartbeats 1000000 in
theorem sound_kernel1 (c : Dev nD) (E : Set ℕ) (i : grid1.Coords)
    (arg0 : Memref sig .tc .vmem S400x10000 .f32) (harg0 : arg0.IsWhole) (arg1 : Memref sig .tc .vmem S400x128 .f32) (harg1 : arg1.IsWhole)
    (arg2 : Memref sig .tc .vmem S10000x128 .f32) (harg2 : arg2.IsWhole) (arg3 : Memref sig .tc .vmem S128x60 .f32) (harg3 : arg3.IsWhole)
    (arg4 : Memref sig .tc .vmem S128x60 .f32) (harg4 : arg4.IsWhole) (arg5 : Memref sig .tc .vmem S128x60 .f32) (harg5 : arg5.IsWhole)
    (arg6 : Memref sig .tc .vmem S1x60 .f32) (harg6 : arg6.IsWhole) (arg7 : Memref sig .tc .vmem S400x60 .f32) (harg7 : arg7.IsWhole)
    (x0 : Vec F S400x10000 .f32) (x1 : Vec F S400x128 .f32) (x2 : Vec F S10000x128 .f32) (x3 x4 x5 : Vec F S128x60 .f32) (x6 : Vec F S1x60 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out1_7 i x0 x1 x2 x3 x4 x5 x6)) -∗ K ⟨⟩))
      ⊢ wp frame (wpE (defs₀ (F := F)) Variants.none c none) E (cc1__matvec_epilogue_kernel i arg0 harg0 arg1 harg1 arg2 harg2 arg3 harg3 arg4 harg4 arg5 harg5 arg6 harg6 arg7 harg7) K := by
  simp only [cc1__matvec_epilogue_kernel_eq_skeleton]; unfold cc1__matvec_epilogue_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S400x60.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (cfg1.grid.coords t) (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem after1_7 (c : Dev nD) (t : Fin cfg1.N) : (dat1 V c).after 7 t = out1_7 (cfg1.grid.coords t) (iblk1 V c 0 t) (iblk1 V c 1 t) (iblk1 V c 2 t) (iblk1 V c 3 t) (iblk1 V c 4 t) (iblk1 V c 5 t) (iblk1 V c 6 t) := by dsimp only [dat1]

theorem after1_in (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t ∧ (dat1 V c).after 5 t = iblk1 V c 5 t ∧ (dat1 V c).after 6 t = iblk1 V c 6 t := by
  refine ⟨?_, ?_, ?_, ?_, ?_, ?_, ?_⟩ <;> dsimp only [dat1]

theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) := by
  refine ⟨?_, ?_, ?_, ?_, ?_, ?_, ?_⟩ <;> exact fun d => ((dat1 V c).before_in_eq_fetched _ rfl (fun _ => rfl) (fun _ _ _ => rfl)
    (fun t => by dsimp only [dat1]; rfl) t d).trans (by dsimp only [dat1]; rfl)

set_option maxHeartbeats 1000000 in
theorem sound_body1 (c : Dev nD) (t : Fin cfg1.N) :
    iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))
    ⊢ wp frame (wpE (defs₀ (F := F)) Variants.none c none) Set.univ (bodyAt1 t) (fun _ =>
    iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))) := by
  unfold bodyAt1
  simp only [before1_in V c t, after1_in V c t, after1_7,
    show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  iframe H0 H1 H2 H3 H4 H5 H6
  isplitl [H7]; · iexists _; iexact H7
  iintro ⟨H0, H1, H2, H3, H4, H5, H6, H7⟩
  iframe HΦ Ho H0 H1 H2 H3 H4 H5 H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiR2.lean ====
import proofs.«430353_j22832046146023_3_alg».proof.Proof.Gen.KernelIdeal.Launch
import proofs.«430353_j22832046146023_3_alg».proof.Proof.Gen.KernelIdeal.Skeleton
import proofs.«430353_j22832046146023_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S400x10000 := Rect.unit (s := S400x10000) ![0, 0] S400x10000.size inb_S400x10000_S400x10000_0_0
abbrev r2_1 : Rect S10000x60 := Rect.unit (s := S10000x60) ![0, 0] S10000x60.size inb_S10000x60_S10000x60_0_0
abbrev r2_2 : Rect S400x60 := Rect.unit (s := S400x60) ![0, 0] S400x60.size inb_S400x60_S400x60_0_0

def out2_2 (x0 : Vec F S400x10000 .f32) (x1 : Vec F S10000x60 .f32) : Vec F S400x60 .f32 :=
  View.canon [⟨r2_2, k2_pay1 (View.ld x0 r2_0) (View.ld x1 r2_1)⟩]

-- The single written rectangle covers the whole shape, so what is read back is `View.canon` of that one piece.
set_option maxHeartbeats 1000000 in
theorem sound_kernel2 (c : Dev nD) (E : Set ℕ) (i : grid2.Coords)
    (arg0 : Memref sig .tc .vmem S400x10000 .f32) (harg0 : arg0.IsWhole) (arg1 : Memref sig .tc .vmem S10000x60 .f32) (harg1 : arg1.IsWhole)
    (arg2 : Memref sig .tc .vmem S400x60 .f32) (harg2 : arg2.IsWhole)
    (x0 : Vec F S400x10000 .f32) (x1 : Vec F S10000x60 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__lap_matvec_kernel i arg0 harg0 arg1 harg1 arg2 harg2) K := by
  simp only [cc2__lap_matvec_kernel_eq_skeleton]; unfold cc2__lap_matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S400x60.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_2 (c : Dev nD) (t : Fin cfg2.N) : (dat2 V c).after 2 t = out2_2 (iblk2 V c 0 t) (iblk2 V c 1 t) := by dsimp only [dat2]

theorem after2_in (c : Dev nD) (t : Fin cfg2.N) :
    (dat2 V c).after 0 t = iblk2 V c 0 t ∧ (dat2 V c).after 1 t = iblk2 V c 1 t := by
  refine ⟨?_, ?_⟩ <;> dsimp only [dat2]

theorem before2_in (c : Dev nD) (t : Fin cfg2.N) :
    (∀ d, (dat2 V c).before 0 t d = iblk2 V c 0 t) ∧ (∀ d, (dat2 V c).before 1 t d = iblk2 V c 1 t) := by
  refine ⟨?_, ?_⟩ <;> exact fun d => ((dat2 V c).before_in_eq_fetched _ rfl (fun _ => rfl) (fun _ _ _ => rfl)
    (fun t => by dsimp only [dat2]; rfl) t d).trans (by dsimp only [dat2]; rfl)

theorem sound_body2 (c : Dev nD) (t : Fin cfg2.N) :
    iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))
    ⊢ wp frame (wpE (defs₀ (F := F)) Variants.none c none) Set.univ (bodyAt2 t) (fun _ =>
    iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))) := by
  unfold bodyAt2
  simp only [before2_in V c t, after2_in V c t, after2_2,
    show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe HΦ Ho H0 H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiR3.lean ====
import proofs.«430353_j22832046146023_3_alg».proof.Proof.Gen.KernelIdeal.Launch
import proofs.«430353_j22832046146023_3_alg».proof.Proof.Gen.KernelIdeal.Skeleton
import proofs.«430353_j22832046146023_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S400x10000 := Rect.unit (s := S400x10000) ![0, 0] S400x10000.size inb_S400x10000_S400x10000_0_0
abbrev r3_1 : Rect S400x60 := Rect.unit (s := S400x60) ![0, 0] S400x60.size inb_S400x60_S400x60_0_0
abbrev r3_2 : Rect S10000x60 := Rect.unit (s := S10000x60) ![0, 0] S10000x60.size inb_S10000x60_S10000x60_0_0
abbrev r3_3 : Rect S60x30 := Rect.unit (s := S60x30) ![0, 0] S60x30.size inb_S60x30_S60x30_0_0
abbrev r3_4 : Rect S60x30 := Rect.unit (s := S60x30) ![0, 0] S60x30.size inb_S60x30_S60x30_0_0
abbrev r3_5 : Rect S60x30 := Rect.unit (s := S60x30) ![0, 0] S60x30.size inb_S60x30_S60x30_0_0
abbrev r3_6 : Rect S1x30 := Rect.unit (s := S1x30) ![0, 0] S1x30.size inb_S1x30_S1x30_0_0
abbrev r3_7 : Rect S400x30 := Rect.unit (s := S400x30) ![0, 0] S400x30.size inb_S400x30_S400x30_0_0

def out3_7 (i : grid3.Coords) (x0 : Vec F S400x10000 .f32) (x1 : Vec F S400x60 .f32) (x2 : Vec F S10000x60 .f32) (x3 x4 x5 : Vec F S60x30 .f32) (x6 : Vec F S1x30 .f32) : Vec F S400x30 .f32 :=
  View.canon [⟨r3_7, k3_pay1 (View.ld x2 (Rect.unit (s := S10000x60) (k3_off1 i) S400x60.size (k3_off1_inb i))) (View.ld x0 r3_0) (View.ld x2 r3_2) (View.ld x1 r3_1) (View.ld x3 r3_3) (View.ld x4 r3_4) (View.ld x5 r3_5) (View.ld x6 r3_6)⟩]

-- The single written rectangle covers the whole shape, so what is read back is `View.canon` of that one piece.
set_option maxHeartbeats 1000000 in
theorem sound_kernel3 (c : Dev nD) (E : Set ℕ) (i : grid3.Coords)
    (arg0 : Memref sig .tc .vmem S400x10000 .f32) (harg0 : arg0.IsWhole) (arg1 : Memref sig .tc .vmem S400x60 .f32) (harg1 : arg1.IsWhole)
    (arg2 : Memref sig .tc .vmem S10000x60 .f32) (harg2 : arg2.IsWhole) (arg3 : Memref sig .tc .vmem S60x30 .f32) (harg3 : arg3.IsWhole)
    (arg4 : Memref sig .tc .vmem S60x30 .f32) (harg4 : arg4.IsWhole) (arg5 : Memref sig .tc .vmem S60x30 .f32) (harg5 : arg5.IsWhole)
    (arg6 : Memref sig .tc .vmem S1x30 .f32) (harg6 : arg6.IsWhole) (arg7 : Memref sig .tc .vmem S400x30 .f32) (harg7 : arg7.IsWhole)
    (x0 : Vec F S400x10000 .f32) (x1 : Vec F S400x60 .f32) (x2 : Vec F S10000x60 .f32) (x3 x4 x5 : Vec F S60x30 .f32) (x6 : Vec F S1x30 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out3_7 i x0 x1 x2 x3 x4 x5 x6)) -∗ K ⟨⟩))
      ⊢ wp frame (wpE (defs₀ (F := F)) Variants.none c none) E (cc3__matvec_epilogue_kernel i arg0 harg0 arg1 harg1 arg2 harg2 arg3 harg3 arg4 harg4 arg5 harg5 arg6 harg6 arg7 harg7) K := by
  simp only [cc3__matvec_epilogue_kernel_eq_skeleton]; unfold cc3__matvec_epilogue_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S400x30.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (cfg3.grid.coords t) (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem after3_7 (c : Dev nD) (t : Fin cfg3.N) : (dat3 V c).after 7 t = out3_7 (cfg3.grid.coords t) (iblk3 V c 0 t) (iblk3 V c 1 t) (iblk3 V c 2 t) (iblk3 V c 3 t) (iblk3 V c 4 t) (iblk3 V c 5 t) (iblk3 V c 6 t) := by dsimp only [dat3]

theorem after3_in (c : Dev nD) (t : Fin cfg3.N) :
    (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t ∧ (dat3 V c).after 5 t = iblk3 V c 5 t ∧ (dat3 V c).after 6 t = iblk3 V c 6 t := by
  refine ⟨?_, ?_, ?_, ?_, ?_, ?_, ?_⟩ <;> dsimp only [dat3]

theorem before3_in (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) ∧ (∀ d, (dat3 V c).before 6 t d = iblk3 V c 6 t) := by
  refine ⟨?_, ?_, ?_, ?_, ?_, ?_, ?_⟩ <;> exact fun d => ((dat3 V c).before_in_eq_fetched _ rfl (fun _ => rfl) (fun _ _ _ => rfl)
    (fun t => by dsimp only [dat3]; rfl) t d).trans (by dsimp only [dat3]; rfl)

set_option maxHeartbeats 1000000 in
theorem sound_body3 (c : Dev nD) (t : Fin cfg3.N) :
    iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))
    ⊢ wp frame (wpE (defs₀ (F := F)) Variants.none c none) Set.univ (bodyAt3 t) (fun _ =>
    iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))) := by
  unfold bodyAt3
  simp only [before3_in V c t, after3_in V c t, after3_7,
    show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  iframe H0 H1 H2 H3 H4 H5 H6
  isplitl [H7]; · iexists _; iexact H7
  iintro ⟨H0, H1, H2, H3, H4, H5, H6, H7⟩
  iframe HΦ Ho H0 H1 H2 H3 H4 H5 H6
  iexact H7

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KiR4.lean ====
import proofs.«430353_j22832046146023_3_alg».proof.Proof.Gen.KernelIdeal.Launch
import proofs.«430353_j22832046146023_3_alg».proof.Proof.Gen.KernelIdeal.Skeleton
import proofs.«430353_j22832046146023_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S400x10000 := Rect.unit (s := S400x10000) ![0, 0] S400x10000.size inb_S400x10000_S400x10000_0_0
abbrev r4_1 : Rect S10000x30 := Rect.unit (s := S10000x30) ![0, 0] S10000x30.size inb_S10000x30_S10000x30_0_0
abbrev r4_2 : Rect S400x30 := Rect.unit (s := S400x30) ![0, 0] S400x30.size inb_S400x30_S400x30_0_0

def out4_2 (x0 : Vec F S400x10000 .f32) (x1 : Vec F S10000x30 .f32) : Vec F S400x30 .f32 :=
  View.canon [⟨r4_2, k4_pay1 (View.ld x0 r4_0) (View.ld x1 r4_1)⟩]

-- The single written rectangle covers the whole shape, so what is read back is `View.canon` of that one piece.
set_option maxHeartbeats 1000000 in
theorem sound_kernel4 (c : Dev nD) (E : Set ℕ) (i : grid4.Coords)
    (arg0 : Memref sig .tc .vmem S400x10000 .f32) (harg0 : arg0.IsWhole) (arg1 : Memref sig .tc .vmem S10000x30 .f32) (harg1 : arg1.IsWhole)
    (arg2 : Memref sig .tc .vmem S400x30 .f32) (harg2 : arg2.IsWhole)
    (x0 : Vec F S400x10000 .f32) (x1 : Vec F S10000x30 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out4_2 x0 x1)) -∗ K ⟨⟩))
      ⊢ wp frame (wpE (defs₀ (F := F)) Variants.none c none) E (cc4__lap_matvec_kernel i arg0 harg0 arg1 harg1 arg2 harg2) K := by
  simp only [cc4__lap_matvec_kernel_eq_skeleton]; unfold cc4__lap_matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S400x30.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem after4_2 (c : Dev nD) (t : Fin cfg4.N) : (dat4 V c).after 2 t = out4_2 (iblk4 V c 0 t) (iblk4 V c 1 t) := by dsimp only [dat4]

theorem after4_in (c : Dev nD) (t : Fin cfg4.N) :
    (dat4 V c).after 0 t = iblk4 V c 0 t ∧ (dat4 V c).after 1 t = iblk4 V c 1 t := by
  refine ⟨?_, ?_⟩ <;> dsimp only [dat4]

theorem before4_in (c : Dev nD) (t : Fin cfg4.N) :
    (∀ d, (dat4 V c).before 0 t d = iblk4 V c 0 t) ∧ (∀ d, (dat4 V c).before 1 t d = iblk4 V c 1 t) := by
  refine ⟨?_, ?_⟩ <;> exact fun d => ((dat4 V c).before_in_eq_fetched _ rfl (fun _ => rfl) (fun _ _ _ => rfl)
    (fun t => by dsimp only [dat4]; rfl) t d).trans (by dsimp only [dat4]; rfl)

theorem sound_body4 (c : Dev nD) (t : Fin cfg4.N) :
    iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))
    ⊢ wp frame (wpE (defs₀ (F := F)) Variants.none c none) Set.univ (bodyAt4 t) (fun _ =>
    iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))) := by
  unfold bodyAt4
  simp only [before4_in V c t, after4_in V c t, after4_2,
    show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe HΦ Ho H0 H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KiR5.lean ====
import proofs.«430353_j22832046146023_3_alg».proof.Proof.Gen.KernelIdeal.Launch
import proofs.«430353_j22832046146023_3_alg».proof.Proof.Gen.KernelIdeal.Skeleton
import proofs.«430353_j22832046146023_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S400x10000 := Rect.unit (s := S400x10000) ![0, 0] S400x10000.size inb_S400x10000_S400x10000_0_0
abbrev r5_1 : Rect S400x30 := Rect.unit (s := S400x30) ![0, 0] S400x30.size inb_S400x30_S400x30_0_0
abbrev r5_2 : Rect S10000x30 := Rect.unit (s := S10000x30) ![0, 0] S10000x30.size inb_S10000x30_S10000x30_0_0
abbrev r5_3 : Rect S30x1 := Rect.unit (s := S30x1) ![0, 0] S30x1.size inb_S30x1_S30x1_0_0
abbrev r5_4 : Rect S30x1 := Rect.unit (s := S30x1) ![0, 0] S30x1.size inb_S30x1_S30x1_0_0
abbrev r5_5 : Rect S30x1 := Rect.unit (s := S30x1) ![0, 0] S30x1.size inb_S30x1_S30x1_0_0
abbrev r5_6 : Rect S1x1 := Rect.unit (s := S1x1) ![0, 0] S1x1.size inb_S1x1_S1x1_0_0
abbrev r5_7 : Rect S400x1 := Rect.unit (s := S400x1) ![0, 0] S400x1.size inb_S400x1_S400x1_0_0

def out5_7 (i : grid5.Coords) (x0 : Vec F S400x10000 .f32) (x1 : Vec F S400x30 .f32) (x2 : Vec F S10000x30 .f32) (x3 x4 x5 : Vec F S30x1 .f32) (x6 : Vec F S1x1 .f32) : Vec F S400x1 .f32 :=
  View.canon [⟨r5_7, k5_pay1 (View.ld x2 (Rect.unit (s := S10000x30) (k5_off1 i) S400x30.size (k5_off1_inb i))) (View.ld x0 r5_0) (View.ld x2 r5_2) (View.ld x1 r5_1) (View.ld x3 r5_3) (View.ld x4 r5_4) (View.ld x5 r5_5) (View.ld x6 r5_6)⟩]

-- The single written rectangle covers the whole shape, so what is read back is `View.canon` of that one piece.
set_option maxHeartbeats 1000000 in
theorem sound_kernel5 (c : Dev nD) (E : Set ℕ) (i : grid5.Coords)
    (arg0 : Memref sig .tc .vmem S400x10000 .f32) (harg0 : arg0.IsWhole) (arg1 : Memref sig .tc .vmem S400x30 .f32) (harg1 : arg1.IsWhole)
    (arg2 : Memref sig .tc .vmem S10000x30 .f32) (harg2 : arg2.IsWhole) (arg3 : Memref sig .tc .vmem S30x1 .f32) (harg3 : arg3.IsWhole)
    (arg4 : Memref sig .tc .vmem S30x1 .f32) (harg4 : arg4.IsWhole) (arg5 : Memref sig .tc .vmem S30x1 .f32) (harg5 : arg5.IsWhole)
    (arg6 : Memref sig .tc .vmem S1x1 .f32) (harg6 : arg6.IsWhole) (arg7 : Memref sig .tc .vmem S400x1 .f32) (harg7 : arg7.IsWhole)
    (x0 : Vec F S400x10000 .f32) (x1 : Vec F S400x30 .f32) (x2 : Vec F S10000x30 .f32) (x3 x4 x5 : Vec F S30x1 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out5_7 i x0 x1 x2 x3 x4 x5 x6)) -∗ K ⟨⟩))
      ⊢ wp frame (wpE (defs₀ (F := F)) Variants.none c none) E (cc5__matvec_epilogue_kernel i arg0 harg0 arg1 harg1 arg2 harg2 arg3 harg3 arg4 harg4 arg5 harg5 arg6 harg6 arg7 harg7) K := by
  simp only [cc5__matvec_epilogue_kernel_eq_skeleton]; unfold cc5__matvec_epilogue_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S400x1.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (cfg5.grid.coords t) (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem after5_7 (c : Dev nD) (t : Fin cfg5.N) : (dat5 V c).after 7 t = out5_7 (cfg5.grid.coords t) (iblk5 V c 0 t) (iblk5 V c 1 t) (iblk5 V c 2 t) (iblk5 V c 3 t) (iblk5 V c 4 t) (iblk5 V c 5 t) (iblk5 V c 6 t) := by dsimp only [dat5]

theorem after5_in (c : Dev nD) (t : Fin cfg5.N) :
    (dat5 V c).after 0 t = iblk5 V c 0 t ∧ (dat5 V c).after 1 t = iblk5 V c 1 t ∧ (dat5 V c).after 2 t = iblk5 V c 2 t ∧ (dat5 V c).after 3 t = iblk5 V c 3 t ∧ (dat5 V c).after 4 t = iblk5 V c 4 t ∧ (dat5 V c).after 5 t = iblk5 V c 5 t ∧ (dat5 V c).after 6 t = iblk5 V c 6 t := by
  refine ⟨?_, ?_, ?_, ?_, ?_, ?_, ?_⟩ <;> dsimp only [dat5]

theorem before5_in (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t) ∧ (∀ d, (dat5 V c).before 3 t d = iblk5 V c 3 t) ∧ (∀ d, (dat5 V c).before 4 t d = iblk5 V c 4 t) ∧ (∀ d, (dat5 V c).before 5 t d = iblk5 V c 5 t) ∧ (∀ d, (dat5 V c).before 6 t d = iblk5 V c 6 t) := by
  refine ⟨?_, ?_, ?_, ?_, ?_, ?_, ?_⟩ <;> exact fun d => ((dat5 V c).before_in_eq_fetched _ rfl (fun _ => rfl) (fun _ _ _ => rfl)
    (fun t => by dsimp only [dat5]; rfl) t d).trans (by dsimp only [dat5]; rfl)

set_option maxHeartbeats 1000000 in
theorem sound_body5 (c : Dev nD) (t : Fin cfg5.N) :
    iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))
    ⊢ wp frame (wpE (defs₀ (F := F)) Variants.none c none) Set.univ (bodyAt5 t) (fun _ =>
    iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))) := by
  unfold bodyAt5
  simp only [before5_in V c t, after5_in V c t, after5_7,
    show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  iframe H0 H1 H2 H3 H4 H5 H6
  isplitl [H7]; · iexists _; iexact H7
  iintro ⟨H0, H1, H2, H3, H4, H5, H6, H7⟩
  iframe HΦ Ho H0 H1 H2 H3 H4 H5 H6
  iexact H7

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KiR6.lean ====
import proofs.«430353_j22832046146023_3_alg».proof.Proof.Gen.KernelIdeal.Launch
import proofs.«430353_j22832046146023_3_alg».proof.Proof.Gen.KernelIdeal.Skeleton
import proofs.«430353_j22832046146023_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S400x10003 := Rect.unit (s := S400x10003) ![0, 0] S400x10003.size inb_S400x10003_S400x10003_0_0
abbrev r6_1 : Rect S10003x1 := Rect.unit (s := S10003x1) ![0, 0] S10003x1.size inb_S10003x1_S10003x1_0_0
abbrev r6_2 : Rect S400x1 := Rect.unit (s := S400x1) ![0, 0] S400x1.size inb_S400x1_S400x1_0_0
abbrev r6_3 : Rect S400x1 := Rect.unit (s := S400x1) ![0, 0] S400x1.size inb_S400x1_S400x1_0_0

def out6_3 (x0 : Vec F S400x10003 .f32) (x1 : Vec F S10003x1 .f32) (x2 : Vec F S400x1 .f32) : Vec F S400x1 .f32 :=
  View.canon [⟨r6_3, k6_pay1 (View.ld x0 r6_0) (View.ld x1 r6_1) (View.ld x2 r6_2)⟩]

-- The single written rectangle covers the whole shape, so what is read back is `View.canon` of that one piece.
set_option maxHeartbeats 1000000 in
theorem sound_kernel6 (c : Dev nD) (E : Set ℕ) (i : grid6.Coords)
    (arg0 : Memref sig .tc .vmem S400x10003 .f32) (harg0 : arg0.IsWhole) (arg1 : Memref sig .tc .vmem S10003x1 .f32) (harg1 : arg1.IsWhole)
    (arg2 : Memref sig .tc .vmem S400x1 .f32) (harg2 : arg2.IsWhole) (arg3 : Memref sig .tc .vmem S400x1 .f32) (harg3 : arg3.IsWhole)
    (x0 : Vec F S400x10003 .f32) (x1 : Vec F S10003x1 .f32) (x2 : Vec F S400x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1
            ∗ owns (c : Thread nD τ) arg2 fullShare x2
            ∗ owns (c : Thread nD τ) arg3 fullShare (out6_3 x0 x1 x2)) -∗ K ⟨⟩))
      ⊢ wp frame (wpE (defs₀ (F := F)) Variants.none c none) E (cc6__head_kernel i arg0 harg0 arg1 harg1 arg2 harg2 arg3 harg3) K := by
  simp only [cc6__head_kernel_eq_skeleton]; unfold cc6__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S400x1.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem after6_3 (c : Dev nD) (t : Fin cfg6.N) : (dat6 V c).after 3 t = out6_3 (iblk6 V c 0 t) (iblk6 V c 1 t) (iblk6 V c 2 t) := by dsimp only [dat6]

theorem after6_in (c : Dev nD) (t : Fin cfg6.N) :
    (dat6 V c).after 0 t = iblk6 V c 0 t ∧ (dat6 V c).after 1 t = iblk6 V c 1 t ∧ (dat6 V c).after 2 t = iblk6 V c 2 t := by
  refine ⟨?_, ?_, ?_⟩ <;> dsimp only [dat6]

theorem before6_in (c : Dev nD) (t : Fin cfg6.N) :
    (∀ d, (dat6 V c).before 0 t d = iblk6 V c 0 t) ∧ (∀ d, (dat6 V c).before 1 t d = iblk6 V c 1 t) ∧ (∀ d, (dat6 V c).before 2 t d = iblk6 V c 2 t) := by
  refine ⟨?_, ?_, ?_⟩ <;> exact fun d => ((dat6 V c).before_in_eq_fetched _ rfl (fun _ => rfl) (fun _ _ _ => rfl)
    (fun t => by dsimp only [dat6]; rfl) t d).trans (by dsimp only [dat6]; rfl)

theorem sound_body6 (c : Dev nD) (t : Fin cfg6.N) :
    iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))
    ⊢ wp frame (wpE (defs₀ (F := F)) Variants.none c none) Set.univ (bodyAt6 t) (fun _ =>
    iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))) := by
  unfold bodyAt6
  simp only [before6_in V c t, after6_in V c t, after6_3,
    show (dat6 V c).Φ t.succ = (dat6 V c).Φ t.castSucc from rfl,
    show (dat6 V c).owesAt () t.succ = (dat6 V c).owesAt () t.castSucc from rfl]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  iframe H0 H1 H2
  isplitl [H3]; · iexists _; iexact H3
  iintro ⟨H0, H1, H2, H3⟩
  iframe HΦ Ho H0 H1 H2
  iexact H3

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KiChain.lean ====
import proofs.«430353_j22832046146023_3_alg».proof.Proof.Gen.KernelIdeal.Regions
import proofs.«430353_j22832046146023_3_alg».proof.Proof.KiR0
import proofs.«430353_j22832046146023_3_alg».proof.Proof.KiR1
import proofs.«430353_j22832046146023_3_alg».proof.Proof.KiR2
import proofs.«430353_j22832046146023_3_alg».proof.Proof.KiR3
import proofs.«430353_j22832046146023_3_alg».proof.Proof.KiR4
import proofs.«430353_j22832046146023_3_alg».proof.Proof.KiR5
import proofs.«430353_j22832046146023_3_alg».proof.Proof.KiR6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rv (W : Dev nD → Valuation τ sig (Elt F)) : (c : Dev nD) → (b : Ref sig .tc) → Buf (Elt F) ((c : Thread nD τ).loc b) :=
  fun c b => W c b

abbrev U3 : Dev nD → Valuation τ sig (Elt F) := fun c => Gen.V3 m c

def U4 : Dev nD → Valuation τ sig (Elt F) := fun c => Function.update (U3 m c) main_v45 ((dat0 (rv (U3 m)) c).arrAt 2 cfg0.N)
abbrev U5 : Dev nD → Valuation τ sig (Elt F) := fun c => StableHlo.after hostOps1 (U4 m c)

def U6 : Dev nD → Valuation τ sig (Elt F) := fun c => Function.update (U5 m c) main_v53 ((dat1 (rv (U5 m)) c).arrAt 7 cfg1.N)

def U7 : Dev nD → Valuation τ sig (Elt F) := fun c => Function.update (U6 m c) main_v54 ((dat2 (rv (U6 m)) c).arrAt 2 cfg2.N)
abbrev U8 : Dev nD → Valuation τ sig (Elt F) := fun c => StableHlo.after hostOps3 (U7 m c)

def U9 : Dev nD → Valuation τ sig (Elt F) := fun c => Function.update (U8 m c) main_v62 ((dat3 (rv (U8 m)) c).arrAt 7 cfg3.N)

def U10 : Dev nD → Valuation τ sig (Elt F) := fun c => Function.update (U9 m c) main_v63 ((dat4 (rv (U9 m)) c).arrAt 2 cfg4.N)
abbrev U11 : Dev nD → Valuation τ sig (Elt F) := fun c => StableHlo.after hostOps5 (U10 m c)

def U12 : Dev nD → Valuation τ sig (Elt F) := fun c => Function.update (U11 m c) main_v71 ((dat5 (rv (U11 m)) c).arrAt 7 cfg5.N)
abbrev U13 : Dev nD → Valuation τ sig (Elt F) := fun c => StableHlo.after hostOps6 (U12 m c)

def U14 : Dev nD → Valuation τ sig (Elt F) := fun c => Function.update (U13 m c) main_v77 ((dat6 (rv (U13 m)) c).arrAt 3 cfg6.N)

abbrev U15 : Dev nD → Valuation τ sig (Elt F) := fun c => StableHlo.after hostOps7 (U14 m c)

abbrev Uin0 : Dev nD → Valuation τ sig (Elt F) := U3 m
abbrev Uout0 : Dev nD → Valuation τ sig (Elt F) := U4 m
abbrev oref0 : Ref sig .tc := main_v45

abbrev Uin1 : Dev nD → Valuation τ sig (Elt F) := U5 m
abbrev Uout1 : Dev nD → Valuation τ sig (Elt F) := U6 m
abbrev oref1 : Ref sig .tc := main_v53

abbrev Uin2 : Dev nD → Valuation τ sig (Elt F) := U6 m
abbrev Uout2 : Dev nD → Valuation τ sig (Elt F) := U7 m
abbrev oref2 : Ref sig .tc := main_v54

abbrev Uin3 : Dev nD → Valuation τ sig (Elt F) := U8 m
abbrev Uout3 : Dev nD → Valuation τ sig (Elt F) := U9 m
abbrev oref3 : Ref sig .tc := main_v62

abbrev Uin4 : Dev nD → Valuation τ sig (Elt F) := U9 m
abbrev Uout4 : Dev nD → Valuation τ sig (Elt F) := U10 m
abbrev oref4 : Ref sig .tc := main_v63

abbrev Uin5 : Dev nD → Valuation τ sig (Elt F) := U11 m
abbrev Uout5 : Dev nD → Valuation τ sig (Elt F) := U12 m
abbrev oref5 : Ref sig .tc := main_v71

abbrev Uin6 : Dev nD → Valuation τ sig (Elt F) := U13 m
abbrev Uout6 : Dev nD → Valuation τ sig (Elt F) := U14 m
abbrev oref6 : Ref sig .tc := main_v77

def outs : Outs (F := F) := fun n r c => match n with
  | 4 => U4 m c r
  | 6 => U6 m c r
  | 7 => U7 m c r
  | 9 => U9 m c r
  | 10 => U10 m c r
  | 12 => U12 m c r
  | 14 => U14 m c r
  | _ => U3 m c r

theorem V4_eq (c : Dev nD) : Gen.V4 m (outs m) c = U4 m c := by
  show Function.update (Gen.V3 m c) main_v45 (U4 m c main_v45) = U4 m c
  unfold U4; simp only [Function.update_self]
theorem V5_eq (c : Dev nD) : Gen.V5 m (outs m) c = U5 m c := by
  show StableHlo.after hostOps1 (Gen.V4 m (outs m) c) = _; rw [V4_eq]
theorem V6_eq (c : Dev nD) : Gen.V6 m (outs m) c = U6 m c := by
  show Function.update (Gen.V5 m (outs m) c) main_v53 (U6 m c main_v53) = U6 m c
  rw [V5_eq]; unfold U6; simp only [Function.update_self]
theorem V7_eq (c : Dev nD) : Gen.V7 m (outs m) c = U7 m c := by
  show Function.update (Gen.V6 m (outs m) c) main_v54 (U7 m c main_v54) = U7 m c
  rw [V6_eq]; unfold U7; simp only [Function.update_self]
theorem V8_eq (c : Dev nD) : Gen.V8 m (outs m) c = U8 m c := by
  show StableHlo.after hostOps3 (Gen.V7 m (outs m) c) = _; rw [V7_eq]
theorem V9_eq (c : Dev nD) : Gen.V9 m (outs m) c = U9 m c := by
  show Function.update (Gen.V8 m (outs m) c) main_v62 (U9 m c main_v62) = U9 m c
  rw [V8_eq]; unfold U9; simp only [Function.update_self]
theorem V10_eq (c : Dev nD) : Gen.V10 m (outs m) c = U10 m c := by
  show Function.update (Gen.V9 m (outs m) c) main_v63 (U10 m c main_v63) = U10 m c
  rw [V9_eq]; unfold U10; simp only [Function.update_self]
theorem V11_eq (c : Dev nD) : Gen.V11 m (outs m) c = U11 m c := by
  show StableHlo.after hostOps5 (Gen.V10 m (outs m) c) = _; rw [V10_eq]
theorem V12_eq (c : Dev nD) : Gen.V12 m (outs m) c = U12 m c := by
  show Function.update (Gen.V11 m (outs m) c) main_v71 (U12 m c main_v71) = U12 m c
  rw [V11_eq]; unfold U12; simp only [Function.update_self]
theorem V13_eq (c : Dev nD) : Gen.V13 m (outs m) c = U13 m c := by
  show StableHlo.after hostOps6 (Gen.V12 m (outs m) c) = _; rw [V12_eq]
theorem V14_eq (c : Dev nD) : Gen.V14 m (outs m) c = U14 m c := by
  show Function.update (Gen.V13 m (outs m) c) main_v77 (U14 m c main_v77) = U14 m c
  rw [V13_eq]; unfold U14; simp only [Function.update_self]
theorem V15_eq (c : Dev nD) : Gen.V15 m (outs m) c = U15 m c := by
  show StableHlo.after hostOps7 (Gen.V14 m (outs m) c) = _; rw [V14_eq]

def pdats : (p : Fin 7) → (c : Dev nD) → Dat τ (Elt F) Unit ℕ (UR sig nD τ) ℕ (cfgs p) c
  | ⟨0, _⟩ => fun c => dat0 (rv (Uin0 m)) c
  | ⟨1, _⟩ => fun c => dat1 (rv (Uin1 m)) c
  | ⟨2, _⟩ => fun c => dat2 (rv (Uin2 m)) c
  | ⟨3, _⟩ => fun c => dat3 (rv (Uin3 m)) c
  | ⟨4, _⟩ => fun c => dat4 (rv (Uin4 m)) c
  | ⟨5, _⟩ => fun c => dat5 (rv (Uin5 m)) c
  | ⟨6, _⟩ => fun c => dat6 (rv (Uin6 m)) c

abbrev 𝒱₀ : Variants := Variants.none

abbrev Lnone : GSem nD τ sig → Finset Unit := fun _ => ∅
abbrev lvz : GSem nD τ sig → Unit → ℕ := fun _ _ => 0

abbrev R (c : Dev nD) : sProp 𝕄 := iprop((∃ r, prngReg c r) ∗ ∃ W, owes (c : Thread nD τ) (0 : CellTallies nD τ sig Unit) W)

abbrev Efam : Fin 8 → Dev nD → sProp 𝕄 := fun _ c => R c

end Cert.KernelIdeal.Hand

end
-- ==== Proof.KiReg0.lean ====
import proofs.«430353_j22832046146023_3_alg».proof.Proof.KiChain
import proofs.«430353_j22832046146023_3_alg».proof.Proof.LibRegion

set_option maxRecDepth 16384
set_option maxHeartbeats 1000000

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

set_option backward.isDefEq.respectTransparency.types false in
/-- Region 0: window 2 is its one output. -/
def reg0 : Pipeline.RegionSeg (pcfgs (F := F)) adm (pdats m) () defs₀ 𝒱₀ Lnone lvz 0 :=
  Cert.Lib.regionOfHeld cfgs (pdats m) defs₀ 𝒱₀ Lnone lvz 0 launch0 (fun c => (body_obligation0 (rv (Uin0 m)) c).loose) (Uin0 m) (Uout0 m)
    (fun _ _ => rfl) (fun _ _ => rfl) (fun _ _ => rfl) (fun _ => rfl) (fun _ _ => rfl) 2 (by decide) (fun _ => rfl)

end Cert.KernelIdeal.Hand

end
-- ==== Proof.KiReg1.lean ====
import proofs.«430353_j22832046146023_3_alg».proof.Proof.KiChain
import proofs.«430353_j22832046146023_3_alg».proof.Proof.LibRegion

set_option maxRecDepth 16384
set_option maxHeartbeats 1000000

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

set_option backward.isDefEq.respectTransparency.types false in
/-- Region 1: window 7 is its one output. -/
def reg1 : Pipeline.RegionSeg (pcfgs (F := F)) adm (pdats m) () defs₀ 𝒱₀ Lnone lvz 1 :=
  Cert.Lib.regionOfHeld cfgs (pdats m) defs₀ 𝒱₀ Lnone lvz 1 launch1 (fun c => (body_obligation1 (rv (Uin1 m)) c).loose) (Uin1 m) (Uout1 m)
    (fun _ _ => rfl) (fun _ _ => rfl) (fun _ _ => rfl) (fun _ => rfl) (fun _ _ => rfl) 7 (by decide) (fun _ => rfl)

end Cert.KernelIdeal.Hand

end
-- ==== Proof.KiReg2.lean ====
import proofs.«430353_j22832046146023_3_alg».proof.Proof.KiChain
import proofs.«430353_j22832046146023_3_alg».proof.Proof.LibRegion

set_option maxRecDepth 16384
set_option maxHeartbeats 1000000

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

set_option backward.isDefEq.respectTransparency.types false in
/-- Region 2: window 2 is its one output. -/
def reg2 : Pipeline.RegionSeg (pcfgs (F := F)) adm (pdats m) () defs₀ 𝒱₀ Lnone lvz 2 :=
  Cert.Lib.regionOfHeld cfgs (pdats m) defs₀ 𝒱₀ Lnone lvz 2 launch2 (fun c => (body_obligation2 (rv (Uin2 m)) c).loose) (Uin2 m) (Uout2 m)
    (fun _ _ => rfl) (fun _ _ => rfl) (fun _ _ => rfl) (fun _ => rfl) (fun _ _ => rfl) 2 (by decide) (fun _ => rfl)

end Cert.KernelIdeal.Hand

end
-- ==== Proof.KiReg3.lean ====
import proofs.«430353_j22832046146023_3_alg».proof.Proof.KiChain
import proofs.«430353_j22832046146023_3_alg».proof.Proof.LibRegion

set_option maxRecDepth 16384
set_option maxHeartbeats 1000000

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

set_option backward.isDefEq.respectTransparency.types false in
/-- Region 3: window 7 is its one output. -/
def reg3 : Pipeline.RegionSeg (pcfgs (F := F)) adm (pdats m) () defs₀ 𝒱₀ Lnone lvz 3 :=
  Cert.Lib.regionOfHeld cfgs (pdats m) defs₀ 𝒱₀ Lnone lvz 3 launch3 (fun c => (body_obligation3 (rv (Uin3 m)) c).loose) (Uin3 m) (Uout3 m)
    (fun _ _ => rfl) (fun _ _ => rfl) (fun _ _ => rfl) (fun _ => rfl) (fun _ _ => rfl) 7 (by decide) (fun _ => rfl)

end Cert.KernelIdeal.Hand

end
-- ==== Proof.KiReg4.lean ====
import proofs.«430353_j22832046146023_3_alg».proof.Proof.KiChain
import proofs.«430353_j22832046146023_3_alg».proof.Proof.LibRegion

set_option maxRecDepth 16384
set_option maxHeartbeats 1000000

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

set_option backward.isDefEq.respectTransparency.types false in
/-- Region 4: window 2 is its one output. -/
def reg4 : Pipeline.RegionSeg (pcfgs (F := F)) adm (pdats m) () defs₀ 𝒱₀ Lnone lvz 4 :=
  Cert.Lib.regionOfHeld cfgs (pdats m) defs₀ 𝒱₀ Lnone lvz 4 launch4 (fun c => (body_obligation4 (rv (Uin4 m)) c).loose) (Uin4 m) (Uout4 m)
    (fun _ _ => rfl) (fun _ _ => rfl) (fun _ _ => rfl) (fun _ => rfl) (fun _ _ => rfl) 2 (by decide) (fun _ => rfl)

end Cert.KernelIdeal.Hand

end
-- ==== Proof.KiReg5.lean ====
import proofs.«430353_j22832046146023_3_alg».proof.Proof.KiChain
import proofs.«430353_j22832046146023_3_alg».proof.Proof.LibRegion

set_option maxRecDepth 16384
set_option maxHeartbeats 1000000

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

set_option backward.isDefEq.respectTransparency.types false in
/-- Region 5: window 7 is its one output. -/
def reg5 : Pipeline.RegionSeg (pcfgs (F := F)) adm (pdats m) () defs₀ 𝒱₀ Lnone lvz 5 :=
  Cert.Lib.regionOfHeld cfgs (pdats m) defs₀ 𝒱₀ Lnone lvz 5 launch5 (fun c => (body_obligation5 (rv (Uin5 m)) c).loose) (Uin5 m) (Uout5 m)
    (fun _ _ => rfl) (fun _ _ => rfl) (fun _ _ => rfl) (fun _ => rfl) (fun _ _ => rfl) 7 (by decide) (fun _ => rfl)

end Cert.KernelIdeal.Hand

end
-- ==== Proof.KiReg6.lean ====
import proofs.«430353_j22832046146023_3_alg».proof.Proof.KiChain
import proofs.«430353_j22832046146023_3_alg».proof.Proof.LibRegion

set_option maxRecDepth 16384
set_option maxHeartbeats 1000000

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

set_option backward.isDefEq.respectTransparency.types false in
/-- Region 6: window 3 is its one output. -/
def reg6 : Pipeline.RegionSeg (pcfgs (F := F)) adm (pdats m) () defs₀ 𝒱₀ Lnone lvz 6 :=
  Cert.Lib.regionOfHeld cfgs (pdats m) defs₀ 𝒱₀ Lnone lvz 6 launch6 (fun c => (body_obligation6 (rv (Uin6 m)) c).loose) (Uin6 m) (Uout6 m)
    (fun _ _ => rfl) (fun _ _ => rfl) (fun _ _ => rfl) (fun _ => rfl) (fun _ _ => rfl) 3 (by decide) (fun _ => rfl)

end Cert.KernelIdeal.Hand

end
-- ==== Proof.KiRun.lean ====
import proofs.«430353_j22832046146023_3_alg».proof.Proof.KiFrameAll
import proofs.«430353_j22832046146023_3_alg».proof.Proof.KiReg0
import proofs.«430353_j22832046146023_3_alg».proof.Proof.KiReg1
import proofs.«430353_j22832046146023_3_alg».proof.Proof.KiReg2
import proofs.«430353_j22832046146023_3_alg».proof.Proof.KiReg3
import proofs.«430353_j22832046146023_3_alg».proof.Proof.KiReg4
import proofs.«430353_j22832046146023_3_alg».proof.Proof.KiReg5
import proofs.«430353_j22832046146023_3_alg».proof.Proof.KiReg6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

theorem run_all : θ_run defs (onTc (τ := τ) (main (F := F))) ⟨m, fun _ => 0, ρ⟩ (fun r => ∀ c : Dev nD,
    ∀ b ∈ Pipeline.ucRefs τ sig, r.2.mem ((c : Thread nD τ).1, b) = U15 m c b) := by
  have h := frame_cond_all (F := F) m (outs m) (EP := emb₁) (ι := ()) (𝒱₀ := 𝒱₀) (L := Lnone) (lv := lvz) (hL := fun _ _ => rfl) (ρ := ρ)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := Efam)
    (hE0 := by
      refine Pipeline.initEach Lnone lvz fun c => ?_
      iintro ⟨⟨-, HO, -, Hp, -⟩, -⟩
      imodintro
      isplitl [Hp]; · iexists _; iexact Hp
      iexists ∅; iexact HO)
    (hE7 := fun c => by
      iintro ⟨-, HO⟩
      iexact HO)
    (R0 := reg0 m) (hpre0 := fun c => by exact .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V6_eq]; exact .rfl) (hpost2 := fun c => by rw [V7_eq]; exact .rfl)
    (R3 := reg3 m) (hpre3 := fun c => by rw [V8_eq]; exact .rfl) (hpost3 := fun c => by rw [V9_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V13_eq]; exact .rfl) (hpost6 := fun c => by rw [V14_eq]; exact .rfl)
  refine (θ_run defs _ _).mono (fun r hr c b hb => ?_) h
  rw [← V15_eq]; exact hr c b hb

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem args_of_all (r : PUnit × MemSt nD τ sig (Elt F))
    (h : ∀ c : Dev nD, ∀ b ∈ Pipeline.ucRefs τ sig, r.2.mem ((c : Thread nD τ).1, b) = U15 m c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨(h c _ (mem_uc main_arg0 (by decide))).trans ((congrFun (V15_eq m c) _).symm.trans (V15_main_arg0 m (outs m) c)),
    (h c _ (mem_uc main_arg1 (by decide))).trans ((congrFun (V15_eq m c) _).symm.trans (V15_main_arg1 m (outs m) c)),
    (h c _ (mem_uc main_arg2 (by decide))).trans ((congrFun (V15_eq m c) _).symm.trans (V15_main_arg2 m (outs m) c)),
    (h c _ (mem_uc main_arg3 (by decide))).trans ((congrFun (V15_eq m c) _).symm.trans (V15_main_arg3 m (outs m) c)),
    (h c _ (mem_uc main_arg4 (by decide))).trans ((congrFun (V15_eq m c) _).symm.trans (V15_main_arg4 m (outs m) c)),
    (h c _ (mem_uc main_arg5 (by decide))).trans ((congrFun (V15_eq m c) _).symm.trans (V15_main_arg5 m (outs m) c)),
    (h c _ (mem_uc main_arg6 (by decide))).trans ((congrFun (V15_eq m c) _).symm.trans (V15_main_arg6 m (outs m) c)),
    (h c _ (mem_uc main_arg7 (by decide))).trans ((congrFun (V15_eq m c) _).symm.trans (V15_main_arg7 m (outs m) c)),
    (h c _ (mem_uc main_arg8 (by decide))).trans ((congrFun (V15_eq m c) _).symm.trans (V15_main_arg8 m (outs m) c)),
    (h c _ (mem_uc main_arg9 (by decide))).trans ((congrFun (V15_eq m c) _).symm.trans (V15_main_arg9 m (outs m) c)),
    (h c _ (mem_uc main_arg10 (by decide))).trans ((congrFun (V15_eq m c) _).symm.trans (V15_main_arg10 m (outs m) c)),
    (h c _ (mem_uc main_arg11 (by decide))).trans ((congrFun (V15_eq m c) _).symm.trans (V15_main_arg11 m (outs m) c)),
    (h c _ (mem_uc main_arg12 (by decide))).trans ((congrFun (V15_eq m c) _).symm.trans (V15_main_arg12 m (outs m) c)),
    (h c _ (mem_uc main_arg13 (by decide))).trans ((congrFun (V15_eq m c) _).symm.trans (V15_main_arg13 m (outs m) c)),
    (h c _ (mem_uc main_arg14 (by decide))).trans ((congrFun (V15_eq m c) _).symm.trans (V15_main_arg14 m (outs m) c))⟩

end Cert.KernelIdeal.Hand

end
-- ==== Proof.Spec.lean ====
import Idealize.ShloMosaic.PureOps.Ideal

noncomputable section

namespace GcnSpec

open Idealize.ShloMosaic
open scoped BigOperators

abbrev Mat (n d : ℕ) := Fin n → Fin d → EReal

def IsR (x : EReal) : Prop := ∃ r : ℝ, x = (r : EReal)

theorem IsR.coe (r : ℝ) : IsR (r : EReal) := ⟨r, rfl⟩
theorem IsR.zero : IsR (0 : EReal) := ⟨0, rfl⟩
theorem IsR.add {x y : EReal} (hx : IsR x) (hy : IsR y) : IsR (x + y) := by
  obtain ⟨a, rfl⟩ := hx
  obtain ⟨b, rfl⟩ := hy
  exact ⟨a + b, (EReal.coe_add a b).symm⟩
theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.neg {x : EReal} (hx : IsR x) : IsR (-x) := by
  obtain ⟨a, rfl⟩ := hx
  exact ⟨-a, (EReal.coe_neg a).symm⟩
theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact IsR.add (h a (Finset.mem_insert_self a s)) (ih (fun i hi => h i (Finset.mem_insert_of_mem hi)))

theorem IsR.tanh (x : EReal) : IsR (Ideal.tanh x) := by
  induction x using EReal.rec with
  | bot => exact ⟨-1, rfl⟩
  | top => exact ⟨1, rfl⟩
  | coe r => exact ⟨Real.tanh r, rfl⟩

structure Graph (N E : ℕ) where
  src : Fin E → Fin N
  dst : Fin E → Fin N
  w : Fin E → EReal

variable {N E D D' : ℕ}

def Lmat (g : Graph N E) (i j : Fin N) : EReal :=
  ∑ e ∈ Finset.univ.filter (fun e => g.dst e = i ∧ g.src e = j), g.w e

def lapK (g : Graph N E) (X : Mat N D) : Mat N D := fun i d => ∑ j, Lmat g i j * X j d

def lapR (g : Graph N E) (X : Mat N D) : Mat N D :=
  fun i d => ∑ e ∈ Finset.univ.filter (fun e => g.dst e = i), g.w e * X (g.src e) d

theorem lap_eq (g : Graph N E) (hw : ∀ e, IsR (g.w e)) (X : Mat N D) (hX : ∀ j d, IsR (X j d)) :
    lapK g X = lapR g X := by
  classical

  have coe_sum : ∀ (s : Finset (Fin E)) (f : Fin E → ℝ),
      ((∑ e ∈ s, f e : ℝ) : EReal) = ∑ e ∈ s, (f e : EReal) := by
    intro s f
    induction s using Finset.induction_on with
    | empty => simp
    | insert a s ha ih => rw [Finset.sum_insert ha, Finset.sum_insert ha, EReal.coe_add, ih]
  choose rw hrw using hw
  choose rX hrX using hX
  funext i d
  unfold lapK lapR Lmat
  simp only [hrw, hrX]

  have key : ∀ j : Fin N,
      (∑ e ∈ Finset.univ.filter (fun e => g.dst e = i ∧ g.src e = j), (rw e : EReal)) * (rX j d : EReal)
        = ∑ e ∈ Finset.univ.filter (fun e => g.dst e = i ∧ g.src e = j),
            (rw e : EReal) * (rX (g.src e) d : EReal) := by
    intro j
    rw [← coe_sum, ← EReal.coe_mul, Finset.sum_mul, coe_sum]
    refine Finset.sum_congr rfl ?_
    intro e he
    rw [Finset.mem_filter] at he
    rw [EReal.coe_mul, he.2.2]

  rw [← Finset.sum_fiberwise (Finset.univ.filter (fun e => g.dst e = i)) g.src]
  refine Finset.sum_congr rfl (fun j _ => ?_)
  rw [Finset.filter_filter]
  exact key j

theorem lapK_isR (g : Graph N E) (hw : ∀ e, IsR (g.w e)) (X : Mat N D) (hX : ∀ j d, IsR (X j d)) (i : Fin N) (d : Fin D) :
    IsR (lapK g X i d) := by
  unfold lapK Lmat
  exact IsR.sum _ _ (fun j _ => IsR.mul (IsR.sum _ _ (fun e _ => hw e)) (hX j d))

def layer (two : EReal) (lap : Mat N D → Mat N D) (X : Mat N D) (W0 W1 W2 : Mat D D') (b : Fin D' → EReal) : Mat N D' :=
  fun i o => Ideal.tanh ((((∑ k, X i k * W0 k o) + ∑ k, lap X i k * W1 k o)
    + ∑ k, (two * lap (lap X) i k - X i k) * W2 k o) + b o)

theorem layer_isR (two : EReal) (lap : Mat N D → Mat N D) (X : Mat N D) (W0 W1 W2 : Mat D D') (b : Fin D' → EReal)
    (i : Fin N) (o : Fin D') : IsR (layer two lap X W0 W1 W2 b i o) := IsR.tanh _

theorem layer_lap_eq (two : EReal) (g : Graph N E) (hw : ∀ e, IsR (g.w e)) (X : Mat N D) (hX : ∀ j d, IsR (X j d))
    (W0 W1 W2 : Mat D D') (b : Fin D' → EReal) :
    layer two (lapK g) X W0 W1 W2 b = layer two (lapR g) X W0 W1 W2 b := by
  have h1 : lapK g X = lapR g X := lap_eq g hw X hX
  have h2 : lapK g (lapK g X) = lapR g (lapR g X) := by
    rw [lap_eq g hw (lapK g X) (lapK_isR g hw X hX), h1]
  funext i o
  unfold layer
  rw [h2, h1]

def net {D0 D1 D2 D3 : ℕ} (two : EReal) (lap : {D : ℕ} → Mat N D → Mat N D) (X : Mat N D0)
    (A0 A1 A2 : Mat D0 D1) (a : Fin D1 → EReal) (B0 B1 B2 : Mat D1 D2) (b : Fin D2 → EReal)
    (C0 C1 C2 : Mat D2 D3) (c : Fin D3 → EReal) : Mat N D3 :=
  layer two lap (layer two lap (layer two lap X A0 A1 A2 a) B0 B1 B2 b) C0 C1 C2 c

theorem net_lap_eq {D0 D1 D2 D3 : ℕ} (two : EReal) (g : Graph N E) (hw : ∀ e, IsR (g.w e)) (X : Mat N D0)
    (hX : ∀ j d, IsR (X j d))
    (A0 A1 A2 : Mat D0 D1) (a : Fin D1 → EReal) (B0 B1 B2 : Mat D1 D2) (b : Fin D2 → EReal)
    (C0 C1 C2 : Mat D2 D3) (c : Fin D3 → EReal) :
    net two (fun {D} => lapK (D := D) g) X A0 A1 A2 a B0 B1 B2 b C0 C1 C2 c
      = net two (fun {D} => lapR (D := D) g) X A0 A1 A2 a B0 B1 B2 b C0 C1 C2 c := by
  simp only [net]
  rw [layer_lap_eq two g hw X hX A0 A1 A2 a]
  rw [layer_lap_eq two g hw _ (fun j d => layer_isR _ _ _ _ _ _ _ j d) B0 B1 B2 b]
  rw [layer_lap_eq two g hw _ (fun j d => layer_isR _ _ _ _ _ _ _ j d) C0 C1 C2 c]

def headL {A K : ℕ} (W : Mat A K) (st : Fin K → EReal) (b : Fin A → EReal) (a : Fin A) : EReal := (∑ k, W a k * st k) + b a
def headR {A K : ℕ} (W : Mat A K) (st : Fin K → EReal) (b : Fin A → EReal) (a : Fin A) : EReal := (∑ k, st k * W a k) + b a
theorem head_eq {A K : ℕ} (W : Mat A K) (st : Fin K → EReal) (b : Fin A → EReal) : headL W st b = headR W st b := by
  funext a
  unfold headL headR
  congr 1
  exact Finset.sum_congr rfl (fun k _ => mul_comm _ _)

def stateOf (h : Fin N → EReal) (p q r : EReal) : Fin (N + 3) → EReal := fun k =>
  if hk : k.val < N then h ⟨k.val, hk⟩ else if k.val = N then p else if k.val = N + 1 then q else r

end GcnSpec

end
-- ==== Proof.Acc.lean ====
import proofs.«430353_j22832046146023_3_alg».proof.Proof.Spec
import Idealize.ShloMosaic.Lib.ValueIdx

noncomputable section

namespace GcnSpec

open Idealize.ShloMosaic Idealize.ShloMosaic.ValueIdx
open scoped BigOperators

def mat2 {a b : ℕ} (v : (⟨2, ![a, b]⟩ : Shape).Idx → EReal) : Mat a b := fun i k => v (ix2 i k)
def vec1 {a : ℕ} (v : (⟨1, ![a]⟩ : Shape).Idx → EReal) : Fin a → EReal := fun i => v (ix1 i)
def slab3 {k a b : ℕ} (v : (⟨3, ![k, a, b]⟩ : Shape).Idx → EReal) (q : Fin k) : Mat a b := fun i j => v (ix3 q i j)

theorem mat2_apply {a b : ℕ} (v : (⟨2, ![a, b]⟩ : Shape).Idx → EReal) (i : Fin a) (k : Fin b) : mat2 v i k = v (ix2 i k) := rfl

def mm {A K B : ℕ} (l : Mat A K) (r : Mat K B) : Mat A B := fun a b => ∑ k, l a k * r k b

variable {N D D' : ℕ}

/-- One Chebyshev layer over X, T1 (the Laplacian product of X) and LT1 (the product of T1). -/
def layerOf (two : EReal) (X T1 LT1 : Mat N D) (W0 W1 W2 : Mat D D') (b : Fin D' → EReal) : Mat N D' :=
  fun i o => Ideal.tanh ((((∑ k, X i k * W0 k o) + ∑ k, T1 i k * W1 k o)
    + ∑ k, (two * LT1 i k - X i k) * W2 k o) + b o)

abbrev twoC : EReal := Ideal.ofBits .f32 0x40000000#32

end GcnSpec

end
-- ==== Proof.LibMatmulAt.lean ====
import Idealize.ShloMosaic.Lib.StackMember
import Idealize.ShloMosaic.Lib.ValueIdx
import Idealize.ShloMosaic.PureOps.Ideal.Laws

noncomputable section

namespace MatmulAt

open Idealize.ShloMosaic Idealize.ShloMosaic.ValueIdx Idealize.ShloMosaic.StackMember
open scoped BigOperators

theorem hz2 : (![0, 0] : Fin 2 → Nat) = fun _ => 0 := funext fun a => by fin_cases a <;> rfl

/-- A product whose axis lists are the plain ones, accumulated into zero: both it and the plain product are the sum over the contraction shape. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (l : FVec Ideal ⟨2, ![m, k]⟩ φ₁) (r : FVec Ideal ⟨2, ![k, n]⟩ φ₂) (p : Fin m) (q : Fin n) :
    matmul d prec l r (constant (F := Ideal) ⟨2, ![m, n]⟩ .f32 0x00000000#32) (ix2 p q) = ∑ c : Fin k, l (ix2 p c) * r (ix2 c q) := by
  subst hd
  exact (Ideal.matmul_constant_zero_apply _ prec l r _).trans
    ((Ideal.dotGeneral_apply _ prec _ l r _).symm.trans (dotGeneral_plain_apply prec l r p q))

end MatmulAt

end
-- ==== Proof.KiV0.lean ====
import proofs.«430353_j22832046146023_3_alg».proof.Proof.KiR0
import proofs.«430353_j22832046146023_3_alg».proof.Proof.Acc
import proofs.«430353_j22832046146023_3_alg».proof.Proof.LibMatmulAt
import Idealize.ShloMosaic.Lib.Pipeline.Value

set_option maxRecDepth 16384

noncomputable section

namespace Cert.KernelIdeal.Hand

open Cert.KernelIdeal Cert.KernelIdeal.Gen GcnSpec MatmulAt
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem v0_idx : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

theorem v0_pay_apply (x0 : Vec Ideal S400x10000 .f32) (x1 : Vec Ideal S10000x128 .f32) (p : Fin 400) (q : Fin 128) :
    k0_pay1 x0 x1 (ix2 p q) = ∑ k : Fin 10000, x0 (ix2 p k) * x1 (ix2 k q) := by
  unfold k0_pay1
  simp only [shapeCast_self]
  exact matmul_plain_apply _ rfl none x0 x1 p q

def v0_G (L : Vec Ideal S10000x10000 .f32) (X : Vec Ideal S10000x128 .f32) : Vec Ideal S10000x128 .f32 :=
  fun i => mm (mat2 (a := 10000) (b := 10000) L) (mat2 (a := 10000) (b := 128) X) (i 0) (i 1)

/-- Row p of point t's block of the matrix is its row 400 t + p; the factor is whole. -/
theorem v0_entry (c : Dev nD) (t : Fin cfg0.N) (p : Fin 400) (q : Fin 128) (r : Fin 10000) (hr : r.val = t.val * 400 + p.val) :
    k0_pay1 (iblk0 V c 0 t) (iblk0 V c 1 t) (ix2 p q) = (v0_G (V c (Pipeline.arrRef spec0 0)) (V c (Pipeline.arrRef spec0 1))) (ix2 r q) := by
  obtain ⟨-, -, e00, e01, e10, e11⟩ := v0_idx t
  have b0 : ∀ y : Fin 10000, (iblk0 V c 0 t : Vec Ideal S400x10000 .f32) (ix2 p y) = (V c (Pipeline.arrRef spec0 0)) (ix2 r y) := fun y => by
    show (V c (Pipeline.arrRef spec0 0)) (((cfg0.win 0).blk t).view.emb (ix2 p y)) = _
    exact congrArg _ (Shape.idx_ext₂ (by show win0_0.index t (0 : Fin 2) * 400 + 1 * p.val = r.val; omega) (by show win0_0.index t (1 : Fin 2) * 10000 + 1 * y.val = y.val; omega))
  have b1 : ∀ (x : Fin 10000) (y : Fin 128), (iblk0 V c 1 t : Vec Ideal S10000x128 .f32) (ix2 x y) = (V c (Pipeline.arrRef spec0 1)) (ix2 x y) := fun x y => by
    show (V c (Pipeline.arrRef spec0 1)) (((cfg0.win 1).blk t).view.emb (ix2 x y)) = _
    exact congrArg _ (Shape.idx_ext₂ (by show win0_1.index t (0 : Fin 2) * 10000 + 1 * x.val = x.val; omega) (by show win0_1.index t (1 : Fin 2) * 128 + 1 * y.val = y.val; omega))
  refine (v0_pay_apply _ _ p q).trans ?_
  simp only [b0, b1]
  rfl

theorem v0_flushed_eq (c : Dev nD) (t : Fin cfg0.N) :
    (dat0 (F := Ideal) V c).flushed 2 t = ((cfg0.win 2).blk t).view.read (Elt Ideal) (v0_G (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz2]
  simp only [View.ld_unit_zero (S := S400x10000) hz2, View.ld_unit_zero (S := S10000x128) hz2]
  obtain ⟨o0, o1, -⟩ := v0_idx t
  funext j
  obtain ⟨p, q, rfl⟩ : ∃ (p : Fin 400) (q : Fin 128), j = ix2 p q := ⟨j 0, j 1, eq_ix2 j⟩
  have hN : cfg0.N = 25 := N_0
  have ht := t.isLt
  have hp := p.isLt
  obtain ⟨r, hr⟩ : ∃ r : Fin 10000, r.val = t.val * 400 + p.val := ⟨⟨_, by omega⟩, rfl⟩
  show k0_pay1 (iblk0 V c 0 t) (iblk0 V c 1 t) (ix2 p q) = v0_G _ _ (((cfg0.win 2).blk t).view.emb (ix2 p q))
  rw [show ((cfg0.win 2).blk t).view.emb (ix2 p q) = ix2 r q from Shape.idx_ext₂
    (by show win0_2.index t (0 : Fin 2) * 400 + 1 * p.val = r.val; omega) (by show win0_2.index t (1 : Fin 2) * 128 + 1 * q.val = q.val; omega)]
  exact v0_entry V c t p q r hr

/-- Row r lies in the block of point r / 400. -/
theorem v0_cover (i : S10000x128.Idx) :
    ∃ t : Fin cfg0.N, (cfg0.win 2).flush t = true ∧ i ∈ ((cfg0.win 2).blk t).view.set := by
  have hi0 : (i 0).val < 10000 := idx2_lt0 i
  have hi1 : (i 1).val < 128 := idx2_lt1 i
  obtain ⟨t, ht⟩ : ∃ t : Fin cfg0.N, t.val = (i 0).val / 400 :=
    ⟨⟨(i 0).val / 400, by rw [show cfg0.N = 25 from N_0]; omega⟩, rfl⟩
  obtain ⟨o0, o1, -⟩ := v0_idx t
  refine ⟨t, flush0_2 t, ?_⟩
  show i ∈ ((View.whole (Pipeline.arrRef spec0 2)).slice (win0_2.rect t)).set
  rw [View.set_slice_whole, Rect.mem_set_unit]
  intro a
  match a with
  | ⟨0, _⟩ => show win0_2.index t (0 : Fin 2) * 400 ≤ (i 0).val ∧ (i 0).val < win0_2.index t (0 : Fin 2) * 400 + 400; omega
  | ⟨1, _⟩ => show win0_2.index t (1 : Fin 2) * 128 ≤ (i 1).val ∧ (i 1).val < win0_2.index t (1 : Fin 2) * 128 + 128; omega

theorem final0 (c : Dev nD) :
    mat2 (a := 10000) (b := 128) ((dat0 (F := Ideal) V c).arrAt 2 cfg0.N)
      = mm (mat2 (a := 10000) (b := 10000) (V c (Pipeline.arrRef spec0 0))) (mat2 (a := 10000) (b := 128) (V c (Pipeline.arrRef spec0 1))) := by
  rw [(dat0 (F := Ideal) V c).arrAt_eq_of_cover 2 _ (fun t _ => v0_flushed_eq V c t) v0_cover]
  rfl

end Cert.KernelIdeal.Hand

end
-- ==== Proof.KiV1.lean ====
import proofs.«430353_j22832046146023_3_alg».proof.Proof.KiR1
import proofs.«430353_j22832046146023_3_alg».proof.Proof.Acc
import proofs.«430353_j22832046146023_3_alg».proof.Proof.LibMatmulAt
import Idealize.ShloMosaic.Lib.Pipeline.Value
import Idealize.ShloMosaic.Lib.ValueLayout

set_option maxRecDepth 16384
set_option maxHeartbeats 1000000

noncomputable section

namespace Cert.KernelIdeal.Hand

open Cert.KernelIdeal Cert.KernelIdeal.Gen GcnSpec MatmulAt
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Each product is the plain sum over its contracted index; the bias row sits under every row of the block. -/
theorem v1_pay_apply (v3 : Vec Ideal S400x128 .f32) (v5 : Vec Ideal S400x10000 .f32) (v7 : Vec Ideal S10000x128 .f32) (v10 : Vec Ideal S400x128 .f32)
    (v14 v17 v21 : Vec Ideal S128x60 .f32) (v25 : Vec Ideal S1x60 .f32) (p : Fin 400) (q : Fin 60) :
    k1_pay1 v3 v5 v7 v10 v14 v17 v21 v25 (ix2 p q)
      = Ideal.tanh ((((∑ k : Fin 128, v10 (ix2 p k) * v14 (ix2 k q)) + ∑ k : Fin 128, v3 (ix2 p k) * v17 (ix2 k q))
          + ∑ k : Fin 128, (twoC * (∑ j : Fin 10000, v5 (ix2 p j) * v7 (ix2 j k)) - v10 (ix2 p k)) * v21 (ix2 k q))
          + v25 (ix2 0 q)) := by
  have hb : broadcastTo S400x60 v25 broadcasts_S1x60_S400x60 (ix2 p q) = v25 (ix2 0 q) :=
    broadcastTo_apply v25 broadcasts_S1x60_S400x60 (ix2 p q) (ix2 0 q) (fun a => by
      have hq := q.isLt
      match a with
      | ⟨0, _⟩ => rfl
      | ⟨1, _⟩ => show q.val = if (60 : ℕ) = 1 then 0 else q.val; split <;> omega)
  unfold k1_pay1
  simp only [shapeCast_self]
  show Ideal.tanh ((((_ : EReal) + _) + _) + _) = _
  simp only [matmul_plain_apply (φ₁ := .f32) (φ₂ := .f32) dot_S400x128_S128x60_S400x60_1_0_0_1_n_n rfl, hb, subf_apply, mulf_apply, broadcast_apply,
    matmul_plain_apply (φ₁ := .f32) (φ₂ := .f32) dot_S400x10000_S10000x128_S400x128_1_0_0_1_n_n rfl] <;> rfl

theorem v1_idx : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ k1_off1 (grid1.coords t) (0 : Fin 2) = t.val * 400 ∧ k1_off1 (grid1.coords t) (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

def v1_G (a0 : Vec Ideal S10000x10000 .f32) (a1 a2 : Vec Ideal S10000x128 .f32) (a3 a4 a5 : Vec Ideal S128x60 .f32)
    (a6 : Vec Ideal S1x60 .f32) : Vec Ideal S10000x60 .f32 := fun j =>
  layerOf twoC (mat2 (a := 10000) (b := 128) a1) (mat2 (a := 10000) (b := 128) a2)
    (mm (mat2 (a := 10000) (b := 10000) a0) (mat2 (a := 10000) (b := 128) a2))
    (mat2 (a := 128) (b := 60) a3) (mat2 (a := 128) (b := 60) a4) (mat2 (a := 128) (b := 60) a5)
    (fun o => mat2 (a := 1) (b := 60) a6 0 o) (j 0) (j 1)

/-- Entry (p, q) of point t's block is the layer's entry at row 400 t + p of the arrays. -/
theorem v1_flushed_eq (c : Dev nD) (t : Fin cfg1.N) :
    (dat1 (F := Ideal) V c).flushed 7 t = ((cfg1.win 7).blk t).view.read (Elt Ideal) (v1_G (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) := by
  show (cfg1.win 7).cut (grid1.coords t) ((dat1 (F := Ideal) V c).after 7 t) = _
  rw [after1_7]
  unfold out1_7
  rw [View.canon_unit_zero hz2]
  simp only [View.ld_unit_zero (S := S400x10000) hz2, View.ld_unit_zero (S := S400x128) hz2, View.ld_unit_zero (S := S10000x128) hz2,
    View.ld_unit_zero (S := S128x60) hz2, View.ld_unit_zero (S := S1x60) hz2]
  obtain ⟨o0, o1, e00, e01, e10, e11, f0, f1, e20, e21, e30, e31, e40, e41, e50, e51, e60, e61⟩ := v1_idx t
  funext j
  obtain ⟨p, q, rfl⟩ : ∃ (p : Fin 400) (q : Fin 60), j = ix2 p q := ⟨j 0, j 1, eq_ix2 j⟩
  have hN : cfg1.N = 25 := N_1
  have ht := t.isLt
  have hp := p.isLt
  obtain ⟨r, hr⟩ : ∃ r : Fin 10000, r.val = t.val * 400 + p.val := ⟨⟨_, by omega⟩, rfl⟩
  have b0 : ∀ y : Fin 10000, (iblk1 V c 0 t : Vec Ideal S400x10000 .f32) (ix2 p y) = (V c (Pipeline.arrRef spec1 0)) (ix2 r y) := fun y => by
    show (V c (Pipeline.arrRef spec1 0)) (((cfg1.win 0).blk t).view.emb (ix2 p y)) = _
    exact congrArg _ (Shape.idx_ext₂ (by show win1_0.index t (0 : Fin 2) * 400 + 1 * p.val = r.val; omega) (by show win1_0.index t (1 : Fin 2) * 10000 + 1 * y.val = y.val; omega))
  have b1 : ∀ y : Fin 128, (iblk1 V c 1 t : Vec Ideal S400x128 .f32) (ix2 p y) = (V c (Pipeline.arrRef spec1 1)) (ix2 r y) := fun y => by
    show (V c (Pipeline.arrRef spec1 1)) (((cfg1.win 1).blk t).view.emb (ix2 p y)) = _
    exact congrArg _ (Shape.idx_ext₂ (by show win1_1.index t (0 : Fin 2) * 400 + 1 * p.val = r.val; omega) (by show win1_1.index t (1 : Fin 2) * 128 + 1 * y.val = y.val; omega))
  have b2 : ∀ (x : Fin 10000) (y : Fin 128), (iblk1 V c 2 t : Vec Ideal S10000x128 .f32) (ix2 x y) = (V c (Pipeline.arrRef spec1 2)) (ix2 x y) := fun x y =>
    congrArg (V c (Pipeline.arrRef spec1 2)) (Shape.idx_ext₂ (win1_2.rect_emb_val_of_index_zero t (0 : Fin 2) e20 _) (win1_2.rect_emb_val_of_index_zero t (1 : Fin 2) e21 _))
  have b3 : ∀ (x : Fin 128) (y : Fin 60), (iblk1 V c 3 t : Vec Ideal S128x60 .f32) (ix2 x y) = (V c (Pipeline.arrRef spec1 3)) (ix2 x y) := fun x y =>
    congrArg (V c (Pipeline.arrRef spec1 3)) (Shape.idx_ext₂ (win1_3.rect_emb_val_of_index_zero t (0 : Fin 2) e30 _) (win1_3.rect_emb_val_of_index_zero t (1 : Fin 2) e31 _))
  have b4 : ∀ (x : Fin 128) (y : Fin 60), (iblk1 V c 4 t : Vec Ideal S128x60 .f32) (ix2 x y) = (V c (Pipeline.arrRef spec1 4)) (ix2 x y) := fun x y =>
    congrArg (V c (Pipeline.arrRef spec1 4)) (Shape.idx_ext₂ (win1_4.rect_emb_val_of_index_zero t (0 : Fin 2) e40 _) (win1_4.rect_emb_val_of_index_zero t (1 : Fin 2) e41 _))
  have b5 : ∀ (x : Fin 128) (y : Fin 60), (iblk1 V c 5 t : Vec Ideal S128x60 .f32) (ix2 x y) = (V c (Pipeline.arrRef spec1 5)) (ix2 x y) := fun x y =>
    congrArg (V c (Pipeline.arrRef spec1 5)) (Shape.idx_ext₂ (win1_5.rect_emb_val_of_index_zero t (0 : Fin 2) e50 _) (win1_5.rect_emb_val_of_index_zero t (1 : Fin 2) e51 _))
  have b6 : ∀ (x : Fin 1) (y : Fin 60), (iblk1 V c 6 t : Vec Ideal S1x60 .f32) (ix2 x y) = (V c (Pipeline.arrRef spec1 6)) (ix2 x y) := fun x y =>
    congrArg (V c (Pipeline.arrRef spec1 6)) (Shape.idx_ext₂ (win1_6.rect_emb_val_of_index_zero t (0 : Fin 2) e60 _) (win1_6.rect_emb_val_of_index_zero t (1 : Fin 2) e61 _))
  have bl : ∀ y : Fin 128, (View.ld (iblk1 V c 2 t) (Rect.unit (s := S10000x128) (k1_off1 (grid1.coords t)) S400x128.size (k1_off1_inb (grid1.coords t)))) (ix2 p y) = (V c (Pipeline.arrRef spec1 2)) (ix2 r y) := fun y => by
    show iblk1 V c 2 t _ = _
    rw [← b2]
    exact congrArg _ (Shape.idx_ext₂ (by show k1_off1 (grid1.coords t) (0 : Fin 2) + 1 * p.val = r.val; omega) (by show k1_off1 (grid1.coords t) (1 : Fin 2) + 1 * y.val = y.val; omega))
  show k1_pay1 (F := Ideal) _ _ _ _ _ _ _ _ (ix2 p q) = v1_G _ _ _ _ _ _ _ (((cfg1.win 7).blk t).view.emb (ix2 p q))
  rw [show ((cfg1.win 7).blk t).view.emb (ix2 p q) = ix2 r q from Shape.idx_ext₂
    (by show win1_7.index t (0 : Fin 2) * 400 + 1 * p.val = r.val; omega) (by show win1_7.index t (1 : Fin 2) * 60 + 1 * q.val = q.val; omega)]
  refine (v1_pay_apply _ _ _ _ _ _ _ _ p q).trans ?_
  simp only [b0, b1, b2, b3, b4, b5, b6, bl]
  rfl

/-- Row r lies in the block of point r / 400. -/
theorem v1_cover (i : S10000x60.Idx) : ∃ t : Fin cfg1.N, (cfg1.win 7).flush t = true ∧ i ∈ ((cfg1.win 7).blk t).view.set := by
  have hi0 : (i 0).val < 10000 := (i 0).isLt
  have hi1 : (i 1).val < 60 := (i 1).isLt
  have hN : cfg1.N = 25 := N_1
  obtain ⟨t, ht⟩ : ∃ t : Fin cfg1.N, t.val = (i 0).val / 400 := ⟨⟨(i 0).val / 400, by omega⟩, rfl⟩
  obtain ⟨o0, o1, -⟩ := v1_idx t
  refine ⟨t, flush1_7 t, ?_⟩
  show i ∈ ((View.whole (Pipeline.arrRef spec1 7)).slice (win1_7.rect t)).set
  rw [View.set_slice_whole, Rect.mem_set_unit]
  intro a
  match a with
  | ⟨0, _⟩ => show win1_7.index t (0 : Fin 2) * 400 ≤ (i 0).val ∧ (i 0).val < win1_7.index t (0 : Fin 2) * 400 + 400; omega
  | ⟨1, _⟩ => show win1_7.index t (1 : Fin 2) * 60 ≤ (i 1).val ∧ (i 1).val < win1_7.index t (1 : Fin 2) * 60 + 60; omega

theorem final1 (c : Dev nD) :
    mat2 (a := 10000) (b := 60) ((dat1 (F := Ideal) V c).arrAt 7 cfg1.N)
      = layerOf twoC (mat2 (a := 10000) (b := 128) (V c (Pipeline.arrRef spec1 1))) (mat2 (a := 10000) (b := 128) (V c (Pipeline.arrRef spec1 2)))
          (mm (mat2 (a := 10000) (b := 10000) (V c (Pipeline.arrRef spec1 0))) (mat2 (a := 10000) (b := 128) (V c (Pipeline.arrRef spec1 2))))
          (mat2 (a := 128) (b := 60) (V c (Pipeline.arrRef spec1 3))) (mat2 (a := 128) (b := 60) (V c (Pipeline.arrRef spec1 4)))
          (mat2 (a := 128) (b := 60) (V c (Pipeline.arrRef spec1 5))) (fun o => mat2 (a := 1) (b := 60) (V c (Pipeline.arrRef spec1 6)) 0 o) := by
  rw [(dat1 (F := Ideal) V c).arrAt_eq_of_cover 7 _ (fun t _ => v1_flushed_eq V c t) v1_cover]
  rfl

end Cert.KernelIdeal.Hand

end
-- ==== Proof.KiV2.lean ====
import proofs.«430353_j22832046146023_3_alg».proof.Proof.KiR2
import proofs.«430353_j22832046146023_3_alg».proof.Proof.Acc
import proofs.«430353_j22832046146023_3_alg».proof.Proof.LibMatmulAt
import Idealize.ShloMosaic.Lib.Pipeline.Value

set_option maxRecDepth 16384

noncomputable section

namespace Cert.KernelIdeal.Hand

open Cert.KernelIdeal Cert.KernelIdeal.Gen GcnSpec MatmulAt
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem v2_idx : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

theorem v2_pay_apply (x0 : Vec Ideal S400x10000 .f32) (x1 : Vec Ideal S10000x60 .f32) (p : Fin 400) (q : Fin 60) :
    k2_pay1 x0 x1 (ix2 p q) = ∑ k : Fin 10000, x0 (ix2 p k) * x1 (ix2 k q) := by
  unfold k2_pay1
  simp only [shapeCast_self]
  exact matmul_plain_apply _ rfl none x0 x1 p q

def v2_G (L : Vec Ideal S10000x10000 .f32) (X : Vec Ideal S10000x60 .f32) : Vec Ideal S10000x60 .f32 :=
  fun i => mm (mat2 (a := 10000) (b := 10000) L) (mat2 (a := 10000) (b := 60) X) (i 0) (i 1)

/-- Row p of point t's block of the matrix is its row 400 t + p; the factor is whole. -/
theorem v2_entry (c : Dev nD) (t : Fin cfg2.N) (p : Fin 400) (q : Fin 60) (r : Fin 10000) (hr : r.val = t.val * 400 + p.val) :
    k2_pay1 (iblk2 V c 0 t) (iblk2 V c 1 t) (ix2 p q) = (v2_G (V c (Pipeline.arrRef spec2 0)) (V c (Pipeline.arrRef spec2 1))) (ix2 r q) := by
  obtain ⟨-, -, e00, e01, e10, e11⟩ := v2_idx t
  have b0 : ∀ y : Fin 10000, (iblk2 V c 0 t : Vec Ideal S400x10000 .f32) (ix2 p y) = (V c (Pipeline.arrRef spec2 0)) (ix2 r y) := fun y => by
    show (V c (Pipeline.arrRef spec2 0)) (((cfg2.win 0).blk t).view.emb (ix2 p y)) = _
    exact congrArg _ (Shape.idx_ext₂ (by show win2_0.index t (0 : Fin 2) * 400 + 1 * p.val = r.val; omega) (by show win2_0.index t (1 : Fin 2) * 10000 + 1 * y.val = y.val; omega))
  have b1 : ∀ (x : Fin 10000) (y : Fin 60), (iblk2 V c 1 t : Vec Ideal S10000x60 .f32) (ix2 x y) = (V c (Pipeline.arrRef spec2 1)) (ix2 x y) := fun x y => by
    show (V c (Pipeline.arrRef spec2 1)) (((cfg2.win 1).blk t).view.emb (ix2 x y)) = _
    exact congrArg _ (Shape.idx_ext₂ (by show win2_1.index t (0 : Fin 2) * 10000 + 1 * x.val = x.val; omega) (by show win2_1.index t (1 : Fin 2) * 60 + 1 * y.val = y.val; omega))
  refine (v2_pay_apply _ _ p q).trans ?_
  simp only [b0, b1]
  rfl

theorem v2_flushed_eq (c : Dev nD) (t : Fin cfg2.N) :
    (dat2 (F := Ideal) V c).flushed 2 t = ((cfg2.win 2).blk t).view.read (Elt Ideal) (v2_G (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero hz2]
  simp only [View.ld_unit_zero (S := S400x10000) hz2, View.ld_unit_zero (S := S10000x60) hz2]
  obtain ⟨o0, o1, -⟩ := v2_idx t
  funext j
  obtain ⟨p, q, rfl⟩ : ∃ (p : Fin 400) (q : Fin 60), j = ix2 p q := ⟨j 0, j 1, eq_ix2 j⟩
  have hN : cfg2.N = 25 := N_2
  have ht := t.isLt
  have hp := p.isLt
  obtain ⟨r, hr⟩ : ∃ r : Fin 10000, r.val = t.val * 400 + p.val := ⟨⟨_, by omega⟩, rfl⟩
  show k2_pay1 (iblk2 V c 0 t) (iblk2 V c 1 t) (ix2 p q) = v2_G _ _ (((cfg2.win 2).blk t).view.emb (ix2 p q))
  rw [show ((cfg2.win 2).blk t).view.emb (ix2 p q) = ix2 r q from Shape.idx_ext₂
    (by show win2_2.index t (0 : Fin 2) * 400 + 1 * p.val = r.val; omega) (by show win2_2.index t (1 : Fin 2) * 60 + 1 * q.val = q.val; omega)]
  exact v2_entry V c t p q r hr

/-- Row r lies in the block of point r / 400. -/
theorem v2_cover (i : S10000x60.Idx) :
    ∃ t : Fin cfg2.N, (cfg2.win 2).flush t = true ∧ i ∈ ((cfg2.win 2).blk t).view.set := by
  have hi0 : (i 0).val < 10000 := idx2_lt0 i
  have hi1 : (i 1).val < 60 := idx2_lt1 i
  obtain ⟨t, ht⟩ : ∃ t : Fin cfg2.N, t.val = (i 0).val / 400 :=
    ⟨⟨(i 0).val / 400, by rw [show cfg2.N = 25 from N_2]; omega⟩, rfl⟩
  obtain ⟨o0, o1, -⟩ := v2_idx t
  refine ⟨t, flush2_2 t, ?_⟩
  show i ∈ ((View.whole (Pipeline.arrRef spec2 2)).slice (win2_2.rect t)).set
  rw [View.set_slice_whole, Rect.mem_set_unit]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 60 ≤ (i 1).val ∧ (i 1).val < win2_2.index t (1 : Fin 2) * 60 + 60; omega

theorem final2 (c : Dev nD) :
    mat2 (a := 10000) (b := 60) ((dat2 (F := Ideal) V c).arrAt 2 cfg2.N)
      = mm (mat2 (a := 10000) (b := 10000) (V c (Pipeline.arrRef spec2 0))) (mat2 (a := 10000) (b := 60) (V c (Pipeline.arrRef spec2 1))) := by
  rw [(dat2 (F := Ideal) V c).arrAt_eq_of_cover 2 _ (fun t _ => v2_flushed_eq V c t) v2_cover]
  rfl

end Cert.KernelIdeal.Hand

end
-- ==== Proof.KiV3.lean ====
import proofs.«430353_j22832046146023_3_alg».proof.Proof.KiR3
import proofs.«430353_j22832046146023_3_alg».proof.Proof.Acc
import proofs.«430353_j22832046146023_3_alg».proof.Proof.LibMatmulAt
import Idealize.ShloMosaic.Lib.Pipeline.Value
import Idealize.ShloMosaic.Lib.ValueLayout

set_option maxRecDepth 16384
set_option maxHeartbeats 1000000

noncomputable section

namespace Cert.KernelIdeal.Hand

open Cert.KernelIdeal Cert.KernelIdeal.Gen GcnSpec MatmulAt
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Each product is the plain sum over its contracted index; the bias row sits under every row of the block. -/
theorem v3_pay_apply (v3 : Vec Ideal S400x60 .f32) (v5 : Vec Ideal S400x10000 .f32) (v7 : Vec Ideal S10000x60 .f32) (v10 : Vec Ideal S400x60 .f32)
    (v14 v17 v21 : Vec Ideal S60x30 .f32) (v25 : Vec Ideal S1x30 .f32) (p : Fin 400) (q : Fin 30) :
    k3_pay1 v3 v5 v7 v10 v14 v17 v21 v25 (ix2 p q)
      = Ideal.tanh ((((∑ k : Fin 60, v10 (ix2 p k) * v14 (ix2 k q)) + ∑ k : Fin 60, v3 (ix2 p k) * v17 (ix2 k q))
          + ∑ k : Fin 60, (twoC * (∑ j : Fin 10000, v5 (ix2 p j) * v7 (ix2 j k)) - v10 (ix2 p k)) * v21 (ix2 k q))
          + v25 (ix2 0 q)) := by
  have hb : broadcastTo S400x30 v25 broadcasts_S1x30_S400x30 (ix2 p q) = v25 (ix2 0 q) :=
    broadcastTo_apply v25 broadcasts_S1x30_S400x30 (ix2 p q) (ix2 0 q) (fun a => by
      have hq := q.isLt
      match a with
      | ⟨0, _⟩ => rfl
      | ⟨1, _⟩ => show q.val = if (30 : ℕ) = 1 then 0 else q.val; split <;> omega)
  unfold k3_pay1
  simp only [shapeCast_self]
  show Ideal.tanh ((((_ : EReal) + _) + _) + _) = _
  simp only [matmul_plain_apply (φ₁ := .f32) (φ₂ := .f32) dot_S400x60_S60x30_S400x30_1_0_0_1_n_n rfl, hb, subf_apply, mulf_apply, broadcast_apply,
    matmul_plain_apply (φ₁ := .f32) (φ₂ := .f32) dot_S400x10000_S10000x60_S400x60_1_0_0_1_n_n rfl] <;> rfl

theorem v3_idx : ∀ t : Fin cfg3.N,
    win3_7.index t (0 : Fin 2) = t.val ∧ win3_7.index t (1 : Fin 2) = 0
    ∧ win3_0.index t (0 : Fin 2) = t.val ∧ win3_0.index t (1 : Fin 2) = 0
    ∧ win3_1.index t (0 : Fin 2) = t.val ∧ win3_1.index t (1 : Fin 2) = 0
    ∧ k3_off1 (grid3.coords t) (0 : Fin 2) = t.val * 400 ∧ k3_off1 (grid3.coords t) (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

def v3_G (a0 : Vec Ideal S10000x10000 .f32) (a1 a2 : Vec Ideal S10000x60 .f32) (a3 a4 a5 : Vec Ideal S60x30 .f32)
    (a6 : Vec Ideal S1x30 .f32) : Vec Ideal S10000x30 .f32 := fun j =>
  layerOf twoC (mat2 (a := 10000) (b := 60) a1) (mat2 (a := 10000) (b := 60) a2)
    (mm (mat2 (a := 10000) (b := 10000) a0) (mat2 (a := 10000) (b := 60) a2))
    (mat2 (a := 60) (b := 30) a3) (mat2 (a := 60) (b := 30) a4) (mat2 (a := 60) (b := 30) a5)
    (fun o => mat2 (a := 1) (b := 30) a6 0 o) (j 0) (j 1)

/-- Entry (p, q) of point t's block is the layer's entry at row 400 t + p of the arrays. -/
theorem v3_flushed_eq (c : Dev nD) (t : Fin cfg3.N) :
    (dat3 (F := Ideal) V c).flushed 7 t = ((cfg3.win 7).blk t).view.read (Elt Ideal) (v3_G (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) := by
  show (cfg3.win 7).cut (grid3.coords t) ((dat3 (F := Ideal) V c).after 7 t) = _
  rw [after3_7]
  unfold out3_7
  rw [View.canon_unit_zero hz2]
  simp only [View.ld_unit_zero (S := S400x10000) hz2, View.ld_unit_zero (S := S400x60) hz2, View.ld_unit_zero (S := S10000x60) hz2,
    View.ld_unit_zero (S := S60x30) hz2, View.ld_unit_zero (S := S1x30) hz2]
  obtain ⟨o0, o1, e00, e01, e10, e11, f0, f1, e20, e21, e30, e31, e40, e41, e50, e51, e60, e61⟩ := v3_idx t
  funext j
  obtain ⟨p, q, rfl⟩ : ∃ (p : Fin 400) (q : Fin 30), j = ix2 p q := ⟨j 0, j 1, eq_ix2 j⟩
  have hN : cfg3.N = 25 := N_3
  have ht := t.isLt
  have hp := p.isLt
  obtain ⟨r, hr⟩ : ∃ r : Fin 10000, r.val = t.val * 400 + p.val := ⟨⟨_, by omega⟩, rfl⟩
  have b0 : ∀ y : Fin 10000, (iblk3 V c 0 t : Vec Ideal S400x10000 .f32) (ix2 p y) = (V c (Pipeline.arrRef spec3 0)) (ix2 r y) := fun y => by
    show (V c (Pipeline.arrRef spec3 0)) (((cfg3.win 0).blk t).view.emb (ix2 p y)) = _
    exact congrArg _ (Shape.idx_ext₂ (by show win3_0.index t (0 : Fin 2) * 400 + 1 * p.val = r.val; omega) (by show win3_0.index t (1 : Fin 2) * 10000 + 1 * y.val = y.val; omega))
  have b1 : ∀ y : Fin 60, (iblk3 V c 1 t : Vec Ideal S400x60 .f32) (ix2 p y) = (V c (Pipeline.arrRef spec3 1)) (ix2 r y) := fun y => by
    show (V c (Pipeline.arrRef spec3 1)) (((cfg3.win 1).blk t).view.emb (ix2 p y)) = _
    exact congrArg _ (Shape.idx_ext₂ (by show win3_1.index t (0 : Fin 2) * 400 + 1 * p.val = r.val; omega) (by show win3_1.index t (1 : Fin 2) * 60 + 1 * y.val = y.val; omega))
  have b2 : ∀ (x : Fin 10000) (y : Fin 60), (iblk3 V c 2 t : Vec Ideal S10000x60 .f32) (ix2 x y) = (V c (Pipeline.arrRef spec3 2)) (ix2 x y) := fun x y =>
    congrArg (V c (Pipeline.arrRef spec3 2)) (Shape.idx_ext₂ (win3_2.rect_emb_val_of_index_zero t (0 : Fin 2) e20 _) (win3_2.rect_emb_val_of_index_zero t (1 : Fin 2) e21 _))
  have b3 : ∀ (x : Fin 60) (y : Fin 30), (iblk3 V c 3 t : Vec Ideal S60x30 .f32) (ix2 x y) = (V c (Pipeline.arrRef spec3 3)) (ix2 x y) := fun x y =>
    congrArg (V c (Pipeline.arrRef spec3 3)) (Shape.idx_ext₂ (win3_3.rect_emb_val_of_index_zero t (0 : Fin 2) e30 _) (win3_3.rect_emb_val_of_index_zero t (1 : Fin 2) e31 _))
  have b4 : ∀ (x : Fin 60) (y : Fin 30), (iblk3 V c 4 t : Vec Ideal S60x30 .f32) (ix2 x y) = (V c (Pipeline.arrRef spec3 4)) (ix2 x y) := fun x y =>
    congrArg (V c (Pipeline.arrRef spec3 4)) (Shape.idx_ext₂ (win3_4.rect_emb_val_of_index_zero t (0 : Fin 2) e40 _) (win3_4.rect_emb_val_of_index_zero t (1 : Fin 2) e41 _))
  have b5 : ∀ (x : Fin 60) (y : Fin 30), (iblk3 V c 5 t : Vec Ideal S60x30 .f32) (ix2 x y) = (V c (Pipeline.arrRef spec3 5)) (ix2 x y) := fun x y =>
    congrArg (V c (Pipeline.arrRef spec3 5)) (Shape.idx_ext₂ (win3_5.rect_emb_val_of_index_zero t (0 : Fin 2) e50 _) (win3_5.rect_emb_val_of_index_zero t (1 : Fin 2) e51 _))
  have b6 : ∀ (x : Fin 1) (y : Fin 30), (iblk3 V c 6 t : Vec Ideal S1x30 .f32) (ix2 x y) = (V c (Pipeline.arrRef spec3 6)) (ix2 x y) := fun x y =>
    congrArg (V c (Pipeline.arrRef spec3 6)) (Shape.idx_ext₂ (win3_6.rect_emb_val_of_index_zero t (0 : Fin 2) e60 _) (win3_6.rect_emb_val_of_index_zero t (1 : Fin 2) e61 _))
  have bl : ∀ y : Fin 60, (View.ld (iblk3 V c 2 t) (Rect.unit (s := S10000x60) (k3_off1 (grid3.coords t)) S400x60.size (k3_off1_inb (grid3.coords t)))) (ix2 p y) = (V c (Pipeline.arrRef spec3 2)) (ix2 r y) := fun y => by
    show iblk3 V c 2 t _ = _
    rw [← b2]
    exact congrArg _ (Shape.idx_ext₂ (by show k3_off1 (grid3.coords t) (0 : Fin 2) + 1 * p.val = r.val; omega) (by show k3_off1 (grid3.coords t) (1 : Fin 2) + 1 * y.val = y.val; omega))
  show k3_pay1 (F := Ideal) _ _ _ _ _ _ _ _ (ix2 p q) = v3_G _ _ _ _ _ _ _ (((cfg3.win 7).blk t).view.emb (ix2 p q))
  rw [show ((cfg3.win 7).blk t).view.emb (ix2 p q) = ix2 r q from Shape.idx_ext₂
    (by show win3_7.index t (0 : Fin 2) * 400 + 1 * p.val = r.val; omega) (by show win3_7.index t (1 : Fin 2) * 30 + 1 * q.val = q.val; omega)]
  refine (v3_pay_apply _ _ _ _ _ _ _ _ p q).trans ?_
  simp only [b0, b1, b2, b3, b4, b5, b6, bl]
  rfl

/-- Row r lies in the block of point r / 400. -/
theorem v3_cover (i : S10000x30.Idx) : ∃ t : Fin cfg3.N, (cfg3.win 7).flush t = true ∧ i ∈ ((cfg3.win 7).blk t).view.set := by
  have hi0 : (i 0).val < 10000 := (i 0).isLt
  have hi1 : (i 1).val < 30 := (i 1).isLt
  have hN : cfg3.N = 25 := N_3
  obtain ⟨t, ht⟩ : ∃ t : Fin cfg3.N, t.val = (i 0).val / 400 := ⟨⟨(i 0).val / 400, by omega⟩, rfl⟩
  obtain ⟨o0, o1, -⟩ := v3_idx t
  refine ⟨t, flush3_7 t, ?_⟩
  show i ∈ ((View.whole (Pipeline.arrRef spec3 7)).slice (win3_7.rect t)).set
  rw [View.set_slice_whole, Rect.mem_set_unit]
  intro a
  match a with
  | ⟨0, _⟩ => show win3_7.index t (0 : Fin 2) * 400 ≤ (i 0).val ∧ (i 0).val < win3_7.index t (0 : Fin 2) * 400 + 400; omega
  | ⟨1, _⟩ => show win3_7.index t (1 : Fin 2) * 30 ≤ (i 1).val ∧ (i 1).val < win3_7.index t (1 : Fin 2) * 30 + 30; omega

theorem final3 (c : Dev nD) :
    mat2 (a := 10000) (b := 30) ((dat3 (F := Ideal) V c).arrAt 7 cfg3.N)
      = layerOf twoC (mat2 (a := 10000) (b := 60) (V c (Pipeline.arrRef spec3 1))) (mat2 (a := 10000) (b := 60) (V c (Pipeline.arrRef spec3 2)))
          (mm (mat2 (a := 10000) (b := 10000) (V c (Pipeline.arrRef spec3 0))) (mat2 (a := 10000) (b := 60) (V c (Pipeline.arrRef spec3 2))))
          (mat2 (a := 60) (b := 30) (V c (Pipeline.arrRef spec3 3))) (mat2 (a := 60) (b := 30) (V c (Pipeline.arrRef spec3 4)))
          (mat2 (a := 60) (b := 30) (V c (Pipeline.arrRef spec3 5))) (fun o => mat2 (a := 1) (b := 30) (V c (Pipeline.arrRef spec3 6)) 0 o) := by
  rw [(dat3 (F := Ideal) V c).arrAt_eq_of_cover 7 _ (fun t _ => v3_flushed_eq V c t) v3_cover]
  rfl

end Cert.KernelIdeal.Hand

end
-- ==== Proof.KiV4.lean ====
import proofs.«430353_j22832046146023_3_alg».proof.Proof.KiR4
import proofs.«430353_j22832046146023_3_alg».proof.Proof.Acc
import proofs.«430353_j22832046146023_3_alg».proof.Proof.LibMatmulAt
import Idealize.ShloMosaic.Lib.Pipeline.Value

set_option maxRecDepth 16384

noncomputable section

namespace Cert.KernelIdeal.Hand

open Cert.KernelIdeal Cert.KernelIdeal.Gen GcnSpec MatmulAt
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem v4_idx : ∀ t : Fin cfg4.N, win4_2.index t (0 : Fin 2) = t.val ∧ win4_2.index t (1 : Fin 2) = 0
    ∧ win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

theorem v4_pay_apply (x0 : Vec Ideal S400x10000 .f32) (x1 : Vec Ideal S10000x30 .f32) (p : Fin 400) (q : Fin 30) :
    k4_pay1 x0 x1 (ix2 p q) = ∑ k : Fin 10000, x0 (ix2 p k) * x1 (ix2 k q) := by
  unfold k4_pay1
  simp only [shapeCast_self]
  exact matmul_plain_apply _ rfl none x0 x1 p q

def v4_G (L : Vec Ideal S10000x10000 .f32) (X : Vec Ideal S10000x30 .f32) : Vec Ideal S10000x30 .f32 :=
  fun i => mm (mat2 (a := 10000) (b := 10000) L) (mat2 (a := 10000) (b := 30) X) (i 0) (i 1)

/-- Row p of point t's block of the matrix is its row 400 t + p; the factor is whole. -/
theorem v4_entry (c : Dev nD) (t : Fin cfg4.N) (p : Fin 400) (q : Fin 30) (r : Fin 10000) (hr : r.val = t.val * 400 + p.val) :
    k4_pay1 (iblk4 V c 0 t) (iblk4 V c 1 t) (ix2 p q) = (v4_G (V c (Pipeline.arrRef spec4 0)) (V c (Pipeline.arrRef spec4 1))) (ix2 r q) := by
  obtain ⟨-, -, e00, e01, e10, e11⟩ := v4_idx t
  have b0 : ∀ y : Fin 10000, (iblk4 V c 0 t : Vec Ideal S400x10000 .f32) (ix2 p y) = (V c (Pipeline.arrRef spec4 0)) (ix2 r y) := fun y => by
    show (V c (Pipeline.arrRef spec4 0)) (((cfg4.win 0).blk t).view.emb (ix2 p y)) = _
    exact congrArg _ (Shape.idx_ext₂ (by show win4_0.index t (0 : Fin 2) * 400 + 1 * p.val = r.val; omega) (by show win4_0.index t (1 : Fin 2) * 10000 + 1 * y.val = y.val; omega))
  have b1 : ∀ (x : Fin 10000) (y : Fin 30), (iblk4 V c 1 t : Vec Ideal S10000x30 .f32) (ix2 x y) = (V c (Pipeline.arrRef spec4 1)) (ix2 x y) := fun x y => by
    show (V c (Pipeline.arrRef spec4 1)) (((cfg4.win 1).blk t).view.emb (ix2 x y)) = _
    exact congrArg _ (Shape.idx_ext₂ (by show win4_1.index t (0 : Fin 2) * 10000 + 1 * x.val = x.val; omega) (by show win4_1.index t (1 : Fin 2) * 30 + 1 * y.val = y.val; omega))
  refine (v4_pay_apply _ _ p q).trans ?_
  simp only [b0, b1]
  rfl

theorem v4_flushed_eq (c : Dev nD) (t : Fin cfg4.N) :
    (dat4 (F := Ideal) V c).flushed 2 t = ((cfg4.win 2).blk t).view.read (Elt Ideal) (v4_G (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero hz2]
  simp only [View.ld_unit_zero (S := S400x10000) hz2, View.ld_unit_zero (S := S10000x30) hz2]
  obtain ⟨o0, o1, -⟩ := v4_idx t
  funext j
  obtain ⟨p, q, rfl⟩ : ∃ (p : Fin 400) (q : Fin 30), j = ix2 p q := ⟨j 0, j 1, eq_ix2 j⟩
  have hN : cfg4.N = 25 := N_4
  have ht := t.isLt
  have hp := p.isLt
  obtain ⟨r, hr⟩ : ∃ r : Fin 10000, r.val = t.val * 400 + p.val := ⟨⟨_, by omega⟩, rfl⟩
  show k4_pay1 (iblk4 V c 0 t) (iblk4 V c 1 t) (ix2 p q) = v4_G _ _ (((cfg4.win 2).blk t).view.emb (ix2 p q))
  rw [show ((cfg4.win 2).blk t).view.emb (ix2 p q) = ix2 r q from Shape.idx_ext₂
    (by show win4_2.index t (0 : Fin 2) * 400 + 1 * p.val = r.val; omega) (by show win4_2.index t (1 : Fin 2) * 30 + 1 * q.val = q.val; omega)]
  exact v4_entry V c t p q r hr

/-- Row r lies in the block of point r / 400. -/
theorem v4_cover (i : S10000x30.Idx) :
    ∃ t : Fin cfg4.N, (cfg4.win 2).flush t = true ∧ i ∈ ((cfg4.win 2).blk t).view.set := by
  have hi0 : (i 0).val < 10000 := idx2_lt0 i
  have hi1 : (i 1).val < 30 := idx2_lt1 i
  obtain ⟨t, ht⟩ : ∃ t : Fin cfg4.N, t.val = (i 0).val / 400 :=
    ⟨⟨(i 0).val / 400, by rw [show cfg4.N = 25 from N_4]; omega⟩, rfl⟩
  obtain ⟨o0, o1, -⟩ := v4_idx t
  refine ⟨t, flush4_2 t, ?_⟩
  show i ∈ ((View.whole (Pipeline.arrRef spec4 2)).slice (win4_2.rect t)).set
  rw [View.set_slice_whole, Rect.mem_set_unit]
  intro a
  match a with
  | ⟨0, _⟩ => show win4_2.index t (0 : Fin 2) * 400 ≤ (i 0).val ∧ (i 0).val < win4_2.index t (0 : Fin 2) * 400 + 400; omega
  | ⟨1, _⟩ => show win4_2.index t (1 : Fin 2) * 30 ≤ (i 1).val ∧ (i 1).val < win4_2.index t (1 : Fin 2) * 30 + 30; omega

theorem final4 (c : Dev nD) :
    mat2 (a := 10000) (b := 30) ((dat4 (F := Ideal) V c).arrAt 2 cfg4.N)
      = mm (mat2 (a := 10000) (b := 10000) (V c (Pipeline.arrRef spec4 0))) (mat2 (a := 10000) (b := 30) (V c (Pipeline.arrRef spec4 1))) := by
  rw [(dat4 (F := Ideal) V c).arrAt_eq_of_cover 2 _ (fun t _ => v4_flushed_eq V c t) v4_cover]
  rfl

end Cert.KernelIdeal.Hand

end
-- ==== Proof.KiV5.lean ====
import proofs.«430353_j22832046146023_3_alg».proof.Proof.KiR5
import proofs.«430353_j22832046146023_3_alg».proof.Proof.Acc
import proofs.«430353_j22832046146023_3_alg».proof.Proof.LibMatmulAt
import Idealize.ShloMosaic.Lib.Pipeline.Value
import Idealize.ShloMosaic.Lib.ValueLayout

set_option maxRecDepth 16384
set_option maxHeartbeats 1000000

noncomputable section

namespace Cert.KernelIdeal.Hand

open Cert.KernelIdeal Cert.KernelIdeal.Gen GcnSpec MatmulAt
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Each product is the plain sum over its contracted index; the bias row sits under every row of the block. -/
theorem v5_pay_apply (v3 : Vec Ideal S400x30 .f32) (v5 : Vec Ideal S400x10000 .f32) (v7 : Vec Ideal S10000x30 .f32) (v10 : Vec Ideal S400x30 .f32)
    (v14 v17 v21 : Vec Ideal S30x1 .f32) (v25 : Vec Ideal S1x1 .f32) (p : Fin 400) (q : Fin 1) :
    k5_pay1 v3 v5 v7 v10 v14 v17 v21 v25 (ix2 p q)
      = Ideal.tanh ((((∑ k : Fin 30, v10 (ix2 p k) * v14 (ix2 k q)) + ∑ k : Fin 30, v3 (ix2 p k) * v17 (ix2 k q))
          + ∑ k : Fin 30, (twoC * (∑ j : Fin 10000, v5 (ix2 p j) * v7 (ix2 j k)) - v10 (ix2 p k)) * v21 (ix2 k q))
          + v25 (ix2 0 q)) := by
  have hb : broadcastTo S400x1 v25 broadcasts_S1x1_S400x1 (ix2 p q) = v25 (ix2 0 q) :=
    broadcastTo_apply v25 broadcasts_S1x1_S400x1 (ix2 p q) (ix2 0 q) (fun a => by
      have hq := q.isLt
      match a with
      | ⟨0, _⟩ => rfl
      | ⟨1, _⟩ => show q.val = if (1 : ℕ) = 1 then 0 else q.val; split <;> omega)
  unfold k5_pay1
  simp only [shapeCast_self]
  show Ideal.tanh ((((_ : EReal) + _) + _) + _) = _
  simp only [matmul_plain_apply (φ₁ := .f32) (φ₂ := .f32) dot_S400x30_S30x1_S400x1_1_0_0_1_n_n rfl, hb, subf_apply, mulf_apply, broadcast_apply,
    matmul_plain_apply (φ₁ := .f32) (φ₂ := .f32) dot_S400x10000_S10000x30_S400x30_1_0_0_1_n_n rfl] <;> rfl

theorem v5_idx : ∀ t : Fin cfg5.N,
    win5_7.index t (0 : Fin 2) = t.val ∧ win5_7.index t (1 : Fin 2) = 0
    ∧ win5_0.index t (0 : Fin 2) = t.val ∧ win5_0.index t (1 : Fin 2) = 0
    ∧ win5_1.index t (0 : Fin 2) = t.val ∧ win5_1.index t (1 : Fin 2) = 0
    ∧ k5_off1 (grid5.coords t) (0 : Fin 2) = t.val * 400 ∧ k5_off1 (grid5.coords t) (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

def v5_G (a0 : Vec Ideal S10000x10000 .f32) (a1 a2 : Vec Ideal S10000x30 .f32) (a3 a4 a5 : Vec Ideal S30x1 .f32)
    (a6 : Vec Ideal S1x1 .f32) : Vec Ideal S10000x1 .f32 := fun j =>
  layerOf twoC (mat2 (a := 10000) (b := 30) a1) (mat2 (a := 10000) (b := 30) a2)
    (mm (mat2 (a := 10000) (b := 10000) a0) (mat2 (a := 10000) (b := 30) a2))
    (mat2 (a := 30) (b := 1) a3) (mat2 (a := 30) (b := 1) a4) (mat2 (a := 30) (b := 1) a5)
    (fun o => mat2 (a := 1) (b := 1) a6 0 o) (j 0) (j 1)

/-- Entry (p, q) of point t's block is the layer's entry at row 400 t + p of the arrays. -/
theorem v5_flushed_eq (c : Dev nD) (t : Fin cfg5.N) :
    (dat5 (F := Ideal) V c).flushed 7 t = ((cfg5.win 7).blk t).view.read (Elt Ideal) (v5_G (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))) := by
  show (cfg5.win 7).cut (grid5.coords t) ((dat5 (F := Ideal) V c).after 7 t) = _
  rw [after5_7]
  unfold out5_7
  rw [View.canon_unit_zero hz2]
  simp only [View.ld_unit_zero (S := S400x10000) hz2, View.ld_unit_zero (S := S400x30) hz2, View.ld_unit_zero (S := S10000x30) hz2,
    View.ld_unit_zero (S := S30x1) hz2, View.ld_unit_zero (S := S1x1) hz2]
  obtain ⟨o0, o1, e00, e01, e10, e11, f0, f1, e20, e21, e30, e31, e40, e41, e50, e51, e60, e61⟩ := v5_idx t
  funext j
  obtain ⟨p, q, rfl⟩ : ∃ (p : Fin 400) (q : Fin 1), j = ix2 p q := ⟨j 0, j 1, eq_ix2 j⟩
  have hN : cfg5.N = 25 := N_5
  have ht := t.isLt
  have hp := p.isLt
  obtain ⟨r, hr⟩ : ∃ r : Fin 10000, r.val = t.val * 400 + p.val := ⟨⟨_, by omega⟩, rfl⟩
  have b0 : ∀ y : Fin 10000, (iblk5 V c 0 t : Vec Ideal S400x10000 .f32) (ix2 p y) = (V c (Pipeline.arrRef spec5 0)) (ix2 r y) := fun y => by
    show (V c (Pipeline.arrRef spec5 0)) (((cfg5.win 0).blk t).view.emb (ix2 p y)) = _
    exact congrArg _ (Shape.idx_ext₂ (by show win5_0.index t (0 : Fin 2) * 400 + 1 * p.val = r.val; omega) (by show win5_0.index t (1 : Fin 2) * 10000 + 1 * y.val = y.val; omega))
  have b1 : ∀ y : Fin 30, (iblk5 V c 1 t : Vec Ideal S400x30 .f32) (ix2 p y) = (V c (Pipeline.arrRef spec5 1)) (ix2 r y) := fun y => by
    show (V c (Pipeline.arrRef spec5 1)) (((cfg5.win 1).blk t).view.emb (ix2 p y)) = _
    exact congrArg _ (Shape.idx_ext₂ (by show win5_1.index t (0 : Fin 2) * 400 + 1 * p.val = r.val; omega) (by show win5_1.index t (1 : Fin 2) * 30 + 1 * y.val = y.val; omega))
  have b2 : ∀ (x : Fin 10000) (y : Fin 30), (iblk5 V c 2 t : Vec Ideal S10000x30 .f32) (ix2 x y) = (V c (Pipeline.arrRef spec5 2)) (ix2 x y) := fun x y =>
    congrArg (V c (Pipeline.arrRef spec5 2)) (Shape.idx_ext₂ (win5_2.rect_emb_val_of_index_zero t (0 : Fin 2) e20 _) (win5_2.rect_emb_val_of_index_zero t (1 : Fin 2) e21 _))
  have b3 : ∀ (x : Fin 30) (y : Fin 1), (iblk5 V c 3 t : Vec Ideal S30x1 .f32) (ix2 x y) = (V c (Pipeline.arrRef spec5 3)) (ix2 x y) := fun x y =>
    congrArg (V c (Pipeline.arrRef spec5 3)) (Shape.idx_ext₂ (win5_3.rect_emb_val_of_index_zero t (0 : Fin 2) e30 _) (win5_3.rect_emb_val_of_index_zero t (1 : Fin 2) e31 _))
  have b4 : ∀ (x : Fin 30) (y : Fin 1), (iblk5 V c 4 t : Vec Ideal S30x1 .f32) (ix2 x y) = (V c (Pipeline.arrRef spec5 4)) (ix2 x y) := fun x y =>
    congrArg (V c (Pipeline.arrRef spec5 4)) (Shape.idx_ext₂ (win5_4.rect_emb_val_of_index_zero t (0 : Fin 2) e40 _) (win5_4.rect_emb_val_of_index_zero t (1 : Fin 2) e41 _))
  have b5 : ∀ (x : Fin 30) (y : Fin 1), (iblk5 V c 5 t : Vec Ideal S30x1 .f32) (ix2 x y) = (V c (Pipeline.arrRef spec5 5)) (ix2 x y) := fun x y =>
    congrArg (V c (Pipeline.arrRef spec5 5)) (Shape.idx_ext₂ (win5_5.rect_emb_val_of_index_zero t (0 : Fin 2) e50 _) (win5_5.rect_emb_val_of_index_zero t (1 : Fin 2) e51 _))
  have b6 : ∀ (x : Fin 1) (y : Fin 1), (iblk5 V c 6 t : Vec Ideal S1x1 .f32) (ix2 x y) = (V c (Pipeline.arrRef spec5 6)) (ix2 x y) := fun x y =>
    congrArg (V c (Pipeline.arrRef spec5 6)) (Shape.idx_ext₂ (win5_6.rect_emb_val_of_index_zero t (0 : Fin 2) e60 _) (win5_6.rect_emb_val_of_index_zero t (1 : Fin 2) e61 _))
  have bl : ∀ y : Fin 30, (View.ld (iblk5 V c 2 t) (Rect.unit (s := S10000x30) (k5_off1 (grid5.coords t)) S400x30.size (k5_off1_inb (grid5.coords t)))) (ix2 p y) = (V c (Pipeline.arrRef spec5 2)) (ix2 r y) := fun y => by
    show iblk5 V c 2 t _ = _
    rw [← b2]
    exact congrArg _ (Shape.idx_ext₂ (by show k5_off1 (grid5.coords t) (0 : Fin 2) + 1 * p.val = r.val; omega) (by show k5_off1 (grid5.coords t) (1 : Fin 2) + 1 * y.val = y.val; omega))
  show k5_pay1 (F := Ideal) _ _ _ _ _ _ _ _ (ix2 p q) = v5_G _ _ _ _ _ _ _ (((cfg5.win 7).blk t).view.emb (ix2 p q))
  rw [show ((cfg5.win 7).blk t).view.emb (ix2 p q) = ix2 r q from Shape.idx_ext₂
    (by show win5_7.index t (0 : Fin 2) * 400 + 1 * p.val = r.val; omega) (by show win5_7.index t (1 : Fin 2) * 1 + 1 * q.val = q.val; omega)]
  refine (v5_pay_apply _ _ _ _ _ _ _ _ p q).trans ?_
  simp only [b0, b1, b2, b3, b4, b5, b6, bl]
  rfl

/-- Row r lies in the block of point r / 400. -/
theorem v5_cover (i : S10000x1.Idx) : ∃ t : Fin cfg5.N, (cfg5.win 7).flush t = true ∧ i ∈ ((cfg5.win 7).blk t).view.set := by
  have hi0 : (i 0).val < 10000 := (i 0).isLt
  have hi1 : (i 1).val < 1 := (i 1).isLt
  have hN : cfg5.N = 25 := N_5
  obtain ⟨t, ht⟩ : ∃ t : Fin cfg5.N, t.val = (i 0).val / 400 := ⟨⟨(i 0).val / 400, by omega⟩, rfl⟩
  obtain ⟨o0, o1, -⟩ := v5_idx t
  refine ⟨t, flush5_7 t, ?_⟩
  show i ∈ ((View.whole (Pipeline.arrRef spec5 7)).slice (win5_7.rect t)).set
  rw [View.set_slice_whole, Rect.mem_set_unit]
  intro a
  match a with
  | ⟨0, _⟩ => show win5_7.index t (0 : Fin 2) * 400 ≤ (i 0).val ∧ (i 0).val < win5_7.index t (0 : Fin 2) * 400 + 400; omega
  | ⟨1, _⟩ => show win5_7.index t (1 : Fin 2) * 1 ≤ (i 1).val ∧ (i 1).val < win5_7.index t (1 : Fin 2) * 1 + 1; omega

theorem final5 (c : Dev nD) :
    mat2 (a := 10000) (b := 1) ((dat5 (F := Ideal) V c).arrAt 7 cfg5.N)
      = layerOf twoC (mat2 (a := 10000) (b := 30) (V c (Pipeline.arrRef spec5 1))) (mat2 (a := 10000) (b := 30) (V c (Pipeline.arrRef spec5 2)))
          (mm (mat2 (a := 10000) (b := 10000) (V c (Pipeline.arrRef spec5 0))) (mat2 (a := 10000) (b := 30) (V c (Pipeline.arrRef spec5 2))))
          (mat2 (a := 30) (b := 1) (V c (Pipeline.arrRef spec5 3))) (mat2 (a := 30) (b := 1) (V c (Pipeline.arrRef spec5 4)))
          (mat2 (a := 30) (b := 1) (V c (Pipeline.arrRef spec5 5))) (fun o => mat2 (a := 1) (b := 1) (V c (Pipeline.arrRef spec5 6)) 0 o) := by
  rw [(dat5 (F := Ideal) V c).arrAt_eq_of_cover 7 _ (fun t _ => v5_flushed_eq V c t) v5_cover]
  rfl

end Cert.KernelIdeal.Hand

end
-- ==== Proof.KiV6.lean ====
import proofs.«430353_j22832046146023_3_alg».proof.Proof.KiR6
import proofs.«430353_j22832046146023_3_alg».proof.Proof.Acc
import proofs.«430353_j22832046146023_3_alg».proof.Proof.LibMatmulAt
import Idealize.ShloMosaic.Lib.Pipeline.Value

set_option maxRecDepth 16384

noncomputable section

namespace Cert.KernelIdeal.Hand

open Cert.KernelIdeal Cert.KernelIdeal.Gen GcnSpec MatmulAt
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem v6_idx : ∀ t : Fin cfg6.N,
    win6_3.index t (0 : Fin 2) = t.val ∧ win6_3.index t (1 : Fin 2) = 0
    ∧ win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem v6_pay_apply (x0 : Vec Ideal S400x10003 .f32) (x1 : Vec Ideal S10003x1 .f32) (x2 : Vec Ideal S400x1 .f32) (p : Fin 400) (q : Fin 1) :
    k6_pay1 x0 x1 x2 (ix2 p q) = (∑ k : Fin 10003, x0 (ix2 p k) * x1 (ix2 k q)) + x2 (ix2 p q) := by
  unfold k6_pay1
  simp only [shapeCast_self]
  rw [addf_apply, matmul_plain_apply (φ₁ := .f32) (φ₂ := .f32) dot_S400x10003_S10003x1_S400x1_1_0_0_1_n_n rfl]

def v6_G (a0 : Vec Ideal S10000x10003 .f32) (a1 : Vec Ideal S10003x1 .f32) (a2 : Vec Ideal S10000x1 .f32) : Vec Ideal S10000x1 .f32 :=
  fun i => (∑ k : Fin 10003, a0 (ix2 (i 0) k) * a1 (ix2 k (i 1))) + a2 (ix2 (i 0) (i 1))

/-- Row p of point t's blocks is row 400 t + p of the weights and of the bias; the state column is whole. -/
theorem v6_entry (c : Dev nD) (t : Fin cfg6.N) (p : Fin 400) (q : Fin 1) (r : Fin 10000) (hr : r.val = t.val * 400 + p.val) :
    k6_pay1 (iblk6 V c 0 t) (iblk6 V c 1 t) (iblk6 V c 2 t) (ix2 p q) = (v6_G (V c (Pipeline.arrRef spec6 0)) (V c (Pipeline.arrRef spec6 1)) (V c (Pipeline.arrRef spec6 2))) (ix2 r q) := by
  obtain ⟨-, -, e00, e01, e10, e11, e20, e21⟩ := v6_idx t
  have b0 : ∀ y : Fin 10003, (iblk6 V c 0 t : Vec Ideal S400x10003 .f32) (ix2 p y) = (V c (Pipeline.arrRef spec6 0)) (ix2 r y) := fun y => by
    show (V c (Pipeline.arrRef spec6 0)) (((cfg6.win 0).blk t).view.emb (ix2 p y)) = _
    exact congrArg _ (Shape.idx_ext₂ (by show win6_0.index t (0 : Fin 2) * 400 + 1 * p.val = r.val; omega) (by show win6_0.index t (1 : Fin 2) * 10003 + 1 * y.val = y.val; omega))
  have b1 : ∀ (x : Fin 10003) (y : Fin 1), (iblk6 V c 1 t : Vec Ideal S10003x1 .f32) (ix2 x y) = (V c (Pipeline.arrRef spec6 1)) (ix2 x y) := fun x y => by
    show (V c (Pipeline.arrRef spec6 1)) (((cfg6.win 1).blk t).view.emb (ix2 x y)) = _
    exact congrArg _ (Shape.idx_ext₂ (by show win6_1.index t (0 : Fin 2) * 10003 + 1 * x.val = x.val; omega) (by show win6_1.index t (1 : Fin 2) * 1 + 1 * y.val = y.val; omega))
  have b2 : ∀ y : Fin 1, (iblk6 V c 2 t : Vec Ideal S400x1 .f32) (ix2 p y) = (V c (Pipeline.arrRef spec6 2)) (ix2 r y) := fun y => by
    show (V c (Pipeline.arrRef spec6 2)) (((cfg6.win 2).blk t).view.emb (ix2 p y)) = _
    exact congrArg _ (Shape.idx_ext₂ (by show win6_2.index t (0 : Fin 2) * 400 + 1 * p.val = r.val; omega) (by show win6_2.index t (1 : Fin 2) * 1 + 1 * y.val = y.val; omega))
  refine (v6_pay_apply _ _ _ p q).trans ?_
  simp only [b0, b1, b2]
  rfl

theorem v6_flushed_eq (c : Dev nD) (t : Fin cfg6.N) :
    (dat6 (F := Ideal) V c).flushed 3 t = ((cfg6.win 3).blk t).view.read (Elt Ideal) (v6_G (V c (Pipeline.arrRef spec6 0)) (V c (Pipeline.arrRef spec6 1)) (V c (Pipeline.arrRef spec6 2))) := by
  show (cfg6.win 3).cut (grid6.coords t) ((dat6 (F := Ideal) V c).after 3 t) = _
  rw [after6_3]
  unfold out6_3
  rw [View.canon_unit_zero hz2]
  simp only [View.ld_unit_zero (S := S400x10003) hz2, View.ld_unit_zero (S := S10003x1) hz2, View.ld_unit_zero (S := S400x1) hz2]
  obtain ⟨o0, o1, -⟩ := v6_idx t
  funext j
  obtain ⟨p, q, rfl⟩ : ∃ (p : Fin 400) (q : Fin 1), j = ix2 p q := ⟨j 0, j 1, eq_ix2 j⟩
  have hN : cfg6.N = 25 := N_6
  have ht := t.isLt
  have hp := p.isLt
  obtain ⟨r, hr⟩ : ∃ r : Fin 10000, r.val = t.val * 400 + p.val := ⟨⟨_, by omega⟩, rfl⟩
  show k6_pay1 (iblk6 V c 0 t) (iblk6 V c 1 t) (iblk6 V c 2 t) (ix2 p q) = v6_G _ _ _ (((cfg6.win 3).blk t).view.emb (ix2 p q))
  rw [show ((cfg6.win 3).blk t).view.emb (ix2 p q) = ix2 r q from Shape.idx_ext₂
    (by show win6_3.index t (0 : Fin 2) * 400 + 1 * p.val = r.val; omega) (by show win6_3.index t (1 : Fin 2) * 1 + 1 * q.val = q.val; omega)]
  exact v6_entry V c t p q r hr

/-- Row r lies in the block of point r / 400. -/
theorem v6_cover (i : S10000x1.Idx) :
    ∃ t : Fin cfg6.N, (cfg6.win 3).flush t = true ∧ i ∈ ((cfg6.win 3).blk t).view.set := by
  have hi0 : (i 0).val < 10000 := idx2_lt0 i
  have hi1 : (i 1).val < 1 := idx2_lt1 i
  obtain ⟨t, ht⟩ : ∃ t : Fin cfg6.N, t.val = (i 0).val / 400 :=
    ⟨⟨(i 0).val / 400, by rw [show cfg6.N = 25 from N_6]; omega⟩, rfl⟩
  obtain ⟨o0, o1, -⟩ := v6_idx t
  refine ⟨t, flush6_3 t, ?_⟩
  show i ∈ ((View.whole main_v77).slice (win6_3.rect t)).set
  rw [View.set_slice_whole, Rect.mem_set_unit]
  intro a
  match a with
  | ⟨0, _⟩ => show win6_3.index t (0 : Fin 2) * 400 ≤ (i 0).val ∧ (i 0).val < win6_3.index t (0 : Fin 2) * 400 + 400; omega
  | ⟨1, _⟩ => show win6_3.index t (1 : Fin 2) * 1 ≤ (i 1).val ∧ (i 1).val < win6_3.index t (1 : Fin 2) * 1 + 1; omega

theorem final6 (c : Dev nD) (a : Fin 10000) :
    mat2 (a := 10000) (b := 1) ((dat6 (F := Ideal) V c).arrAt 3 cfg6.N) a 0
      = (∑ k : Fin 10003, mat2 (a := 10000) (b := 10003) (V c (Pipeline.arrRef spec6 0)) a k * mat2 (a := 10003) (b := 1) (V c (Pipeline.arrRef spec6 1)) k 0)
        + mat2 (a := 10000) (b := 1) (V c (Pipeline.arrRef spec6 2)) a 0 := by
  rw [(dat6 (F := Ideal) V c).arrAt_eq_of_cover 3 _ (fun t _ => v6_flushed_eq V c t) v6_cover]
  rfl

end Cert.KernelIdeal.Hand

end
-- ==== Proof.Edge.lean ====
import proofs.«430353_j22832046146023_3_alg».proof.KernelIdeal
import proofs.«430353_j22832046146023_3_alg».proof.Proof.Gen.KernelIdeal
import proofs.«430353_j22832046146023_3_alg».proof.Proof.Acc
import Idealize.ShloMosaic.Lib.ValueIdx
import Idealize.ShloMosaic.Lib.Pipeline.Value
import Idealize.ShloMosaic.PureOps.Ideal.Laws
import Idealize.ShloMosaic.Lib.IdealHost
import Idealize.ShloMosaic.Lib.ValueIdxRank1

noncomputable section

namespace GcnSpec

open Cert.KernelIdeal Cert.KernelIdeal.Facts₀
open Idealize.ShloMosaic Idealize.ShloMosaic.ValueIdx
open scoped BigOperators

abbrev IArr := (⟨S2x640000, .i32⟩ : BufTy).Contents (Elt Ideal)
abbrev IVec1 := (⟨S640000, .i32⟩ : BufTy).Contents (Elt Ideal)
abbrev FNode := (⟨S10000, .f32⟩ : BufTy).Contents (Elt Ideal)
abbrev FEdge := (⟨S640000, .f32⟩ : BufTy).Contents (Elt Ideal)

def srcI (a1 : IArr) : IVec1 :=
  shapeCast _ (extractStridedSlice S1x640000 ![0, 0] a1 slices_S2x640000_S1x640000_0_0) shapeCasts_S1x640000_S640000
def dstI (a1 : IArr) : IVec1 :=
  shapeCast _ (extractStridedSlice S1x640000 ![1, 0] a1 slices_S2x640000_S1x640000_1_0) shapeCasts_S1x640000_S640000

def normI (v : IVec1) : IVec1 :=
  select (cmpi .slt v (broadcastInDim S640000 ![] bcast_S_S640000 (constantI S_ 32 0#32)))
    (addi v (broadcastInDim S640000 ![] bcast_S_S640000 (constantI S_ 32 10000#32))) v

def degV (a1 : IArr) : FNode :=
  Host.scatterAdd (F := Ideal) scatter_S10000_S640000x1_S640000_n_0_0_1
    (broadcastInDim S10000 ![] bcast_S_S10000 (constant (F := Ideal) S_ .f32 0x00000000#32))
    (broadcastInDim S640000x1 ![0] bcast_S640000_S640000x1_0 (dstI a1))
    (broadcastInDim S640000 ![] bcast_S_S640000 (constant (F := Ideal) S_ .f32 0x3F800000#32))

def dinvV (a1 : IArr) : FNode :=
  select (cmpf (F := Ideal) .ogt (degV a1) (broadcastInDim S10000 ![] bcast_S_S10000 (constant (F := Ideal) S_ .f32 0x00000000#32)))
    (Host.divf (F := Ideal) (broadcastInDim S10000 ![] bcast_S_S10000 (constant (F := Ideal) S_ .f32 0x3F800000#32)) (Host.sqrt (F := Ideal) (degV a1)))
    (broadcastInDim S10000 ![] bcast_S_S10000 (id (constant (F := Ideal) S_ .f32 0x00000000#32)))

def wVec (a1 : IArr) : FEdge :=
  mulf (F := Ideal) (φ := .f32)
    (Host.negf (F := Ideal) (φ := .f32) (Host.gather gather_S10000_S640000x1_S640000_n_0_n_n_0_1_1 (dinvV a1)
      (broadcastInDim S640000x1 ![0] bcast_S640000_S640000x1_0 (normI (srcI a1)))))
    (Host.gather gather_S10000_S640000x1_S640000_n_0_n_n_0_1_1 (dinvV a1)
      (broadcastInDim S640000x1 ![0] bcast_S640000_S640000x1_0 (normI (dstI a1))))

def LmatV (a1 : IArr) : (⟨S10000x10000, .f32⟩ : BufTy).Contents (Elt Ideal) :=
  Host.scatterAdd (F := Ideal) scatter_S10000x10000_S640000x2_S640000_n_01_01_1
    (broadcastInDim S10000x10000 ![] bcast_S_S10000x10000 (constant (F := Ideal) S_ .f32 0x00000000#32))
    (concatenate S640000x2 1 [⟨S640000x1, broadcastInDim S640000x1 ![0] bcast_S640000_S640000x1_0 (normI (dstI a1))⟩,
      ⟨S640000x1, broadcastInDim S640000x1 ![0] bcast_S640000_S640000x1_0 (normI (srcI a1))⟩] concatenates_S640000x1_S640000x1_S640000x2_d1)
    (wVec a1)

def InRange (a1 : IArr) : Prop :=
  ∀ (r : Fin 2) (e : Fin 640000), 0 ≤ (a1 (ix2 r e)).toInt ∧ (a1 (ix2 r e)).toInt < 10000

def nodeOf (a1 : IArr) (r : Fin 2) (e : Fin 640000) : Fin 10000 :=
  ⟨min (a1 (ix2 r e)).toInt.toNat 9999, by omega⟩

def graphOf (a1 : IArr) : Graph 10000 640000 where
  src := nodeOf a1 0
  dst := nodeOf a1 1
  w := fun e => wVec a1 (ix1 e)

theorem nodeOf_val (a1 : IArr) (h : InRange a1) (r : Fin 2) (e : Fin 640000) :
    ((nodeOf a1 r e).val : ℤ) = (a1 (ix2 r e)).toInt := by
  obtain ⟨h0, h1⟩ := h r e
  show ((min (a1 (ix2 r e)).toInt.toNat 9999 : ℕ) : ℤ) = (a1 (ix2 r e)).toInt
  generalize (a1 (ix2 r e)).toInt = z at h0 h1 ⊢
  omega

theorem srcI_apply (a1 : IArr) (e : Fin 640000) : srcI a1 (ix1 e) = a1 (ix2 0 e) := by
  unfold srcI

  refine (shapeCast_apply _ shapeCasts_S1x640000_S640000 (ix1 e) (ix2 (0 : Fin 1) e) ?_).trans ?_
  · rw [Shape.rowMajor_val_two, Shape.rowMajor_val_one]
    show 0 * 640000 + e.val = e.val
    omega
  · exact extractStridedSlice_apply ![0, 0] a1 slices_S2x640000_S1x640000_0_0 (ix2 (0 : Fin 1) e) (ix2 (0 : Fin 2) e)
      (fun a => match a with
        | ⟨0, _⟩ => by show (0 : ℕ) = 0 + 0; rfl
        | ⟨1, _⟩ => by show e.val = 0 + e.val; omega)
theorem dstI_apply (a1 : IArr) (e : Fin 640000) : dstI a1 (ix1 e) = a1 (ix2 1 e) := by
  unfold dstI

  refine (shapeCast_apply _ shapeCasts_S1x640000_S640000 (ix1 e) (ix2 (0 : Fin 1) e) ?_).trans ?_
  · rw [Shape.rowMajor_val_two, Shape.rowMajor_val_one]
    show 0 * 640000 + e.val = e.val
    omega
  · exact extractStridedSlice_apply ![1, 0] a1 slices_S2x640000_S1x640000_1_0 (ix2 (0 : Fin 1) e) (ix2 (1 : Fin 2) e)
      (fun a => match a with
        | ⟨0, _⟩ => by show (1 : ℕ) = 1 + 0; rfl
        | ⟨1, _⟩ => by show e.val = 0 + e.val; omega)

theorem normI_apply_of_nonneg (v : IVec1) (i : S640000.Idx) (h : 0 ≤ (v i).toInt) : normI v i = v i := by
  unfold normI
  rw [select_apply]
  have hc : cmpi .slt v (broadcastInDim S640000 ![] bcast_S_S640000 (constantI S_ 32 0#32)) i = 0#1 := by
    show IntOp.cmpi .slt (v i) (broadcastInDim S640000 ![] bcast_S_S640000 (constantI S_ 32 0#32) i) = 0#1
    rw [broadcastInDim_scalar_apply]
    show BitVec.ofBool ((v i).slt 0#32) = 0#1
    have : (v i).slt 0#32 = false := by
      rw [BitVec.slt]
      have h0 : (0#32 : BitVec 32).toInt = 0 := by decide
      rw [h0]
      exact decide_eq_false (by omega)
    rw [this]
    rfl
  rw [hc, select_zero]

theorem normI_srcI_apply (a1 : IArr) (h : InRange a1) (e : Fin 640000) : normI (srcI a1) (ix1 e) = a1 (ix2 0 e) := by
  rw [normI_apply_of_nonneg _ _ (by rw [srcI_apply]; exact (h 0 e).1), srcI_apply]
theorem normI_dstI_apply (a1 : IArr) (h : InRange a1) (e : Fin 640000) : normI (dstI a1) (ix1 e) = a1 (ix2 1 e) := by
  rw [normI_apply_of_nonneg _ _ (by rw [dstI_apply]; exact (h 1 e).1), dstI_apply]

theorem scatterAdd_apply {s si su : Shape} {w : ℕ} (d : ScatterDims s si su) (x : FVec Ideal s .f32) (idx : IVec si w)
    (upd : FVec Ideal su .f32) (i : s.Idx) :
    Host.scatterAdd (F := Ideal) d x idx upd i
      = x i + ∑ j ∈ Finset.univ.filter (fun j => d.resultIdx? j idx = some i), upd j := rfl
theorem gather_apply {s si t : Shape} {α : Type} {w : ℕ} (d : GatherDims s si t) (x : s.Idx → α) (idx : IVec si w) (j : t.Idx) :
    Host.gather d x idx j = x (d.operandIdx j idx) := rfl
theorem hostNegf_apply {s : Shape} (x : FVec Ideal s .f32) (i : s.Idx) : Host.negf (F := Ideal) x i = -(x i) := rfl
theorem hostSqrt_apply {s : Shape} (x : FVec Ideal s .f32) (i : s.Idx) : Host.sqrt (F := Ideal) x i = Ideal.sqrt (x i) := rfl

theorem degV_isR (a1 : IArr) (i : Fin 10000) : IsR (degV a1 (ix1 i)) := by
  unfold degV
  rw [scatterAdd_apply]

  refine IsR.add ?_ (IsR.sum _ _ (fun j _ => ?_))
  · rw [broadcastInDim_scalar_apply, constant_apply, Ideal.ofBits_zero_f32]
    exact IsR.zero
  · rw [broadcastInDim_scalar_apply, constant_apply, Ideal.ofBits_one_f32]
    exact ⟨1, rfl⟩

theorem dinvOf_isR (d : FNode) (k : S10000.Idx) (hd : IsR (d k)) :
    IsR (select (cmpf (F := Ideal) .ogt d (broadcastInDim S10000 ![] bcast_S_S10000 (constant (F := Ideal) S_ .f32 0x00000000#32)))
      (Host.divf (F := Ideal) (broadcastInDim S10000 ![] bcast_S_S10000 (constant (F := Ideal) S_ .f32 0x3F800000#32)) (Host.sqrt (F := Ideal) d))
      (broadcastInDim S10000 ![] bcast_S_S10000 (id (constant (F := Ideal) S_ .f32 0x00000000#32))) k) := by
  obtain ⟨r, hr⟩ := hd
  rw [select_apply, cmpf_apply, Ideal.cmpf_def, broadcastInDim_scalar_apply, constant_apply, Ideal.ofBits_zero_f32, hr]
  by_cases hc : Ideal.cmp .ogt (r : EReal) 0 = 1#1
  ·
    rw [hc, select_one, hostDivf_apply, broadcastInDim_scalar_apply, constant_apply, Ideal.ofBits_one_f32]
    have hlt : (0 : EReal) < (r : EReal) := by
      have h2 : BitVec.ofBool (decide ((0 : EReal) < (r : EReal))) = 1#1 := hc
      by_contra hn
      rw [decide_eq_false hn] at h2
      exact absurd h2 (by decide)
    have hpos : 0 < r := by exact_mod_cast hlt
    rw [hostSqrt_apply, hr, Ideal.sqrt_coe, if_neg (not_lt.2 hpos.le), Ideal.div_coe (ne_of_gt (Real.sqrt_pos.2 hpos)), one_mul]
    exact IsR.coe _
  · rw [eq_zero_of_ne_one hc, select_zero, broadcastInDim_scalar_apply]
    show IsR (Ideal.ofBits .f32 0x00000000#32)
    rw [Ideal.ofBits_zero_f32]
    exact IsR.zero

theorem dinvV_isR (a1 : IArr) (i : Fin 10000) : IsR (dinvV a1 (ix1 i)) := by
  unfold dinvV
  exact dinvOf_isR (degV a1) (ix1 i) (degV_isR a1 i)

theorem dinvV_isR' (a1 : IArr) (k : S10000.Idx) : IsR (dinvV a1 k) := by
  rw [eq_ix1 k]
  exact dinvV_isR a1 _

theorem wVec_isR (a1 : IArr) (e : Fin 640000) : IsR (wVec a1 (ix1 e)) := by
  unfold wVec

  rw [mulf_apply, hostNegf_apply, gather_apply, gather_apply]
  exact IsR.mul (IsR.neg (dinvV_isR' a1 _)) (dinvV_isR' a1 _)

abbrev scL : ScatterDims S10000x10000 S640000x2 S640000 := scatter_S10000x10000_S640000x2_S640000_n_01_01_1

theorem scL_siIdx (e : Fin 640000) (c : Fin scL.scatterDimsToOperandDims.length) :
    scL.siIdx (ix1 e) c = ix2 e (⟨c.val, c.isLt⟩ : Fin 2) := by
  funext b
  refine Fin.ext ?_
  match b with
  | ⟨0, _⟩ => rfl
  | ⟨1, _⟩ => rfl

theorem scL_window (e : Fin 640000) (a : Fin 2) : scL.window (ix1 e) a = 0 := by
  have hk : ∀ b : Fin 2, b ∉ scL.sKept := by decide
  unfold ScatterDims.window
  exact dif_neg (hk a)

theorem scL_start0 (idx : IVec S640000x2 32) (e : Fin 640000) (h0 : 0 < 2) :
    scL.start (ix1 e) idx ⟨0, h0⟩ = (idx (ix2 e (0 : Fin 2))).toInt := by
  have hm : ∀ b : Fin 2, b ∈ scL.scatterDimsToOperandDims := by decide
  unfold ScatterDims.start
  rw [dif_pos (hm _), scL_siIdx]
  rfl
theorem scL_start1 (idx : IVec S640000x2 32) (e : Fin 640000) (h1 : 1 < 2) :
    scL.start (ix1 e) idx ⟨1, h1⟩ = (idx (ix2 e (1 : Fin 2))).toInt := by
  have hm : ∀ b : Fin 2, b ∈ scL.scatterDimsToOperandDims := by decide
  unfold ScatterDims.start
  rw [dif_pos (hm _), scL_siIdx]
  rfl

theorem scL_resultIdx (idx : IVec S640000x2 32) (e : Fin 640000) (p q : Fin 10000)
    (hp : (idx (ix2 e (0 : Fin 2))).toInt = (p.val : ℤ)) (hq : (idx (ix2 e (1 : Fin 2))).toInt = (q.val : ℤ)) :
    scL.resultIdx? (ix1 e) idx = some (ix2 p q) := by
  have hall : ∀ a, 0 ≤ scL.start (ix1 e) idx a + scL.window (ix1 e) a
      ∧ scL.start (ix1 e) idx a + scL.window (ix1 e) a < S10000x10000.size a := by
    intro a
    match a with
    | ⟨0, h0⟩ =>
      rw [scL_start0, scL_window, hp]
      show 0 ≤ (p.val : ℤ) + ((0 : ℕ) : ℤ) ∧ (p.val : ℤ) + ((0 : ℕ) : ℤ) < ((10000 : ℕ) : ℤ)
      have := p.isLt
      omega
    | ⟨1, h1⟩ =>
      rw [scL_start1, scL_window, hq]
      show 0 ≤ (q.val : ℤ) + ((0 : ℕ) : ℤ) ∧ (q.val : ℤ) + ((0 : ℕ) : ℤ) < ((10000 : ℕ) : ℤ)
      have := q.isLt
      omega
  unfold ScatterDims.resultIdx?
  rw [dif_pos hall]
  congr 1
  funext a
  match a with
  | ⟨0, h0⟩ =>
    refine Fin.ext ?_
    show (scL.start (ix1 e) idx ⟨0, h0⟩ + scL.window (ix1 e) ⟨0, h0⟩).toNat = p.val
    rw [scL_start0, scL_window, hp]
    omega
  | ⟨1, h1⟩ =>
    refine Fin.ext ?_
    show (scL.start (ix1 e) idx ⟨1, h1⟩ + scL.window (ix1 e) ⟨1, h1⟩).toNat = q.val
    rw [scL_start1, scL_window, hq]
    omega

theorem cols_apply0 {α : Type} (u v : S640000.Idx → α) (e : Fin 640000) :
    concatenate S640000x2 1 [⟨S640000x1, broadcastInDim S640000x1 ![0] bcast_S640000_S640000x1_0 u⟩,
      ⟨S640000x1, broadcastInDim S640000x1 ![0] bcast_S640000_S640000x1_0 v⟩]
      concatenates_S640000x1_S640000x1_S640000x2_d1 (ix2 e (0 : Fin 2)) = u (ix1 e) := by
  refine (concatenate_pair_apply_left (1 : Fin S640000x2.rank) _ _ concatenates_S640000x1_S640000x1_S640000x2_d1
    (ix2 e (0 : Fin 2)) rfl (ix2 e (0 : Fin 1)) ?_).trans ?_
  · intro b
    match b with
    | ⟨0, _⟩ => rfl
    | ⟨1, _⟩ => rfl
  · exact broadcastInDim_apply _ bcast_S640000_S640000x1_0 u (ix2 e (0 : Fin 1)) (ix1 e) (fun a => match a with
      | ⟨0, _⟩ => by show e.val = if (640000 : ℕ) = 1 then 0 else e.val; rw [if_neg (by decide)])

theorem cols_apply1 {α : Type} (u v : S640000.Idx → α) (e : Fin 640000) :
    concatenate S640000x2 1 [⟨S640000x1, broadcastInDim S640000x1 ![0] bcast_S640000_S640000x1_0 u⟩,
      ⟨S640000x1, broadcastInDim S640000x1 ![0] bcast_S640000_S640000x1_0 v⟩]
      concatenates_S640000x1_S640000x1_S640000x2_d1 (ix2 e (1 : Fin 2)) = v (ix1 e) := by
  refine (concatenate_pair_apply_right (1 : Fin S640000x2.rank) _ _ concatenates_S640000x1_S640000x1_S640000x2_d1
    (ix2 e (1 : Fin 2)) rfl rfl (ix2 e (0 : Fin 1)) ?_ ?_).trans ?_
  · intro b hb
    match b with
    | ⟨0, _⟩ => rfl
    | ⟨1, _⟩ => exact absurd rfl hb
  · rfl
  · exact broadcastInDim_apply _ bcast_S640000_S640000x1_0 v (ix2 e (0 : Fin 1)) (ix1 e) (fun a => match a with
      | ⟨0, _⟩ => by show e.val = if (640000 : ℕ) = 1 then 0 else e.val; rw [if_neg (by decide)])

theorem scL_apply (a1 : IArr) (idx : IVec S640000x2 32) (w : FEdge)
    (h0 : ∀ e, (idx (ix2 e (0 : Fin 2))).toInt = ((nodeOf a1 1 e).val : ℤ))
    (h1 : ∀ e, (idx (ix2 e (1 : Fin 2))).toInt = ((nodeOf a1 0 e).val : ℤ)) (i j : Fin 10000) :
    Host.scatterAdd (F := Ideal) scL
        (broadcastInDim S10000x10000 ![] bcast_S_S10000x10000 (constant (F := Ideal) S_ .f32 0x00000000#32)) idx w (ix2 i j)
      = ∑ e ∈ Finset.univ.filter (fun e => nodeOf a1 1 e = i ∧ nodeOf a1 0 e = j), w (ix1 e) := by
  rw [scatterAdd_apply, broadcastInDim_scalar_apply, constant_apply, Ideal.ofBits_zero_f32, zero_add,
    Finset.sum_filter, Finset.sum_filter]

  refine Fintype.sum_equiv (idxEquiv1 (n := 640000)) _ _ (fun e' => ?_)
  obtain ⟨e, rfl⟩ : ∃ e, e' = ix1 e := ⟨e' 0, eq_ix1 e'⟩
  show (if scL.resultIdx? (ix1 e) idx = some (ix2 i j) then w (ix1 e) else 0)
    = if nodeOf a1 1 e = i ∧ nodeOf a1 0 e = j then w (ix1 e) else 0
  rw [scL_resultIdx idx e _ _ (h0 e) (h1 e)]
  refine if_congr ?_ rfl rfl
  rw [Option.some_inj]
  constructor
  · intro hh
    exact ⟨congrFun hh 0, congrFun hh 1⟩
  · rintro ⟨rfl, rfl⟩
    rfl

theorem LmatV_eq (a1 : IArr) (h : InRange a1) : mat2 (a := 10000) (b := 10000) (LmatV a1) = Lmat (graphOf a1) := by
  funext i j
  rw [mat2_apply]
  unfold LmatV
  refine (scL_apply a1 _ (wVec a1) (fun e => ?_) (fun e => ?_) i j).trans ?_
  · rw [cols_apply0, normI_dstI_apply a1 h, nodeOf_val a1 h]
  · rw [cols_apply1, normI_srcI_apply a1 h, nodeOf_val a1 h]
  · rfl

end GcnSpec

end
-- ==== Proof.Final.lean ====
import proofs.«430353_j22832046146023_3_alg».proof.Proof.Edge

noncomputable section

namespace GcnSpec

open Cert.KernelIdeal
open Idealize.ShloMosaic Idealize.ShloMosaic.ValueIdx
open scoped BigOperators

structure Inputs where
  a0 : (⟨S10000x128, .f32⟩ : BufTy).Contents (Elt Ideal)
  a1 : IArr
  a2 : (⟨S1, .f32⟩ : BufTy).Contents (Elt Ideal)
  a3 : (⟨S1, .f32⟩ : BufTy).Contents (Elt Ideal)
  a4 : (⟨S1, .f32⟩ : BufTy).Contents (Elt Ideal)
  a5 : (⟨S3x128x60, .f32⟩ : BufTy).Contents (Elt Ideal)
  a6 : (⟨S60, .f32⟩ : BufTy).Contents (Elt Ideal)
  a7 : (⟨S3x60x30, .f32⟩ : BufTy).Contents (Elt Ideal)
  a8 : (⟨S30, .f32⟩ : BufTy).Contents (Elt Ideal)
  a9 : (⟨S3x30x1, .f32⟩ : BufTy).Contents (Elt Ideal)
  a10 : (⟨S1, .f32⟩ : BufTy).Contents (Elt Ideal)
  a11 : (⟨S10000x10003, .f32⟩ : BufTy).Contents (Elt Ideal)
  a12 : (⟨S10000, .f32⟩ : BufTy).Contents (Elt Ideal)
  a13 : (⟨S1x10003, .f32⟩ : BufTy).Contents (Elt Ideal)
  a14 : (⟨S1, .f32⟩ : BufTy).Contents (Elt Ideal)

def h3 (lap : {D : ℕ} → Mat 10000 D → Mat 10000 D) (I : Inputs) : Mat 10000 1 :=
  net twoC lap (mat2 (a := 10000) (b := 128) I.a0)
    (slab3 (k := 3) (a := 128) (b := 60) I.a5 0) (slab3 (k := 3) (a := 128) (b := 60) I.a5 1) (slab3 (k := 3) (a := 128) (b := 60) I.a5 2) (vec1 (a := 60) I.a6)
    (slab3 (k := 3) (a := 60) (b := 30) I.a7 0) (slab3 (k := 3) (a := 60) (b := 30) I.a7 1) (slab3 (k := 3) (a := 60) (b := 30) I.a7 2) (vec1 (a := 30) I.a8)
    (slab3 (k := 3) (a := 30) (b := 1) I.a9 0) (slab3 (k := 3) (a := 30) (b := 1) I.a9 1) (slab3 (k := 3) (a := 30) (b := 1) I.a9 2) (vec1 (a := 1) I.a10)

def stateV (lap : {D : ℕ} → Mat 10000 D → Mat 10000 D) (I : Inputs) : Fin 10003 → EReal :=
  stateOf (N := 10000) (fun i => h3 lap I i 0) (I.a2 (ix1 0)) (I.a3 (ix1 0)) (I.a4 (ix1 0))

abbrev lapKof (I : Inputs) : {D : ℕ} → Mat 10000 D → Mat 10000 D := fun {D} => lapK (D := D) (graphOf I.a1)
abbrev lapRof (I : Inputs) : {D : ℕ} → Mat 10000 D → Mat 10000 D := fun {D} => lapR (D := D) (graphOf I.a1)

def logitsK (I : Inputs) (a : Fin 10000) : EReal := headL (mat2 (a := 10000) (b := 10003) I.a11) (stateV (lapKof I) I) (vec1 (a := 10000) I.a12) a
def logitsR (I : Inputs) (a : Fin 10000) : EReal := headR (mat2 (a := 10000) (b := 10003) I.a11) (stateV (lapRof I) I) (vec1 (a := 10000) I.a12) a
def valueK (I : Inputs) : EReal := headL (mat2 (a := 1) (b := 10003) I.a13) (stateV (lapKof I) I) (vec1 (a := 1) I.a14) 0
def valueR (I : Inputs) : EReal := headR (mat2 (a := 1) (b := 10003) I.a13) (stateV (lapRof I) I) (vec1 (a := 1) I.a14) 0

theorem h3_eq (I : Inputs) (hX : ∀ i k, IsR (I.a0 (ix2 i k))) : h3 (lapKof I) I = h3 (lapRof I) I := by
  unfold h3
  exact net_lap_eq twoC (graphOf I.a1) (fun e => wVec_isR I.a1 e) (mat2 (a := 10000) (b := 128) I.a0)
    (fun j d => hX j d) _ _ _ _ _ _ _ _ _ _ _ _

theorem stateV_eq (I : Inputs) (hX : ∀ i k, IsR (I.a0 (ix2 i k))) : stateV (lapKof I) I = stateV (lapRof I) I := by
  unfold stateV
  rw [h3_eq I hX]

theorem logits_eq (I : Inputs) (hX : ∀ i k, IsR (I.a0 (ix2 i k))) : logitsK I = logitsR I := by
  funext a
  unfold logitsK logitsR
  rw [stateV_eq I hX, head_eq]

theorem value_eq (I : Inputs) (hX : ∀ i k, IsR (I.a0 (ix2 i k))) : valueK I = valueR I := by
  unfold valueK valueR
  rw [stateV_eq I hX, head_eq]

end GcnSpec

end
-- ==== Proof.KiTail.lean ====
import proofs.«430353_j22832046146023_3_alg».proof.Proof.KiChain
import proofs.«430353_j22832046146023_3_alg».proof.Proof.KiV6
import proofs.«430353_j22832046146023_3_alg».proof.Proof.Final
import Idealize.ShloMosaic.Lib.StackMember
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen GcnSpec
open Idealize.ShloMosaic Idealize.ShloMosaic.TcCoe Idealize.ShloMosaic.ValueIdx
open Idealize.ShloMosaic.Pipeline (Dat)

variable (m : (ℓ : Loc nD τ sig) → Buf (Elt Ideal) ℓ) (c : Dev nD) (W : Valuation τ sig (Elt Ideal))

theorem kt_k3 (r : Ref sig .tc) (h0 : r ∉ hostOps0_W := by decide) (h1 : r ∉ hostOps0_1_W := by decide) (h2 : r ∉ hostOps0_2_W := by decide) :
    U3 m c r = m ((c.tc : Thread nD τ).loc r) :=
  (V3_of m c r h2).trans ((V2_of m c r h1).trans (V1_of m c r h0))
theorem kt_k4 (r : Ref sig .tc) (h : r ∉ ([main_v45] : List (Ref sig .tc)) := by decide) : U4 m c r = U3 m c r := by
  rw [← V4_eq]; exact V4_of m (outs m) c r h
theorem kt_k5 (r : Ref sig .tc) (h : r ∉ hostOps1_W := by decide) : U5 m c r = U4 m c r := by
  rw [← V5_eq, ← V4_eq]; exact V5_of m (outs m) c r h
theorem kt_k6 (r : Ref sig .tc) (h : r ∉ ([main_v53] : List (Ref sig .tc)) := by decide) : U6 m c r = U5 m c r := by
  rw [← V6_eq, ← V5_eq]; exact V6_of m (outs m) c r h
theorem kt_k7 (r : Ref sig .tc) (h : r ∉ ([main_v54] : List (Ref sig .tc)) := by decide) : U7 m c r = U6 m c r := by
  rw [← V7_eq, ← V6_eq]; exact V7_of m (outs m) c r h
theorem kt_k8 (r : Ref sig .tc) (h : r ∉ hostOps3_W := by decide) : U8 m c r = U7 m c r := by
  rw [← V8_eq, ← V7_eq]; exact V8_of m (outs m) c r h
theorem kt_k9 (r : Ref sig .tc) (h : r ∉ ([main_v62] : List (Ref sig .tc)) := by decide) : U9 m c r = U8 m c r := by
  rw [← V9_eq, ← V8_eq]; exact V9_of m (outs m) c r h
theorem kt_k10 (r : Ref sig .tc) (h : r ∉ ([main_v63] : List (Ref sig .tc)) := by decide) : U10 m c r = U9 m c r := by
  rw [← V10_eq, ← V9_eq]; exact V10_of m (outs m) c r h
theorem kt_k11 (r : Ref sig .tc) (h : r ∉ hostOps5_W := by decide) : U11 m c r = U10 m c r := by
  rw [← V11_eq, ← V10_eq]; exact V11_of m (outs m) c r h
theorem kt_k12 (r : Ref sig .tc) (h : r ∉ ([main_v71] : List (Ref sig .tc)) := by decide) : U12 m c r = U11 m c r := by
  rw [← V12_eq, ← V11_eq]; exact V12_of m (outs m) c r h
theorem kt_k13 (r : Ref sig .tc) (h : r ∉ hostOps6_W := by decide) : U13 m c r = U12 m c r := by
  rw [← V13_eq, ← V12_eq]; exact V13_of m (outs m) c r h
theorem kt_k14 (r : Ref sig .tc) (h : r ∉ ([main_v77] : List (Ref sig .tc)) := by decide) : U14 m c r = U13 m c r := by
  rw [← V14_eq, ← V13_eq]; exact V14_of m (outs m) c r h

theorem kt_h6_v75 :
    StableHlo.after hostOps6 W main_v75
      = concatenate S10003x1 0 [⟨S10000x1, W main_v71⟩, ⟨S1x1, shapeCast S1x1 (W main_arg2) shapeCasts_S1_S1x1⟩,
          ⟨S1x1, shapeCast S1x1 (W main_arg3) shapeCasts_S1_S1x1⟩, ⟨S1x1, shapeCast S1x1 (W main_arg4) shapeCasts_S1_S1x1⟩]
          concatenates_S10000x1_S1x1_S1x1_S1x1_S10003x1_d0 := by
  after_results <;> rfl

theorem kt_h6_v76 :
    StableHlo.after hostOps6 W main_v76 = shapeCast S10000x1 (W main_arg12) shapeCasts_S10000_S10000x1 := by
  after_results <;> rfl

theorem kt_h7_v78 :
    StableHlo.after hostOps7 W main_v78 = shapeCast S1x10000 (W main_v77) shapeCasts_S10000x1_S1x10000 := by
  after_results <;> rfl

theorem kt_h7_v81 :
    StableHlo.after hostOps7 W main_v81
      = (addf (F := Ideal) (Host.dotGeneral (F := Ideal) (φ₁ := .f32) (φ₂ := .f32) dot_S1x10003_S10003x1_S1x1_1_0_0_1_n_n none (W main_arg13) (W main_v75))
          (shapeCast S1x1 (W main_arg14) shapeCasts_S1_S1x1) : (⟨S1x1, .f32⟩ : BufTy).Contents (Elt Ideal)) := by
  after_results <;> rfl

theorem kt_cast11 (p : (⟨S1, .f32⟩ : BufTy).Contents (Elt Ideal)) :
    shapeCast S1x1 p shapeCasts_S1_S1x1 (ix2 (0 : Fin 1) (0 : Fin 1)) = p (ix1 (0 : Fin 1)) :=
  shapeCast_a_1a_apply (a := 1) p shapeCasts_S1_S1x1 0 0

theorem kt_castcol (x : (⟨S10000, .f32⟩ : BufTy).Contents (Elt Ideal)) (a : Fin 10000) :
    shapeCast S10000x1 x shapeCasts_S10000_S10000x1 (ix2 a (0 : Fin 1)) = x (ix1 a) :=
  shapeCast_apply x _ _ _ (by
    rw [Shape.rowMajor_val_two, Shape.rowMajor_val_one]
    show a.val = a.val * 1 + 0
    omega)

theorem kt_castrow (x : (⟨S10000x1, .f32⟩ : BufTy).Contents (Elt Ideal)) (a : Fin 10000) :
    shapeCast S1x10000 x shapeCasts_S10000x1_S1x10000 (ix2 (0 : Fin 1) a) = x (ix2 a (0 : Fin 1)) :=
  shapeCast_apply x _ _ _ (by
    rw [Shape.rowMajor_val_two, Shape.rowMajor_val_two]
    show a.val * 1 + 0 = 0 * 10000 + a.val
    omega)

theorem kt_state_apply (h : (⟨S10000x1, .f32⟩ : BufTy).Contents (Elt Ideal)) (p q r : (⟨S1, .f32⟩ : BufTy).Contents (Elt Ideal))
    (k : Fin 10003) :
    concatenate S10003x1 0 [⟨S10000x1, h⟩, ⟨S1x1, shapeCast S1x1 p shapeCasts_S1_S1x1⟩,
        ⟨S1x1, shapeCast S1x1 q shapeCasts_S1_S1x1⟩, ⟨S1x1, shapeCast S1x1 r shapeCasts_S1_S1x1⟩]
        concatenates_S10000x1_S1x1_S1x1_S1x1_S10003x1_d0 (ix2 k (0 : Fin 1))
      = stateOf (N := 10000) (fun i => h (ix2 i (0 : Fin 1))) (p (ix1 (0 : Fin 1))) (q (ix1 (0 : Fin 1))) (r (ix1 (0 : Fin 1))) k := by
  have hk : k.val < 10003 := k.isLt
  unfold stateOf
  by_cases h0 : k.val < 10000
  · rw [dif_pos h0]
    exact concatenate_apply_piece (0 : Fin 2) _ _ (ix2 k (0 : Fin 1)) 0 (by show (0 : ℕ) < 4; omega) S10000x1 h rfl rfl 0 rfl
      (ix2 (⟨k.val, h0⟩ : Fin 10000) (0 : Fin 1)) (fun b hb => match b with | ⟨0, _⟩ => absurd rfl hb | ⟨1, _⟩ => rfl)
      (by show 0 + k.val = k.val; omega)
  · rw [dif_neg h0]
    by_cases h1 : k.val = 10000
    · rw [if_pos h1]
      exact (concatenate_apply_piece (0 : Fin 2) _ _ (ix2 k (0 : Fin 1)) 1 (by show (1 : ℕ) < 4; omega) S1x1 _ rfl rfl 10000 rfl
        (ix2 (0 : Fin 1) (0 : Fin 1)) (fun b hb => match b with | ⟨0, _⟩ => absurd rfl hb | ⟨1, _⟩ => rfl)
        (by show 10000 + 0 = k.val; omega)).trans (kt_cast11 p)
    · rw [if_neg h1]
      by_cases h2 : k.val = 10000 + 1
      · rw [if_pos h2]
        exact (concatenate_apply_piece (0 : Fin 2) _ _ (ix2 k (0 : Fin 1)) 2 (by show (2 : ℕ) < 4; omega) S1x1 _ rfl rfl 10001 rfl
        (ix2 (0 : Fin 1) (0 : Fin 1)) (fun b hb => match b with | ⟨0, _⟩ => absurd rfl hb | ⟨1, _⟩ => rfl)
        (by show 10001 + 0 = k.val; omega)).trans (kt_cast11 q)
      · rw [if_neg h2]
        exact (concatenate_apply_piece (0 : Fin 2) _ _ (ix2 k (0 : Fin 1)) 3 (by show (3 : ℕ) < 4; omega) S1x1 _ rfl rfl 10002 rfl
        (ix2 (0 : Fin 1) (0 : Fin 1)) (fun b hb => match b with | ⟨0, _⟩ => absurd rfl hb | ⟨1, _⟩ => rfl)
        (by show 10002 + 0 = k.val; omega)).trans (kt_cast11 r)

theorem kt_dot_apply (l : (⟨S1x10003, .f32⟩ : BufTy).Contents (Elt Ideal)) (r : (⟨S10003x1, .f32⟩ : BufTy).Contents (Elt Ideal)) :
    Host.dotGeneral (F := Ideal) (φ₁ := .f32) (φ₂ := .f32) dot_S1x10003_S10003x1_S1x1_1_0_0_1_n_n none l r (ix2 (0 : Fin 1) (0 : Fin 1))
      = ∑ k : Fin 10003, l (ix2 (0 : Fin 1) k) * r (ix2 k (0 : Fin 1)) :=
  StackMember.dotGeneral_plain_apply (m := 1) (k := 10003) (n := 1) none l r 0 0

theorem kt_to12 (r : Ref sig .tc) (h0 : r ∉ hostOps0_W := by decide) (h1 : r ∉ hostOps0_1_W := by decide) (h2 : r ∉ hostOps0_2_W := by decide)
    (h4 : r ∉ ([main_v45] : List (Ref sig .tc)) := by decide) (h5 : r ∉ hostOps1_W := by decide) (h6 : r ∉ ([main_v53] : List (Ref sig .tc)) := by decide)
    (h7 : r ∉ ([main_v54] : List (Ref sig .tc)) := by decide) (h8 : r ∉ hostOps3_W := by decide) (h9 : r ∉ ([main_v62] : List (Ref sig .tc)) := by decide)
    (h10 : r ∉ ([main_v63] : List (Ref sig .tc)) := by decide) (h11 : r ∉ hostOps5_W := by decide) (h12 : r ∉ ([main_v71] : List (Ref sig .tc)) := by decide) :
    U12 m c r = m ((c.tc : Thread nD τ).loc r) := by
  rw [kt_k12 m c r h12, kt_k11 m c r h11, kt_k10 m c r h10, kt_k9 m c r h9, kt_k8 m c r h8, kt_k7 m c r h7, kt_k6 m c r h6,
    kt_k5 m c r h5, kt_k4 m c r h4, kt_k3 m c r h0 h1 h2]

theorem kt_logit_of (A : (⟨S10000x10003, .f32⟩ : BufTy).Contents (Elt Ideal)) (S : (⟨S10003x1, .f32⟩ : BufTy).Contents (Elt Ideal))
    (B : (⟨S10000x1, .f32⟩ : BufTy).Contents (Elt Ideal)) (st : Fin 10003 → EReal) (b : Fin 10000 → EReal) (a : Fin 10000)
    (hS : ∀ k : Fin 10003, S (ix2 k (0 : Fin 1)) = st k) (hB : B (ix2 a (0 : Fin 1)) = b a) :
    (∑ k : Fin 10003, mat2 (a := 10000) (b := 10003) A a k * mat2 (a := 10003) (b := 1) S k 0) + mat2 (a := 10000) (b := 1) B a 0
      = headL (mat2 (a := 10000) (b := 10003) A) st b a := by
  unfold headL
  simp only [mat2_apply]
  rw [hB]
  exact congrArg (· + b a) (Finset.sum_congr rfl fun k _ => by rw [hS k])

theorem kt_value_of (A : (⟨S1x10003, .f32⟩ : BufTy).Contents (Elt Ideal)) (S : (⟨S10003x1, .f32⟩ : BufTy).Contents (Elt Ideal))
    (B : (⟨S1, .f32⟩ : BufTy).Contents (Elt Ideal)) (st : Fin 10003 → EReal)
    (hS : ∀ k : Fin 10003, S (ix2 k (0 : Fin 1)) = st k) :
    addf (F := Ideal) (Host.dotGeneral (F := Ideal) (φ₁ := .f32) (φ₂ := .f32) dot_S1x10003_S10003x1_S1x1_1_0_0_1_n_n none A S) (shapeCast S1x1 B shapeCasts_S1_S1x1) (ix2 (0 : Fin 1) (0 : Fin 1))
      = headL (mat2 (a := 1) (b := 10003) A) st (vec1 (a := 1) B) 0 := by
  unfold headL
  rw [addf_apply, kt_dot_apply, kt_cast11]
  simp only [mat2_apply]
  exact congrArg (· + B (ix1 (0 : Fin 1))) (Finset.sum_congr rfl fun k _ => by rw [hS k])

theorem kt_tail (H : Mat 10000 1) (hH : mat2 (a := 10000) (b := 1) (U12 m c main_v71) = H) :
    (∀ a : Fin 10000, mat2 (a := 1) (b := 10000) (U15 m c main_v78) 0 a
        = headL (mat2 (a := 10000) (b := 10003) (m ((c.tc : Thread nD τ).loc main_arg11) : (⟨S10000x10003, .f32⟩ : BufTy).Contents (Elt Ideal)))
            (stateOf (N := 10000) (fun i => H i 0)
              ((m ((c.tc : Thread nD τ).loc main_arg2) : (⟨S1, .f32⟩ : BufTy).Contents (Elt Ideal)) (ix1 0))
              ((m ((c.tc : Thread nD τ).loc main_arg3) : (⟨S1, .f32⟩ : BufTy).Contents (Elt Ideal)) (ix1 0))
              ((m ((c.tc : Thread nD τ).loc main_arg4) : (⟨S1, .f32⟩ : BufTy).Contents (Elt Ideal)) (ix1 0)))
            (vec1 (a := 10000) (m ((c.tc : Thread nD τ).loc main_arg12) : (⟨S10000, .f32⟩ : BufTy).Contents (Elt Ideal))) a)
    ∧ mat2 (a := 1) (b := 1) (U15 m c main_v81) 0 0
        = headL (mat2 (a := 1) (b := 10003) (m ((c.tc : Thread nD τ).loc main_arg13) : (⟨S1x10003, .f32⟩ : BufTy).Contents (Elt Ideal)))
            (stateOf (N := 10000) (fun i => H i 0)
              ((m ((c.tc : Thread nD τ).loc main_arg2) : (⟨S1, .f32⟩ : BufTy).Contents (Elt Ideal)) (ix1 0))
              ((m ((c.tc : Thread nD τ).loc main_arg3) : (⟨S1, .f32⟩ : BufTy).Contents (Elt Ideal)) (ix1 0))
              ((m ((c.tc : Thread nD τ).loc main_arg4) : (⟨S1, .f32⟩ : BufTy).Contents (Elt Ideal)) (ix1 0)))
            (vec1 (a := 1) (m ((c.tc : Thread nD τ).loc main_arg14) : (⟨S1, .f32⟩ : BufTy).Contents (Elt Ideal))) 0 := by
  subst hH

  have hA2 : U12 m c main_arg2 = m ((c.tc : Thread nD τ).loc main_arg2) := kt_to12 m c main_arg2
  have hA3 : U12 m c main_arg3 = m ((c.tc : Thread nD τ).loc main_arg3) := kt_to12 m c main_arg3
  have hA4 : U12 m c main_arg4 = m ((c.tc : Thread nD τ).loc main_arg4) := kt_to12 m c main_arg4
  have hA12 : U12 m c main_arg12 = m ((c.tc : Thread nD τ).loc main_arg12) := kt_to12 m c main_arg12
  have hA11 : U13 m c main_arg11 = m ((c.tc : Thread nD τ).loc main_arg11) :=
    (kt_k13 m c main_arg11).trans (kt_to12 m c main_arg11)
  have hA13 : U14 m c main_arg13 = m ((c.tc : Thread nD τ).loc main_arg13) :=
    (kt_k14 m c main_arg13).trans ((kt_k13 m c main_arg13).trans (kt_to12 m c main_arg13))
  have hA14 : U14 m c main_arg14 = m ((c.tc : Thread nD τ).loc main_arg14) :=
    (kt_k14 m c main_arg14).trans ((kt_k13 m c main_arg14).trans (kt_to12 m c main_arg14))
  have h75 : U14 m c main_v75 = U13 m c main_v75 := kt_k14 m c main_v75

  have hst : ∀ k : Fin 10003, (U13 m c main_v75 : (⟨S10003x1, .f32⟩ : BufTy).Contents (Elt Ideal)) (ix2 k (0 : Fin 1))
      = stateOf (N := 10000) (fun i => mat2 (a := 10000) (b := 1) (U12 m c main_v71) i 0)
          ((m ((c.tc : Thread nD τ).loc main_arg2) : (⟨S1, .f32⟩ : BufTy).Contents (Elt Ideal)) (ix1 0))
          ((m ((c.tc : Thread nD τ).loc main_arg3) : (⟨S1, .f32⟩ : BufTy).Contents (Elt Ideal)) (ix1 0))
          ((m ((c.tc : Thread nD τ).loc main_arg4) : (⟨S1, .f32⟩ : BufTy).Contents (Elt Ideal)) (ix1 0)) k := by
    intro k
    show StableHlo.after hostOps6 (U12 m c) main_v75 (ix2 k (0 : Fin 1)) = _
    rw [kt_h6_v75, hA2, hA3, hA4]
    exact kt_state_apply _ _ _ _ k

  have hv76 : ∀ a : Fin 10000, (U13 m c main_v76 : (⟨S10000x1, .f32⟩ : BufTy).Contents (Elt Ideal)) (ix2 a (0 : Fin 1))
      = vec1 (a := 10000) (m ((c.tc : Thread nD τ).loc main_arg12) : (⟨S10000, .f32⟩ : BufTy).Contents (Elt Ideal)) a := by
    intro a
    show StableHlo.after hostOps6 (U12 m c) main_v76 (ix2 a (0 : Fin 1)) = _
    rw [kt_h6_v76, hA12]
    exact kt_castcol _ a
  refine ⟨fun a => ?_, ?_⟩
  ·
    show StableHlo.after hostOps7 (U14 m c) main_v78 (ix2 (0 : Fin 1) a) = _
    rw [kt_h7_v78]
    refine (kt_castrow _ a).trans ?_
    have e77 : U14 m c main_v77 = (dat6 (rv (U13 m)) c).arrAt 3 cfg6.N := by
      unfold U14; simp only [Function.update_self]
    rw [e77]
    refine (final6 (rv (U13 m)) c a).trans ?_
    rw [← hA11]
    exact kt_logit_of (U13 m c main_arg11) (U13 m c main_v75) (U13 m c main_v76) _ _ a hst (hv76 a)
  ·
    show StableHlo.after hostOps7 (U14 m c) main_v81 (ix2 (0 : Fin 1) (0 : Fin 1)) = _
    rw [kt_h7_v81, hA13, hA14, h75]
    exact kt_value_of _ _ _ _ hst

end Cert.KernelIdeal.Hand

end
-- ==== Proof.KiValue.lean ====
import proofs.«430353_j22832046146023_3_alg».proof.Proof.KiChain
import proofs.«430353_j22832046146023_3_alg».proof.Proof.KiV0
import proofs.«430353_j22832046146023_3_alg».proof.Proof.KiV1
import proofs.«430353_j22832046146023_3_alg».proof.Proof.KiV2
import proofs.«430353_j22832046146023_3_alg».proof.Proof.KiV3
import proofs.«430353_j22832046146023_3_alg».proof.Proof.KiV4
import proofs.«430353_j22832046146023_3_alg».proof.Proof.KiV5
import proofs.«430353_j22832046146023_3_alg».proof.Proof.KiV6
import proofs.«430353_j22832046146023_3_alg».proof.Proof.Final
import proofs.«430353_j22832046146023_3_alg».proof.Proof.KiTail
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen GcnSpec
open Idealize.ShloMosaic Idealize.ShloMosaic.TcCoe Idealize.ShloMosaic.ValueIdx
open Idealize.ShloMosaic.Pipeline (Dat)

variable (m : (ℓ : Loc nD τ sig) → Buf (Elt Ideal) ℓ)

def inputsK (c : Dev nD) : Inputs where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)

variable (c : Dev nD) (W : Valuation τ sig (Elt Ideal))

theorem kv_s1_v1 : StableHlo.after hostOps0 W main_v1 = srcI (W main_arg1) := by
  after_results <;> rfl
theorem kv_s1_v3 : StableHlo.after hostOps0 W main_v3 = dstI (W main_arg1) := by
  after_results <;> rfl
theorem kv_s1_v9 :
    StableHlo.after hostOps0 W main_v9
      = cmpf (F := Ideal) .ogt (degV (W main_arg1)) (broadcastInDim S10000 ![] bcast_S_S10000 (constant (F := Ideal) S_ .f32 0x00000000#32)) := by
  after_results <;> rfl
theorem kv_s1_v12 :
    StableHlo.after hostOps0 W main_v12
      = Host.divf (F := Ideal) (broadcastInDim S10000 ![] bcast_S_S10000 (constant (F := Ideal) S_ .f32 0x3F800000#32)) (Host.sqrt (F := Ideal) (degV (W main_arg1))) := by
  after_results <;> rfl
theorem kv_s1_cst3 :
    StableHlo.after hostOps0 W main_cst_3 = constant (F := Ideal) S_ .f32 0x00000000#32 := by
  after_results <;> rfl
theorem kv_s2_v13 :
    StableHlo.after hostOps0_1 W main_v13
      = select (W main_v9) (W main_v12) (broadcastInDim S10000 ![] bcast_S_S10000 (id (W main_cst_3))) := by
  after_results <;> rfl

theorem kv_s3_v44 :
    StableHlo.after hostOps0_2 W main_v44
      = Host.scatterAdd (F := Ideal) scatter_S10000x10000_S640000x2_S640000_n_01_01_1
          (broadcastInDim S10000x10000 ![] bcast_S_S10000x10000 (constant (F := Ideal) S_ .f32 0x00000000#32))
          (concatenate S640000x2 1 [⟨S640000x1, broadcastInDim S640000x1 ![0] bcast_S640000_S640000x1_0 (normI (W main_v3))⟩,
            ⟨S640000x1, broadcastInDim S640000x1 ![0] bcast_S640000_S640000x1_0 (normI (W main_v1))⟩] concatenates_S640000x1_S640000x1_S640000x2_d1)
          (mulf (F := Ideal) (φ := .f32)
            (Host.negf (F := Ideal) (φ := .f32) (Host.gather gather_S10000_S640000x1_S640000_n_0_n_n_0_1_1 (W main_v13)
              (broadcastInDim S640000x1 ![0] bcast_S640000_S640000x1_0 (normI (W main_v1)))))
            (Host.gather gather_S10000_S640000x1_S640000_n_0_n_n_0_1_1 (W main_v13)
              (broadcastInDim S640000x1 ![0] bcast_S640000_S640000x1_0 (normI (W main_v3))))) := by
  after_results_simp <;> rfl

theorem kv_L : U3 m c main_v44 = LmatV (m ((c.tc : Thread nD τ).loc main_arg1)) := by
  have e1 : V2 m c main_v1 = srcI (m ((c.tc : Thread nD τ).loc main_arg1)) := (V2_of m c main_v1 (by decide)).trans (kv_s1_v1 (V0 m c))
  have e3 : V2 m c main_v3 = dstI (m ((c.tc : Thread nD τ).loc main_arg1)) := (V2_of m c main_v3 (by decide)).trans (kv_s1_v3 (V0 m c))
  have e13 : V2 m c main_v13 = dinvV (m ((c.tc : Thread nD τ).loc main_arg1)) := by
    show StableHlo.after hostOps0_1 (V1 m c) main_v13 = _
    rw [kv_s2_v13]
    show select (StableHlo.after hostOps0 (V0 m c) main_v9) (StableHlo.after hostOps0 (V0 m c) main_v12)
      (broadcastInDim S10000 ![] bcast_S_S10000 (id (StableHlo.after hostOps0 (V0 m c) main_cst_3))) = _
    rw [kv_s1_v9, kv_s1_v12, kv_s1_cst3]
    rfl
  show StableHlo.after hostOps0_2 (V2 m c) main_v44 = _
  rw [kv_s3_v44, e1, e3, e13]
  rfl

theorem kv_slab {a b : ℕ} (o : ℕ) (q : Fin 3) (hq : q.val = o) (x : (⟨3, ![3, a, b]⟩ : Shape).Idx → EReal)
    (hs : (⟨3, ![3, a, b]⟩ : Shape).Slices ![o, 0, 0] ⟨3, ![1, a, b]⟩)
    (hc : (⟨3, ![1, a, b]⟩ : Shape).ShapeCasts ⟨2, ![a, b]⟩) :
    mat2 (a := a) (b := b) (shapeCast ⟨2, ![a, b]⟩ (extractStridedSlice ⟨3, ![1, a, b]⟩ ![o, 0, 0] x hs) hc) = slab3 x q := by
  funext i j
  rw [mat2_apply, shapeCast_1ab_ab_apply]
  exact extractStridedSlice_apply ![o, 0, 0] x hs (ix3 (0 : Fin 1) i j) (ix3 q i j) (fun d => match d with
    | ⟨0, _⟩ => by show q.val = o + 0; omega
    | ⟨1, _⟩ => by show i.val = 0 + i.val; omega
    | ⟨2, _⟩ => by show j.val = 0 + j.val; omega)

theorem kv_row {a : ℕ} (x : (⟨1, ![a]⟩ : Shape).Idx → EReal) (h : (⟨1, ![a]⟩ : Shape).ShapeCasts ⟨2, ![1, a]⟩) :
    (fun o => mat2 (a := 1) (b := a) (shapeCast ⟨2, ![1, a]⟩ x h) 0 o) = vec1 x :=
  funext fun o => shapeCast_a_1a_apply x h 0 o

theorem kv_h1_b :
    StableHlo.after hostOps1 W main_v46 = shapeCast S1x60 (W main_arg6) shapeCasts_S60_S1x60 := by
  after_results <;> rfl
theorem kv_h1_w0 :
    StableHlo.after hostOps1 W main_v48
      = shapeCast S128x60 (extractStridedSlice S1x128x60 ![0, 0, 0] (W main_arg5) slices_S3x128x60_S1x128x60_0_0_0) shapeCasts_S1x128x60_S128x60 := by
  after_results <;> rfl
theorem kv_h1_w1 :
    StableHlo.after hostOps1 W main_v50
      = shapeCast S128x60 (extractStridedSlice S1x128x60 ![1, 0, 0] (W main_arg5) slices_S3x128x60_S1x128x60_1_0_0) shapeCasts_S1x128x60_S128x60 := by
  after_results <;> rfl
theorem kv_h1_w2 :
    StableHlo.after hostOps1 W main_v52
      = shapeCast S128x60 (extractStridedSlice S1x128x60 ![2, 0, 0] (W main_arg5) slices_S3x128x60_S1x128x60_2_0_0) shapeCasts_S1x128x60_S128x60 := by
  after_results <;> rfl
theorem kv_h3_b :
    StableHlo.after hostOps3 W main_v55 = shapeCast S1x30 (W main_arg8) shapeCasts_S30_S1x30 := by
  after_results <;> rfl
theorem kv_h3_w0 :
    StableHlo.after hostOps3 W main_v57
      = shapeCast S60x30 (extractStridedSlice S1x60x30 ![0, 0, 0] (W main_arg7) slices_S3x60x30_S1x60x30_0_0_0) shapeCasts_S1x60x30_S60x30 := by
  after_results <;> rfl
theorem kv_h3_w1 :
    StableHlo.after hostOps3 W main_v59
      = shapeCast S60x30 (extractStridedSlice S1x60x30 ![1, 0, 0] (W main_arg7) slices_S3x60x30_S1x60x30_1_0_0) shapeCasts_S1x60x30_S60x30 := by
  after_results <;> rfl
theorem kv_h3_w2 :
    StableHlo.after hostOps3 W main_v61
      = shapeCast S60x30 (extractStridedSlice S1x60x30 ![2, 0, 0] (W main_arg7) slices_S3x60x30_S1x60x30_2_0_0) shapeCasts_S1x60x30_S60x30 := by
  after_results <;> rfl
theorem kv_h5_b :
    StableHlo.after hostOps5 W main_v64 = shapeCast S1x1 (W main_arg10) shapeCasts_S1_S1x1 := by
  after_results <;> rfl
theorem kv_h5_w0 :
    StableHlo.after hostOps5 W main_v66
      = shapeCast S30x1 (extractStridedSlice S1x30x1 ![0, 0, 0] (W main_arg9) slices_S3x30x1_S1x30x1_0_0_0) shapeCasts_S1x30x1_S30x1 := by
  after_results <;> rfl
theorem kv_h5_w1 :
    StableHlo.after hostOps5 W main_v68
      = shapeCast S30x1 (extractStridedSlice S1x30x1 ![1, 0, 0] (W main_arg9) slices_S3x30x1_S1x30x1_1_0_0) shapeCasts_S1x30x1_S30x1 := by
  after_results <;> rfl
theorem kv_h5_w2 :
    StableHlo.after hostOps5 W main_v70
      = shapeCast S30x1 (extractStridedSlice S1x30x1 ![2, 0, 0] (W main_arg9) slices_S3x30x1_S1x30x1_2_0_0) shapeCasts_S1x30x1_S30x1 := by
  after_results <;> rfl

theorem kv_l1 :
    mat2 (a := 128) (b := 60) (U5 m c main_v48) = slab3 (k := 3) (a := 128) (b := 60) (m ((c.tc : Thread nD τ).loc main_arg5)) 0
    ∧ mat2 (a := 128) (b := 60) (U5 m c main_v50) = slab3 (k := 3) (a := 128) (b := 60) (m ((c.tc : Thread nD τ).loc main_arg5)) 1
    ∧ mat2 (a := 128) (b := 60) (U5 m c main_v52) = slab3 (k := 3) (a := 128) (b := 60) (m ((c.tc : Thread nD τ).loc main_arg5)) 2
    ∧ (fun o => mat2 (a := 1) (b := 60) (U5 m c main_v46) 0 o) = vec1 (a := 60) (m ((c.tc : Thread nD τ).loc main_arg6)) := by
  dsimp only [U5]
  rw [kv_h1_w0, kv_h1_w1, kv_h1_w2, kv_h1_b, kt_k4 m c main_arg5, kt_k3 m c main_arg5, kt_k4 m c main_arg6, kt_k3 m c main_arg6]
  exact ⟨kv_slab 0 0 rfl _ _ _, kv_slab 1 1 rfl _ _ _, kv_slab 2 2 rfl _ _ _, kv_row _ _⟩
theorem kv_l3 :
    mat2 (a := 60) (b := 30) (U8 m c main_v57) = slab3 (k := 3) (a := 60) (b := 30) (m ((c.tc : Thread nD τ).loc main_arg7)) 0
    ∧ mat2 (a := 60) (b := 30) (U8 m c main_v59) = slab3 (k := 3) (a := 60) (b := 30) (m ((c.tc : Thread nD τ).loc main_arg7)) 1
    ∧ mat2 (a := 60) (b := 30) (U8 m c main_v61) = slab3 (k := 3) (a := 60) (b := 30) (m ((c.tc : Thread nD τ).loc main_arg7)) 2
    ∧ (fun o => mat2 (a := 1) (b := 30) (U8 m c main_v55) 0 o) = vec1 (a := 30) (m ((c.tc : Thread nD τ).loc main_arg8)) := by
  dsimp only [U8]
  rw [kv_h3_w0, kv_h3_w1, kv_h3_w2, kv_h3_b, kt_k7 m c main_arg7, kt_k6 m c main_arg7, kt_k5 m c main_arg7, kt_k4 m c main_arg7, kt_k3 m c main_arg7, kt_k7 m c main_arg8, kt_k6 m c main_arg8, kt_k5 m c main_arg8, kt_k4 m c main_arg8, kt_k3 m c main_arg8]
  exact ⟨kv_slab 0 0 rfl _ _ _, kv_slab 1 1 rfl _ _ _, kv_slab 2 2 rfl _ _ _, kv_row _ _⟩
theorem kv_l5 :
    mat2 (a := 30) (b := 1) (U11 m c main_v66) = slab3 (k := 3) (a := 30) (b := 1) (m ((c.tc : Thread nD τ).loc main_arg9)) 0
    ∧ mat2 (a := 30) (b := 1) (U11 m c main_v68) = slab3 (k := 3) (a := 30) (b := 1) (m ((c.tc : Thread nD τ).loc main_arg9)) 1
    ∧ mat2 (a := 30) (b := 1) (U11 m c main_v70) = slab3 (k := 3) (a := 30) (b := 1) (m ((c.tc : Thread nD τ).loc main_arg9)) 2
    ∧ (fun o => mat2 (a := 1) (b := 1) (U11 m c main_v64) 0 o) = vec1 (a := 1) (m ((c.tc : Thread nD τ).loc main_arg10)) := by
  dsimp only [U11]
  rw [kv_h5_w0, kv_h5_w1, kv_h5_w2, kv_h5_b, kt_k10 m c main_arg9, kt_k9 m c main_arg9, kt_k8 m c main_arg9, kt_k7 m c main_arg9, kt_k6 m c main_arg9, kt_k5 m c main_arg9, kt_k4 m c main_arg9, kt_k3 m c main_arg9, kt_k10 m c main_arg10, kt_k9 m c main_arg10, kt_k8 m c main_arg10, kt_k7 m c main_arg10, kt_k6 m c main_arg10, kt_k5 m c main_arg10, kt_k4 m c main_arg10, kt_k3 m c main_arg10]
  exact ⟨kv_slab 0 0 rfl _ _ _, kv_slab 1 1 rfl _ _ _, kv_slab 2 2 rfl _ _ _, kv_row _ _⟩

theorem kv_o4 : U4 m c main_v45 = (dat0 (rv (U3 m)) c).arrAt 2 cfg0.N := by
  unfold U4; simp only [Function.update_self]
theorem kv_o6 : U6 m c main_v53 = (dat1 (rv (U5 m)) c).arrAt 7 cfg1.N := by
  unfold U6; simp only [Function.update_self]
theorem kv_o7 : U7 m c main_v54 = (dat2 (rv (U6 m)) c).arrAt 2 cfg2.N := by
  unfold U7; simp only [Function.update_self]
theorem kv_o9 : U9 m c main_v62 = (dat3 (rv (U8 m)) c).arrAt 7 cfg3.N := by
  unfold U9; simp only [Function.update_self]
theorem kv_o10 : U10 m c main_v63 = (dat4 (rv (U9 m)) c).arrAt 2 cfg4.N := by
  unfold U10; simp only [Function.update_self]
theorem kv_o12 : U12 m c main_v71 = (dat5 (rv (U11 m)) c).arrAt 7 cfg5.N := by
  unfold U12; simp only [Function.update_self]

def kv_X0 : Mat 10000 128 := mat2 (a := 10000) (b := 128) ((m ((c.tc : Thread nD τ).loc main_arg0)))
def kv_H1 : Mat 10000 60 := layer twoC (lapK (graphOf (m ((c.tc : Thread nD τ).loc main_arg1)))) (kv_X0 m c) (slab3 (k := 3) (a := 128) (b := 60) (m ((c.tc : Thread nD τ).loc main_arg5)) 0) (slab3 (k := 3) (a := 128) (b := 60) (m ((c.tc : Thread nD τ).loc main_arg5)) 1) (slab3 (k := 3) (a := 128) (b := 60) (m ((c.tc : Thread nD τ).loc main_arg5)) 2) (vec1 (a := 60) (m ((c.tc : Thread nD τ).loc main_arg6)))
def kv_H2 : Mat 10000 30 := layer twoC (lapK (graphOf (m ((c.tc : Thread nD τ).loc main_arg1)))) (kv_H1 m c) (slab3 (k := 3) (a := 60) (b := 30) (m ((c.tc : Thread nD τ).loc main_arg7)) 0) (slab3 (k := 3) (a := 60) (b := 30) (m ((c.tc : Thread nD τ).loc main_arg7)) 1) (slab3 (k := 3) (a := 60) (b := 30) (m ((c.tc : Thread nD τ).loc main_arg7)) 2) (vec1 (a := 30) (m ((c.tc : Thread nD τ).loc main_arg8)))
def kv_H3 : Mat 10000 1 := layer twoC (lapK (graphOf (m ((c.tc : Thread nD τ).loc main_arg1)))) (kv_H2 m c) (slab3 (k := 3) (a := 30) (b := 1) (m ((c.tc : Thread nD τ).loc main_arg9)) 0) (slab3 (k := 3) (a := 30) (b := 1) (m ((c.tc : Thread nD τ).loc main_arg9)) 1) (slab3 (k := 3) (a := 30) (b := 1) (m ((c.tc : Thread nD τ).loc main_arg9)) 2) (vec1 (a := 1) (m ((c.tc : Thread nD τ).loc main_arg10)))

section
variable (hr : InRange (m ((c.tc : Thread nD τ).loc main_arg1)))
include hr

theorem kv_Lm3 : mat2 (a := 10000) (b := 10000) (U3 m c main_v44) = Lmat (graphOf (m ((c.tc : Thread nD τ).loc main_arg1))) := by
  rw [kv_L]; exact LmatV_eq _ hr

theorem kv_T1 : mat2 (a := 10000) (b := 128) (U4 m c main_v45) = lapK (graphOf (m ((c.tc : Thread nD τ).loc main_arg1))) (kv_X0 m c) := by
  rw [kv_o4, final0 (rv (U3 m)) c]
  show mm (mat2 (a := 10000) (b := 10000) (U3 m c main_v44)) (mat2 (a := 10000) (b := 128) (U3 m c main_arg0)) = _
  rw [kv_Lm3 m c hr, kt_k3 m c main_arg0]
  rfl
theorem kv_R1 : mat2 (a := 10000) (b := 60) (U6 m c main_v53) = kv_H1 m c := by
  rw [kv_o6, final1 (rv (U5 m)) c]
  show layerOf twoC (mat2 (a := 10000) (b := 128) (U5 m c main_arg0)) (mat2 (a := 10000) (b := 128) (U5 m c main_v45))
    (mm (mat2 (a := 10000) (b := 10000) (U5 m c main_v44)) (mat2 (a := 10000) (b := 128) (U5 m c main_v45)))
    (mat2 (a := 128) (b := 60) (U5 m c main_v48)) (mat2 (a := 128) (b := 60) (U5 m c main_v50)) (mat2 (a := 128) (b := 60) (U5 m c main_v52))
    (fun o => mat2 (a := 1) (b := 60) (U5 m c main_v46) 0 o) = _
  rw [(kv_l1 m c).1, (kv_l1 m c).2.1, (kv_l1 m c).2.2.1, (kv_l1 m c).2.2.2, kt_k5 m c main_v44, kt_k4 m c main_v44, kv_Lm3 m c hr, kt_k5 m c main_arg0, kt_k4 m c main_arg0, kt_k3 m c main_arg0,
    kt_k5 m c main_v45, kv_T1 m c hr]
  rfl
theorem kv_T2 : mat2 (a := 10000) (b := 60) (U7 m c main_v54) = lapK (graphOf (m ((c.tc : Thread nD τ).loc main_arg1))) (kv_H1 m c) := by
  rw [kv_o7, final2 (rv (U6 m)) c]
  show mm (mat2 (a := 10000) (b := 10000) (U6 m c main_v44)) (mat2 (a := 10000) (b := 60) (U6 m c main_v53)) = _
  rw [kt_k6 m c main_v44, kt_k5 m c main_v44, kt_k4 m c main_v44, kv_Lm3 m c hr, kv_R1 m c hr]
  rfl
theorem kv_R2 : mat2 (a := 10000) (b := 30) (U9 m c main_v62) = kv_H2 m c := by
  rw [kv_o9, final3 (rv (U8 m)) c]
  show layerOf twoC (mat2 (a := 10000) (b := 60) (U8 m c main_v53)) (mat2 (a := 10000) (b := 60) (U8 m c main_v54))
    (mm (mat2 (a := 10000) (b := 10000) (U8 m c main_v44)) (mat2 (a := 10000) (b := 60) (U8 m c main_v54)))
    (mat2 (a := 60) (b := 30) (U8 m c main_v57)) (mat2 (a := 60) (b := 30) (U8 m c main_v59)) (mat2 (a := 60) (b := 30) (U8 m c main_v61))
    (fun o => mat2 (a := 1) (b := 30) (U8 m c main_v55) 0 o) = _
  rw [(kv_l3 m c).1, (kv_l3 m c).2.1, (kv_l3 m c).2.2.1, (kv_l3 m c).2.2.2, kt_k8 m c main_v44, kt_k7 m c main_v44, kt_k6 m c main_v44, kt_k5 m c main_v44, kt_k4 m c main_v44, kv_Lm3 m c hr, kt_k8 m c main_v53, kt_k7 m c main_v53, kv_R1 m c hr,
    kt_k8 m c main_v54, kv_T2 m c hr]
  rfl
theorem kv_T3 : mat2 (a := 10000) (b := 30) (U10 m c main_v63) = lapK (graphOf (m ((c.tc : Thread nD τ).loc main_arg1))) (kv_H2 m c) := by
  rw [kv_o10, final4 (rv (U9 m)) c]
  show mm (mat2 (a := 10000) (b := 10000) (U9 m c main_v44)) (mat2 (a := 10000) (b := 30) (U9 m c main_v62)) = _
  rw [kt_k9 m c main_v44, kt_k8 m c main_v44, kt_k7 m c main_v44, kt_k6 m c main_v44, kt_k5 m c main_v44, kt_k4 m c main_v44, kv_Lm3 m c hr, kv_R2 m c hr]
  rfl
theorem kv_R3 : mat2 (a := 10000) (b := 1) (U12 m c main_v71) = kv_H3 m c := by
  rw [kv_o12, final5 (rv (U11 m)) c]
  show layerOf twoC (mat2 (a := 10000) (b := 30) (U11 m c main_v62)) (mat2 (a := 10000) (b := 30) (U11 m c main_v63))
    (mm (mat2 (a := 10000) (b := 10000) (U11 m c main_v44)) (mat2 (a := 10000) (b := 30) (U11 m c main_v63)))
    (mat2 (a := 30) (b := 1) (U11 m c main_v66)) (mat2 (a := 30) (b := 1) (U11 m c main_v68)) (mat2 (a := 30) (b := 1) (U11 m c main_v70))
    (fun o => mat2 (a := 1) (b := 1) (U11 m c main_v64) 0 o) = _
  rw [(kv_l5 m c).1, (kv_l5 m c).2.1, (kv_l5 m c).2.2.1, (kv_l5 m c).2.2.2, kt_k11 m c main_v44, kt_k10 m c main_v44, kt_k9 m c main_v44, kt_k8 m c main_v44, kt_k7 m c main_v44, kt_k6 m c main_v44, kt_k5 m c main_v44, kt_k4 m c main_v44, kv_Lm3 m c hr, kt_k11 m c main_v62, kt_k10 m c main_v62, kv_R2 m c hr,
    kt_k11 m c main_v63, kv_T3 m c hr]
  rfl

theorem kv_h3 :
    mat2 (a := 10000) (b := 1) (U12 m c main_v71) = h3 (lapKof (inputsK m c)) (inputsK m c) :=
  (kv_R3 m c hr).trans rfl

end

theorem kernel_values (c : Dev nD) (hr : InRange (m ((c.tc : Thread nD τ).loc main_arg1))) :
    (∀ a : Fin 10000, mat2 (a := 1) (b := 10000) (U15 m c main_v78) 0 a = logitsK (inputsK m c) a)
    ∧ mat2 (a := 1) (b := 1) (U15 m c main_v81) 0 0 = valueK (inputsK m c) := by
  exact kt_tail m c _ (kv_h3 m c hr)

end Cert.KernelIdeal.Hand

end
-- ==== Proof.LibGatherRows.lean ====
import Idealize.ShloMosaic.PureOps
import Idealize.ShloMosaic.Lib.ValueIdx

namespace Cert.Att.Lib

open Idealize.ShloMosaic Idealize.ShloMosaic.ValueIdx

theorem gather_rows2 {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by

  have hsl : d.sliceSizes 0 = 1 := d.slice_collapsed 0 (by rw [hcoll]; exact List.mem_singleton.mpr rfl)

  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>

    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]

    refine congrArg (fun z => min (idx z).toInt.toNat (N - 1)) ?_
    funext b
    refine Fin.ext ?_
    match b with
    | ⟨0, _⟩ => rfl
    | ⟨1, _⟩ => rfl
  | ⟨1, _⟩ =>

    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

theorem gather_rows2_of_eq {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C)
    (n : Fin N) (hn : (idx (ix2 e 0)).toInt = (n.val : Int)) :
    Host.gather d x idx (ix2 e c) = x (ix2 n c) := by
  have hN : 0 < N := Nat.lt_of_le_of_lt (Nat.zero_le _) n.isLt
  rw [gather_rows2 d hoff hcoll hob hsim hivd hN x idx e c]
  have hrow : (⟨min (idx (ix2 e 0)).toInt.toNat (N - 1), by omega⟩ : Fin N) = n := by
    refine Fin.ext ?_
    show min (idx (ix2 e 0)).toInt.toNat (N - 1) = n.val
    have := n.isLt
    omega
  rw [hrow]

end Cert.Att.Lib
-- ==== Proof.LibScatterRows.lean ====
import Idealize.ShloMosaic.PureOps
import Idealize.ShloMosaic.PureOps.Ideal
import Idealize.ShloMosaic.Lib.ValueIdx

open scoped BigOperators
open Idealize.ShloMosaic Idealize.ShloMosaic.ValueIdx

namespace Cert.Att.Lib

theorem start_window_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (u : (⟨2, ![E, C]⟩ : Shape).Idx) :
    d.start u idx 0 = (idx (ix2 (u 0) 0)).toInt ∧ d.start u idx 1 = 0
    ∧ d.window u 0 = 0 ∧ d.window u 1 = (u 1).val := by
  obtain ⟨uw, iw, sd, ivd, wf⟩ := d
  dsimp only at huw hiw hsd hivd
  subst huw hiw hsd hivd
  refine ⟨?_, ?_, ?_, ?_⟩
  · unfold ScatterDims.start
    rw [dif_pos (show (0 : Fin 2) ∈ ([0] : List (Fin 2)) by decide)]
    congr 2
    funext b
    match b with
    | ⟨0, _⟩ => rfl
    | ⟨1, _⟩ => rfl
  · unfold ScatterDims.start
    rw [dif_neg (show (1 : Fin 2) ∉ ([0] : List (Fin 2)) by decide)]
  · unfold ScatterDims.window
    split
    · rename_i ha
      exact absurd ha (show (0 : Fin 2) ∉ (List.finRange 2).filter (fun a => a ∉ ([0] : List (Fin 2))) by decide)
    · rfl
  · unfold ScatterDims.window
    split
    · rfl
    · rename_i ha
      exact absurd (show (1 : Fin 2) ∈ (List.finRange 2).filter (fun a => a ∉ ([0] : List (Fin 2))) by decide) ha

theorem resultIdx?_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨2, ![E, C]⟩ : Shape).Idx) :
    d.resultIdx? u idx = some (ix2 (dst (u 0)) (u 1)) := by
  obtain ⟨h0, h1, hw0, hw1⟩ := start_window_rows2 d huw hiw hsd hivd idx u
  have hd : d.start u idx 0 = ((dst (u 0)).val : ℤ) := h0.trans (hdst (u 0))
  have hlt0 : (dst (u 0)).val < N := (dst (u 0)).isLt
  have hlt1 : (u 1).val < C := idx2_lt1 u
  have hcond : ∀ a, 0 ≤ d.start u idx a + d.window u a ∧
      d.start u idx a + d.window u a < (⟨2, ![N, C]⟩ : Shape).size a := by
    intro a
    match a with
    | ⟨0, _⟩ =>
      show 0 ≤ d.start u idx 0 + (d.window u 0 : ℤ) ∧ d.start u idx 0 + (d.window u 0 : ℤ) < (N : ℤ)
      rw [hd, hw0]
      omega
    | ⟨1, _⟩ =>
      show 0 ≤ d.start u idx 1 + (d.window u 1 : ℤ) ∧ d.start u idx 1 + (d.window u 1 : ℤ) < (C : ℤ)
      rw [h1, hw1]
      omega
  unfold ScatterDims.resultIdx?
  rw [dif_pos hcond]
  congr 1
  funext a
  match a with
  | ⟨0, _⟩ =>
    apply Fin.ext
    show (d.start u idx 0 + (d.window u 0 : ℤ)).toNat = (dst (u 0)).val
    rw [hd, hw0]
    omega
  | ⟨1, _⟩ =>
    apply Fin.ext
    show (d.start u idx 1 + (d.window u 1 : ℤ)).toNat = (u 1).val
    rw [h1, hw1]
    omega

theorem scatterAdd_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w)
    (upd : (⟨2, ![E, C]⟩ : Shape).Idx → EReal)
    (dst : Fin E → Fin N) (hdst : ∀ e, (idx (ix2 e 0)).toInt = ((dst e).val : ℤ))
    (n : Fin N) (c : Fin C) :
    Ideal.hostScatterAdd d x idx upd (ix2 n c) =
      x (ix2 n c) + ∑ e ∈ Finset.univ.filter (fun e => dst e = n), upd (ix2 e c) := by
  unfold Ideal.hostScatterAdd
  congr 1
  symm
  refine Finset.sum_bij (fun e _ => ix2 e c) ?_ ?_ ?_ ?_
  · intro e he
    rw [Finset.mem_filter] at he ⊢
    refine ⟨Finset.mem_univ _, ?_⟩
    rw [resultIdx?_rows2 d huw hiw hsd hivd idx dst hdst]
    show some (ix2 (dst e) c) = some (ix2 n c)
    rw [he.2]
  · intro a _ b _ h
    exact congrFun h 0
  · intro u hu
    rw [Finset.mem_filter, resultIdx?_rows2 d huw hiw hsd hivd idx dst hdst] at hu
    have hu' := Option.some.inj hu.2
    have e0 : dst (u 0) = n := congrFun hu' 0
    have e1 : u 1 = c := congrFun hu' 1
    refine ⟨u 0, Finset.mem_filter.2 ⟨Finset.mem_univ _, e0⟩, ?_⟩
    rw [← e1]
    exact (eq_ix2 u).symm
  · intro e _
    rfl

end Cert.Att.Lib
-- ==== Proof.RefLap.lean ====
import proofs.«430353_j22832046146023_3_alg».proof.Proof.RefRead
import proofs.«430353_j22832046146023_3_alg».proof.Proof.Final
import proofs.«430353_j22832046146023_3_alg».proof.Proof.LibGatherRows
import proofs.«430353_j22832046146023_3_alg».proof.Proof.LibScatterRows
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen GcnSpec
open Idealize.ShloMosaic Idealize.ShloMosaic.TcCoe Idealize.ShloMosaic.ValueIdx
open scoped BigOperators

theorem col_apply {α : Type} (v : S640000.Idx → α) (e : Fin 640000) :
    broadcastInDim S640000x1 ![0] bcast_S640000_S640000x1_0 v (ix2 e (0 : Fin 1)) = v (ix1 e) :=
  broadcastInDim_apply _ bcast_S640000_S640000x1_0 v (ix2 e (0 : Fin 1)) (ix1 e) (fun a => match a with
    | ⟨0, _⟩ => by show e.val = if (640000 : ℕ) = 1 then 0 else e.val; rw [if_neg (by decide)])

theorem spread_apply {α : Type} {C : ℕ} (h : (⟨2, ![640000, 1]⟩ : Shape).BroadcastsInDim ⟨2, ![640000, C]⟩ ![0, 1])
    (u : (⟨2, ![640000, 1]⟩ : Shape).Idx → α) (e : Fin 640000) (d : Fin C) :
    broadcastInDim ⟨2, ![640000, C]⟩ ![0, 1] h u (ix2 e d) = u (ix2 e (0 : Fin 1)) :=
  broadcastInDim_apply _ h u (ix2 e d) (ix2 e (0 : Fin 1)) (fun a => match a with
    | ⟨0, _⟩ => by show e.val = if (640000 : ℕ) = 1 then 0 else e.val; rw [if_neg (by decide)]
    | ⟨1, _⟩ => by show (0 : ℕ) = if (1 : ℕ) = 1 then 0 else d.val; rw [if_pos rfl])

theorem val_w_eq (x1 : (⟨S2x640000, .i32⟩ : BufTy).Contents (Elt Ideal)) : Read.val_main_v29 (F := Ideal) x1 = wVec x1 := rfl
theorem val_dst_eq (x1 : (⟨S2x640000, .i32⟩ : BufTy).Contents (Elt Ideal)) : Read.val_main_v3 (F := Ideal) x1 = dstI x1 := rfl
theorem val_nsrc_eq (x1 : (⟨S2x640000, .i32⟩ : BufTy).Contents (Elt Ideal)) : Read.val_main_v38 (F := Ideal) x1 = normI (srcI x1) := rfl

section

variable {C : ℕ} (dS : ScatterDims ⟨2, ![10000, C]⟩ ⟨2, ![640000, 1]⟩ ⟨2, ![640000, C]⟩)
  (dG : GatherDims ⟨2, ![10000, C]⟩ ⟨2, ![640000, 1]⟩ ⟨2, ![640000, C]⟩)

/-- One Laplacian step at width C: the rows gathered at the sources, weighted, are scatter-added at the destinations. -/
def lapV (hz : S_.BroadcastsInDim ⟨2, ![10000, C]⟩ ![]) (hs : (⟨2, ![640000, 1]⟩ : Shape).BroadcastsInDim ⟨2, ![640000, C]⟩ ![0, 1])
    (x1 : (⟨S2x640000, .i32⟩ : BufTy).Contents (Elt Ideal)) (X : FVec Ideal ⟨2, ![10000, C]⟩ .f32) : FVec Ideal ⟨2, ![10000, C]⟩ .f32 :=
  Host.scatterAdd (F := Ideal) dS (broadcastInDim _ ![] hz (constant (F := Ideal) S_ .f32 0x00000000#32))
    (broadcastInDim S640000x1 ![0] bcast_S640000_S640000x1_0 (Read.val_main_v3 (F := Ideal) x1))
    (mulf (F := Ideal) (φ := .f32)
      (broadcastInDim _ ![0, 1] hs (broadcastInDim S640000x1 ![0] bcast_S640000_S640000x1_0 (Read.val_main_v29 (F := Ideal) x1)))
      (Host.gather dG X (broadcastInDim S640000x1 ![0] bcast_S640000_S640000x1_0 (Read.val_main_v38 (F := Ideal) x1))))

variable (huw : dS.updateWindowDims = [1]) (hiw : dS.insertedWindowDims = [0])
  (hsd : dS.scatterDimsToOperandDims = [0]) (hivd : dS.indexVectorDim = 1)
  (hoff : dG.offsetDims = [1]) (hcoll : dG.collapsedSliceDims = [0]) (hob : dG.operandBatchingDims = [])
  (hsim : dG.startIndexMap = [0]) (hgivd : dG.indexVectorDim = 1)
include huw hiw hsd hivd hoff hcoll hob hsim hgivd

theorem lapRows_eq (g : Graph 10000 640000)
    (zero : FVec Ideal ⟨2, ![10000, C]⟩ .f32) (hz : ∀ i d, zero (ix2 i d) = 0)
    (idxD idxS : IVec ⟨2, ![640000, 1]⟩ 32)
    (hD : ∀ e, (idxD (ix2 e 0)).toInt = ((g.dst e).val : ℤ))
    (hS : ∀ e, (idxS (ix2 e 0)).toInt = ((g.src e).val : ℤ))
    (wB : FVec Ideal ⟨2, ![640000, C]⟩ .f32) (hw : ∀ e d, wB (ix2 e d) = g.w e)
    (X : FVec Ideal ⟨2, ![10000, C]⟩ .f32) :
    mat2 (a := 10000) (b := C) (Host.scatterAdd (F := Ideal) dS zero idxD
        (mulf (F := Ideal) (φ := .f32) wB (Host.gather dG X idxS)))
      = lapR g (mat2 (a := 10000) (b := C) X) := by
  funext i d
  rw [mat2_apply]
  show Ideal.hostScatterAdd dS zero idxD _ (ix2 i d) = _
  rw [Cert.Att.Lib.scatterAdd_rows2 dS huw hiw hsd hivd zero idxD _ g.dst hD i d, hz, zero_add]
  unfold lapR
  refine Finset.sum_congr rfl (fun e _ => ?_)
  rw [mulf_apply, hw, Cert.Att.Lib.gather_rows2_of_eq dG hoff hcoll hob hsim hgivd X idxS e d (g.src e) (hS e)]
  rfl

theorem lapV_eq (hz hs) (x1 : (⟨S2x640000, .i32⟩ : BufTy).Contents (Elt Ideal)) (hr : InRange x1) (X : FVec Ideal ⟨2, ![10000, C]⟩ .f32) :
    mat2 (a := 10000) (b := C) (lapV dS dG hz hs x1 X) = lapR (graphOf x1) (mat2 (a := 10000) (b := C) X) := by
  refine lapRows_eq dS dG huw hiw hsd hivd hoff hcoll hob hsim hgivd (graphOf x1) _ (fun i d => ?_) _ _
    (fun e => ?_) (fun e => ?_) _ (fun e d => ?_) X
  · rw [broadcastInDim_scalar_apply, constant_apply, Ideal.ofBits_zero_f32]
  · rw [col_apply, val_dst_eq, dstI_apply]
    exact (nodeOf_val x1 hr 1 e).symm
  · rw [col_apply, val_nsrc_eq, normI_srcI_apply x1 hr]
    exact (nodeOf_val x1 hr 0 e).symm
  · rw [spread_apply, col_apply, val_w_eq]
    rfl

end

section

variable (x1 : (⟨S2x640000, .i32⟩ : BufTy).Contents (Elt Ideal))

def lapV128 (X : (⟨S10000x128, .f32⟩ : BufTy).Contents (Elt Ideal)) :
    (⟨S10000x128, .f32⟩ : BufTy).Contents (Elt Ideal) :=
  lapV scatter_S10000x128_S640000x1_S640000x128_1_0_0_1 gather_S10000x128_S640000x1_S640000x128_1_0_n_n_0_1_1128
    bcast_S_S10000x128 bcast_S640000x1_S640000x128_0_1 x1 X

theorem lapV128_eq (hr : InRange x1)
    (X : (⟨S10000x128, .f32⟩ : BufTy).Contents (Elt Ideal)) :
    mat2 (a := 10000) (b := 128) (lapV128 x1 X) = lapR (graphOf x1) (mat2 (a := 10000) (b := 128) X) :=
  lapV_eq _ _ rfl rfl rfl rfl rfl rfl rfl rfl rfl _ _ x1 hr X

def lapV60 (X : (⟨S10000x60, .f32⟩ : BufTy).Contents (Elt Ideal)) :
    (⟨S10000x60, .f32⟩ : BufTy).Contents (Elt Ideal) :=
  lapV scatter_S10000x60_S640000x1_S640000x60_1_0_0_1 gather_S10000x60_S640000x1_S640000x60_1_0_n_n_0_1_160
    bcast_S_S10000x60 bcast_S640000x1_S640000x60_0_1 x1 X

theorem lapV60_eq (hr : InRange x1)
    (X : (⟨S10000x60, .f32⟩ : BufTy).Contents (Elt Ideal)) :
    mat2 (a := 10000) (b := 60) (lapV60 x1 X) = lapR (graphOf x1) (mat2 (a := 10000) (b := 60) X) :=
  lapV_eq _ _ rfl rfl rfl rfl rfl rfl rfl rfl rfl _ _ x1 hr X

def lapV30 (X : (⟨S10000x30, .f32⟩ : BufTy).Contents (Elt Ideal)) :
    (⟨S10000x30, .f32⟩ : BufTy).Contents (Elt Ideal) :=
  lapV scatter_S10000x30_S640000x1_S640000x30_1_0_0_1 gather_S10000x30_S640000x1_S640000x30_1_0_n_n_0_1_130
    bcast_S_S10000x30 bcast_S640000x1_S640000x30_0_1 x1 X

theorem lapV30_eq (hr : InRange x1)
    (X : (⟨S10000x30, .f32⟩ : BufTy).Contents (Elt Ideal)) :
    mat2 (a := 10000) (b := 30) (lapV30 x1 X) = lapR (graphOf x1) (mat2 (a := 10000) (b := 30) X) :=
  lapV_eq _ _ rfl rfl rfl rfl rfl rfl rfl rfl rfl _ _ x1 hr X

end

section

variable (x0 : (⟨S10000x128, .f32⟩ : BufTy).Contents (Elt Ideal))
  (x1 : (⟨S2x640000, .i32⟩ : BufTy).Contents (Elt Ideal))
  (x5 : (⟨S3x128x60, .f32⟩ : BufTy).Contents (Elt Ideal))
  (x6 : (⟨S60, .f32⟩ : BufTy).Contents (Elt Ideal))
  (x7 : (⟨S3x60x30, .f32⟩ : BufTy).Contents (Elt Ideal))
  (x8 : (⟨S30, .f32⟩ : BufTy).Contents (Elt Ideal))

theorem val_main_v45_eq :
    Read.val_main_v45 (F := Ideal) x0 x1 = lapV128 x1 x0 := rfl
theorem val_main_v62_eq :
    Read.val_main_v62 (F := Ideal) x0 x1 = lapV128 x1 (Read.val_main_v45 (F := Ideal) x0 x1) := rfl
theorem val_main_v89_eq :
    Read.val_main_v89 (F := Ideal) x0 x1 x5 x6 = lapV60 x1 (Read.val_main_v73 (F := Ideal) x0 x1 x5 x6) := rfl
theorem val_main_v106_eq :
    Read.val_main_v106 (F := Ideal) x0 x1 x5 x6 = lapV60 x1 (Read.val_main_v89 (F := Ideal) x0 x1 x5 x6) := rfl
theorem val_main_v133_eq :
    Read.val_main_v133 (F := Ideal) x0 x1 x5 x6 x7 x8 = lapV30 x1 (Read.val_main_v117 (F := Ideal) x0 x1 x5 x6 x7 x8) := rfl
theorem val_main_v150_eq :
    Read.val_main_v150 (F := Ideal) x0 x1 x5 x6 x7 x8 = lapV30 x1 (Read.val_main_v133 (F := Ideal) x0 x1 x5 x6 x7 x8) := rfl

end

end Cert.ReferenceIdeal.RefValue

end
-- ==== Proof.RefLayer.lean ====
import proofs.«430353_j22832046146023_3_alg».proof.Proof.RefRead
import proofs.«430353_j22832046146023_3_alg».proof.Proof.Final
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Facts₀ GcnSpec
open Idealize.ShloMosaic Idealize.ShloMosaic.TcCoe Idealize.ShloMosaic.ValueIdx
open scoped BigOperators

/-- A Chebyshev layer read entrywise: three products against the slabs of W and the bias row, summed, under tanh. -/
theorem layer_of_reads {N D D' : ℕ} {X T1 LT1 Z : (⟨2, ![N, D]⟩ : Shape).Idx → EReal}
    {W : (⟨3, ![3, D, D']⟩ : Shape).Idx → EReal} {b : (⟨1, ![D']⟩ : Shape).Idx → EReal}
    {Y P0 P1 P2 B : (⟨2, ![N, D']⟩ : Shape).Idx → EReal} {V0 V1 V2 : (⟨2, ![D, D']⟩ : Shape).Idx → EReal}
    (h0 : ∀ a o, P0 (ix2 a o) = ∑ k : Fin D, X (ix2 a k) * V0 (ix2 k o))
    (h1 : ∀ a o, P1 (ix2 a o) = ∑ k : Fin D, T1 (ix2 a k) * V1 (ix2 k o))
    (h2 : ∀ a o, P2 (ix2 a o) = ∑ k : Fin D, Z (ix2 a k) * V2 (ix2 k o))
    (hZ : ∀ i, Z i = twoC * LT1 i - X i)
    (hV : ∀ k o, V0 (ix2 k o) = W (ix3 0 k o) ∧ V1 (ix2 k o) = W (ix3 1 k o) ∧ V2 (ix2 k o) = W (ix3 2 k o))
    (hB : ∀ i o, B (ix2 i o) = b (ix1 o))
    (hY : ∀ i, Y i = Ideal.tanh (P0 i + P1 i + P2 i + B i)) :
    mat2 Y = layerOf twoC (mat2 X) (mat2 T1) (mat2 LT1) (slab3 W 0) (slab3 W 1) (slab3 W 2) (vec1 b) := by
  funext i o
  rw [mat2_apply, hY, h0, h1, h2, hB]
  simp only [(hV _ _).1, (hV _ _).2.1, (hV _ _).2.2, hZ]
  rfl

variable (x0 : (⟨S10000x128, .f32⟩ : BufTy).Contents (Elt Ideal))
  (x1 : (⟨S2x640000, .i32⟩ : BufTy).Contents (Elt Ideal))
  (x5 : (⟨S3x128x60, .f32⟩ : BufTy).Contents (Elt Ideal))
  (x6 : (⟨S60, .f32⟩ : BufTy).Contents (Elt Ideal))
  (x7 : (⟨S3x60x30, .f32⟩ : BufTy).Contents (Elt Ideal))
  (x8 : (⟨S30, .f32⟩ : BufTy).Contents (Elt Ideal))
  (x9 : (⟨S3x30x1, .f32⟩ : BufTy).Contents (Elt Ideal))
  (x10 : (⟨S1, .f32⟩ : BufTy).Contents (Elt Ideal))

theorem w1 (k : Fin 128) (o : Fin 60) :
    Read.val_main_v31 (F := Ideal) x5 (ix2 k o) = x5 (ix3 (0 : Fin 3) k o)
      ∧ Read.val_main_v47 (F := Ideal) x5 (ix2 k o) = x5 (ix3 (1 : Fin 3) k o)
      ∧ Read.val_main_v67 (F := Ideal) x5 (ix2 k o) = x5 (ix3 (2 : Fin 3) k o) := by
  rw [Read.val_main_v31_apply, Read.val_main_v30_apply, Read.val_main_v47_apply, Read.val_main_v46_apply, Read.val_main_v67_apply, Read.val_main_v66_apply]
  have hk := k.isLt
  have ho := o.isLt
  refine ⟨?_, ?_, ?_⟩ <;> refine congrArg x5 (funext fun a => Fin.ext ?_) <;> match a with
  | ⟨0, _⟩ => rfl
  | ⟨1, _⟩ => show (k.val * 60 + o.val) / 60 % 128 = k.val; omega
  | ⟨2, _⟩ => show (k.val * 60 + o.val) % 60 = o.val; omega

theorem b1 (i : Fin 10000) (o : Fin 60) :
    Read.val_main_v71 (F := Ideal) x6 (ix2 i o) = x6 (ix1 o) := by
  rw [Read.val_main_v71_apply, Read.val_main_v70_apply]
  refine congrArg x6 (funext fun a => Fin.ext ?_)
  have ho := o.isLt
  match a with
  | ⟨0, _⟩ => rfl

theorem layer1_eq :
    mat2 (a := 10000) (b := 60) (Read.val_main_v73 (F := Ideal) x0 x1 x5 x6)
      = layerOf twoC (mat2 (a := 10000) (b := 128) x0)
          (mat2 (a := 10000) (b := 128) (Read.val_main_v45 (F := Ideal) x0 x1))
          (mat2 (a := 10000) (b := 128) (Read.val_main_v62 (F := Ideal) x0 x1))
          (slab3 (k := 3) (a := 128) (b := 60) x5 0) (slab3 (k := 3) (a := 128) (b := 60) x5 1)
          (slab3 (k := 3) (a := 128) (b := 60) x5 2) (vec1 (a := 60) x6) :=
  layer_of_reads (N := 10000) (D := 128) (D' := 60) (Read.val_main_v32_apply x0 x5) (Read.val_main_v48_apply x0 x1 x5)
    (Read.val_main_v68_apply x0 x1 x5)
    (fun i => by rw [Read.val_main_v65_apply, Read.val_main_v64_apply, Read.val_main_v63_apply, Read.val_main_cst_13_apply]; rfl)
    (w1 x5) (b1 x6) (fun _ => rfl)

theorem w2 (k : Fin 60) (o : Fin 30) :
    Read.val_main_v75 (F := Ideal) x7 (ix2 k o) = x7 (ix3 (0 : Fin 3) k o)
      ∧ Read.val_main_v91 (F := Ideal) x7 (ix2 k o) = x7 (ix3 (1 : Fin 3) k o)
      ∧ Read.val_main_v111 (F := Ideal) x7 (ix2 k o) = x7 (ix3 (2 : Fin 3) k o) := by
  rw [Read.val_main_v75_apply, Read.val_main_v74_apply, Read.val_main_v91_apply, Read.val_main_v90_apply, Read.val_main_v111_apply, Read.val_main_v110_apply]
  have hk := k.isLt
  have ho := o.isLt
  refine ⟨?_, ?_, ?_⟩ <;> refine congrArg x7 (funext fun a => Fin.ext ?_) <;> match a with
  | ⟨0, _⟩ => rfl
  | ⟨1, _⟩ => show (k.val * 30 + o.val) / 30 % 60 = k.val; omega
  | ⟨2, _⟩ => show (k.val * 30 + o.val) % 30 = o.val; omega

theorem b2 (i : Fin 10000) (o : Fin 30) :
    Read.val_main_v115 (F := Ideal) x8 (ix2 i o) = x8 (ix1 o) := by
  rw [Read.val_main_v115_apply, Read.val_main_v114_apply]
  refine congrArg x8 (funext fun a => Fin.ext ?_)
  have ho := o.isLt
  match a with
  | ⟨0, _⟩ => rfl

theorem layer2_eq :
    mat2 (a := 10000) (b := 30) (Read.val_main_v117 (F := Ideal) x0 x1 x5 x6 x7 x8)
      = layerOf twoC (mat2 (a := 10000) (b := 60) (Read.val_main_v73 (F := Ideal) x0 x1 x5 x6))
          (mat2 (a := 10000) (b := 60) (Read.val_main_v89 (F := Ideal) x0 x1 x5 x6))
          (mat2 (a := 10000) (b := 60) (Read.val_main_v106 (F := Ideal) x0 x1 x5 x6))
          (slab3 (k := 3) (a := 60) (b := 30) x7 0) (slab3 (k := 3) (a := 60) (b := 30) x7 1)
          (slab3 (k := 3) (a := 60) (b := 30) x7 2) (vec1 (a := 30) x8) :=
  layer_of_reads (N := 10000) (D := 60) (D' := 30) (Read.val_main_v76_apply x0 x1 x5 x6 x7) (Read.val_main_v92_apply x0 x1 x5 x6 x7)
    (Read.val_main_v112_apply x0 x1 x5 x6 x7)
    (fun i => by rw [Read.val_main_v109_apply, Read.val_main_v108_apply, Read.val_main_v107_apply, Read.val_main_cst_20_apply]; rfl)
    (w2 x7) (b2 x8) (fun _ => rfl)

theorem w3 (k : Fin 30) (o : Fin 1) :
    Read.val_main_v119 (F := Ideal) x9 (ix2 k o) = x9 (ix3 (0 : Fin 3) k o)
      ∧ Read.val_main_v135 (F := Ideal) x9 (ix2 k o) = x9 (ix3 (1 : Fin 3) k o)
      ∧ Read.val_main_v155 (F := Ideal) x9 (ix2 k o) = x9 (ix3 (2 : Fin 3) k o) := by
  rw [Read.val_main_v119_apply, Read.val_main_v118_apply, Read.val_main_v135_apply, Read.val_main_v134_apply, Read.val_main_v155_apply, Read.val_main_v154_apply]
  have hk := k.isLt
  have ho := o.isLt
  refine ⟨?_, ?_, ?_⟩ <;> refine congrArg x9 (funext fun a => Fin.ext ?_) <;> match a with
  | ⟨0, _⟩ => rfl
  | ⟨1, _⟩ => show (k.val * 1 + o.val) / 1 % 30 = k.val; omega
  | ⟨2, _⟩ => show (0 : ℕ) = o.val; omega

theorem b3 (i : Fin 10000) (o : Fin 1) :
    Read.val_main_v159 (F := Ideal) x10 (ix2 i o) = x10 (ix1 o) := by
  rw [Read.val_main_v159_apply, Read.val_main_v158_apply]
  refine congrArg x10 (funext fun a => Fin.ext ?_)
  have ho := o.isLt
  match a with
  | ⟨0, _⟩ => show (0 : ℕ) = o.val; omega

theorem layer3_eq :
    mat2 (a := 10000) (b := 1) (Read.val_main_v161 (F := Ideal) x0 x1 x5 x6 x7 x8 x9 x10)
      = layerOf twoC (mat2 (a := 10000) (b := 30) (Read.val_main_v117 (F := Ideal) x0 x1 x5 x6 x7 x8))
          (mat2 (a := 10000) (b := 30) (Read.val_main_v133 (F := Ideal) x0 x1 x5 x6 x7 x8))
          (mat2 (a := 10000) (b := 30) (Read.val_main_v150 (F := Ideal) x0 x1 x5 x6 x7 x8))
          (slab3 (k := 3) (a := 30) (b := 1) x9 0) (slab3 (k := 3) (a := 30) (b := 1) x9 1)
          (slab3 (k := 3) (a := 30) (b := 1) x9 2) (vec1 (a := 1) x10) :=
  layer_of_reads (N := 10000) (D := 30) (D' := 1) (Read.val_main_v120_apply x0 x1 x5 x6 x7 x8 x9) (Read.val_main_v136_apply x0 x1 x5 x6 x7 x8 x9)
    (Read.val_main_v156_apply x0 x1 x5 x6 x7 x8 x9)
    (fun i => by rw [Read.val_main_v153_apply, Read.val_main_v152_apply, Read.val_main_v151_apply, Read.val_main_cst_27_apply]; rfl)
    (w3 x9) (b3 x10) (fun _ => rfl)

end Cert.ReferenceIdeal.RefValue

end
-- ==== Proof.RefTail.lean ====
import proofs.«430353_j22832046146023_3_alg».proof.Proof.RefRead
import proofs.«430353_j22832046146023_3_alg».proof.Proof.Final
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Facts₀ GcnSpec
open Idealize.ShloMosaic Idealize.ShloMosaic.TcCoe Idealize.ShloMosaic.ValueIdx

variable (x0 : (⟨S10000x128, .f32⟩ : BufTy).Contents (Elt Ideal)) (x1 : (⟨S2x640000, .i32⟩ : BufTy).Contents (Elt Ideal))
  (x2 x3 x4 : (⟨S1, .f32⟩ : BufTy).Contents (Elt Ideal)) (x5 : (⟨S3x128x60, .f32⟩ : BufTy).Contents (Elt Ideal))
  (x6 : (⟨S60, .f32⟩ : BufTy).Contents (Elt Ideal)) (x7 : (⟨S3x60x30, .f32⟩ : BufTy).Contents (Elt Ideal))
  (x8 : (⟨S30, .f32⟩ : BufTy).Contents (Elt Ideal)) (x9 : (⟨S3x30x1, .f32⟩ : BufTy).Contents (Elt Ideal))
  (x10 : (⟨S1, .f32⟩ : BufTy).Contents (Elt Ideal)) (x11 : (⟨S10000x10003, .f32⟩ : BufTy).Contents (Elt Ideal))
  (x12 : (⟨S10000, .f32⟩ : BufTy).Contents (Elt Ideal)) (x13 : (⟨S1x10003, .f32⟩ : BufTy).Contents (Elt Ideal))
  (x14 : (⟨S1, .f32⟩ : BufTy).Contents (Elt Ideal))

theorem cat4_stateOf (u : (⟨2, ![1, 10000]⟩ : Shape).Idx → EReal) (p q r : (⟨2, ![1, 1]⟩ : Shape).Idx → EReal)
    (h : Shape.Concatenates [⟨2, ![1, 10000]⟩, ⟨2, ![1, 1]⟩, ⟨2, ![1, 1]⟩, ⟨2, ![1, 1]⟩] ⟨2, ![1, 10003]⟩ 1) (k : Fin 10003) :
    concatenate (⟨2, ![1, 10003]⟩ : Shape) 1 [⟨⟨2, ![1, 10000]⟩, u⟩, ⟨⟨2, ![1, 1]⟩, p⟩, ⟨⟨2, ![1, 1]⟩, q⟩, ⟨⟨2, ![1, 1]⟩, r⟩] h (ix2 0 k)
      = stateOf (N := 10000) (fun i => u (ix2 0 i)) (p (ix2 0 0)) (q (ix2 0 0)) (r (ix2 0 0)) k := by
  have hk3 : k.val < 10003 := k.isLt
  unfold stateOf
  by_cases h0 : k.val < 10000
  · rw [dif_pos h0]
    exact concatenate_apply_piece (t := ⟨2, ![1, 10003]⟩) 1 [⟨⟨2, ![1, 10000]⟩, u⟩, ⟨⟨2, ![1, 1]⟩, p⟩, ⟨⟨2, ![1, 1]⟩, q⟩, ⟨⟨2, ![1, 1]⟩, r⟩] h (ix2 0 k) 0 (Nat.succ_pos _) ⟨2, ![1, 10000]⟩ u rfl rfl 0 rfl (ix2 0 ⟨k.val, h0⟩)
      (fun b => match b with | ⟨0, _⟩ => fun _ => rfl | ⟨1, _⟩ => fun hb => absurd rfl hb) (Nat.zero_add _)
  · rw [dif_neg h0]
    by_cases h1 : k.val = 10000
    · rw [if_pos h1]
      exact concatenate_apply_piece (t := ⟨2, ![1, 10003]⟩) 1 [⟨⟨2, ![1, 10000]⟩, u⟩, ⟨⟨2, ![1, 1]⟩, p⟩, ⟨⟨2, ![1, 1]⟩, q⟩, ⟨⟨2, ![1, 1]⟩, r⟩] h (ix2 0 k) 1 (by show 1 < 4; omega) ⟨2, ![1, 1]⟩ p rfl rfl 10000 rfl (ix2 0 0)
        (fun b => match b with | ⟨0, _⟩ => fun _ => rfl | ⟨1, _⟩ => fun hb => absurd rfl hb)
        (by show 10000 + 0 = k.val; omega)
    · rw [if_neg h1]
      by_cases h2 : k.val = 10000 + 1
      · rw [if_pos h2]
        exact concatenate_apply_piece (t := ⟨2, ![1, 10003]⟩) 1 [⟨⟨2, ![1, 10000]⟩, u⟩, ⟨⟨2, ![1, 1]⟩, p⟩, ⟨⟨2, ![1, 1]⟩, q⟩, ⟨⟨2, ![1, 1]⟩, r⟩] h (ix2 0 k) 2 (by show 2 < 4; omega) ⟨2, ![1, 1]⟩ q rfl rfl 10001 rfl (ix2 0 0)
          (fun b => match b with | ⟨0, _⟩ => fun _ => rfl | ⟨1, _⟩ => fun hb => absurd rfl hb)
          (by show 10001 + 0 = k.val; omega)
      · rw [if_neg h2]
        exact concatenate_apply_piece (t := ⟨2, ![1, 10003]⟩) 1 [⟨⟨2, ![1, 10000]⟩, u⟩, ⟨⟨2, ![1, 1]⟩, p⟩, ⟨⟨2, ![1, 1]⟩, q⟩, ⟨⟨2, ![1, 1]⟩, r⟩] h (ix2 0 k) 3 (by show 3 < 4; omega) ⟨2, ![1, 1]⟩ r rfl rfl 10002 rfl (ix2 0 0)
          (fun b => match b with | ⟨0, _⟩ => fun _ => rfl | ⟨1, _⟩ => fun hb => absurd rfl hb)
          (by show 10002 + 0 = k.val; omega)

theorem idx162_eq (i : Fin 10000) : Read.idx_main_v162 (ix2 (0 : Fin 1) i) = ix2 i (0 : Fin 1) :=
  funext fun a => match a with
    | ⟨0, _⟩ => Fin.ext (by show (0 * 10000 + i.val) / 1 = i.val; omega)
    | ⟨1, _⟩ => rfl

theorem idx163_eq : Read.idx_main_v163 (ix2 (0 : Fin 1) (0 : Fin 1)) = ix1 (0 : Fin 1) :=
  funext fun a => match a with | ⟨0, _⟩ => rfl
theorem idx164_eq : Read.idx_main_v164 (ix2 (0 : Fin 1) (0 : Fin 1)) = ix1 (0 : Fin 1) :=
  funext fun a => match a with | ⟨0, _⟩ => rfl
theorem idx165_eq : Read.idx_main_v165 (ix2 (0 : Fin 1) (0 : Fin 1)) = ix1 (0 : Fin 1) :=
  funext fun a => match a with | ⟨0, _⟩ => rfl
theorem idx173_eq : Read.idx_main_v173 (ix2 (0 : Fin 1) (0 : Fin 1)) = ix1 (0 : Fin 1) :=
  funext fun a => match a with | ⟨0, _⟩ => rfl

theorem idx167_eq (a : Fin 10000) (k : Fin 10003) :
    Read.idx_main_v167 (ix2 k a) = ix2 a k :=
  funext fun b => match b with | ⟨0, _⟩ => rfl | ⟨1, _⟩ => rfl
theorem idx169_eq (a : Fin 10000) : Read.idx_main_v169 (ix2 (0 : Fin 1) a) = ix1 a :=
  funext fun b => match b with | ⟨0, _⟩ => rfl

theorem idx171_eq (k : Fin 10003) :
    Read.idx_main_v171 (ix2 k (0 : Fin 1)) = ix2 (0 : Fin 1) k :=
  funext fun b => match b with | ⟨0, _⟩ => rfl | ⟨1, _⟩ => rfl

theorem state_row_apply (k : Fin 10003) :
    mat2 (a := 1) (b := 10003) (Read.val_main_v166 (F := Ideal) x0 x1 x2 x3 x4 x5 x6 x7 x8 x9 x10) 0 k
      = (stateOf (N := 10000)
            (fun i => mat2 (a := 10000) (b := 1) (Read.val_main_v161 (F := Ideal) x0 x1 x5 x6 x7 x8 x9 x10) i 0)
            (x2 (ix1 0)) (x3 (ix1 0)) (x4 (ix1 0)) : Fin 10003 → EReal) k := by

  have e0 : (fun i : Fin 10000 => Read.val_main_v162 (F := Ideal) x0 x1 x5 x6 x7 x8 x9 x10 (ix2 (0 : Fin 1) i))
      = fun i => mat2 (a := 10000) (b := 1) (Read.val_main_v161 (F := Ideal) x0 x1 x5 x6 x7 x8 x9 x10) i 0 := by
    funext i
    rw [Read.val_main_v162_apply, idx162_eq]
    rfl
  have e1 : Read.val_main_v163 (F := Ideal) x2 (ix2 (0 : Fin 1) (0 : Fin 1)) = x2 (ix1 0) := by
    rw [Read.val_main_v163_apply, idx163_eq]
  have e2 : Read.val_main_v164 (F := Ideal) x3 (ix2 (0 : Fin 1) (0 : Fin 1)) = x3 (ix1 0) := by
    rw [Read.val_main_v164_apply, idx164_eq]
  have e3 : Read.val_main_v165 (F := Ideal) x4 (ix2 (0 : Fin 1) (0 : Fin 1)) = x4 (ix1 0) := by
    rw [Read.val_main_v165_apply, idx165_eq]
  show Read.val_main_v166 (F := Ideal) x0 x1 x2 x3 x4 x5 x6 x7 x8 x9 x10 (ix2 (0 : Fin 1) k) = _
  unfold Read.val_main_v166
  refine (cat4_stateOf _ _ _ _ _ k).trans ?_
  rw [e0, e1, e2, e3]

theorem tail_logits (a : Fin 10000) :
    mat2 (a := 1) (b := 10000) (Read.val_main_v170 (F := Ideal) x0 x1 x2 x3 x4 x5 x6 x7 x8 x9 x10 x11 x12) 0 a
      = headR (mat2 (a := 10000) (b := 10003) x11)
          (stateOf (N := 10000)
            (fun i => mat2 (a := 10000) (b := 1) (Read.val_main_v161 (F := Ideal) x0 x1 x5 x6 x7 x8 x9 x10) i 0)
            (x2 (ix1 0)) (x3 (ix1 0)) (x4 (ix1 0)) : Fin 10003 → EReal)
          (vec1 (a := 10000) x12) a := by
  show Read.val_main_v170 (F := Ideal) x0 x1 x2 x3 x4 x5 x6 x7 x8 x9 x10 x11 x12 (ix2 (0 : Fin 1) a) = _
  rw [Read.val_main_v170_apply, Read.val_main_v168_apply, Read.val_main_v169_apply, idx169_eq, Ideal.addf_def]
  unfold headR
  refine congrArg₂ (· + ·) (Finset.sum_congr rfl fun k _ => ?_) rfl
  rw [Read.val_main_v167_apply, idx167_eq a k]
  exact congrArg (fun z => z * x11 (ix2 a k)) (state_row_apply x0 x1 x2 x3 x4 x5 x6 x7 x8 x9 x10 k)

theorem tail_value :
    mat2 (a := 1) (b := 1) (Read.val_main_v174 (F := Ideal) x0 x1 x2 x3 x4 x5 x6 x7 x8 x9 x10 x13 x14) 0 0
      = headR (mat2 (a := 1) (b := 10003) x13)
          (stateOf (N := 10000)
            (fun i => mat2 (a := 10000) (b := 1) (Read.val_main_v161 (F := Ideal) x0 x1 x5 x6 x7 x8 x9 x10) i 0)
            (x2 (ix1 0)) (x3 (ix1 0)) (x4 (ix1 0)) : Fin 10003 → EReal)
          (vec1 (a := 1) x14) 0 := by
  show Read.val_main_v174 (F := Ideal) x0 x1 x2 x3 x4 x5 x6 x7 x8 x9 x10 x13 x14 (ix2 (0 : Fin 1) (0 : Fin 1)) = _
  rw [Read.val_main_v174_apply, Read.val_main_v172_apply, Read.val_main_v173_apply, idx173_eq, Ideal.addf_def]
  unfold headR
  refine congrArg₂ (· + ·) (Finset.sum_congr rfl fun k _ => ?_) rfl
  rw [Read.val_main_v171_apply, idx171_eq k]
  exact congrArg (fun z => z * x13 (ix2 (0 : Fin 1) k)) (state_row_apply x0 x1 x2 x3 x4 x5 x6 x7 x8 x9 x10 k)

end Cert.ReferenceIdeal.RefValue

end
-- ==== Proof.RefValue.lean ====
import proofs.«430353_j22832046146023_3_alg».proof.Proof.RefRead
import proofs.«430353_j22832046146023_3_alg».proof.Proof.RefRunHand
import proofs.«430353_j22832046146023_3_alg».proof.Proof.Final
import proofs.«430353_j22832046146023_3_alg».proof.Proof.RefLap
import proofs.«430353_j22832046146023_3_alg».proof.Proof.RefLayer
import proofs.«430353_j22832046146023_3_alg».proof.Proof.RefTail
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen GcnSpec
open Idealize.ShloMosaic Idealize.ShloMosaic.TcCoe Idealize.ShloMosaic.ValueIdx

variable (x0 : (⟨S10000x128, .f32⟩ : BufTy).Contents (Elt Ideal)) (x1 : (⟨S2x640000, .i32⟩ : BufTy).Contents (Elt Ideal))
  (x2 x3 x4 : (⟨S1, .f32⟩ : BufTy).Contents (Elt Ideal)) (x5 : (⟨S3x128x60, .f32⟩ : BufTy).Contents (Elt Ideal))
  (x6 : (⟨S60, .f32⟩ : BufTy).Contents (Elt Ideal)) (x7 : (⟨S3x60x30, .f32⟩ : BufTy).Contents (Elt Ideal))
  (x8 : (⟨S30, .f32⟩ : BufTy).Contents (Elt Ideal)) (x9 : (⟨S3x30x1, .f32⟩ : BufTy).Contents (Elt Ideal))
  (x10 : (⟨S1, .f32⟩ : BufTy).Contents (Elt Ideal)) (x11 : (⟨S10000x10003, .f32⟩ : BufTy).Contents (Elt Ideal))
  (x12 : (⟨S10000, .f32⟩ : BufTy).Contents (Elt Ideal)) (x13 : (⟨S1x10003, .f32⟩ : BufTy).Contents (Elt Ideal))
  (x14 : (⟨S1, .f32⟩ : BufTy).Contents (Elt Ideal))

private theorem rv_layer1 (hr : InRange x1) :
    mat2 (a := 10000) (b := 60) (Read.val_main_v73 (F := Ideal) x0 x1 x5 x6)
      = layer twoC (lapR (graphOf x1)) (mat2 (a := 10000) (b := 128) x0)
          (slab3 (k := 3) (a := 128) (b := 60) x5 0) (slab3 (k := 3) (a := 128) (b := 60) x5 1)
          (slab3 (k := 3) (a := 128) (b := 60) x5 2) (vec1 (a := 60) x6) := by
  have e1 : mat2 (a := 10000) (b := 128) (Read.val_main_v45 (F := Ideal) x0 x1)
      = lapR (graphOf x1) (mat2 (a := 10000) (b := 128) x0) := by
    rw [val_main_v45_eq, lapV128_eq x1 hr]
  have e2 : mat2 (a := 10000) (b := 128) (Read.val_main_v62 (F := Ideal) x0 x1)
      = lapR (graphOf x1) (lapR (graphOf x1) (mat2 (a := 10000) (b := 128) x0)) := by
    rw [val_main_v62_eq, lapV128_eq x1 hr, e1]
  rw [layer1_eq, e1, e2]
  rfl

private theorem rv_layer2 (hr : InRange x1) :
    mat2 (a := 10000) (b := 30) (Read.val_main_v117 (F := Ideal) x0 x1 x5 x6 x7 x8)
      = layer twoC (lapR (graphOf x1)) (mat2 (a := 10000) (b := 60) (Read.val_main_v73 (F := Ideal) x0 x1 x5 x6))
          (slab3 (k := 3) (a := 60) (b := 30) x7 0) (slab3 (k := 3) (a := 60) (b := 30) x7 1)
          (slab3 (k := 3) (a := 60) (b := 30) x7 2) (vec1 (a := 30) x8) := by
  have e1 : mat2 (a := 10000) (b := 60) (Read.val_main_v89 (F := Ideal) x0 x1 x5 x6)
      = lapR (graphOf x1) (mat2 (a := 10000) (b := 60) (Read.val_main_v73 (F := Ideal) x0 x1 x5 x6)) := by
    rw [val_main_v89_eq, lapV60_eq x1 hr]
  have e2 : mat2 (a := 10000) (b := 60) (Read.val_main_v106 (F := Ideal) x0 x1 x5 x6)
      = lapR (graphOf x1) (lapR (graphOf x1) (mat2 (a := 10000) (b := 60) (Read.val_main_v73 (F := Ideal) x0 x1 x5 x6))) := by
    rw [val_main_v106_eq, lapV60_eq x1 hr, e1]
  rw [layer2_eq, e1, e2]
  rfl

private theorem rv_layer3 (hr : InRange x1) :
    mat2 (a := 10000) (b := 1) (Read.val_main_v161 (F := Ideal) x0 x1 x5 x6 x7 x8 x9 x10)
      = layer twoC (lapR (graphOf x1)) (mat2 (a := 10000) (b := 30) (Read.val_main_v117 (F := Ideal) x0 x1 x5 x6 x7 x8))
          (slab3 (k := 3) (a := 30) (b := 1) x9 0) (slab3 (k := 3) (a := 30) (b := 1) x9 1)
          (slab3 (k := 3) (a := 30) (b := 1) x9 2) (vec1 (a := 1) x10) := by
  have e1 : mat2 (a := 10000) (b := 30) (Read.val_main_v133 (F := Ideal) x0 x1 x5 x6 x7 x8)
      = lapR (graphOf x1) (mat2 (a := 10000) (b := 30) (Read.val_main_v117 (F := Ideal) x0 x1 x5 x6 x7 x8)) := by
    rw [val_main_v133_eq, lapV30_eq x1 hr]
  have e2 : mat2 (a := 10000) (b := 30) (Read.val_main_v150 (F := Ideal) x0 x1 x5 x6 x7 x8)
      = lapR (graphOf x1) (lapR (graphOf x1) (mat2 (a := 10000) (b := 30) (Read.val_main_v117 (F := Ideal) x0 x1 x5 x6 x7 x8))) := by
    rw [val_main_v150_eq, lapV30_eq x1 hr, e1]
  rw [layer3_eq, e1, e2]
  rfl

private theorem rv_net (hr : InRange x1) :
    mat2 (a := 10000) (b := 1) (Read.val_main_v161 (F := Ideal) x0 x1 x5 x6 x7 x8 x9 x10)
      = net twoC (fun {D} => lapR (D := D) (graphOf x1)) (mat2 (a := 10000) (b := 128) x0)
          (slab3 (k := 3) (a := 128) (b := 60) x5 0) (slab3 (k := 3) (a := 128) (b := 60) x5 1)
          (slab3 (k := 3) (a := 128) (b := 60) x5 2) (vec1 (a := 60) x6)
          (slab3 (k := 3) (a := 60) (b := 30) x7 0) (slab3 (k := 3) (a := 60) (b := 30) x7 1)
          (slab3 (k := 3) (a := 60) (b := 30) x7 2) (vec1 (a := 30) x8)
          (slab3 (k := 3) (a := 30) (b := 1) x9 0) (slab3 (k := 3) (a := 30) (b := 1) x9 1)
          (slab3 (k := 3) (a := 30) (b := 1) x9 2) (vec1 (a := 1) x10) := by
  rw [rv_layer3 x0 x1 x5 x6 x7 x8 x9 x10 hr, rv_layer2 x0 x1 x5 x6 x7 x8 hr, rv_layer1 x0 x1 x5 x6 hr]
  rfl

variable (m : (ℓ : Loc nD τ sig) → Buf (Elt Ideal) ℓ)

def inputsR (c : Dev nD) : Inputs where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)

theorem ref_values (c : Dev nD) (hr : InRange (m ((c.tc : Thread nD τ).loc main_arg1))) :
    (∀ a : Fin 10000, mat2 (a := 1) (b := 10000) (Cert.ReferenceIdeal.Value.res_main_v170 (F := Ideal) m c) 0 a = logitsR (inputsR m c) a)
    ∧ mat2 (a := 1) (b := 1) (Cert.ReferenceIdeal.Value.res_main_v174 (F := Ideal) m c) 0 0 = valueR (inputsR m c) := by
  have hn := rv_net (m ((c.tc : Thread nD τ).loc main_arg0)) (m ((c.tc : Thread nD τ).loc main_arg1))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10)) hr
  refine ⟨fun a => ?_, ?_⟩
  · rw [Read.val_main_v170_eq, tail_logits, hn]
    rfl
  · rw [Read.val_main_v174_eq, tail_value, hn]
    rfl

end Cert.ReferenceIdeal.RefValue

end
-- ==== Proof.PreDecode.lean ====
import proofs.«430353_j22832046146023_3_alg».proof.Defs
import proofs.«430353_j22832046146023_3_alg».proof.Proof.Gen.Pre_finite_inputs
import proofs.«430353_j22832046146023_3_alg».proof.Proof.Final
import Idealize.ShloMosaic.Lib.ReduceAll
import Idealize.ShloMosaic.Lib.StableHlo.Predicate
import Idealize.ShloMosaic.Lib.ValueIdx

noncomputable section

namespace Cert.PreDecode

open GcnSpec Idealize.ShloMosaic Idealize.ShloMosaic.ValueIdx Idealize.SL.Sem

private theorem subsingleton_S_ : Subsingleton Cert.Pre_finite_inputs.S_.Idx := ⟨fun a b => funext fun d => d.elim0⟩

private theorem andi_at {s : Shape} (x y : IVec s 1) (i : s.Idx) (h : andi x y i = 1#1) : x i = 1#1 ∧ y i = 1#1 :=
  IntOp.andi_eq_one.1 h

private theorem isR_of_abs_lt_inf (x : EReal)
    (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  unfold Ideal.cmp at h
  rw [StableHlo.Predicate.ofBool_eq_one_iff] at h
  have hlt : max x (-x) < ⊤ := of_decide_eq_true h
  induction x using EReal.rec with
  | bot => exact absurd hlt (by simp)
  | top => exact absurd hlt (by simp)
  | coe r => exact ⟨r, rfl⟩

private theorem range_of_cmpi (w : BitVec 32) (h0 : IntOp.cmpi .sge w 0#32 = 1#1) (h1 : IntOp.cmpi .slt w 10000#32 = 1#1) :
    0 ≤ w.toInt ∧ w.toInt < 10000 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have t : (10000#32 : BitVec 32).toInt = 10000 := by decide
  rw [z] at h0; rw [t] at h1
  exact ⟨h0, h1⟩

theorem of_fn [hP : Cert.Pre_finite_inputs.Facts] (I : Inputs)
    (h : Cert.Pre_finite_inputs.fn (F := Ideal) I.a0 I.a1 I.a2 I.a3 I.a4 I.a5 I.a6 I.a7 I.a8 I.a9 I.a10 I.a11 I.a12 I.a13 I.a14 = (fun _ => 1#1)) :
    InRange I.a1 ∧ ∀ i k, IsR (I.a0 (ix2 i k)) := by
  haveI := subsingleton_S_
  have h0 : Cert.Pre_finite_inputs.fn (F := Ideal) I.a0 I.a1 I.a2 I.a3 I.a4 I.a5 I.a6 I.a7 I.a8 I.a9 I.a10 I.a11 I.a12 I.a13 I.a14 ix0 = 1#1 :=
    congrFun h ix0
  unfold Cert.Pre_finite_inputs.fn Cert.Pre_finite_inputs.fn_part1 Cert.Pre_finite_inputs.fn_part2
    Cert.Pre_finite_inputs.fn_part3 Cert.Pre_finite_inputs.fn_part4 at h0
  dsimp only at h0

  obtain ⟨h68, h74⟩ := andi_at _ _ _ h0
  obtain ⟨h63, -⟩ := andi_at _ _ _ h68
  obtain ⟨h58, -⟩ := andi_at _ _ _ h63
  obtain ⟨h53, -⟩ := andi_at _ _ _ h58
  obtain ⟨h48, -⟩ := andi_at _ _ _ h53
  obtain ⟨h43, -⟩ := andi_at _ _ _ h48
  obtain ⟨h38, -⟩ := andi_at _ _ _ h43
  obtain ⟨h33, -⟩ := andi_at _ _ _ h38
  obtain ⟨h28, -⟩ := andi_at _ _ _ h33
  obtain ⟨h23, -⟩ := andi_at _ _ _ h28
  obtain ⟨h18, -⟩ := andi_at _ _ _ h23
  obtain ⟨h13, -⟩ := andi_at _ _ _ h18
  obtain ⟨h8, -⟩ := andi_at _ _ _ h13
  obtain ⟨h3, -⟩ := andi_at _ _ _ h8
  refine ⟨fun r e => ?_, fun i k => ?_⟩
  ·
    have hm := Host.reduce_andi_all _ _ _ _ _ h74 (ix2 r e)
    obtain ⟨hge, hlt⟩ := andi_at _ _ _ hm
    exact range_of_cmpi _ hge hlt
  ·
    have hm := Host.reduce_andi_all _ _ _ _ _ h3 (ix2 i k)
    exact isR_of_abs_lt_inf _ hm

end Cert.PreDecode

end
-- ==== Proof.lean ====
/-
  The kernel forms the graph's normalised Laplacian once as a dense matrix and runs three Chebyshev layers as matrix
  products against it, then two linear heads; the reference takes each Laplacian product edge by edge. On node-valued
  index arrays and real features the two agree: a dense entry times a row distributes over the edges it gathers, and
  the edges arriving at a node regroup by their source.
-/
import proofs.«430353_j22832046146023_3_alg».proof.Defs
import proofs.«430353_j22832046146023_3_alg».proof.Proof.Gen.Kernel
import proofs.«430353_j22832046146023_3_alg».proof.Proof.Gen.KernelIdeal
import proofs.«430353_j22832046146023_3_alg».proof.Proof.Gen.ReferenceIdeal
import proofs.«430353_j22832046146023_3_alg».proof.Proof.Gen.Pre_finite_inputs
import proofs.«430353_j22832046146023_3_alg».proof.Proof.RefRunHand
import proofs.«430353_j22832046146023_3_alg».proof.Proof.KbRun
import proofs.«430353_j22832046146023_3_alg».proof.Proof.KiRun
import proofs.«430353_j22832046146023_3_alg».proof.Proof.KiValue
import proofs.«430353_j22832046146023_3_alg».proof.Proof.RefValue
import proofs.«430353_j22832046146023_3_alg».proof.Proof.PreDecode
import proofs.«430353_j22832046146023_3_alg».proof.Proof.Final
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem GcnSpec
open Cert.KernelIdeal.Hand in
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun r h c => args_of_all m r h c) (run_all m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

open Cert.KernelIdeal.Hand in
/-- Each side's two results are its arrangement of one specification of the argument arrays, and the arrangements agree on real features. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => U15 m c Cert.KernelIdeal.main_v78, fun c => U15 m c Cert.KernelIdeal.main_v81,
    (θ_run Cert.KernelIdeal.defs _ _).mono (fun r h c => ⟨h c _ (mem_uc Cert.KernelIdeal.main_v78 (by decide)),
      h c _ (mem_uc Cert.KernelIdeal.main_v81 (by decide)), args_of_all m r h c⟩) (run_all m g), ?_⟩
  refine (θ_run Cert.ReferenceIdeal.defs _ _).mono (fun r h c => ?_) (Cert.ReferenceIdeal.Value.run (F := Ideal) m' g')
  have hI : Cert.ReferenceIdeal.RefValue.inputsR m' c = inputsK m c := by
    obtain ⟨h0, h1, h2, h3, h4, h5, h6, h7, h8, h9, h10, h11, h12, h13, h14⟩ := hagree c
    unfold Cert.ReferenceIdeal.RefValue.inputsR inputsK
    rw [h0, h1, h2, h3, h4, h5, h6, h7, h8, h9, h10, h11, h12, h13, h14]
  obtain ⟨hr, hX⟩ := Cert.PreDecode.of_fn (hP := Cert.Pre_finite_inputs.Gen.facts) (inputsK m c) (hpre c)
  have hr' : InRange (m' ((c.tc : Thread Cert.ReferenceIdeal.nD Cert.ReferenceIdeal.τ).loc Cert.ReferenceIdeal.main_arg1)) := by
    rw [(hagree c).2.1]; exact hr
  obtain ⟨hkl, hkv⟩ := kernel_values m c hr
  obtain ⟨hrl, hrv⟩ := Cert.ReferenceIdeal.RefValue.ref_values m' c hr'
  rw [hI] at hrl hrv
  refine ⟨(h c).1.trans ?_, (h c).2.1.trans ?_, (h c).2.2⟩
  · funext j
    obtain ⟨p, q, rfl⟩ : ∃ (p : Fin 1) (q : Fin 10000), j = ix2 p q := ⟨j 0, j 1, eq_ix2 j⟩
    obtain rfl : p = 0 := Subsingleton.elim _ _
    have e1 := hrl q
    have e2 := hkl q
    rw [mat2_apply] at e1 e2
    exact (e1.trans (congrFun (logits_eq _ hX) q).symm).trans e2.symm
  · funext j
    obtain ⟨p, q, rfl⟩ : ∃ (p : Fin 1) (q : Fin 1), j = ix2 p q := ⟨j 0, j 1, eq_ix2 j⟩
    obtain rfl : p = 0 := Subsingleton.elim _ _
    obtain rfl : q = 0 := Subsingleton.elim _ _
    rw [mat2_apply] at hrv hkv
    exact (hrv.trans (value_eq _ hX).symm).trans hkv.symm

theorem claim : Cert.Claim := ⟨Cert.Kernel.Gen.facts, Cert.KernelIdeal.Gen.facts, Cert.ReferenceIdeal.Gen.facts, Cert.Pre_finite_inputs.Gen.facts,
  Cert.Kernel.Hand.frame_k, frame_ki, frame_ri, trivial, algebraic⟩

end Cert.Proof

end
